-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x640000 : Shape := ⟨2, ![2, 640000]⟩
abbrev S20000 : Shape := ⟨1, ![20000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S_ : Shape := ⟨0, ![]⟩
abbrev S1x640000 : Shape := ⟨2, ![1, 640000]⟩
abbrev S640000 : Shape := ⟨1, ![640000]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part3 {F : FTy → Type} [FloatOps F] (main_arg1 : IVec S2x640000 32) (main_v48 : IVec S_ 1) (main_v50 : IVec S640000 32) (main_c_18 : IVec S_ 32) : IVec S_ 1 :=
  let main_v51 : IVec S640000 32 := broadcastInDim S640000 ![] bcast_S_S640000 main_c_18
  let main_v52 : IVec S640000 1 := cmpi .sge main_v50 main_v51
  let main_c_19 : IVec S_ 1 := constantI S_ 1 1#1
  let main_v53 : IVec S_ 1 := (fun x v => Host.reduce IntOp.andi x v reducesTo_S640000_S_d0 h_S_) main_v52 main_c_19
  let main_v54 : IVec S_ 1 := andi main_v48 main_v53
  let main_v55 : IVec S1x640000 32 := (extractStridedSlice S1x640000 ![0, 0] · slices_S2x640000_S1x640000_0_0) main_arg1
  let main_v56 : IVec S640000 32 := shapeCast S640000 main_v55 shapeCasts_S1x640000_S640000
  let main_c_20 : IVec S_ 32 := constantI S_ 32 20000#32
  let main_v57 : IVec S640000 32 := broadcastInDim S640000 ![] bcast_S_S640000 main_c_20
  let main_v58 : IVec S640000 1 := cmpi .slt main_v56 main_v57
  let main_c_21 : IVec S_ 1 := constantI S_ 1 1#1
  let main_v59 : IVec S_ 1 := (fun x v => Host.reduce IntOp.andi x v reducesTo_S640000_S_d0 h_S_) main_v58 main_c_21
  let main_v60 : IVec S_ 1 := andi main_v54 main_v59
  main_v60

def fn_part2 {F : FTy → Type} [FloatOps F] (main_arg1 : IVec S2x640000 32) (main_arg9 : FVec F S128 .f32) (main_arg10 : FVec F S128x3 .f32) (main_arg11 : FVec F S3 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x3 .f32 := Host.absf main_arg10
  let main_cst_14 : FVec F S_ .f32 := constant S_ .f32 0x7F800000#32
  let main_v40 : FVec F S128x3 .f32 := broadcastInDim S128x3 ![] bcast_S_S128x3 main_cst_14
  let main_v41 : IVec S128x3 1 := cmpf .olt main_v39 main_v40
  let main_c_15 : IVec S_ 1 := constantI S_ 1 1#1
  let main_v42 : IVec S_ 1 := (fun x v => Host.reduce IntOp.andi x v reducesTo_S128x3_S_d0_1 h_S_) main_v41 main_c_15
  let main_v43 : IVec S_ 1 := andi main_v38 main_v42
  let main_v44 : FVec F S3 .f32 := Host.absf main_arg11
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  let main_v49 : IVec S1x640000 32 := (extractStridedSlice S1x640000 ![0, 0] · slices_S2x640000_S1x640000_0_0) main_arg1
  let main_v50 : IVec S640000 32 := shapeCast S640000 main_v49 shapeCasts_S1x640000_S640000
  let main_c_18 : IVec S_ 32 := constantI S_ 32 0#32
  fn_part3 (F := F) main_arg1 main_v48 main_v50 main_c_18

def fn_part1 {F : FTy → Type} [FloatOps F] (main_arg1 : IVec S2x640000 32) (main_arg6 : FVec F S128x128 .f32) (main_arg7 : FVec F S128 .f32) (main_arg8 : FVec F S128x128 .f32) (main_arg9 : FVec F S128 .f32) (main_arg10 : FVec F S128x3 .f32) (main_arg11 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg9 main_arg10 main_arg11 main_v33

def fn {F : FTy → Type} [FloatOps F] (main_arg0 : FVec F S20000x128 .f32) (main_arg1 : IVec S2x640000 32) (main_arg2 : IVec S20000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128 .f32) (main_arg10 : FVec F S128x3 .f32) (main_arg11 : FVec F S3 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_arg9 main_arg10 main_arg11 main_v13 main_v16
-- ==== Kernel.lean ====
abbrev S20000x128 : Shape := ⟨2, ![20000, 128]⟩
abbrev S2x640000 : Shape := ⟨2, ![2, 640000]⟩
abbrev S20000 : Shape := ⟨1, ![20000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S1x640000 : Shape := ⟨2, ![1, 640000]⟩
abbrev S640000 : Shape := ⟨1, ![640000]⟩
abbrev S_ : Shape := ⟨0, ![]⟩
abbrev S1x128 : Shape := ⟨2, ![1, 128]⟩
abbrev S2000x128 : Shape := ⟨2, ![2000, 128]⟩
abbrev S20480x1 : Shape := ⟨2, ![20480, 1]⟩
abbrev S1x2560 : Shape := ⟨2, ![1, 2560]⟩
abbrev S2048x1 : Shape := ⟨2, ![2048, 1]⟩
abbrev S2048x2560 : Shape := ⟨2, ![2048, 2560]⟩
abbrev S2048 : Shape := ⟨1, ![2048]⟩
abbrev S20480x128 : Shape := ⟨2, ![20480, 128]⟩
abbrev S640000x1 : Shape := ⟨2, ![640000, 1]⟩
abbrev S640000x128 : Shape := ⟨2, ![640000, 128]⟩
abbrev S2560x1 : Shape := ⟨2, ![2560, 1]⟩
abbrev S2048x128 : Shape := ⟨2, ![2048, 128]⟩
abbrev S2560x128 : Shape := ⟨2, ![2560, 128]⟩
abbrev S2560x2048 : Shape := ⟨2, ![2560, 2048]⟩
abbrev S20000x1 : Shape := ⟨2, ![20000, 1]⟩
abbrev S20480 : Shape := ⟨1, ![20480]⟩
abbrev S1x20480 : Shape := ⟨2, ![1, 20480]⟩
abbrev S32x128 : Shape := ⟨2, ![32, 128]⟩
abbrev S32x2560 : Shape := ⟨2, ![32, 2560]⟩
abbrev S1x3 : Shape := ⟨2, ![1, 3]⟩
abbrev S32x3 : Shape := ⟨2, ![32, 3]⟩

abbrev nBuf : Space → Nat
  | .hbm => 84
  | .vmem => 62
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S20000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x3, .f32⟩
  | .hbm, ⟨11, _⟩ => ⟨S3, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S20000x128, .f32⟩
  | .hbm, ⟨20, _⟩ => ⟨S1x640000, .i32⟩
  | .hbm, ⟨21, _⟩ => ⟨S20480x1, .f32⟩
  | .hbm, ⟨22, _⟩ => ⟨S_, .f32⟩
  | .hbm, ⟨23, _⟩ => ⟨S20480x1, .f32⟩
  | .hbm, ⟨24, _⟩ => ⟨S20480x1, .f32⟩
  | .hbm, ⟨25, _⟩ => ⟨S_, .f32⟩
  | .hbm, ⟨26, _⟩ => ⟨S20480x1, .f32⟩
  | .hbm, ⟨27, _⟩ => ⟨S20480x1, .i1⟩
  | .hbm, ⟨28, _⟩ => ⟨S20480x1, .f32⟩
  | .hbm, ⟨29, _⟩ => ⟨S_, .f32⟩
  | .hbm, ⟨30, _⟩ => ⟨S_, .f32⟩
  | .hbm, ⟨31, _⟩ => ⟨S20480x1, .f32⟩
  | .hbm, ⟨32, _⟩ => ⟨S20480x1, .f32⟩
  | .hbm, ⟨33, _⟩ => ⟨S_, .i32⟩
  | .hbm, ⟨34, _⟩ => ⟨S_, .f32⟩
  | .hbm, ⟨35, _⟩ => ⟨S20480x128, .f32⟩
  | .hbm, ⟨36, _⟩ => ⟨S20480x128, .f32⟩
  | .hbm, ⟨37, _⟩ => ⟨S20480x128, .f32⟩
  | .hbm, ⟨38, _⟩ => ⟨S640000x1, .i32⟩
  | .hbm, ⟨39, _⟩ => ⟨S640000x128, .bf16⟩
  | .hbm, ⟨40, _⟩ => ⟨S1x640000, .i32⟩
  | .hbm, ⟨41, _⟩ => ⟨S20480x128, .f32⟩
  | .hbm, ⟨42, _⟩ => ⟨S20480x128, .f32⟩
  | .hbm, ⟨43, _⟩ => ⟨S20480x128, .f32⟩
  | .hbm, ⟨44, _⟩ => ⟨S20000x1, .f32⟩
  | .hbm, ⟨45, _⟩ => ⟨S20000x1, .f32⟩
  | .hbm, ⟨46, _⟩ => ⟨S20000x128, .f32⟩
  | .hbm, ⟨47, _⟩ => ⟨S20000x128, .f32⟩
  | .hbm, ⟨48, _⟩ => ⟨S20000x128, .f32⟩
  | .hbm, ⟨49, _⟩ => ⟨S20000x128, .f32⟩
  | .hbm, ⟨50, _⟩ => ⟨S1x128, .f32⟩
  | .hbm, ⟨51, _⟩ => ⟨S20000x128, .f32⟩
  | .hbm, ⟨52, _⟩ => ⟨S20000x128, .f32⟩
  | .hbm, ⟨53, _⟩ => ⟨S_, .f32⟩
  | .hbm, ⟨54, _⟩ => ⟨S20000x128, .f32⟩
  | .hbm, ⟨55, _⟩ => ⟨S20000x128, .f32⟩
  | .hbm, ⟨56, _⟩ => ⟨S_, .i32⟩
  | .hbm, ⟨57, _⟩ => ⟨S_, .f32⟩
  | .hbm, ⟨58, _⟩ => ⟨S20480x128, .f32⟩
  | .hbm, ⟨59, _⟩ => ⟨S640000x1, .i32⟩
  | .hbm, ⟨60, _⟩ => ⟨S640000x128, .bf16⟩
  | .hbm, ⟨61, _⟩ => ⟨S1x640000, .i32⟩
  | .hbm, ⟨62, _⟩ => ⟨S20480x128, .f32⟩
  | .hbm, ⟨63, _⟩ => ⟨S20000x128, .f32⟩
  | .hbm, ⟨64, _⟩ => ⟨S20000x1, .f32⟩
  | .hbm, ⟨65, _⟩ => ⟨S_, .f32⟩
  | .hbm, ⟨66, _⟩ => ⟨S20000x1, .f32⟩
  | .hbm, ⟨67, _⟩ => ⟨S20000x1, .f32⟩
  | .hbm, ⟨68, _⟩ => ⟨S20000x128, .f32⟩
  | .hbm, ⟨69, _⟩ => ⟨S20000x128, .f32⟩
  | .hbm, ⟨70, _⟩ => ⟨S1x128, .f32⟩
  | .hbm, ⟨71, _⟩ => ⟨S20000x128, .f32⟩
  | .hbm, ⟨72, _⟩ => ⟨S_, .i32⟩
  | .hbm, ⟨73, _⟩ => ⟨S_, .i32⟩
  | .hbm, ⟨74, _⟩ => ⟨S20480, .i32⟩
  | .hbm, ⟨75, _⟩ => ⟨S_, .i32⟩
  | .hbm, ⟨76, _⟩ => ⟨S_, .f32⟩
  | .hbm, ⟨77, _⟩ => ⟨S20480x128, .f32⟩
  | .hbm, ⟨78, _⟩ => ⟨S1x20480, .i32⟩
  | .hbm, ⟨79, _⟩ => ⟨S32x128, .f32⟩
  | .hbm, ⟨80, _⟩ => ⟨S1x128, .f32⟩
  | .hbm, ⟨81, _⟩ => ⟨S32x128, .f32⟩
  | .hbm, ⟨82, _⟩ => ⟨S1x3, .f32⟩
  | .hbm, ⟨83, _⟩ => ⟨S32x3, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S1x2560, .i32⟩
  | .local _ .vmem, ⟨7, _⟩ => ⟨S1x2560, .i32⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | .local _ .vmem, ⟨11, _⟩ => ⟨S2560x1, .i32⟩
  | .local _ .vmem, ⟨12, _⟩ => ⟨S2560x1, .i32⟩
  | .local _ .vmem, ⟨13, _⟩ => ⟨S2048x128, .f32⟩
  | .local _ .vmem, ⟨14, _⟩ => ⟨S2048x128, .f32⟩
  | .local _ .vmem, ⟨15, _⟩ => ⟨S2560x128, .bf16⟩
  | .local _ .vmem, ⟨16, _⟩ => ⟨S2560x128, .bf16⟩
  | .local _ .vmem, ⟨17, _⟩ => ⟨S2560x128, .f32⟩
  | .local _ .vmem, ⟨18, _⟩ => ⟨S1x2560, .i32⟩
  | .local _ .vmem, ⟨19, _⟩ => ⟨S1x2560, .i32⟩
  | .local _ .vmem, ⟨20, _⟩ => ⟨S2560x128, .bf16⟩
  | .local _ .vmem, ⟨21, _⟩ => ⟨S2560x128, .bf16⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2560x1, .i32⟩
  | .local _ .vmem, ⟨26, _⟩ => ⟨S2560x1, .i32⟩
  | .local _ .vmem, ⟨27, _⟩ => ⟨S2048x128, .f32⟩
  | .local _ .vmem, ⟨28, _⟩ => ⟨S2048x128, .f32⟩
  | .local _ .vmem, ⟨29, _⟩ => ⟨S2560x128, .bf16⟩
  | .local _ .vmem, ⟨30, _⟩ => ⟨S2560x128, .bf16⟩
  | .local _ .vmem, ⟨31, _⟩ => ⟨S2560x128, .f32⟩
  | .local _ .vmem, ⟨32, _⟩ => ⟨S1x2560, .i32⟩
  | .local _ .vmem, ⟨33, _⟩ => ⟨S1x2560, .i32⟩
  | .local _ .vmem, ⟨34, _⟩ => ⟨S2560x128, .bf16⟩
  | .local _ .vmem, ⟨35, _⟩ => ⟨S2560x128, .bf16⟩
  | .local _ .vmem, ⟨36, _⟩ => ⟨S2048x128, .f32⟩
  | .local _ .vmem, ⟨37, _⟩ => ⟨S2048x128, .f32⟩
  | .local _ .vmem, ⟨38, _⟩ => ⟨S2048x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S128x128, .f32⟩
  | .local _ .vmem, ⟨44, _⟩ => ⟨S128x128, .f32⟩
  | .local _ .vmem, ⟨45, _⟩ => ⟨S1x128, .f32⟩
  | .local _ .vmem, ⟨46, _⟩ => ⟨S2000x128, .f32⟩
  | .local _ .vmem, ⟨47, _⟩ => ⟨S2000x128, .f32⟩
  | .local _ .vmem, ⟨48, _⟩ => ⟨S1x2560, .i32⟩
  | .local _ .vmem, ⟨49, _⟩ => ⟨S1x2560, .i32⟩
  | .local _ .vmem, ⟨50, _⟩ => ⟨S2560x128, .f32⟩
  | .local _ .vmem, ⟨51, _⟩ => ⟨S2560x128, .f32⟩
  | .local _ .vmem, ⟨52, _⟩ => ⟨S32x128, .f32⟩
  | .local _ .vmem, ⟨53, _⟩ => ⟨S32x128, .f32⟩
  | .local _ .vmem, ⟨54, _⟩ => ⟨S32x128, .f32⟩
  | .local _ .vmem, ⟨55, _⟩ => ⟨S128x128, .f32⟩
  | .local _ .vmem, ⟨56, _⟩ => ⟨S1x128, .f32⟩
  | .local _ .vmem, ⟨57, _⟩ => ⟨S32x128, .f32⟩
  | .local _ .vmem, ⟨58, _⟩ => ⟨S32x128, .f32⟩
  | .local _ .vmem, ⟨59, _⟩ => ⟨S128x3, .f32⟩
  | .local _ .vmem, ⟨60, _⟩ => ⟨S1x3, .f32⟩
  | .local _ .vmem, ⟨61, _⟩ => ⟨S32x3, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_call1_v0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call2_cst : Ref sig .tc := ⟨.hbm, 53, rfl⟩
abbrev main_call2_v0 : Ref sig .tc := ⟨.hbm, 54, rfl⟩
abbrev main_v33 : Ref sig .tc := ⟨.hbm, 55, rfl⟩
abbrev main_c_3 : Ref sig .tc := ⟨.hbm, 56, rfl⟩
abbrev main_call3_v0 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_4 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_5 : Ref sig .tc := ⟨.hbm, 72, rfl⟩
abbrev main_call4_v0 : Ref sig .tc := ⟨.hbm, 73, rfl⟩
abbrev main_v47 : Ref sig .tc := ⟨.hbm, 74, rfl⟩
abbrev main_c_6 : Ref sig .tc := ⟨.hbm, 75, rfl⟩
abbrev main_call5_v0 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_scratch0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_scratch0 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_scratch0 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc4_scratch0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc5_scratch0 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg1_1 : Ref sig .tc := ⟨.vmem, 42, rfl⟩
abbrev cc6_stg2_0 : Ref sig .tc := ⟨.vmem, 43, rfl⟩
abbrev cc6_stg3_0 : Ref sig .tc := ⟨.vmem, 44, rfl⟩
abbrev cc6_stg4_0 : Ref sig .tc := ⟨.vmem, 45, rfl⟩
abbrev cc6_stg5_0 : Ref sig .tc := ⟨.vmem, 46, rfl⟩
abbrev cc6_stg5_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_scratch0 : Ref sig .tc := ⟨.vmem, 53, rfl⟩
abbrev cc8_stg0_0 : Ref sig .tc := ⟨.vmem, 54, rfl⟩
abbrev cc8_stg1_0 : Ref sig .tc := ⟨.vmem, 55, rfl⟩
abbrev cc8_stg2_0 : Ref sig .tc := ⟨.vmem, 56, rfl⟩
abbrev cc8_stg3_0 : Ref sig .tc := ⟨.vmem, 57, rfl⟩
abbrev cc9_stg0_0 : Ref sig .tc := ⟨.vmem, 58, rfl⟩
abbrev cc9_stg1_0 : Ref sig .tc := ⟨.vmem, 59, rfl⟩
abbrev cc9_stg2_0 : Ref sig .tc := ⟨.vmem, 60, rfl⟩
abbrev cc9_stg3_0 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem1_1 : DmaSem sig := 31
abbrev cc5_sem2_0 : DmaSem sig := 32
abbrev cc5_sem2_1 : DmaSem sig := 33
abbrev cc6_sem0_0 : DmaSem sig := 34
abbrev cc6_sem0_1 : DmaSem sig := 35
abbrev cc6_sem1_0 : DmaSem sig := 36
abbrev cc6_sem1_1 : DmaSem sig := 37
abbrev cc6_sem2_0 : DmaSem sig := 38
abbrev cc6_sem3_0 : DmaSem sig := 39
abbrev cc6_sem4_0 : DmaSem sig := 40
abbrev cc6_sem5_0 : DmaSem sig := 41
abbrev cc6_sem5_1 : DmaSem sig := 42
abbrev cc7_sem0_0 : DmaSem sig := 43
abbrev cc7_sem0_1 : DmaSem sig := 44
abbrev cc7_sem1_0 : DmaSem sig := 45
abbrev cc7_sem1_1 : DmaSem sig := 46
abbrev cc7_sem2_0 : DmaSem sig := 47
abbrev cc8_sem0_0 : DmaSem sig := 48
abbrev cc8_sem1_0 : DmaSem sig := 49
abbrev cc8_sem2_0 : DmaSem sig := 50
abbrev cc8_sem3_0 : DmaSem sig := 51
abbrev cc9_sem0_0 : DmaSem sig := 52
abbrev cc9_sem1_0 : DmaSem sig := 53
abbrev cc9_sem2_0 : DmaSem sig := 54
abbrev cc9_sem3_0 : DmaSem sig := 55

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![10, 250], ![false, false]⟩

def k1_cond2 (i : grid1.Coords) : BitVec 1 :=
  let arg1 : BitVec 32 := BitVec.ofNat 32 (i 1).val
  let c249_i32 : BitVec 32 := 249#32
  let v21 : BitVec 1 := Scalar.cmpi .eq arg1 c249_i32
  let v22 : BitVec 32 := Scalar.extui v21
  let c0_i32_6 : BitVec 32 := 0#32
  let v23 : BitVec 1 := Scalar.cmpi .ne v22 c0_i32_6
  v23

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x2560 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨2, ![250, 10], ![false, false]⟩

def k2_cond2 (i : grid2.Coords) : BitVec 1 :=
  let arg1 : BitVec 32 := BitVec.ofNat 32 (i 1).val
  let c9_i32 : BitVec 32 := 9#32
  let v24 : BitVec 1 := Scalar.cmpi .eq arg1 c9_i32
  let v25 : BitVec 32 := Scalar.extui v24
  let c0_i32_8 : BitVec 32 := 0#32
  let v26 : BitVec 1 := Scalar.cmpi .ne v25 c0_i32_8
  v26

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2560x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2560x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![10, 250], ![false, false]⟩

def k3_cond2 (i : grid3.Coords) : BitVec 1 :=
  let arg1 : BitVec 32 := BitVec.ofNat 32 (i 1).val
  let c249_i32 : BitVec 32 := 249#32
  let v23 : BitVec 1 := Scalar.cmpi .eq arg1 c249_i32
  let v24 : BitVec 32 := Scalar.extui v23
  let c0_i32_8 : BitVec 32 := 0#32
  let v25 : BitVec 1 := Scalar.cmpi .ne v24 c0_i32_8
  v25

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1x2560 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S2560x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![250, 10], ![false, false]⟩

def k4_cond2 (i : grid4.Coords) : BitVec 1 :=
  let arg1 : BitVec 32 := BitVec.ofNat 32 (i 1).val
  let c9_i32 : BitVec 32 := 9#32
  let v24 : BitVec 1 := Scalar.cmpi .eq arg1 c9_i32
  let v25 : BitVec 32 := Scalar.extui v24
  let c0_i32_8 : BitVec 32 := 0#32
  let v26 : BitVec 1 := Scalar.cmpi .ne v25 c0_i32_8
  v26

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2560x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2048x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2560x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨2, ![10, 250], ![false, false]⟩

def k5_cond2 (i : grid5.Coords) : BitVec 1 :=
  let arg1 : BitVec 32 := BitVec.ofNat 32 (i 1).val
  let c249_i32 : BitVec 32 := 249#32
  let v23 : BitVec 1 := Scalar.cmpi .eq arg1 c249_i32
  let v24 : BitVec 32 := Scalar.extui v23
  let c0_i32_8 : BitVec 32 := 0#32
  let v25 : BitVec 1 := Scalar.cmpi .ne v24 c0_i32_8
  v25

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1x2560 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S2560x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S2048x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨2, ![1, 8], ![false, false]⟩

def k7_cond2 (i : grid7.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_8 : BitVec 32 := 0#32
  let v26 : BitVec 1 := Scalar.cmpi .ne v25 c0_i32_8
  v26

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S1x2560 .i32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S2560x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 1 → Memref sig .tc .vmem S32x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true, false]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S32x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S32x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S32x128 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S128x3 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x3 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S32x3 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S128 : S_.BroadcastsInDim S128 (![] : Fin 0 → Fin S128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S640000_S1x640000 : S640000.ShapeCasts S1x640000
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x2560_d0_w32 : S2048x2560.Iotas .tc 32 [0]
  inb_S1x2560_S1x2560_0_0 : ∀ a, (![0, 0] : Fin 2 → Nat) a + S1x2560.size a ≤ S1x2560.size a
  h_S1x2560 : 0 < S1x2560.numel
  shapeCasts_S1x2560_S1x2560 : S1x2560.ShapeCasts S1x2560
  broadcasts_S1x2560_S2048x2560 : S1x2560.Broadcasts S2048x2560
  natLt_1_32 : 1 < 32
  reduces_S2048x2560_S2048 : S2048x2560.Reduces [1] S2048
  shapeCasts_S2048_S2048x1 : S2048.ShapeCasts S2048x1
  bcast_S_S20480x1 : S_.BroadcastsInDim S20480x1 (![] : Fin 0 → Fin S20480x1.rank)
  pads_S20000x128_S20480x128_04800_000 : S20000x128.Pads (![0, 0] : Fin 2 → Nat) ![480, 0] ![0, 0] S20480x128
  h_S_ : 0 < S_.numel
  bcast_S20480x1_S20480x128_0_1 : S20480x1.BroadcastsInDim S20480x128 (![0, 1] : Fin 2 → Fin S20480x128.rank)
  shapeCasts_S640000_S640000x1 : S640000.ShapeCasts S640000x1
  inb_S2560x128_S2560x128_0_0 : ∀ a, (![0, 0] : Fin 2 → Nat) a + S2560x128.size a ≤ S2560x128.size a
  h_S2560x128 : 0 < S2560x128.numel
  shapeCasts_S2560x128_S2560x128 : S2560x128.ShapeCasts S2560x128
  iota_S2560x2048_d1_w32 : S2560x2048.Iotas .tc 32 [1]
  inb_S2560x1_S2560x1_0_0 : ∀ a, (![0, 0] : Fin 2 → Nat) a + S2560x1.size a ≤ S2560x1.size a
  h_S2560x1 : 0 < S2560x1.numel
  shapeCasts_S2560x1_S2560x1 : S2560x1.ShapeCasts S2560x1
  broadcasts_S2560x1_S2560x2048 : S2560x1.Broadcasts S2560x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2560x128_S2560x128_0_0 : (Rect.unit (s := S2560x128) ![0, 0] S2560x128.size inb_S2560x128_S2560x128_0_0).PackedRows (EltTy.packing .bf16)
  slices_S20480x1_S20000x1_0_0 : S20480x1.Slices ![0, 0] S20000x1
  bcast_S20000x1_S20000x128_0_1 : S20000x1.BroadcastsInDim S20000x128 (![0, 1] : Fin 2 → Fin S20000x128.rank)
  slices_S20480x128_S20000x128_0_0 : S20480x128.Slices ![0, 0] S20000x128
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  bcast_S_S20000x1 : S_.BroadcastsInDim S20000x1 (![] : Fin 0 → Fin S20000x1.rank)
  shapeCasts_S2000x128_S2000x128 : S2000x128.ShapeCasts S2000x128
  pads_S20000_S20480_04800 : S20000.Pads (![0] : Fin 1 → Nat) ![480] ![0] S20480
  shapeCasts_S20480_S1x20480 : S20480.ShapeCasts S1x20480
  inb_S32x128_S32x128_0_0 : ∀ a, (![0, 0] : Fin 2 → Nat) a + S32x128.size a ≤ S32x128.size a
  h_S32x128 : 0 < S32x128.numel
  shapeCasts_S32x128_S32x128 : S32x128.ShapeCasts S32x128
  iota_S32x2560_d0_w32 : S32x2560.Iotas .tc 32 [0]
  broadcasts_S1x2560_S32x2560 : S1x2560.Broadcasts S32x2560
  broadcasts_S1x128_S32x128 : S1x128.Broadcasts S32x128
  shapeCasts_S3_S1x3 : S3.ShapeCasts S1x3
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S32x3 : S1x3.Broadcasts S32x3
  inb_S32x3_S32x3_0_0 : ∀ a, (![0, 0] : Fin 2 → Nat) a + S32x3.size a ≤ S32x3.size a
  h_S32x3 : 0 < S32x3.numel
  dot_S2000x128_S128x128_S2000x128_1_0_0_1_n_n_wf : DotDims.WF S2000x128 S128x128 S2000x128 [1] [0] [0] [1] [] []
  dot_S2560x2048_S2048x128_S2560x128_1_0_0_1_n_n_wf : DotDims.WF S2560x2048 S2048x128 S2560x128 [1] [0] [0] [1] [] []
  dot_S2048x2560_S2560x128_S2048x128_1_0_0_1_n_n_wf : DotDims.WF S2048x2560 S2560x128 S2048x128 [1] [0] [0] [1] [] []
  dot_S32x2560_S2560x128_S32x128_1_0_0_1_n_n_wf : DotDims.WF S32x2560 S2560x128 S32x128 [1] [0] [0] [1] [] []
  dot_S32x128_S128x128_S32x128_1_0_0_1_n_n_wf : DotDims.WF S32x128 S128x128 S32x128 [1] [0] [0] [1] [] []
  dot_S32x128_S128x3_S32x3_1_0_0_1_n_n_wf : DotDims.WF S32x128 S128x3 S32x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S20000x128.size a
  hwx0_3 : ∀ i : grid0.Coords, EltTy.bits .f32 = 32 ∨ (Rect.block (s := S20000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2560.size a ≤ S1x640000.size a
  hwx1_0 : ∀ i : grid1.Coords, EltTy.bits .i32 = 32 ∨ (Rect.block (s := S1x640000) S1x2560.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S20480x1.size a
  hwx1_1 : ∀ i : grid1.Coords, EltTy.bits .f32 = 32 ∨ (Rect.block (s := S20480x1) S2048x1.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2560x1.size a ≤ S640000x1.size a
  hwx2_0 : ∀ i : grid2.Coords, EltTy.bits .i32 = 32 ∨ (Rect.block (s := S640000x1) S2560x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S20480x128.size a
  hwx2_1 : ∀ i : grid2.Coords, EltTy.bits .f32 = 32 ∨ (Rect.block (s := S20480x128) S2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2560x128.size a ≤ S640000x128.size a
  hwx2_2 : ∀ i : grid2.Coords, EltTy.bits .bf16 = 32 ∨ (Rect.block (s := S640000x128) S2560x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x2560.size a ≤ S1x640000.size a
  hwx3_0 : ∀ i : grid3.Coords, EltTy.bits .i32 = 32 ∨ (Rect.block (s := S1x640000) S1x2560.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2560x128.size a ≤ S640000x128.size a
  hwx3_1 : ∀ i : grid3.Coords, EltTy.bits .bf16 = 32 ∨ (Rect.block (s := S640000x128) S2560x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x128.size a ≤ S20480x128.size a
  hwx3_2 : ∀ i : grid3.Coords, EltTy.bits .f32 = 32 ∨ (Rect.block (s := S20480x128) S2048x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2560x1.size a ≤ S640000x1.size a
  hwx4_0 : ∀ i : grid4.Coords, EltTy.bits .i32 = 32 ∨ (Rect.block (s := S640000x1) S2560x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x128.size a ≤ S20480x128.size a
  hwx4_1 : ∀ i : grid4.Coords, EltTy.bits .f32 = 32 ∨ (Rect.block (s := S20480x128) S2048x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2560x128.size a ≤ S640000x128.size a
  hwx4_2 : ∀ i : grid4.Coords, EltTy.bits .bf16 = 32 ∨ (Rect.block (s := S640000x128) S2560x128.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x2560.size a ≤ S1x640000.size a
  hwx5_0 : ∀ i : grid5.Coords, EltTy.bits .i32 = 32 ∨ (Rect.block (s := S1x640000) S1x2560.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2560x128.size a ≤ S640000x128.size a
  hwx5_1 : ∀ i : grid5.Coords, EltTy.bits .bf16 = 32 ∨ (Rect.block (s := S640000x128) S2560x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x128.size a ≤ S20480x128.size a
  hwx5_2 : ∀ i : grid5.Coords, EltTy.bits .f32 = 32 ∨ (Rect.block (s := S20480x128) S2048x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S20000x128.size a
  hwx6_0 : ∀ i : grid6.Coords, EltTy.bits .f32 = 32 ∨ (Rect.block (s := S20000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S20000x128.size a
  hwx6_1 : ∀ i : grid6.Coords, EltTy.bits .f32 = 32 ∨ (Rect.block (s := S20000x128) S2000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x128.size a ≤ S20000x128.size a
  hwx6_5 : ∀ i : grid6.Coords, EltTy.bits .f32 = 32 ∨ (Rect.block (s := S20000x128) S2000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1x2560.size a ≤ S1x20480.size a
  hwx7_0 : ∀ i : grid7.Coords, EltTy.bits .i32 = 32 ∨ (Rect.block (s := S1x20480) S1x2560.size (cc7_transform_0 i) (hinb7_0 i)).WholeWords (EltTy.packing .i32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2560x128.size a ≤ S20480x128.size a
  hwx7_1 : ∀ i : grid7.Coords, EltTy.bits .f32 = 32 ∨ (Rect.block (s := S20480x128) S2560x128.size (cc7_transform_1 i) (hinb7_1 i)).WholeWords (EltTy.packing .f32)
  hstage7_2 : ∀ j, (stage7_2 j).IsWhole
  nbuf7_2 : grid7.bufCount reads7_2 false = 1
  hreads7_2 : ∀ i i' : grid7.Coords, (∀ a, reads7_2 a = true → i a = i' a) → cc7_transform_2 i = cc7_transform_2 i'
  hinb7_2 : ∀ (i : grid7.Coords) a, (cc7_transform_2 i a + 1) * S32x128.size a ≤ S32x128.size a
  hwx7_2 : ∀ i : grid7.Coords, EltTy.bits .f32 = 32 ∨ (Rect.block (s := S32x128) S32x128.size (cc7_transform_2 i) (hinb7_2 i)).WholeWords (EltTy.packing .f32)
  hrank8 : 0 < grid8.rank
  hstage8_0 : ∀ j, (stage8_0 j).IsWhole
  nbuf8_0 : grid8.bufCount reads8_0 false = 1
  hreads8_0 : ∀ i i' : grid8.Coords, (∀ a, reads8_0 a = true → i a = i' a) → cc8_transform_0 i = cc8_transform_0 i'
  hinb8_0 : ∀ (i : grid8.Coords) a, (cc8_transform_0 i a + 1) * S32x128.size a ≤ S32x128.size a
  hwx8_0 : ∀ i : grid8.Coords, EltTy.bits .f32 = 32 ∨ (Rect.block (s := S32x128) S32x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 1
  hreads8_3 : ∀ i i' : grid8.Coords, (∀ a, reads8_3 a = true → i a = i' a) → cc8_transform_3 i = cc8_transform_3 i'
  hinb8_3 : ∀ (i : grid8.Coords) a, (cc8_transform_3 i a + 1) * S32x128.size a ≤ S32x128.size a
  hwx8_3 : ∀ i : grid8.Coords, EltTy.bits .f32 = 32 ∨ (Rect.block (s := S32x128) S32x128.size (cc8_transform_3 i) (hinb8_3 i)).WholeWords (EltTy.packing .f32)
  hrank9 : 0 < grid9.rank
  hstage9_0 : ∀ j, (stage9_0 j).IsWhole
  nbuf9_0 : grid9.bufCount reads9_0 false = 1
  hreads9_0 : ∀ i i' : grid9.Coords, (∀ a, reads9_0 a = true → i a = i' a) → cc9_transform_0 i = cc9_transform_0 i'
  hinb9_0 : ∀ (i : grid9.Coords) a, (cc9_transform_0 i a + 1) * S32x128.size a ≤ S32x128.size a
  hwx9_0 : ∀ i : grid9.Coords, EltTy.bits .f32 = 32 ∨ (Rect.block (s := S32x128) S32x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x3.size a ≤ S128x3.size a
  hwx9_1 : ∀ i : grid9.Coords, EltTy.bits .f32 = 32 ∨ (Rect.block (s := S128x3) S128x3.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x3.size a ≤ S1x3.size a
  hwx9_2 : ∀ i : grid9.Coords, EltTy.bits .f32 = 32 ∨ (Rect.block (s := S1x3) S1x3.size (cc9_transform_2 i) (hinb9_2 i)).WholeWords (EltTy.packing .f32)
  hstage9_3 : ∀ j, (stage9_3 j).IsWhole
  nbuf9_3 : grid9.bufCount reads9_3 false = 1
  hreads9_3 : ∀ i i' : grid9.Coords, (∀ a, reads9_3 a = true → i a = i' a) → cc9_transform_3 i = cc9_transform_3 i'
  hinb9_3 : ∀ (i : grid9.Coords) a, (cc9_transform_3 i a + 1) * S32x3.size a ≤ S32x3.size a
  hwx9_3 : ∀ i : grid9.Coords, EltTy.bits .f32 = 32 ∨ (Rect.block (s := S32x3) S32x3.size (cc9_transform_3 i) (hinb9_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2560x2048_S2048x128_S2560x128_1_0_0_1_n_n : DotDims S2560x2048 S2048x128 S2560x128 where
  lhsContracting := [1]
  rhsContracting := [0]
  lhsNonContracting := [0]
  rhsNonContracting := [1]
  lhsBatch := []
  rhsBatch := []
  wf := dot_S2560x2048_S2048x128_S2560x128_1_0_0_1_n_n_wf
def dot_S2048x2560_S2560x128_S2048x128_1_0_0_1_n_n : DotDims S2048x2560 S2560x128 S2048x128 where
  lhsContracting := [1]
  rhsContracting := [0]
  lhsNonContracting := [0]
  rhsNonContracting := [1]
  lhsBatch := []
  rhsBatch := []
  wf := dot_S2048x2560_S2560x128_S2048x128_1_0_0_1_n_n_wf
def dot_S32x2560_S2560x128_S32x128_1_0_0_1_n_n : DotDims S32x2560 S2560x128 S32x128 where
  lhsContracting := [1]
  rhsContracting := [0]
  lhsNonContracting := [0]
  rhsNonContracting := [1]
  lhsBatch := []
  rhsBatch := []
  wf := dot_S32x2560_S2560x128_S32x128_1_0_0_1_n_n_wf
def dot_S32x128_S128x128_S32x128_1_0_0_1_n_n : DotDims S32x128 S128x128 S32x128 where
  lhsContracting := [1]
  rhsContracting := [0]
  lhsNonContracting := [0]
  rhsNonContracting := [1]
  lhsBatch := []
  rhsBatch := []
  wf := dot_S32x128_S128x128_S32x128_1_0_0_1_n_n_wf
def dot_S32x128_S128x3_S32x3_1_0_0_1_n_n : DotDims S32x128 S128x3 S32x3 where
  lhsContracting := [1]
  rhsContracting := [0]
  lhsNonContracting := [0]
  rhsNonContracting := [1]
  lhsBatch := []
  rhsBatch := []
  wf := dot_S32x128_S128x3_S32x3_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S1x2560.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S2048x1.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond2 i == 1#1) | ⟨_ + 2, h⟩ => absurd h (Nat.not_lt.2 (Nat.le_add_left _ _))

abbrev win2_0 : Pipeline.Window sig grid2 :=
  Pipeline.Window.ofSpec (Memref.whole main_v18) S2560x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S2560x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v20) S1x2560.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S2560x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v21) S2048x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v35) S2560x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v34) S2048x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v36) S2560x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v37) S1x2560.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v36) S2560x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v38) S2048x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v44) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v33) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg5) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg6) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v45) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v46) S2000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v49) S1x2560.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v48) S2560x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v50) S32x128.size cc7_transform_2 reads7_2 true false 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun _ => false | 2 => fun i => !(k7_cond2 i == 1#1) | ⟨_ + 3, h⟩ => absurd h (Nat.not_lt.2 (Nat.le_add_left _ _))

abbrev win8_0 : Pipeline.Window sig grid8 :=
  Pipeline.Window.ofSpec (Memref.whole main_v50) S32x128.size cc8_transform_0 reads8_0 false false 1 stage8_0 sem8_0
    hrank8 hreads8_0 hinb8_0 nbuf8_0 (Memref.isWhole_whole _) hwx8_0 hstage8_0

abbrev win8_1 : Pipeline.Window sig grid8 :=
  Pipeline.Window.ofSpec (Memref.whole main_arg8) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v51) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v52) S32x128.size cc8_transform_3 reads8_3 true false 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v52) S32x128.size cc9_transform_0 reads9_0 false false 1 stage9_0 sem9_0
    hrank9 hreads9_0 hinb9_0 nbuf9_0 (Memref.isWhole_whole _) hwx9_0 hstage9_0

abbrev win9_1 : Pipeline.Window sig grid9 :=
  Pipeline.Window.ofSpec (Memref.whole main_arg10) S128x3.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v53) S1x3.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v54) S32x3.size cc9_transform_3 reads9_3 true false 1 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S20000x128 : Shape := ⟨2, ![20000, 128]⟩
abbrev S2x640000 : Shape := ⟨2, ![2, 640000]⟩
abbrev S20000 : Shape := ⟨1, ![20000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S1x640000 : Shape := ⟨2, ![1, 640000]⟩
abbrev S640000 : Shape := ⟨1, ![640000]⟩
abbrev S660000 : Shape := ⟨1, ![660000]⟩
abbrev S_ : Shape := ⟨0, ![]⟩
abbrev S660000x1 : Shape := ⟨2, ![660000, 1]⟩
abbrev S660000x128 : Shape := ⟨2, ![660000, 128]⟩
abbrev S1x128 : Shape := ⟨2, ![1, 128]⟩
abbrev S640000x1 : Shape := ⟨2, ![640000, 1]⟩
abbrev S640000x128 : Shape := ⟨2, ![640000, 128]⟩
abbrev S20000x1 : Shape := ⟨2, ![20000, 1]⟩
abbrev S32x128 : Shape := ⟨2, ![32, 128]⟩
abbrev S32x3 : Shape := ⟨2, ![32, 3]⟩
abbrev S1x3 : Shape := ⟨2, ![1, 3]⟩

abbrev nBuf : Space → Nat
  | .hbm => 124
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S20000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x3, .f32⟩
  | .hbm, ⟨11, _⟩ => ⟨S3, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S20000x128, .f32⟩
  | .hbm, ⟨17, _⟩ => ⟨S20000, .i32⟩
  | .hbm, ⟨18, _⟩ => ⟨S660000, .i32⟩
  | .hbm, ⟨19, _⟩ => ⟨S660000, .i32⟩
  | .hbm, ⟨20, _⟩ => ⟨S_, .f32⟩
  | .hbm, ⟨21, _⟩ => ⟨S660000, .f32⟩
  | .hbm, ⟨22, _⟩ => ⟨S_, .f32⟩
  | .hbm, ⟨23, _⟩ => ⟨S20000, .f32⟩
  | .hbm, ⟨24, _⟩ => ⟨S660000x1, .i32⟩
  | .hbm, ⟨25, _⟩ => ⟨S20000, .f32⟩
  | .hbm, ⟨26, _⟩ => ⟨S_, .f32⟩
  | .hbm, ⟨27, _⟩ => ⟨S20000, .f32⟩
  | .hbm, ⟨28, _⟩ => ⟨S20000, .i1⟩
  | .hbm, ⟨29, _⟩ => ⟨S20000, .f32⟩
  | .hbm, ⟨30, _⟩ => ⟨S_, .f32⟩
  | .hbm, ⟨31, _⟩ => ⟨S_, .f32⟩
  | .hbm, ⟨32, _⟩ => ⟨S20000, .f32⟩
  | .hbm, ⟨33, _⟩ => ⟨S20000, .f32⟩
  | .hbm, ⟨34, _⟩ => ⟨S_, .i32⟩
  | .hbm, ⟨35, _⟩ => ⟨S660000, .i32⟩
  | .hbm, ⟨36, _⟩ => ⟨S660000, .i1⟩
  | .hbm, ⟨37, _⟩ => ⟨S_, .i32⟩
  | .hbm, ⟨38, _⟩ => ⟨S660000, .i32⟩
  | .hbm, ⟨39, _⟩ => ⟨S660000, .i32⟩
  | .hbm, ⟨40, _⟩ => ⟨S660000, .i32⟩
  | .hbm, ⟨41, _⟩ => ⟨S660000x1, .i32⟩
  | .hbm, ⟨42, _⟩ => ⟨S660000, .f32⟩
  | .hbm, ⟨43, _⟩ => ⟨S_, .i32⟩
  | .hbm, ⟨44, _⟩ => ⟨S660000, .i32⟩
  | .hbm, ⟨45, _⟩ => ⟨S660000, .i1⟩
  | .hbm, ⟨46, _⟩ => ⟨S_, .i32⟩
  | .hbm, ⟨47, _⟩ => ⟨S660000, .i32⟩
  | .hbm, ⟨48, _⟩ => ⟨S660000, .i32⟩
  | .hbm, ⟨49, _⟩ => ⟨S660000, .i32⟩
  | .hbm, ⟨50, _⟩ => ⟨S660000x1, .i32⟩
  | .hbm, ⟨51, _⟩ => ⟨S660000, .f32⟩
  | .hbm, ⟨52, _⟩ => ⟨S660000, .f32⟩
  | .hbm, ⟨53, _⟩ => ⟨S_, .i32⟩
  | .hbm, ⟨54, _⟩ => ⟨S660000, .i32⟩
  | .hbm, ⟨55, _⟩ => ⟨S660000, .i1⟩
  | .hbm, ⟨56, _⟩ => ⟨S_, .i32⟩
  | .hbm, ⟨57, _⟩ => ⟨S660000, .i32⟩
  | .hbm, ⟨58, _⟩ => ⟨S660000, .i32⟩
  | .hbm, ⟨59, _⟩ => ⟨S660000, .i32⟩
  | .hbm, ⟨60, _⟩ => ⟨S660000x1, .i32⟩
  | .hbm, ⟨61, _⟩ => ⟨S660000x128, .f32⟩
  | .hbm, ⟨62, _⟩ => ⟨S660000x1, .f32⟩
  | .hbm, ⟨63, _⟩ => ⟨S660000x128, .f32⟩
  | .hbm, ⟨64, _⟩ => ⟨S660000x128, .f32⟩
  | .hbm, ⟨65, _⟩ => ⟨S_, .f32⟩
  | .hbm, ⟨66, _⟩ => ⟨S20000x128, .f32⟩
  | .hbm, ⟨67, _⟩ => ⟨S660000x1, .i32⟩
  | .hbm, ⟨68, _⟩ => ⟨S20000x128, .f32⟩
  | .hbm, ⟨69, _⟩ => ⟨S1x128, .f32⟩
  | .hbm, ⟨70, _⟩ => ⟨S20000x128, .f32⟩
  | .hbm, ⟨71, _⟩ => ⟨S20000x128, .f32⟩
  | .hbm, ⟨72, _⟩ => ⟨S_, .f32⟩
  | .hbm, ⟨73, _⟩ => ⟨S20000x128, .f32⟩
  | .hbm, ⟨74, _⟩ => ⟨S20000x128, .f32⟩
  | .hbm, ⟨75, _⟩ => ⟨S_, .f32⟩
  | .hbm, ⟨76, _⟩ => ⟨S640000, .f32⟩
  | .hbm, ⟨77, _⟩ => ⟨S_, .f32⟩
  | .hbm, ⟨78, _⟩ => ⟨S20000, .f32⟩
  | .hbm, ⟨79, _⟩ => ⟨S640000x1, .i32⟩
  | .hbm, ⟨80, _⟩ => ⟨S20000, .f32⟩
  | .hbm, ⟨81, _⟩ => ⟨S_, .i32⟩
  | .hbm, ⟨82, _⟩ => ⟨S640000, .i32⟩
  | .hbm, ⟨83, _⟩ => ⟨S640000, .i1⟩
  | .hbm, ⟨84, _⟩ => ⟨S_, .i32⟩
  | .hbm, ⟨85, _⟩ => ⟨S640000, .i32⟩
  | .hbm, ⟨86, _⟩ => ⟨S640000, .i32⟩
  | .hbm, ⟨87, _⟩ => ⟨S640000, .i32⟩
  | .hbm, ⟨88, _⟩ => ⟨S640000x1, .i32⟩
  | .hbm, ⟨89, _⟩ => ⟨S640000x128, .f32⟩
  | .hbm, ⟨90, _⟩ => ⟨S_, .f32⟩
  | .hbm, ⟨91, _⟩ => ⟨S20000x128, .f32⟩
  | .hbm, ⟨92, _⟩ => ⟨S640000x1, .i32⟩
  | .hbm, ⟨93, _⟩ => ⟨S20000x128, .f32⟩
  | .hbm, ⟨94, _⟩ => ⟨S_, .f32⟩
  | .hbm, ⟨95, _⟩ => ⟨S20000, .f32⟩
  | .hbm, ⟨96, _⟩ => ⟨S20000, .f32⟩
  | .hbm, ⟨97, _⟩ => ⟨S20000x1, .f32⟩
  | .hbm, ⟨98, _⟩ => ⟨S20000x128, .f32⟩
  | .hbm, ⟨99, _⟩ => ⟨S20000x128, .f32⟩
  | .hbm, ⟨100, _⟩ => ⟨S20000x128, .f32⟩
  | .hbm, ⟨101, _⟩ => ⟨S20000x128, .f32⟩
  | .hbm, ⟨102, _⟩ => ⟨S20000x128, .f32⟩
  | .hbm, ⟨103, _⟩ => ⟨S1x128, .f32⟩
  | .hbm, ⟨104, _⟩ => ⟨S20000x128, .f32⟩
  | .hbm, ⟨105, _⟩ => ⟨S20000x128, .f32⟩
  | .hbm, ⟨106, _⟩ => ⟨S_, .f32⟩
  | .hbm, ⟨107, _⟩ => ⟨S20000x128, .f32⟩
  | .hbm, ⟨108, _⟩ => ⟨S20000x128, .f32⟩
  | .hbm, ⟨109, _⟩ => ⟨S_, .f32⟩
  | .hbm, ⟨110, _⟩ => ⟨S32x128, .f32⟩
  | .hbm, ⟨111, _⟩ => ⟨S20000x1, .i32⟩
  | .hbm, ⟨112, _⟩ => ⟨S32x128, .f32⟩
  | .hbm, ⟨113, _⟩ => ⟨S32x128, .f32⟩
  | .hbm, ⟨114, _⟩ => ⟨S1x128, .f32⟩
  | .hbm, ⟨115, _⟩ => ⟨S32x128, .f32⟩
  | .hbm, ⟨116, _⟩ => ⟨S32x128, .f32⟩
  | .hbm, ⟨117, _⟩ => ⟨S_, .f32⟩
  | .hbm, ⟨118, _⟩ => ⟨S32x128, .f32⟩
  | .hbm, ⟨119, _⟩ => ⟨S32x128, .f32⟩
  | .hbm, ⟨120, _⟩ => ⟨S32x3, .f32⟩
  | .hbm, ⟨121, _⟩ => ⟨S1x3, .f32⟩
  | .hbm, ⟨122, _⟩ => ⟨S32x3, .f32⟩
  | .hbm, ⟨123, _⟩ => ⟨S32x3, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_cst_10 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_11 : Ref sig .tc := ⟨.hbm, 81, rfl⟩
abbrev main_v52 : Ref sig .tc := ⟨.hbm, 82, rfl⟩
abbrev main_v53 : Ref sig .tc := ⟨.hbm, 83, rfl⟩
abbrev main_c_12 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_13 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_14 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_call2_cst : Ref sig .tc := ⟨.hbm, 106, rfl⟩
abbrev main_call2_v0 : Ref sig .tc := ⟨.hbm, 107, rfl⟩
abbrev main_v73 : Ref sig .tc := ⟨.hbm, 108, rfl⟩
abbrev main_cst_15 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_call3_cst : Ref sig .tc := ⟨.hbm, 117, rfl⟩
abbrev main_call3_v0 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S20000_S660000_d0 : Shape.Concatenates [S640000, S20000] S660000 0
  bcast_S_S660000 : S_.BroadcastsInDim S660000 (![] : Fin 0 → Fin S660000.rank)
  bcast_S_S20000 : S_.BroadcastsInDim S20000 (![] : Fin 0 → Fin S20000.rank)
  bcast_S660000_S660000x1_0 : S660000.BroadcastsInDim S660000x1 (![0] : Fin 1 → Fin S660000x1.rank)
  bcast_S660000x1_S660000x128_0_1 : S660000x1.BroadcastsInDim S660000x128 (![0, 1] : Fin 2 → Fin S660000x128.rank)
  bcast_S_S20000x128 : S_.BroadcastsInDim S20000x128 (![] : Fin 0 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S_S32x128 : S_.BroadcastsInDim S32x128 (![] : Fin 0 → Fin S32x128.rank)
  bcast_S1x128_S32x128_0_1 : S1x128.BroadcastsInDim S32x128 (![0, 1] : Fin 2 → Fin S32x128.rank)
  bcast_S3_S1x3_1 : S3.BroadcastsInDim S1x3 (![1] : Fin 1 → Fin S1x3.rank)
  bcast_S1x3_S32x3_0_1 : S1x3.BroadcastsInDim S32x3 (![0, 1] : Fin 2 → Fin S32x3.rank)
  dot_S20000x128_S128x128_S20000x128_1_0_0_1_n_n_wf : DotDims.WF S20000x128 S128x128 S20000x128 [1] [0] [0] [1] [] []
  scatter_S20000_S660000x1_S660000_n_0_0_1_wf : ScatterDims.WF S20000 S660000x1 S660000 [] [0] [0] 1
  gather_S20000_S660000x1_S660000_n_0_n_n_0_1_1_wf : GatherDims.WF S20000 S660000x1 S660000 [] [0] [] [0] [] 1 ![1]
  gather_S20000x128_S660000x1_S660000x128_1_0_n_n_0_1_1128_wf : GatherDims.WF S20000x128 S660000x1 S660000x128 [1] [0] [] [0] [] 1 ![1, 128]
  scatter_S20000x128_S660000x1_S660000x128_1_0_0_1_wf : ScatterDims.WF S20000x128 S660000x1 S660000x128 [1] [0] [0] 1
  scatter_S20000_S640000x1_S640000_n_0_0_1_wf : ScatterDims.WF S20000 S640000x1 S640000 [] [0] [0] 1
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  scatter_S32x128_S20000x1_S20000x128_1_0_0_1_wf : ScatterDims.WF S32x128 S20000x1 S20000x128 [1] [0] [0] 1
  dot_S32x128_S128x128_S32x128_1_0_0_1_n_n_wf : DotDims.WF S32x128 S128x128 S32x128 [1] [0] [0] [1] [] []
  dot_S32x128_S128x3_S32x3_1_0_0_1_n_n_wf : DotDims.WF S32x128 S128x3 S32x3 [1] [0] [0] [1] [] []

variable [Facts₀]

def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def scatter_S20000_S660000x1_S660000_n_0_0_1 : ScatterDims S20000 S660000x1 S660000 where
  updateWindowDims := []
  insertedWindowDims := [0]
  scatterDimsToOperandDims := [0]
  indexVectorDim := 1
  wf := scatter_S20000_S660000x1_S660000_n_0_0_1_wf
def gather_S20000_S660000x1_S660000_n_0_n_n_0_1_1 : GatherDims S20000 S660000x1 S660000 where
  offsetDims := []
  collapsedSliceDims := [0]
  operandBatchingDims := []
  startIndicesBatchingDims := []
  startIndexMap := [0]
  indexVectorDim := 1
  sliceSizes := ![1]
  wf := gather_S20000_S660000x1_S660000_n_0_n_n_0_1_1_wf
def gather_S20000x128_S660000x1_S660000x128_1_0_n_n_0_1_1128 : GatherDims S20000x128 S660000x1 S660000x128 where
  offsetDims := [1]
  collapsedSliceDims := [0]
  operandBatchingDims := []
  startIndicesBatchingDims := []
  startIndexMap := [0]
  indexVectorDim := 1
  sliceSizes := ![1, 128]
  wf := gather_S20000x128_S660000x1_S660000x128_1_0_n_n_0_1_1128_wf
def scatter_S20000x128_S660000x1_S660000x128_1_0_0_1 : ScatterDims S20000x128 S660000x1 S660000x128 where
  updateWindowDims := [1]
  insertedWindowDims := [0]
  scatterDimsToOperandDims := [0]
  indexVectorDim := 1
  wf := scatter_S20000x128_S660000x1_S660000x128_1_0_0_1_wf
def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def scatter_S32x128_S20000x1_S20000x128_1_0_0_1 : ScatterDims S32x128 S20000x1 S20000x128 where
  updateWindowDims := [1]
  insertedWindowDims := [0]
  scatterDimsToOperandDims := [0]
  indexVectorDim := 1
  wf := scatter_S32x128_S20000x1_S20000x128_1_0_0_1_wf
def dot_S32x128_S128x128_S32x128_1_0_0_1_n_n : DotDims S32x128 S128x128 S32x128 where
  lhsContracting := [1]
  rhsContracting := [0]
  lhsNonContracting := [0]
  rhsNonContracting := [1]
  lhsBatch := []
  rhsBatch := []
  wf := dot_S32x128_S128x128_S32x128_1_0_0_1_n_n_wf
def dot_S32x128_S128x3_S32x3_1_0_0_1_n_n : DotDims S32x128 S128x3 S32x3 where
  lhsContracting := [1]
  rhsContracting := [0]
  lhsNonContracting := [0]
  rhsNonContracting := [1]
  lhsBatch := []
  rhsBatch := []
  wf := dot_S32x128_S128x3_S32x3_1_0_0_1_n_n_wf

class Facts : Prop extends Facts₀ where

variable [Facts]
-- ==== Proof.KB.D0.lean ====
import proofs.«427224_j39238821216992_2_alg».proof.Proof.Gen.Kernel.Launch
import proofs.«427224_j39238821216992_2_alg».proof.Proof.Gen.Kernel.Skeleton
import proofs.«427224_j39238821216992_2_alg».proof.Proof.Gen.Kernel.Points
import Idealize.ShloMosaic.Lib.Pipeline.FrameBody
import Idealize.ShloMosaic.Lib.Ring
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
def out0 (c : Dev nD) (t : Fin cfg0.N) : ((cfg0.win 3).xblock (cfg0.grid.coords t)).Idx → Elt F (cfg0.win 3).elt :=
  k0_pay1 (iblk0 V c 0 t) (iblk0 V c 1 t) (iblk0 V c 2 t)
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ _ := Pipeline.ΦA spec0 c
  q _ := fullShare
  owed _ := 0
theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]
end Cert.Kernel.Hand
end
-- ==== Proof.KB.RLib.lean ====
import proofs.«427224_j39238821216992_2_alg».proof.Proof.Gen.Kernel.Launch
import Idealize.ShloMosaic.Lib.Pipeline.Value
import Idealize.ShloMosaic.Lib.Pipeline.FrameBody
import Idealize.ShloMosaic.Lib.Ring
import Idealize.ShloMosaic.Lib.Tactic
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen
variable {F : FTy → Type} [FloatOps F]
local notation "𝕄" => MT nD τ sig Unit (Elt F) ℕ (UR sig nD τ) ℕ
theorem zero2 : (![0, 0] : Fin 2 → ℕ) = fun _ => 0 := funext fun a => by fin_cases a <;> rfl
/-- Reading through a whole memref is a bijection, so the contents read fix the raw contents held. -/
theorem owns_eq_unread {sp : Space} {sh : Shape} {e : EltTy} {m : Memref sig .tc sp sh e} (h : m.IsWhole) (c : Dev nD)
    (q : PosShare TreeShare) (X : sh.Idx → Elt F e) :
    (owns (c : Thread nD τ) m q X : sProp 𝕄) = (m.view.loc (c : Thread nD τ) ↦[m.view.set]{q} h.unread X) := by
  unfold owns
  have h₁ : iprop(∃ f, ⌜m.view.read (Elt F) f = X⌝ ∗ (m.view.loc (c : Thread nD τ) ↦[m.view.set]{q} f))
      ⊢ (m.view.loc (c : Thread nD τ) ↦[m.view.set]{q} h.unread X : sProp 𝕄) := by
    iintro ⟨%f, %hf, H⟩; obtain rfl := h.eq_unread hf; iexact H
  have h₂ : (m.view.loc (c : Thread nD τ) ↦[m.view.set]{q} h.unread X : sProp 𝕄)
      ⊢ iprop(∃ f, ⌜m.view.read (Elt F) f = X⌝ ∗ (m.view.loc (c : Thread nD τ) ↦[m.view.set]{q} f)) := by
    iintro H; iexists _; isplitr; · ipureintro; exact h.read_unread X
    iexact H
  exact BI.equiv_iff.mp ⟨h₁, h₂⟩
/-- A last store through the whole-shape rectangle covers every index, so the buffer reads its payload. -/
theorem read_writes_unit_zero {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ fun y => ⟨_, List.mem_cons_self, View.mem_set_unit_zero h inb y⟩).trans
    (View.canon_cons_unit_zero h inb w L)
/-- Contents that read `X` through a whole memref are the contents that read `X`. -/
theorem heldAt {sp : Space} {s : Shape} {e : EltTy} {m : Memref sig .tc sp s e} (h : m.IsWhole) (c : Dev nD) {q : PosShare TreeShare}
    {f : m.view.ty.Contents (Elt F)} {X : s.Idx → Elt F e} (hf : m.view.read (Elt F) f = X) :
    (m.view.loc (c : Thread nD τ) ↦[m.view.set]{q} f : sProp 𝕄) ⊢ (m.view.loc (c : Thread nD τ) ↦[m.view.set]{q} h.unread X) := by
  rw [h.eq_unread hf]
/-- A load through the whole box of a whole rank-two buffer reads what the buffer is held at. -/
theorem readAt_box {d : Fin 2 → ℕ} {e : EltTy} {m : Memref sig .tc .vmem ⟨2, d⟩ e} (h : m.IsWhole)
    (inb : ∀ a, (![0, 0] : Fin 2 → ℕ) a + d a ≤ d a) (X : Shape.Idx ⟨2, d⟩ → Elt F e) :
    View.readAt (Elt F) m.view (Rect.unit (s := ⟨2, d⟩) ![0, 0] d inb).toLoadRect (h.unread X) = X := by
  rw [View.readAt_eq_ld, h.read_unread, View.ld_unit_zero zero2 inb]
/-- A store through the whole box of a rank-two buffer, made last, reads back as its payload. -/
theorem read_writes_box {κ : Kind} {sp : Space} {d : Fin 2 → ℕ} {e : EltTy} (v : View sig κ sp ⟨2, d⟩ e) (f : v.ty.Contents (Elt F))
    (inb : ∀ a, (![0, 0] : Fin 2 → ℕ) a + d a ≤ d a) (w : Shape.Idx ⟨2, d⟩ → Elt F e) (L : List (View.Piece (Elt F) ⟨2, d⟩ e)) :
    v.read (Elt F) (v.writes (Elt F) f ((⟨Rect.unit (s := ⟨2, d⟩) ![0, 0] d inb, w⟩ : View.Piece (Elt F) ⟨2, d⟩ e) :: L)) = w :=
  read_writes_unit_zero v f zero2 inb w L
/-- A load through the whole box of what one store through it left reads the payload. -/
theorem readCov_box {κ : Kind} {sp : Space} {d : Fin 2 → ℕ} {e : EltTy} (v : View sig κ sp ⟨2, d⟩ e)
    (inb : ∀ a, (![0, 0] : Fin 2 → ℕ) a + d a ≤ d a) (w : Shape.Idx ⟨2, d⟩ → Elt F e) :
    v.readCov [(⟨Rect.unit (s := ⟨2, d⟩) ![0, 0] d inb, w⟩ : View.Piece (Elt F) ⟨2, d⟩ e)] (Rect.unit (s := ⟨2, d⟩) ![0, 0] d inb).toLoadRect = w :=
  View.readCov_unit_zero v zero2 inb w
end Cert.Kernel.Hand
end
-- ==== Proof.KB.R0.lean ====
import proofs.«427224_j39238821216992_2_alg».proof.Proof.KB.D0
import proofs.«427224_j39238821216992_2_alg».proof.Proof.KB.RLib
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
theorem before0 (c : Dev nD) (t : Fin cfg0.N) : (∀ d, (dat0 V c).before 0 t d = iblk0 V c 0 t)
    ∧ (∀ d, (dat0 V c).before 1 t d = iblk0 V c 1 t)
    ∧ (∀ d, (dat0 V c).before 2 t d = iblk0 V c 2 t) := by
  refine ⟨?_, ?_, ?_⟩ <;> exact fun d => ((dat0 V c).before_in_eq_fetched _ rfl (fun _ => rfl) (fun _ _ _ => rfl)
    (fun t => by simp only [after0_0, after0_1, after0_2]; unfold Dat.blockOf iblk0; rw [A_eq0]; try rfl) t d).trans
    (by unfold Dat.fetched Dat.blockOf iblk0; rw [A_eq0]; try rfl)
/-- Every load of the body reads a whole buffer and its one store covers the output's, which then reads the payload. -/
theorem sound_kernel0 (c : Dev nD) (E : Set ℕ) (i : grid0.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (xo : Vec F S2000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 x0 x1 x2)) -∗ K ⟨⟩))
      ⊢ wp frame (wpE (defs₀ (F := F)) Variants.none c none) E (cc0__dense_kernel i arg1 harg1 arg2 harg2 arg3 harg3 arg4 harg4) K := by
  simp only [cc0__dense_kernel_eq_skeleton]; unfold cc0__dense_kernel_skel
  rw [owns_eq_unread harg1, owns_eq_unread harg2, owns_eq_unread harg3, owns_eq_unread harg4 c _ xo]
  iintro ⟨H0, H1, H2, H3, Hk⟩
  sl_exec
  sl_step
  iapply Hk
  iframe H0 H1 H2
  unfold owns; iexists _; isplitr
  swap; · iexact H3
  ipureintro
  simp only [read_writes_box, readAt_box]
theorem body_obligation0 (c : Dev nD) : BodyObligation (dat0 (F := F) V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d)))
    ⊢ wp frame (wpE (defs₀ (F := F)) Variants.none c none) Set.univ (bodyAt0 t) (fun _ =>
      iprop((dat0 V c).Φ t.castSucc ∗ (dat0 V c).owesAt () t.castSucc
        ∗ owns (c : Thread nD τ) (st0_0 t) fullShare (iblk0 V c 0 t) ∗ owns (c : Thread nD τ) (st0_1 t) fullShare (iblk0 V c 1 t)
        ∗ owns (c : Thread nD τ) (st0_2 t) fullShare (iblk0 V c 2 t) ∗ owns (c : Thread nD τ) (st0_3 t) fullShare (out0 V c t)))
  simp only [(before0 V c t).1, (before0 V c t).2.1, (before0 V c t).2.2]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _ _)
  iframe H0 H1 H2 H3
  iintro ⟨H0, H1, H2, H3⟩
  iframe
  iexact H3
theorem hin0 (c : Dev nD) : Pipeline.ΦA spec0 c ⊢ (dat0 V c).Φ 0 := .rfl
theorem hout0 (c : Dev nD) : (dat0 V c).Φ (Fin.last cfg0.N) ⊢ Pipeline.ΦA spec0 c := .rfl
end Cert.Kernel.Hand
end
-- ==== Proof.KB.D1.lean ====
import proofs.«427224_j39238821216992_2_alg».proof.Proof.Gen.Kernel.Launch
import proofs.«427224_j39238821216992_2_alg».proof.Proof.Gen.Kernel.Skeleton
import proofs.«427224_j39238821216992_2_alg».proof.Proof.Gen.Kernel.Points
import Idealize.ShloMosaic.Lib.Pipeline.FrameBody
import Idealize.ShloMosaic.Lib.Ring
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
def acc1 (c : Dev nD) : (n : ℕ) → n < cfg1.N → Vec F S2048x1 .f32
  | 0, hn => k1_pay2 (grid1.coords ⟨0, hn⟩) (iblk1 V c 0 ⟨0, hn⟩) (k1_pay1 (F := F))
  | n + 1, hn =>
    if (n + 1) % 250 = 0 then k1_pay2 (grid1.coords ⟨n + 1, hn⟩) (iblk1 V c 0 ⟨n + 1, hn⟩) (k1_pay1 (F := F))
    else k1_pay2 (grid1.coords ⟨n + 1, hn⟩) (iblk1 V c 0 ⟨n + 1, hn⟩) (acc1 c n (Nat.lt_of_succ_lt hn))
theorem acc1_first (c : Dev nD) (t : Fin cfg1.N) (h : t.val % 250 = 0) :
    acc1 V c t.val t.isLt = k1_pay2 (grid1.coords t) (iblk1 V c 0 t) (k1_pay1 (F := F)) := by
  obtain ⟨n, hn⟩ := t
  cases n with
  | zero => rfl
  | succ n => exact if_pos h
theorem acc1_next (c : Dev nD) (t : Fin cfg1.N) (h : ¬ t.val % 250 = 0) :
    acc1 V c t.val t.isLt = k1_pay2 (grid1.coords t) (iblk1 V c 0 t) (acc1 V c (t.val - 1) (Nat.lt_of_le_of_lt (Nat.sub_le _ _) t.isLt)) := by
  obtain ⟨n, hn⟩ := t
  cases n with
  | zero => exact absurd (Nat.zero_mod _) h
  | succ n => exact if_neg h
def PhiS1 (c : Dev nD) : (n : ℕ) → n ≤ cfg1.N → sProp 𝕄
  | 0, _ => Pipeline.ΦA spec1 c
  | n + 1, hn => iprop(owns (c : Thread nD τ) (Memref.whole cc1_scratch0) fullShare (acc1 V c n hn) ∗ Pipeline.scopedRestBut (Ix := Unit) (Name := ℕ) (U := UR sig nD τ) (Lvl := ℕ) (Val := Elt F) spec1 c [cc1_scratch0] ∗ (∃ r, prngReg c r))
theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) (Memref.whole cc1_scratch0) fullShare (acc1 V c n hn) ∗ Pipeline.scopedRestBut (Ix := Unit) (Name := ℕ) (U := UR sig nD τ) (Lvl := ℕ) (Val := Elt F) spec1 c [cc1_scratch0] ∗ (∃ r, prngReg c r)) := rfl
theorem PhiS1_pos (c : Dev nD) (n : ℕ) (h : n ≤ cfg1.N) (hz : n ≠ 0) :
    PhiS1 V c n h = iprop(owns (c : Thread nD τ) (Memref.whole cc1_scratch0) fullShare (acc1 V c (n - 1) (by omega)) ∗ Pipeline.scopedRestBut (Ix := Unit) (Name := ℕ) (U := UR sig nD τ) (Lvl := ℕ) (Val := Elt F) spec1 c [cc1_scratch0] ∗ (∃ r, prngReg c r)) := by
  cases n with
  | zero => exact absurd rfl hz
  | succ n => rfl
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => acc1 V c t.val t.isLt
  Φ t := PhiS1 V c t.val (Nat.le_of_lt_succ t.isLt)
  q _ := fullShare
  owed _ := 0
theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = acc1 V c t.val t.isLt := by dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
end Cert.Kernel.Hand
end
-- ==== Proof.KB.R1.lean ====
import proofs.«427224_j39238821216992_2_alg».proof.Proof.KB.D1
import proofs.«427224_j39238821216992_2_alg».proof.Proof.KB.RLib
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1
/-- The three control cases: `a` is what the scratch accumulates onto, `o` what the output's buffer ends at. -/
theorem kernelRun1 (c : Dev nD) (i : grid1.Coords) (arg2 : Memref sig .tc .vmem S1x2560 .i32) (harg2 : arg2.IsWhole)
    (arg3 : Memref sig .tc .vmem S2048x1 .f32) (harg3 : arg3.IsWhole) (arg4 : Memref sig .tc .vmem S2048x1 .f32) (harg4 : arg4.IsWhole)
    (x0 : Vec F S1x2560 .i32) (xo xs a o : Vec F S2048x1 .f32)
    (h : (cond1_0 i ∧ ¬cond1_1 i ∧ a = k1_pay1 ∧ o = xo) ∨ (¬cond1_0 i ∧ ¬cond1_1 i ∧ a = xs ∧ o = xo)
      ∨ (¬cond1_0 i ∧ cond1_1 i ∧ a = xs ∧ o = k1_pay2 i x0 xs))
    (E : Set ℕ) (K : PUnit → sProp 𝕄) :
    iprop(owns (c : Thread nD τ) arg2 fullShare x0 ∗ owns (c : Thread nD τ) arg3 fullShare xo ∗ owns (c : Thread nD τ) arg4 fullShare xs
        ∗ (iprop(owns (c : Thread nD τ) arg2 fullShare x0 ∗ owns (c : Thread nD τ) arg3 fullShare o
            ∗ owns (c : Thread nD τ) arg4 fullShare (k1_pay2 i x0 a)) -∗ K ⟨⟩))
      ⊢ wp frame (wpE (defs₀ (F := F)) Variants.none c none) E (cc1__count_kernel i arg2 harg2 arg3 harg3 arg4 harg4) K := by
  simp only [cc1__count_kernel_eq_skeleton]; unfold cc1__count_kernel_skel
  rw [owns_eq_unread harg2, owns_eq_unread harg3 c _ xo, owns_eq_unread harg4 c _ xs]
  iintro ⟨H0, H1, HS, Hk⟩
  rcases h with ⟨hc0, hc1, rfl, rfl⟩ | ⟨hc0, hc1, rfl, rfl⟩ | ⟨hc0, hc1, rfl, rfl⟩ <;> (
    sl_exec (disch := first | exact hc0 | exact hc1)
    sl_step
    iapply Hk
    iframe H0
    isplitl [H1] <;> (
      unfold owns; iexists _; isplitr
      swap; · iassumption
      ipureintro
      try sl_unfold_run_names
      simp only [read_writes_box, readAt_box, readCov_box, harg3.read_unread]))
theorem hcond1_0 : ∀ t : Fin cfg1.N, cond1_0 (grid1.coords t) ↔ t.val % 250 = 0 :=
  (by decide +kernel : ∀ t : Fin grid1.N, cond1_0 (grid1.coords t) ↔ t.val % 250 = 0)
theorem hcond1_1 : ∀ t : Fin cfg1.N, cond1_1 (grid1.coords t) ↔ t.val % 250 = 249 :=
  (by decide +kernel : ∀ t : Fin grid1.N, cond1_1 (grid1.coords t) ↔ t.val % 250 = 249)
theorem idleAt1_1 (i : grid1.Coords) (h : ¬cond1_1 i) : cfg1.idle 1 i = true := by
  show (!(k1_cond2 i == 1#1)) = true
  rw [Bool.not_eq_true', beq_eq_false_iff_ne]; exact h
theorem liveAt1_1 (i : grid1.Coords) (h : cond1_1 i) : cfg1.idle 1 i = false := by
  show (!(k1_cond2 i == 1#1)) = false
  rw [Bool.not_eq_false', beq_iff_eq]; exact h
theorem noFlush1_1 (t : Fin cfg1.N) (h : ¬t.val % 250 = 249) : (cfg1.win 1).flush t = false :=
  Bool.eq_false_iff.mpr fun hf => h ((flush1_1 t).mp hf)
/-- The class invariant, with the scratch as a memref owned at some contents. -/
theorem PhiA1_eq (c : Dev nD) :
    (Pipeline.ΦA spec1 c : sProp 𝕄)
      = iprop(iprop(iprop((∃ d, owns (c : Thread nD τ) (Memref.whole cc1_scratch0) fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [owns_whole]
theorem before1 (c : Dev nD) (t : Fin cfg1.N) : (∀ d, (dat1 V c).before 0 t d = iblk1 V c 0 t) := by
  exact fun d => ((dat1 V c).before_in_eq_fetched _ rfl (fun _ => rfl) (fun _ _ _ => rfl)
    (fun t => by simp only [after1_0]; unfold Dat.blockOf iblk1; rw [A_eq1]; try rfl) t d).trans
    (by unfold Dat.fetched Dat.blockOf iblk1; rw [A_eq1]; try rfl)
/-- By cases on the point: first, middle or last of its row. -/
theorem body_obligation1 (c : Dev nD) : BodyObligation (dat1 (F := F) V c) (defs₀ (F := F)) Variants.none () Set.univ := fun t => by
  rw [bigSep_W1, bigSep_W1]
  show iprop(PhiS1 V c t.val (Nat.le_of_lt t.isLt) ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d)))
    ⊢ wp frame (wpE (defs₀ (F := F)) Variants.none c none) Set.univ (bodyAt1 t) (fun _ =>
      iprop(PhiS1 V c (t.val + 1) t.isLt ∗ (dat1 V c).owesAt () t.castSucc
        ∗ owns (c : Thread nD τ) (st1_0 t) fullShare (iblk1 V c 0 t) ∗ (dat1 V c).leavesExact 1 t))
  simp only [before1 V c t]
  rw [PhiS1_succ]
  by_cases h1 : t.val % 250 = 249
  · have h0 : ¬t.val % 250 = 0 := by omega
    rw [show (dat1 V c).leavesExact 1 t = owns (c : Thread nD τ) (st1_1 t) fullShare ((dat1 V c).after 1 t) from by
      unfold Dat.leavesExact; rw [liveAt1_1 _ ((hcond1_1 t).mpr h1)], after1_1,
      acc1_next V c t h0, PhiS1_pos V c _ _ (by omega)]
    iintro ⟨⟨HS, HR, Hg⟩, Ho, ⟨%d0, H0⟩, ⟨%d1, H1⟩⟩
    iapply (kernelRun1 c (grid1.coords t) _ _ _ _ _ _ (iblk1 V c 0 t) _ _ _ _
      (.inr (.inr ⟨mt (hcond1_0 t).mp h0, (hcond1_1 t).mpr h1, rfl, rfl⟩)) Set.univ _)
    iframe H0 H1 HS
    iintro ⟨H0, H1, HS⟩
    iframe
  · rw [Dat.leavesExact_idle (dat1 V c) 1 t (idleAt1_1 _ (mt (hcond1_1 t).mp h1)) (noFlush1_1 t h1)]
    by_cases h0 : t.val % 250 = 0
    · rw [acc1_first V c t h0]
      by_cases hz : t.val = 0
      · rw [PhiS1_zero V c _ _ hz, PhiA1_eq]
        iintro ⟨⟨⟨⟨%ds, HS⟩, HR⟩, Hg⟩, Ho, ⟨%d0, H0⟩, ⟨%d1, H1⟩⟩
        iapply (kernelRun1 c (grid1.coords t) _ _ _ _ _ _ (iblk1 V c 0 t) _ _ _ _
          (.inl ⟨(hcond1_0 t).mpr h0, mt (hcond1_1 t).mp h1, rfl, rfl⟩) Set.univ _)
        iframe H0 H1 HS
        iintro ⟨H0, H1, HS⟩
        iframe
        iexists _; iexact H1
      · rw [PhiS1_pos V c _ _ hz]
        iintro ⟨⟨HS, HR, Hg⟩, Ho, ⟨%d0, H0⟩, ⟨%d1, H1⟩⟩
        iapply (kernelRun1 c (grid1.coords t) _ _ _ _ _ _ (iblk1 V c 0 t) _ _ _ _
          (.inl ⟨(hcond1_0 t).mpr h0, mt (hcond1_1 t).mp h1, rfl, rfl⟩) Set.univ _)
        iframe H0 H1 HS
        iintro ⟨H0, H1, HS⟩
        iframe
        iexists _; iexact H1
    · rw [acc1_next V c t h0, PhiS1_pos V c _ _ (fun e => h0 (by rw [e]))]
      iintro ⟨⟨HS, HR, Hg⟩, Ho, ⟨%d0, H0⟩, ⟨%d1, H1⟩⟩
      iapply (kernelRun1 c (grid1.coords t) _ _ _ _ _ _ (iblk1 V c 0 t) _ _ _ _
        (.inr (.inl ⟨mt (hcond1_0 t).mp h0, mt (hcond1_1 t).mp h1, rfl, rfl⟩)) Set.univ _)
      iframe H0 H1 HS
      iintro ⟨H0, H1, HS⟩
      iframe
      iexists _; iexact H1
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _
/-- After the last point the scratch's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 2500 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨HS, HR, Hg⟩
  iframe HR Hg
  iexists _; iexact HS
end Cert.Kernel.Hand
end
-- ==== Proof.KB.D2.lean ====
import proofs.«427224_j39238821216992_2_alg».proof.Proof.Gen.Kernel.Launch
import proofs.«427224_j39238821216992_2_alg».proof.Proof.Gen.Kernel.Skeleton
import proofs.«427224_j39238821216992_2_alg».proof.Proof.Gen.Kernel.Points
import Idealize.ShloMosaic.Lib.Pipeline.FrameBody
import Idealize.ShloMosaic.Lib.Ring
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))
def acc2 (c : Dev nD) : (n : ℕ) → n < cfg2.N → Vec F S2560x128 .f32
  | 0, hn => k2_pay2 (grid2.coords ⟨0, hn⟩) (iblk2 V c 0 ⟨0, hn⟩) (k2_pay1 (F := F)) (iblk2 V c 1 ⟨0, hn⟩)
  | n + 1, hn =>
    if hz : (n + 1) % 10 = 0 then
      k2_pay2 (grid2.coords ⟨n + 1, hn⟩) (iblk2 V c 0 ⟨n + 1, hn⟩) (k2_pay1 (F := F)) (iblk2 V c 1 ⟨n + 1, hn⟩)
    else
      k2_pay2 (grid2.coords ⟨n + 1, hn⟩) (iblk2 V c 0 ⟨n + 1, hn⟩) (acc2 c n (Nat.lt_of_succ_lt hn)) (iblk2 V c 1 ⟨n + 1, hn⟩)
theorem acc2_first (c : Dev nD) (t : Fin cfg2.N) (h : t.val % 10 = 0) :
    acc2 V c t.val t.isLt = k2_pay2 (grid2.coords t) (iblk2 V c 0 t) (k2_pay1 (F := F)) (iblk2 V c 1 t) := by
  obtain ⟨n, hn⟩ := t
  cases n with
  | zero => rfl
  | succ n => exact dif_pos h
theorem acc2_next (c : Dev nD) (t : Fin cfg2.N) (h : ¬ t.val % 10 = 0) :
    acc2 V c t.val t.isLt = k2_pay2 (grid2.coords t) (iblk2 V c 0 t)
      (acc2 V c (t.val - 1) (Nat.lt_of_le_of_lt (Nat.sub_le _ _) t.isLt)) (iblk2 V c 1 t) := by
  obtain ⟨n, hn⟩ := t
  cases n with
  | zero => exact absurd (Nat.zero_mod _) h
  | succ n => exact dif_neg h
def PhiS2 (c : Dev nD) : (n : ℕ) → n ≤ cfg2.N → sProp 𝕄
  | 0, _ => Pipeline.ΦA spec2 c
  | n + 1, hn => iprop(owns (c : Thread nD τ) (Memref.whole cc2_scratch0) fullShare (acc2 V c n hn) ∗ Pipeline.scopedRestBut (Ix := Unit) (Name := ℕ) (U := UR sig nD τ) (Lvl := ℕ) (Val := Elt F) spec2 c [cc2_scratch0] ∗ (∃ r, prngReg c r))
theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(owns (c : Thread nD τ) (Memref.whole cc2_scratch0) fullShare (acc2 V c n hn) ∗ Pipeline.scopedRestBut (Ix := Unit) (Name := ℕ) (U := UR sig nD τ) (Lvl := ℕ) (Val := Elt F) spec2 c [cc2_scratch0] ∗ (∃ r, prngReg c r)) := rfl
theorem PhiS2_pos (c : Dev nD) (n : ℕ) (h : n ≤ cfg2.N) (hz : n ≠ 0) :
    PhiS2 V c n h = iprop(owns (c : Thread nD τ) (Memref.whole cc2_scratch0) fullShare (acc2 V c (n - 1) (by omega)) ∗ Pipeline.scopedRestBut (Ix := Unit) (Name := ℕ) (U := UR sig nD τ) (Lvl := ℕ) (Val := Elt F) spec2 c [cc2_scratch0] ∗ (∃ r, prngReg c r)) := by
  cases n with
  | zero => exact absurd rfl hz
  | succ n => rfl
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (acc2 V c t.val t.isLt)
  Φ t := PhiS2 V c t.val (Nat.le_of_lt_succ t.isLt)
  q _ := fullShare
  owed _ := 0
theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay3 (acc2 V c t.val t.isLt) := by dsimp only [dat2]
end Cert.Kernel.Hand
end
-- ==== Proof.KB.R2.lean ====
import proofs.«427224_j39238821216992_2_alg».proof.Proof.KB.D2
import proofs.«427224_j39238821216992_2_alg».proof.Proof.KB.RLib
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
abbrev condFirst2 (i : grid2.Coords) : Prop := (Scalar.cmpi .ne (Scalar.extui (Scalar.cmpi .eq (BitVec.ofNat 32 (i 1).val) 0#32)) 0#32) = 1#1
abbrev condLast2 (i : grid2.Coords) : Prop := k2_cond2 i = 1#1
set_option maxHeartbeats 1000000 in
/-- The accumulator, zeroed first where the inner coordinate is zero, takes the point's contribution; where the inner axis ends the output is stored from it. -/
theorem run2 (c : Dev nD) (i : grid2.Coords) (arg2 : Memref sig .tc .vmem S2560x1 .i32) (harg2 : arg2.IsWhole) (arg3 : Memref sig .tc .vmem S2048x128 .f32) (harg3 : arg3.IsWhole) (arg4 : Memref sig .tc .vmem S2560x128 .bf16) (harg4 : arg4.IsWhole) (arg5 : Memref sig .tc .vmem S2560x128 .f32) (harg5 : arg5.IsWhole)
    (hFL : condFirst2 i → ¬ condLast2 i)
    (xa : Vec F S2560x1 .i32) (xb : Vec F S2048x128 .f32) (xo : Vec F S2560x128 .bf16) (xs : Vec F S2560x128 .f32) (E : Set ℕ) (K : PUnit → sProp 𝕄) :
    iprop(owns (c : Thread nD τ) arg2 fullShare xa ∗ owns (c : Thread nD τ) arg3 fullShare xb ∗ owns (c : Thread nD τ) arg4 fullShare xo ∗ owns (c : Thread nD τ) arg5 fullShare xs
        ∗ (iprop(owns (c : Thread nD τ) arg2 fullShare xa ∗ owns (c : Thread nD τ) arg3 fullShare xb
             ∗ owns (c : Thread nD τ) arg4 fullShare (if condLast2 i then k2_pay3 (k2_pay2 i xa (if condFirst2 i then k2_pay1 (F := F) else xs) xb) else xo)
             ∗ owns (c : Thread nD τ) arg5 fullShare (k2_pay2 i xa (if condFirst2 i then k2_pay1 (F := F) else xs) xb)) -∗ K ⟨⟩))
      ⊢ wp frame (wpE (defs₀ (F := F)) Variants.none c none) E (cc2__gather_kernel i arg2 harg2 arg3 harg3 arg4 harg4 arg5 harg5) K := by
  simp only [cc2__gather_kernel_eq_skeleton, owns_eq_unread harg2, owns_eq_unread harg3, owns_eq_unread harg4, owns_eq_unread harg5]
  unfold cc2__gather_kernel_skel
  iintro ⟨Ha, Hb, Ho, HS, Hk⟩
  by_cases hcF : condFirst2 i <;> by_cases hcL : condLast2 i
  · exact absurd hcL (hFL hcF)
  all_goals
    first | rw [if_pos hcF] | rw [if_neg hcF]
    first | rw [if_pos hcL] | rw [if_neg hcL]
    sl_exec (disch := first | exact hcF | exact hcL)
    sl_step
    iapply Hk
    iframe Ha Hb
    isplitl [Ho]
    · iapply heldAt harg4 c ?_ $$ Ho
      sl_unfold_run_names
      simp only [harg4.read_unread, read_writes_box, readAt_box, readCov_box]
    iapply heldAt harg5 c ?_ $$ HS
    sl_unfold_run_names
    simp only [read_writes_box, readAt_box, readCov_box]
theorem hcondFirst2 : ∀ t : Fin cfg2.N, condFirst2 (grid2.coords t) ↔ t.val % 10 = 0 :=
  (by decide +kernel : ∀ t : Fin grid2.N, condFirst2 (grid2.coords t) ↔ t.val % 10 = 0)
theorem hcondLast2 : ∀ t : Fin cfg2.N, condLast2 (grid2.coords t) ↔ t.val % 10 = 9 :=
  (by decide +kernel : ∀ t : Fin grid2.N, condLast2 (grid2.coords t) ↔ t.val % 10 = 9)
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
/-- The scoped buffers at some contents, the accumulator apart as a memref owned at some contents. -/
theorem PhiA2_eq (c : Dev nD) :
    (Pipeline.ΦA spec2 c : sProp 𝕄)
      = iprop(iprop(iprop((∃ d, owns (c : Thread nD τ) (Memref.whole cc2_scratch0) fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [owns_whole]; try rfl
/-- Before any point the accumulator is owned at some contents: after the first point, at what the point before left. -/
theorem phiOpen2 (c : Dev nD) (n : ℕ) (h : n ≤ cfg2.N) :
    PhiS2 V c n h ⊢ iprop(∃ xs, ⌜∀ hn : n ≠ 0, xs = acc2 V c (n - 1) (by omega)⌝ ∗ owns (c : Thread nD τ) (Memref.whole cc2_scratch0) fullShare xs
      ∗ Pipeline.scopedRestBut (Ix := Unit) (Name := ℕ) (U := UR sig nD τ) (Lvl := ℕ) (Val := Elt F) spec2 c [cc2_scratch0] ∗ (∃ r, prngReg c r)) := by
  by_cases hn : n = 0
  · rw [PhiS2_zero V c n h hn, PhiA2_eq]; iintro ⟨⟨⟨%xs, HS⟩, Hr⟩, Hg⟩
    iexists xs; iframe HS Hr Hg; ipureintro; exact fun h' => absurd hn h'
  · rw [PhiS2_pos V c n h hn]; iintro ⟨HS, Hr, Hg⟩
    iexists _; iframe HS Hr Hg; ipureintro; exact fun _ => rfl
/-- A point's accumulator is the body's step from the contents before it, zeros standing in where the inner coordinate is zero. -/
theorem accStep2 (c : Dev nD) (t : Fin cfg2.N) (xs : Vec F S2560x128 .f32) (h : ∀ hn : t.val ≠ 0, xs = acc2 V c (t.val - 1) (by omega)) :
    k2_pay2 (grid2.coords t) (iblk2 V c 0 t) (if condFirst2 (grid2.coords t) then k2_pay1 (F := F) else xs) (iblk2 V c 1 t) = acc2 V c t.val t.isLt := by
  by_cases hz : t.val % 10 = 0
  · rw [if_pos ((hcondFirst2 t).mpr hz), acc2_first V c t hz]
  · rw [if_neg fun hF => hz ((hcondFirst2 t).mp hF), acc2_next V c t hz, h fun h0 => hz (by rw [h0])]
/-- Where the inner axis ends the output holds the accumulator narrowed; elsewhere what it held. -/
theorem leavesOut2 (c : Dev nD) (t : Fin cfg2.N) (d) :
    owns (c : Thread nD τ) (win2_2.stage (cfg2.slots t 2)) fullShare (if condLast2 (grid2.coords t) then k2_pay3 (acc2 V c t.val t.isLt) else (dat2 V c).before 2 t d)
      ⊢ (dat2 V c).leavesExact 2 t := by
  by_cases hL : condLast2 (grid2.coords t)
  · rw [if_pos hL, ← after2_2]; unfold Dat.leavesExact
    rw [show cfg2.idle 2 (grid2.coords t) = false by show (!(k2_cond2 (grid2.coords t) == 1#1)) = false; simpa using hL]
  · rw [if_neg hL, Dat.leavesExact_idle _ 2 t (by show (!(k2_cond2 (grid2.coords t) == 1#1)) = true; simpa using hL)
      (Bool.eq_false_iff.mpr fun hf => hL ((hcondLast2 t).mpr ((flush2_2 t).mp hf)))]
    iintro H; iexists d; iexact H
/-- Each point's body turns the invariant before it into the invariant after it. -/
theorem sound_body2 (c : Dev nD) (t : Fin cfg2.N) :
    iprop((dat2 V c).Φ t.castSucc ∗ (dat2 V c).owesAt () t.castSucc
      ∗ (∃ d, owns (c : Thread nD τ) (win2_0.stage (cfg2.slots t 0)) fullShare ((dat2 V c).before 0 t d))
      ∗ (∃ d, owns (c : Thread nD τ) (win2_1.stage (cfg2.slots t 1)) fullShare ((dat2 V c).before 1 t d))
      ∗ (∃ d, owns (c : Thread nD τ) (win2_2.stage (cfg2.slots t 2)) fullShare ((dat2 V c).before 2 t d)))
    ⊢ wp frame (wpE (defs₀ (F := F)) Variants.none c none) Set.univ (bodyAt2 t) (fun _ =>
      iprop(PhiS2 V c (t.val + 1) t.isLt ∗ (dat2 V c).owesAt () t.castSucc
        ∗ owns (c : Thread nD τ) (win2_0.stage (cfg2.slots t 0)) fullShare (iblk2 V c 0 t)
        ∗ owns (c : Thread nD τ) (win2_1.stage (cfg2.slots t 1)) fullShare (iblk2 V c 1 t)
        ∗ (dat2 V c).leavesExact 2 t)) := by
  unfold bodyAt2
  simp only [before2_0, before2_1]
  rw [PhiS2_castSucc V c t, PhiS2_succ]
  iintro ⟨HΦ, Ho, ⟨%da, Ha⟩, ⟨%db, Hb⟩, ⟨%dc, Hc⟩⟩
  ihave ⟨%xs, %hxs, HS, Hr, Hg⟩ := phiOpen2 V c _ _ $$ HΦ
  iapply run2 c (grid2.coords t) _ _ _ _ _ _ _ _ (fun hF hL => by have := (hcondFirst2 t).mp hF; have := (hcondLast2 t).mp hL; omega) (iblk2 V c 0 t) (iblk2 V c 1 t) _ xs Set.univ _
  iframe Ha Hb Hc HS
  rw [accStep2 V c t xs hxs]
  iintro ⟨Ha, Hb, Hc, HS⟩
  iframe HS Hr Hg Ho Ha Hb
  iapply leavesOut2 V c t dc $$ Hc
theorem body_obligation2 (c : Dev nD) : BodyObligation (dat2 (F := F) V c) (defs₀ (F := F)) Variants.none () Set.univ := fun t => by
  rw [bigSep_W2, bigSep_W2]
  exact sound_body2 V c t
theorem hin2 (c : Dev nD) : Pipeline.ΦA spec2 c ⊢ (dat2 V c).Φ 0 := .rfl
theorem hout2 (c : Dev nD) : (dat2 V c).Φ (Fin.last cfg2.N) ⊢ Pipeline.ΦA spec2 c :=
  (phiOpen2 V c _ (Nat.le_of_lt_succ (Fin.last cfg2.N).isLt)).trans (by rw [PhiA2_eq]; iintro ⟨%xs, -, HS, Hr, Hg⟩; iframe Hr Hg; iexists xs; iexact HS)
end Cert.Kernel.Hand
end
-- ==== Proof.KB.D3.lean ====
import proofs.«427224_j39238821216992_2_alg».proof.Proof.Gen.Kernel.Launch
import proofs.«427224_j39238821216992_2_alg».proof.Proof.Gen.Kernel.Skeleton
import proofs.«427224_j39238821216992_2_alg».proof.Proof.Gen.Kernel.Points
import Idealize.ShloMosaic.Lib.Pipeline.FrameBody
import Idealize.ShloMosaic.Lib.Ring
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))
def acc3 (c : Dev nD) : (n : ℕ) → n < cfg3.N → Vec F S2048x128 .f32
  | 0, hn => k3_pay2 (grid3.coords ⟨0, hn⟩) (iblk3 V c 0 ⟨0, hn⟩) (k3_pay1 (F := F)) (iblk3 V c 1 ⟨0, hn⟩)
  | n + 1, hn =>
    if h : (n + 1) % 250 = 0 then
      k3_pay2 (grid3.coords ⟨n + 1, hn⟩) (iblk3 V c 0 ⟨n + 1, hn⟩) (k3_pay1 (F := F)) (iblk3 V c 1 ⟨n + 1, hn⟩)
    else
      k3_pay2 (grid3.coords ⟨n + 1, hn⟩) (iblk3 V c 0 ⟨n + 1, hn⟩) (acc3 c n (Nat.lt_of_succ_lt hn)) (iblk3 V c 1 ⟨n + 1, hn⟩)
theorem acc3_first (c : Dev nD) (t : Fin cfg3.N) (h : t.val % 250 = 0) :
    acc3 V c t.val t.isLt = k3_pay2 (grid3.coords t) (iblk3 V c 0 t) (k3_pay1 (F := F)) (iblk3 V c 1 t) := by
  obtain ⟨n, hn⟩ := t
  cases n with
  | zero => rfl
  | succ n => exact dif_pos h
theorem acc3_next (c : Dev nD) (t : Fin cfg3.N) (h : ¬ t.val % 250 = 0) :
    acc3 V c t.val t.isLt = k3_pay2 (grid3.coords t) (iblk3 V c 0 t) (acc3 V c (t.val - 1) (Nat.lt_of_le_of_lt (Nat.sub_le _ _) t.isLt)) (iblk3 V c 1 t) := by
  obtain ⟨n, hn⟩ := t
  cases n with
  | zero => exact absurd (Nat.zero_mod _) h
  | succ n => exact dif_neg h
def PhiS3 (c : Dev nD) : (n : ℕ) → n ≤ cfg3.N → sProp 𝕄
  | 0, _ => Pipeline.ΦA spec3 c
  | n + 1, hn => iprop(owns (c : Thread nD τ) (Memref.whole cc3_scratch0) fullShare (acc3 V c n hn) ∗ Pipeline.scopedRestBut (Ix := Unit) (Name := ℕ) (U := UR sig nD τ) (Lvl := ℕ) (Val := Elt F) spec3 c [cc3_scratch0] ∗ (∃ r, prngReg c r))
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := PhiS3 V c t.val (Nat.le_of_lt_succ t.isLt)
  q _ := fullShare
  owed _ := 0
theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val t.isLt := by dsimp only [dat3]
theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(owns (c : Thread nD τ) (Memref.whole cc3_scratch0) fullShare (acc3 V c n hn) ∗ Pipeline.scopedRestBut (Ix := Unit) (Name := ℕ) (U := UR sig nD τ) (Lvl := ℕ) (Val := Elt F) spec3 c [cc3_scratch0] ∗ (∃ r, prngReg c r)) := rfl
theorem PhiS3_pos (c : Dev nD) (n : ℕ) (h : n ≤ cfg3.N) (hz : n ≠ 0) :
    PhiS3 V c n h = iprop(owns (c : Thread nD τ) (Memref.whole cc3_scratch0) fullShare (acc3 V c (n - 1) (by omega)) ∗ Pipeline.scopedRestBut (Ix := Unit) (Name := ℕ) (U := UR sig nD τ) (Lvl := ℕ) (Val := Elt F) spec3 c [cc3_scratch0] ∗ (∃ r, prngReg c r)) := by
  cases n with
  | zero => exact absurd rfl hz
  | succ n => rfl
theorem PhiS3_castSucc (c : Dev nD) (t : Fin cfg3.N) :
    (dat3 V c).Φ t.castSucc = PhiS3 V c t.val (Nat.le_of_lt t.isLt) := by
  dsimp only [dat3]; simp only [Fin.coe_castSucc]
end Cert.Kernel.Hand
end
-- ==== Proof.KB.R3.lean ====
import proofs.«427224_j39238821216992_2_alg».proof.Proof.KB.D3
import proofs.«427224_j39238821216992_2_alg».proof.Proof.KB.RLib
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
abbrev cond3_1 (i : grid3.Coords) : Prop := (Scalar.cmpi .ne (Scalar.extui (Scalar.cmpi .eq (BitVec.ofNat 32 (i 1).val) 0#32)) 0#32) = 1#1
abbrev cond3_2 (i : grid3.Coords) : Prop := k3_cond2 i = 1#1
set_option maxHeartbeats 1000000 in
/-- The accumulator, zeroed first where the inner coordinate is zero, takes the point's contribution; where the inner axis ends the output is stored from it. -/
theorem run3 (c : Dev nD) (i : grid3.Coords) (arg2 : Memref sig .tc .vmem S1x2560 .i32) (harg2 : arg2.IsWhole) (arg3 : Memref sig .tc .vmem S2560x128 .bf16) (harg3 : arg3.IsWhole) (arg4 : Memref sig .tc .vmem S2048x128 .f32) (harg4 : arg4.IsWhole) (arg5 : Memref sig .tc .vmem S2048x128 .f32) (harg5 : arg5.IsWhole)
    (hFL : cond3_1 i → ¬ cond3_2 i)
    (xa : Vec F S1x2560 .i32) (xb : Vec F S2560x128 .bf16) (xo : Vec F S2048x128 .f32) (xs : Vec F S2048x128 .f32) (E : Set ℕ) (K : PUnit → sProp 𝕄) :
    iprop(owns (c : Thread nD τ) arg2 fullShare xa ∗ owns (c : Thread nD τ) arg3 fullShare xb ∗ owns (c : Thread nD τ) arg4 fullShare xo ∗ owns (c : Thread nD τ) arg5 fullShare xs
        ∗ (iprop(owns (c : Thread nD τ) arg2 fullShare xa ∗ owns (c : Thread nD τ) arg3 fullShare xb
             ∗ owns (c : Thread nD τ) arg4 fullShare (if cond3_2 i then k3_pay2 i xa (if cond3_1 i then k3_pay1 (F := F) else xs) xb else xo)
             ∗ owns (c : Thread nD τ) arg5 fullShare (k3_pay2 i xa (if cond3_1 i then k3_pay1 (F := F) else xs) xb)) -∗ K ⟨⟩))
      ⊢ wp frame (wpE (defs₀ (F := F)) Variants.none c none) E (cc3__scatter_kernel i arg2 harg2 arg3 harg3 arg4 harg4 arg5 harg5) K := by
  simp only [cc3__scatter_kernel_eq_skeleton, owns_eq_unread harg2, owns_eq_unread harg3, owns_eq_unread harg4, owns_eq_unread harg5]
  unfold cc3__scatter_kernel_skel
  iintro ⟨Ha, Hb, Ho, HS, Hk⟩
  by_cases hcF : cond3_1 i <;> by_cases hcL : cond3_2 i
  · exact absurd hcL (hFL hcF)
  all_goals
    first | rw [if_pos hcF] | rw [if_neg hcF]
    first | rw [if_pos hcL] | rw [if_neg hcL]
    sl_exec (disch := first | exact hcF | exact hcL)
    sl_step
    iapply Hk
    iframe Ha Hb
    isplitl [Ho]
    · iapply heldAt harg4 c ?_ $$ Ho
      sl_unfold_run_names
      simp only [harg4.read_unread, read_writes_box, readAt_box, readCov_box]
    iapply heldAt harg5 c ?_ $$ HS
    sl_unfold_run_names
    simp only [read_writes_box, readAt_box, readCov_box]
theorem hcond3_1 : ∀ t : Fin cfg3.N, cond3_1 (grid3.coords t) ↔ t.val % 250 = 0 :=
  (by decide +kernel : ∀ t : Fin grid3.N, cond3_1 (grid3.coords t) ↔ t.val % 250 = 0)
theorem hcond3_2 : ∀ t : Fin cfg3.N, cond3_2 (grid3.coords t) ↔ t.val % 250 = 249 :=
  (by decide +kernel : ∀ t : Fin grid3.N, cond3_2 (grid3.coords t) ↔ t.val % 250 = 249)
theorem before3_0 (c : Dev nD) (t : Fin cfg3.N) (d) : (dat3 V c).before 0 t d = iblk3 V c 0 t := by
  rw [Dat.before_fetched _ 0 t (fetch3_0 t) d]
  unfold Dat.fetched Dat.blockOf iblk3; rw [A_eq3]; try rfl
theorem before3_1 (c : Dev nD) (t : Fin cfg3.N) (d) : (dat3 V c).before 1 t d = iblk3 V c 1 t := by
  rw [Dat.before_fetched _ 1 t (fetch3_1 t) d]
  unfold Dat.fetched Dat.blockOf iblk3; rw [A_eq3]; try rfl
/-- The scoped buffers at some contents, the accumulator apart as a memref owned at some contents. -/
theorem PhiA3_eq (c : Dev nD) :
    (Pipeline.ΦA spec3 c : sProp 𝕄)
      = iprop(iprop(iprop((∃ d, owns (c : Thread nD τ) (Memref.whole cc3_scratch0) fullShare d)) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [owns_whole]; try rfl
/-- Before any point the accumulator is owned at some contents: after the first point, at what the point before left. -/
theorem phiOpen3 (c : Dev nD) (n : ℕ) (h : n ≤ cfg3.N) :
    PhiS3 V c n h ⊢ iprop(∃ xs, ⌜∀ hn : n ≠ 0, xs = acc3 V c (n - 1) (by omega)⌝ ∗ owns (c : Thread nD τ) (Memref.whole cc3_scratch0) fullShare xs
      ∗ Pipeline.scopedRestBut (Ix := Unit) (Name := ℕ) (U := UR sig nD τ) (Lvl := ℕ) (Val := Elt F) spec3 c [cc3_scratch0] ∗ (∃ r, prngReg c r)) := by
  by_cases hn : n = 0
  · rw [PhiS3_zero V c n h hn, PhiA3_eq]; iintro ⟨⟨⟨%xs, HS⟩, Hr⟩, Hg⟩
    iexists xs; iframe HS Hr Hg; ipureintro; exact fun h' => absurd hn h'
  · rw [PhiS3_pos V c n h hn]; iintro ⟨HS, Hr, Hg⟩
    iexists _; iframe HS Hr Hg; ipureintro; exact fun _ => rfl
/-- A point's accumulator is the body's step from the contents before it, zeros standing in where the inner coordinate is zero. -/
theorem accStep3 (c : Dev nD) (t : Fin cfg3.N) (xs : Vec F S2048x128 .f32) (h : ∀ hn : t.val ≠ 0, xs = acc3 V c (t.val - 1) (by omega)) :
    k3_pay2 (grid3.coords t) (iblk3 V c 0 t) (if cond3_1 (grid3.coords t) then k3_pay1 (F := F) else xs) (iblk3 V c 1 t) = acc3 V c t.val t.isLt := by
  by_cases hz : t.val % 250 = 0
  · rw [if_pos ((hcond3_1 t).mpr hz), acc3_first V c t hz]
  · rw [if_neg fun hF => hz ((hcond3_1 t).mp hF), acc3_next V c t hz, h fun h0 => hz (by rw [h0])]
/-- Where the inner axis ends the output holds the accumulator; elsewhere what it held. -/
theorem leavesOut3 (c : Dev nD) (t : Fin cfg3.N) (d) :
    owns (c : Thread nD τ) (win3_2.stage (cfg3.slots t 2)) fullShare (if cond3_2 (grid3.coords t) then acc3 V c t.val t.isLt else (dat3 V c).before 2 t d)
      ⊢ (dat3 V c).leavesExact 2 t := by
  by_cases hL : cond3_2 (grid3.coords t)
  · rw [if_pos hL, ← after3_2]; unfold Dat.leavesExact
    rw [show cfg3.idle 2 (grid3.coords t) = false by show (!(k3_cond2 (grid3.coords t) == 1#1)) = false; simpa using hL]
  · rw [if_neg hL, Dat.leavesExact_idle _ 2 t (by show (!(k3_cond2 (grid3.coords t) == 1#1)) = true; simpa using hL)
      (Bool.eq_false_iff.mpr fun hf => hL ((hcond3_2 t).mpr ((flush3_2 t).mp hf)))]
    iintro H; iexists d; iexact H
/-- Each point's body turns the invariant before it into the invariant after it. -/
theorem sound_body3 (c : Dev nD) (t : Fin cfg3.N) :
    iprop((dat3 V c).Φ t.castSucc ∗ (dat3 V c).owesAt () t.castSucc
      ∗ (∃ d, owns (c : Thread nD τ) (win3_0.stage (cfg3.slots t 0)) fullShare ((dat3 V c).before 0 t d))
      ∗ (∃ d, owns (c : Thread nD τ) (win3_1.stage (cfg3.slots t 1)) fullShare ((dat3 V c).before 1 t d))
      ∗ (∃ d, owns (c : Thread nD τ) (win3_2.stage (cfg3.slots t 2)) fullShare ((dat3 V c).before 2 t d)))
    ⊢ wp frame (wpE (defs₀ (F := F)) Variants.none c none) Set.univ (bodyAt3 t) (fun _ =>
      iprop(PhiS3 V c (t.val + 1) t.isLt ∗ (dat3 V c).owesAt () t.castSucc
        ∗ owns (c : Thread nD τ) (win3_0.stage (cfg3.slots t 0)) fullShare (iblk3 V c 0 t)
        ∗ owns (c : Thread nD τ) (win3_1.stage (cfg3.slots t 1)) fullShare (iblk3 V c 1 t)
        ∗ (dat3 V c).leavesExact 2 t)) := by
  unfold bodyAt3
  simp only [before3_0, before3_1]
  rw [PhiS3_castSucc V c t, PhiS3_succ]
  iintro ⟨HΦ, Ho, ⟨%da, Ha⟩, ⟨%db, Hb⟩, ⟨%dc, Hc⟩⟩
  ihave ⟨%xs, %hxs, HS, Hr, Hg⟩ := phiOpen3 V c _ _ $$ HΦ
  iapply run3 c (grid3.coords t) _ _ _ _ _ _ _ _ (fun hF hL => by have := (hcond3_1 t).mp hF; have := (hcond3_2 t).mp hL; omega) (iblk3 V c 0 t) (iblk3 V c 1 t) _ xs Set.univ _
  iframe Ha Hb Hc HS
  rw [accStep3 V c t xs hxs]
  iintro ⟨Ha, Hb, Hc, HS⟩
  iframe HS Hr Hg Ho Ha Hb
  iapply leavesOut3 V c t dc $$ Hc
theorem body_obligation3 (c : Dev nD) : BodyObligation (dat3 (F := F) V c) (defs₀ (F := F)) Variants.none () Set.univ := fun t => by
  rw [bigSep_W3, bigSep_W3]
  exact sound_body3 V c t
theorem hin3 (c : Dev nD) : Pipeline.ΦA spec3 c ⊢ (dat3 V c).Φ 0 := .rfl
theorem hout3 (c : Dev nD) : (dat3 V c).Φ (Fin.last cfg3.N) ⊢ Pipeline.ΦA spec3 c :=
  (phiOpen3 V c _ (Nat.le_of_lt_succ (Fin.last cfg3.N).isLt)).trans (by rw [PhiA3_eq]; iintro ⟨%xs, -, HS, Hr, Hg⟩; iframe Hr Hg; iexists xs; iexact HS)
end Cert.Kernel.Hand
end
-- ==== Proof.KB.D4.lean ====
import proofs.«427224_j39238821216992_2_alg».proof.Proof.Gen.Kernel.Launch
import proofs.«427224_j39238821216992_2_alg».proof.Proof.Gen.Kernel.Skeleton
import proofs.«427224_j39238821216992_2_alg».proof.Proof.Gen.Kernel.Points
import Idealize.ShloMosaic.Lib.Pipeline.FrameBody
import Idealize.ShloMosaic.Lib.Ring
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))
def acc4 (c : Dev nD) : (n : ℕ) → n < cfg4.N → Vec F S2560x128 .f32
  | 0, hn => k4_pay2 (grid4.coords ⟨0, hn⟩) (iblk4 V c 0 ⟨0, hn⟩) (k4_pay1 (F := F)) (iblk4 V c 1 ⟨0, hn⟩)
  | n + 1, hn =>
    if hz : (n + 1) % 10 = 0 then
      k4_pay2 (grid4.coords ⟨n + 1, hn⟩) (iblk4 V c 0 ⟨n + 1, hn⟩) (k4_pay1 (F := F)) (iblk4 V c 1 ⟨n + 1, hn⟩)
    else
      k4_pay2 (grid4.coords ⟨n + 1, hn⟩) (iblk4 V c 0 ⟨n + 1, hn⟩) (acc4 c n (Nat.lt_of_succ_lt hn)) (iblk4 V c 1 ⟨n + 1, hn⟩)
theorem acc4_first (c : Dev nD) (t : Fin cfg4.N) (h : t.val % 10 = 0) :
    acc4 V c t.val t.isLt = k4_pay2 (grid4.coords t) (iblk4 V c 0 t) (k4_pay1 (F := F)) (iblk4 V c 1 t) := by
  obtain ⟨n, hn⟩ := t
  cases n with
  | zero => rfl
  | succ n => exact dif_pos h
theorem acc4_next (c : Dev nD) (t : Fin cfg4.N) (h : ¬ t.val % 10 = 0) :
    acc4 V c t.val t.isLt = k4_pay2 (grid4.coords t) (iblk4 V c 0 t)
      (acc4 V c (t.val - 1) (Nat.lt_of_le_of_lt (Nat.sub_le _ _) t.isLt)) (iblk4 V c 1 t) := by
  obtain ⟨n, hn⟩ := t
  cases n with
  | zero => exact absurd (Nat.zero_mod _) h
  | succ n => exact dif_neg h
def PhiS4 (c : Dev nD) : (n : ℕ) → n ≤ cfg4.N → sProp 𝕄
  | 0, _ => Pipeline.ΦA spec4 c
  | n + 1, hn => iprop(owns (c : Thread nD τ) (Memref.whole cc4_scratch0) fullShare (acc4 V c n hn) ∗ Pipeline.scopedRestBut (Ix := Unit) (Name := ℕ) (U := UR sig nD τ) (Lvl := ℕ) (Val := Elt F) spec4 c [cc4_scratch0] ∗ (∃ r, prngReg c r))
theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(owns (c : Thread nD τ) (Memref.whole cc4_scratch0) fullShare (acc4 V c n hn) ∗ Pipeline.scopedRestBut (Ix := Unit) (Name := ℕ) (U := UR sig nD τ) (Lvl := ℕ) (Val := Elt F) spec4 c [cc4_scratch0] ∗ (∃ r, prngReg c r)) := rfl
theorem PhiS4_pos (c : Dev nD) (n : ℕ) (h : n ≤ cfg4.N) (hz : n ≠ 0) :
    PhiS4 V c n h = iprop(owns (c : Thread nD τ) (Memref.whole cc4_scratch0) fullShare (acc4 V c (n - 1) (by omega)) ∗ Pipeline.scopedRestBut (Ix := Unit) (Name := ℕ) (U := UR sig nD τ) (Lvl := ℕ) (Val := Elt F) spec4 c [cc4_scratch0] ∗ (∃ r, prngReg c r)) := by
  cases n with
  | zero => exact absurd rfl hz
  | succ n => rfl
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k4_pay3 (acc4 V c t.val t.isLt)
  Φ t := PhiS4 V c t.val (Nat.le_of_lt_succ t.isLt)
  q _ := fullShare
  owed _ := 0
theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = k4_pay3 (acc4 V c t.val t.isLt) := by dsimp only [dat4]
end Cert.Kernel.Hand
end
-- ==== Proof.KB.R4.lean ====
import proofs.«427224_j39238821216992_2_alg».proof.Proof.KB.D4
import proofs.«427224_j39238821216992_2_alg».proof.Proof.KB.RLib
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
abbrev condFirst4 (i : grid4.Coords) : Prop := (Scalar.cmpi .ne (Scalar.extui (Scalar.cmpi .eq (BitVec.ofNat 32 (i 1).val) 0#32)) 0#32) = 1#1
abbrev condLast4 (i : grid4.Coords) : Prop := k4_cond2 i = 1#1
set_option maxHeartbeats 1000000 in
/-- The accumulator, zeroed first where the inner coordinate is zero, takes the point's contribution; where the inner axis ends the output is stored from it. -/
theorem run4 (c : Dev nD) (i : grid4.Coords) (arg2 : Memref sig .tc .vmem S2560x1 .i32) (harg2 : arg2.IsWhole) (arg3 : Memref sig .tc .vmem S2048x128 .f32) (harg3 : arg3.IsWhole) (arg4 : Memref sig .tc .vmem S2560x128 .bf16) (harg4 : arg4.IsWhole) (arg5 : Memref sig .tc .vmem S2560x128 .f32) (harg5 : arg5.IsWhole)
    (hFL : condFirst4 i → ¬ condLast4 i)
    (xa : Vec F S2560x1 .i32) (xb : Vec F S2048x128 .f32) (xo : Vec F S2560x128 .bf16) (xs : Vec F S2560x128 .f32) (E : Set ℕ) (K : PUnit → sProp 𝕄) :
    iprop(owns (c : Thread nD τ) arg2 fullShare xa ∗ owns (c : Thread nD τ) arg3 fullShare xb ∗ owns (c : Thread nD τ) arg4 fullShare xo ∗ owns (c : Thread nD τ) arg5 fullShare xs
        ∗ (iprop(owns (c : Thread nD τ) arg2 fullShare xa ∗ owns (c : Thread nD τ) arg3 fullShare xb
             ∗ owns (c : Thread nD τ) arg4 fullShare (if condLast4 i then k4_pay3 (k4_pay2 i xa (if condFirst4 i then k4_pay1 (F := F) else xs) xb) else xo)
             ∗ owns (c : Thread nD τ) arg5 fullShare (k4_pay2 i xa (if condFirst4 i then k4_pay1 (F := F) else xs) xb)) -∗ K ⟨⟩))
      ⊢ wp frame (wpE (defs₀ (F := F)) Variants.none c none) E (cc4__gather_kernel i arg2 harg2 arg3 harg3 arg4 harg4 arg5 harg5) K := by
  simp only [cc4__gather_kernel_eq_skeleton, owns_eq_unread harg2, owns_eq_unread harg3, owns_eq_unread harg4, owns_eq_unread harg5]
  unfold cc4__gather_kernel_skel
  iintro ⟨Ha, Hb, Ho, HS, Hk⟩
  by_cases hcF : condFirst4 i <;> by_cases hcL : condLast4 i
  · exact absurd hcL (hFL hcF)
  all_goals
    first | rw [if_pos hcF] | rw [if_neg hcF]
    first | rw [if_pos hcL] | rw [if_neg hcL]
    sl_exec (disch := first | exact hcF | exact hcL)
    sl_step
    iapply Hk
    iframe Ha Hb
    isplitl [Ho]
    · iapply heldAt harg4 c ?_ $$ Ho
      sl_unfold_run_names
      simp only [harg4.read_unread, read_writes_box, readAt_box, readCov_box]
    iapply heldAt harg5 c ?_ $$ HS
    sl_unfold_run_names
    simp only [read_writes_box, readAt_box, readCov_box]
theorem hcondFirst4 : ∀ t : Fin cfg4.N, condFirst4 (grid4.coords t) ↔ t.val % 10 = 0 :=
  (by decide +kernel : ∀ t : Fin grid4.N, condFirst4 (grid4.coords t) ↔ t.val % 10 = 0)
theorem hcondLast4 : ∀ t : Fin cfg4.N, condLast4 (grid4.coords t) ↔ t.val % 10 = 9 :=
  (by decide +kernel : ∀ t : Fin grid4.N, condLast4 (grid4.coords t) ↔ t.val % 10 = 9)
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
/-- The scoped buffers at some contents, the accumulator apart as a memref owned at some contents. -/
theorem PhiA4_eq (c : Dev nD) :
    (Pipeline.ΦA spec4 c : sProp 𝕄)
      = iprop(iprop(iprop((∃ d, owns (c : Thread nD τ) (Memref.whole cc4_scratch0) fullShare d)) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [owns_whole]; try rfl
/-- Before any point the accumulator is owned at some contents: after the first point, at what the point before left. -/
theorem phiOpen4 (c : Dev nD) (n : ℕ) (h : n ≤ cfg4.N) :
    PhiS4 V c n h ⊢ iprop(∃ xs, ⌜∀ hn : n ≠ 0, xs = acc4 V c (n - 1) (by omega)⌝ ∗ owns (c : Thread nD τ) (Memref.whole cc4_scratch0) fullShare xs
      ∗ Pipeline.scopedRestBut (Ix := Unit) (Name := ℕ) (U := UR sig nD τ) (Lvl := ℕ) (Val := Elt F) spec4 c [cc4_scratch0] ∗ (∃ r, prngReg c r)) := by
  by_cases hn : n = 0
  · rw [PhiS4_zero V c n h hn, PhiA4_eq]; iintro ⟨⟨⟨%xs, HS⟩, Hr⟩, Hg⟩
    iexists xs; iframe HS Hr Hg; ipureintro; exact fun h' => absurd hn h'
  · rw [PhiS4_pos V c n h hn]; iintro ⟨HS, Hr, Hg⟩
    iexists _; iframe HS Hr Hg; ipureintro; exact fun _ => rfl
/-- A point's accumulator is the body's step from the contents before it, zeros standing in where the inner coordinate is zero. -/
theorem accStep4 (c : Dev nD) (t : Fin cfg4.N) (xs : Vec F S2560x128 .f32) (h : ∀ hn : t.val ≠ 0, xs = acc4 V c (t.val - 1) (by omega)) :
    k4_pay2 (grid4.coords t) (iblk4 V c 0 t) (if condFirst4 (grid4.coords t) then k4_pay1 (F := F) else xs) (iblk4 V c 1 t) = acc4 V c t.val t.isLt := by
  by_cases hz : t.val % 10 = 0
  · rw [if_pos ((hcondFirst4 t).mpr hz), acc4_first V c t hz]
  · rw [if_neg fun hF => hz ((hcondFirst4 t).mp hF), acc4_next V c t hz, h fun h0 => hz (by rw [h0])]
/-- Where the inner axis ends the output holds the accumulator narrowed; elsewhere what it held. -/
theorem leavesOut4 (c : Dev nD) (t : Fin cfg4.N) (d) :
    owns (c : Thread nD τ) (win4_2.stage (cfg4.slots t 2)) fullShare (if condLast4 (grid4.coords t) then k4_pay3 (acc4 V c t.val t.isLt) else (dat4 V c).before 2 t d)
      ⊢ (dat4 V c).leavesExact 2 t := by
  by_cases hL : condLast4 (grid4.coords t)
  · rw [if_pos hL, ← after4_2]; unfold Dat.leavesExact
    rw [show cfg4.idle 2 (grid4.coords t) = false by show (!(k4_cond2 (grid4.coords t) == 1#1)) = false; simpa using hL]
  · rw [if_neg hL, Dat.leavesExact_idle _ 2 t (by show (!(k4_cond2 (grid4.coords t) == 1#1)) = true; simpa using hL)
      (Bool.eq_false_iff.mpr fun hf => hL ((hcondLast4 t).mpr ((flush4_2 t).mp hf)))]
    iintro H; iexists d; iexact H
/-- Each point's body turns the invariant before it into the invariant after it. -/
theorem sound_body4 (c : Dev nD) (t : Fin cfg4.N) :
    iprop((dat4 V c).Φ t.castSucc ∗ (dat4 V c).owesAt () t.castSucc
      ∗ (∃ d, owns (c : Thread nD τ) (win4_0.stage (cfg4.slots t 0)) fullShare ((dat4 V c).before 0 t d))
      ∗ (∃ d, owns (c : Thread nD τ) (win4_1.stage (cfg4.slots t 1)) fullShare ((dat4 V c).before 1 t d))
      ∗ (∃ d, owns (c : Thread nD τ) (win4_2.stage (cfg4.slots t 2)) fullShare ((dat4 V c).before 2 t d)))
    ⊢ wp frame (wpE (defs₀ (F := F)) Variants.none c none) Set.univ (bodyAt4 t) (fun _ =>
      iprop(PhiS4 V c (t.val + 1) t.isLt ∗ (dat4 V c).owesAt () t.castSucc
        ∗ owns (c : Thread nD τ) (win4_0.stage (cfg4.slots t 0)) fullShare (iblk4 V c 0 t)
        ∗ owns (c : Thread nD τ) (win4_1.stage (cfg4.slots t 1)) fullShare (iblk4 V c 1 t)
        ∗ (dat4 V c).leavesExact 2 t)) := by
  unfold bodyAt4
  simp only [before4_0, before4_1]
  rw [PhiS4_castSucc V c t, PhiS4_succ]
  iintro ⟨HΦ, Ho, ⟨%da, Ha⟩, ⟨%db, Hb⟩, ⟨%dc, Hc⟩⟩
  ihave ⟨%xs, %hxs, HS, Hr, Hg⟩ := phiOpen4 V c _ _ $$ HΦ
  iapply run4 c (grid4.coords t) _ _ _ _ _ _ _ _ (fun hF hL => by have := (hcondFirst4 t).mp hF; have := (hcondLast4 t).mp hL; omega) (iblk4 V c 0 t) (iblk4 V c 1 t) _ xs Set.univ _
  iframe Ha Hb Hc HS
  rw [accStep4 V c t xs hxs]
  iintro ⟨Ha, Hb, Hc, HS⟩
  iframe HS Hr Hg Ho Ha Hb
  iapply leavesOut4 V c t dc $$ Hc
theorem body_obligation4 (c : Dev nD) : BodyObligation (dat4 (F := F) V c) (defs₀ (F := F)) Variants.none () Set.univ := fun t => by
  rw [bigSep_W4, bigSep_W4]
  exact sound_body4 V c t
theorem hin4 (c : Dev nD) : Pipeline.ΦA spec4 c ⊢ (dat4 V c).Φ 0 := .rfl
theorem hout4 (c : Dev nD) : (dat4 V c).Φ (Fin.last cfg4.N) ⊢ Pipeline.ΦA spec4 c :=
  (phiOpen4 V c _ (Nat.le_of_lt_succ (Fin.last cfg4.N).isLt)).trans (by rw [PhiA4_eq]; iintro ⟨%xs, -, HS, Hr, Hg⟩; iframe Hr Hg; iexists xs; iexact HS)
end Cert.Kernel.Hand
end
-- ==== Proof.KB.D5.lean ====
import proofs.«427224_j39238821216992_2_alg».proof.Proof.Gen.Kernel.Launch
import proofs.«427224_j39238821216992_2_alg».proof.Proof.Gen.Kernel.Skeleton
import proofs.«427224_j39238821216992_2_alg».proof.Proof.Gen.Kernel.Points
import Idealize.ShloMosaic.Lib.Pipeline.FrameBody
import Idealize.ShloMosaic.Lib.Ring
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))
def acc5 (c : Dev nD) : (n : ℕ) → n < cfg5.N → Vec F S2048x128 .f32
  | 0, hn => k5_pay2 (grid5.coords ⟨0, hn⟩) (iblk5 V c 0 ⟨0, hn⟩) (k5_pay1 (F := F)) (iblk5 V c 1 ⟨0, hn⟩)
  | n + 1, hn =>
    if h : (n + 1) % 250 = 0 then
      k5_pay2 (grid5.coords ⟨n + 1, hn⟩) (iblk5 V c 0 ⟨n + 1, hn⟩) (k5_pay1 (F := F)) (iblk5 V c 1 ⟨n + 1, hn⟩)
    else
      k5_pay2 (grid5.coords ⟨n + 1, hn⟩) (iblk5 V c 0 ⟨n + 1, hn⟩) (acc5 c n (Nat.lt_of_succ_lt hn)) (iblk5 V c 1 ⟨n + 1, hn⟩)
theorem acc5_first (c : Dev nD) (t : Fin cfg5.N) (h : t.val % 250 = 0) :
    acc5 V c t.val t.isLt = k5_pay2 (grid5.coords t) (iblk5 V c 0 t) (k5_pay1 (F := F)) (iblk5 V c 1 t) := by
  obtain ⟨n, hn⟩ := t
  cases n with
  | zero => rfl
  | succ n => exact dif_pos h
theorem acc5_next (c : Dev nD) (t : Fin cfg5.N) (h : ¬ t.val % 250 = 0) :
    acc5 V c t.val t.isLt = k5_pay2 (grid5.coords t) (iblk5 V c 0 t) (acc5 V c (t.val - 1) (Nat.lt_of_le_of_lt (Nat.sub_le _ _) t.isLt)) (iblk5 V c 1 t) := by
  obtain ⟨n, hn⟩ := t
  cases n with
  | zero => exact absurd (Nat.zero_mod _) h
  | succ n => exact dif_neg h
def PhiS5 (c : Dev nD) : (n : ℕ) → n ≤ cfg5.N → sProp 𝕄
  | 0, _ => Pipeline.ΦA spec5 c
  | n + 1, hn => iprop(owns (c : Thread nD τ) (Memref.whole cc5_scratch0) fullShare (acc5 V c n hn) ∗ Pipeline.scopedRestBut (Ix := Unit) (Name := ℕ) (U := UR sig nD τ) (Lvl := ℕ) (Val := Elt F) spec5 c [cc5_scratch0] ∗ (∃ r, prngReg c r))
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => acc5 V c t.val t.isLt
  Φ t := PhiS5 V c t.val (Nat.le_of_lt_succ t.isLt)
  q _ := fullShare
  owed _ := 0
theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = acc5 V c t.val t.isLt := by dsimp only [dat5]
theorem PhiS5_zero (c : Dev nD) (n : ℕ) (h : n ≤ cfg5.N) (hz : n = 0) : PhiS5 V c n h = Pipeline.ΦA spec5 c := by
  subst hz; rfl
theorem PhiS5_succ (c : Dev nD) (n : ℕ) (hn : n < cfg5.N) :
    PhiS5 V c (n + 1) hn = iprop(owns (c : Thread nD τ) (Memref.whole cc5_scratch0) fullShare (acc5 V c n hn) ∗ Pipeline.scopedRestBut (Ix := Unit) (Name := ℕ) (U := UR sig nD τ) (Lvl := ℕ) (Val := Elt F) spec5 c [cc5_scratch0] ∗ (∃ r, prngReg c r)) := rfl
theorem PhiS5_pos (c : Dev nD) (n : ℕ) (h : n ≤ cfg5.N) (hz : n ≠ 0) :
    PhiS5 V c n h = iprop(owns (c : Thread nD τ) (Memref.whole cc5_scratch0) fullShare (acc5 V c (n - 1) (by omega)) ∗ Pipeline.scopedRestBut (Ix := Unit) (Name := ℕ) (U := UR sig nD τ) (Lvl := ℕ) (Val := Elt F) spec5 c [cc5_scratch0] ∗ (∃ r, prngReg c r)) := by
  cases n with
  | zero => exact absurd rfl hz
  | succ n => rfl
theorem PhiS5_castSucc (c : Dev nD) (t : Fin cfg5.N) :
    (dat5 V c).Φ t.castSucc = PhiS5 V c t.val (Nat.le_of_lt t.isLt) := by
  dsimp only [dat5]; simp only [Fin.coe_castSucc]
end Cert.Kernel.Hand
end
-- ==== Proof.KB.R5.lean ====
import proofs.«427224_j39238821216992_2_alg».proof.Proof.KB.D5
import proofs.«427224_j39238821216992_2_alg».proof.Proof.KB.RLib
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
abbrev cond5_1 (i : grid5.Coords) : Prop := (Scalar.cmpi .ne (Scalar.extui (Scalar.cmpi .eq (BitVec.ofNat 32 (i 1).val) 0#32)) 0#32) = 1#1
abbrev cond5_2 (i : grid5.Coords) : Prop := k5_cond2 i = 1#1
set_option maxHeartbeats 1000000 in
/-- The accumulator, zeroed first where the inner coordinate is zero, takes the point's contribution; where the inner axis ends the output is stored from it. -/
theorem run5 (c : Dev nD) (i : grid5.Coords) (arg2 : Memref sig .tc .vmem S1x2560 .i32) (harg2 : arg2.IsWhole) (arg3 : Memref sig .tc .vmem S2560x128 .bf16) (harg3 : arg3.IsWhole) (arg4 : Memref sig .tc .vmem S2048x128 .f32) (harg4 : arg4.IsWhole) (arg5 : Memref sig .tc .vmem S2048x128 .f32) (harg5 : arg5.IsWhole)
    (hFL : cond5_1 i → ¬ cond5_2 i)
    (xa : Vec F S1x2560 .i32) (xb : Vec F S2560x128 .bf16) (xo : Vec F S2048x128 .f32) (xs : Vec F S2048x128 .f32) (E : Set ℕ) (K : PUnit → sProp 𝕄) :
    iprop(owns (c : Thread nD τ) arg2 fullShare xa ∗ owns (c : Thread nD τ) arg3 fullShare xb ∗ owns (c : Thread nD τ) arg4 fullShare xo ∗ owns (c : Thread nD τ) arg5 fullShare xs
        ∗ (iprop(owns (c : Thread nD τ) arg2 fullShare xa ∗ owns (c : Thread nD τ) arg3 fullShare xb
             ∗ owns (c : Thread nD τ) arg4 fullShare (if cond5_2 i then k5_pay2 i xa (if cond5_1 i then k5_pay1 (F := F) else xs) xb else xo)
             ∗ owns (c : Thread nD τ) arg5 fullShare (k5_pay2 i xa (if cond5_1 i then k5_pay1 (F := F) else xs) xb)) -∗ K ⟨⟩))
      ⊢ wp frame (wpE (defs₀ (F := F)) Variants.none c none) E (cc5__scatter_kernel i arg2 harg2 arg3 harg3 arg4 harg4 arg5 harg5) K := by
  simp only [cc5__scatter_kernel_eq_skeleton, owns_eq_unread harg2, owns_eq_unread harg3, owns_eq_unread harg4, owns_eq_unread harg5]
  unfold cc5__scatter_kernel_skel
  iintro ⟨Ha, Hb, Ho, HS, Hk⟩
  by_cases hcF : cond5_1 i <;> by_cases hcL : cond5_2 i
  · exact absurd hcL (hFL hcF)
  all_goals
    first | rw [if_pos hcF] | rw [if_neg hcF]
    first | rw [if_pos hcL] | rw [if_neg hcL]
    sl_exec (disch := first | exact hcF | exact hcL)
    sl_step
    iapply Hk
    iframe Ha Hb
    isplitl [Ho]
    · iapply heldAt harg4 c ?_ $$ Ho
      sl_unfold_run_names
      simp only [harg4.read_unread, read_writes_box, readAt_box, readCov_box]
    iapply heldAt harg5 c ?_ $$ HS
    sl_unfold_run_names
    simp only [read_writes_box, readAt_box, readCov_box]
theorem hcond5_1 : ∀ t : Fin cfg5.N, cond5_1 (grid5.coords t) ↔ t.val % 250 = 0 :=
  (by decide +kernel : ∀ t : Fin grid5.N, cond5_1 (grid5.coords t) ↔ t.val % 250 = 0)
theorem hcond5_2 : ∀ t : Fin cfg5.N, cond5_2 (grid5.coords t) ↔ t.val % 250 = 249 :=
  (by decide +kernel : ∀ t : Fin grid5.N, cond5_2 (grid5.coords t) ↔ t.val % 250 = 249)
theorem before5_0 (c : Dev nD) (t : Fin cfg5.N) (d) : (dat5 V c).before 0 t d = iblk5 V c 0 t := by
  rw [Dat.before_fetched _ 0 t (fetch5_0 t) d]
  unfold Dat.fetched Dat.blockOf iblk5; rw [A_eq5]; try rfl
theorem before5_1 (c : Dev nD) (t : Fin cfg5.N) (d) : (dat5 V c).before 1 t d = iblk5 V c 1 t := by
  rw [Dat.before_fetched _ 1 t (fetch5_1 t) d]
  unfold Dat.fetched Dat.blockOf iblk5; rw [A_eq5]; try rfl
/-- The scoped buffers at some contents, the accumulator apart as a memref owned at some contents. -/
theorem PhiA5_eq (c : Dev nD) :
    (Pipeline.ΦA spec5 c : sProp 𝕄)
      = iprop(iprop(iprop((∃ d, owns (c : Thread nD τ) (Memref.whole cc5_scratch0) fullShare d)) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [owns_whole]; try rfl
/-- Before any point the accumulator is owned at some contents: after the first point, at what the point before left. -/
theorem phiOpen5 (c : Dev nD) (n : ℕ) (h : n ≤ cfg5.N) :
    PhiS5 V c n h ⊢ iprop(∃ xs, ⌜∀ hn : n ≠ 0, xs = acc5 V c (n - 1) (by omega)⌝ ∗ owns (c : Thread nD τ) (Memref.whole cc5_scratch0) fullShare xs
      ∗ Pipeline.scopedRestBut (Ix := Unit) (Name := ℕ) (U := UR sig nD τ) (Lvl := ℕ) (Val := Elt F) spec5 c [cc5_scratch0] ∗ (∃ r, prngReg c r)) := by
  by_cases hn : n = 0
  · rw [PhiS5_zero V c n h hn, PhiA5_eq]; iintro ⟨⟨⟨%xs, HS⟩, Hr⟩, Hg⟩
    iexists xs; iframe HS Hr Hg; ipureintro; exact fun h' => absurd hn h'
  · rw [PhiS5_pos V c n h hn]; iintro ⟨HS, Hr, Hg⟩
    iexists _; iframe HS Hr Hg; ipureintro; exact fun _ => rfl
/-- A point's accumulator is the body's step from the contents before it, zeros standing in where the inner coordinate is zero. -/
theorem accStep5 (c : Dev nD) (t : Fin cfg5.N) (xs : Vec F S2048x128 .f32) (h : ∀ hn : t.val ≠ 0, xs = acc5 V c (t.val - 1) (by omega)) :
    k5_pay2 (grid5.coords t) (iblk5 V c 0 t) (if cond5_1 (grid5.coords t) then k5_pay1 (F := F) else xs) (iblk5 V c 1 t) = acc5 V c t.val t.isLt := by
  by_cases hz : t.val % 250 = 0
  · rw [if_pos ((hcond5_1 t).mpr hz), acc5_first V c t hz]
  · rw [if_neg fun hF => hz ((hcond5_1 t).mp hF), acc5_next V c t hz, h fun h0 => hz (by rw [h0])]
/-- Where the inner axis ends the output holds the accumulator; elsewhere what it held. -/
theorem leavesOut5 (c : Dev nD) (t : Fin cfg5.N) (d) :
    owns (c : Thread nD τ) (win5_2.stage (cfg5.slots t 2)) fullShare (if cond5_2 (grid5.coords t) then acc5 V c t.val t.isLt else (dat5 V c).before 2 t d)
      ⊢ (dat5 V c).leavesExact 2 t := by
  by_cases hL : cond5_2 (grid5.coords t)
  · rw [if_pos hL, ← after5_2]; unfold Dat.leavesExact
    rw [show cfg5.idle 2 (grid5.coords t) = false by show (!(k5_cond2 (grid5.coords t) == 1#1)) = false; simpa using hL]
  · rw [if_neg hL, Dat.leavesExact_idle _ 2 t (by show (!(k5_cond2 (grid5.coords t) == 1#1)) = true; simpa using hL)
      (Bool.eq_false_iff.mpr fun hf => hL ((hcond5_2 t).mpr ((flush5_2 t).mp hf)))]
    iintro H; iexists d; iexact H
/-- Each point's body turns the invariant before it into the invariant after it. -/
theorem sound_body5 (c : Dev nD) (t : Fin cfg5.N) :
    iprop((dat5 V c).Φ t.castSucc ∗ (dat5 V c).owesAt () t.castSucc
      ∗ (∃ d, owns (c : Thread nD τ) (win5_0.stage (cfg5.slots t 0)) fullShare ((dat5 V c).before 0 t d))
      ∗ (∃ d, owns (c : Thread nD τ) (win5_1.stage (cfg5.slots t 1)) fullShare ((dat5 V c).before 1 t d))
      ∗ (∃ d, owns (c : Thread nD τ) (win5_2.stage (cfg5.slots t 2)) fullShare ((dat5 V c).before 2 t d)))
    ⊢ wp frame (wpE (defs₀ (F := F)) Variants.none c none) Set.univ (bodyAt5 t) (fun _ =>
      iprop(PhiS5 V c (t.val + 1) t.isLt ∗ (dat5 V c).owesAt () t.castSucc
        ∗ owns (c : Thread nD τ) (win5_0.stage (cfg5.slots t 0)) fullShare (iblk5 V c 0 t)
        ∗ owns (c : Thread nD τ) (win5_1.stage (cfg5.slots t 1)) fullShare (iblk5 V c 1 t)
        ∗ (dat5 V c).leavesExact 2 t)) := by
  unfold bodyAt5
  simp only [before5_0, before5_1]
  rw [PhiS5_castSucc V c t, PhiS5_succ]
  iintro ⟨HΦ, Ho, ⟨%da, Ha⟩, ⟨%db, Hb⟩, ⟨%dc, Hc⟩⟩
  ihave ⟨%xs, %hxs, HS, Hr, Hg⟩ := phiOpen5 V c _ _ $$ HΦ
  iapply run5 c (grid5.coords t) _ _ _ _ _ _ _ _ (fun hF hL => by have := (hcond5_1 t).mp hF; have := (hcond5_2 t).mp hL; omega) (iblk5 V c 0 t) (iblk5 V c 1 t) _ xs Set.univ _
  iframe Ha Hb Hc HS
  rw [accStep5 V c t xs hxs]
  iintro ⟨Ha, Hb, Hc, HS⟩
  iframe HS Hr Hg Ho Ha Hb
  iapply leavesOut5 V c t dc $$ Hc
theorem body_obligation5 (c : Dev nD) : BodyObligation (dat5 (F := F) V c) (defs₀ (F := F)) Variants.none () Set.univ := fun t => by
  rw [bigSep_W5, bigSep_W5]
  exact sound_body5 V c t
theorem hin5 (c : Dev nD) : Pipeline.ΦA spec5 c ⊢ (dat5 V c).Φ 0 := .rfl
theorem hout5 (c : Dev nD) : (dat5 V c).Φ (Fin.last cfg5.N) ⊢ Pipeline.ΦA spec5 c :=
  (phiOpen5 V c _ (Nat.le_of_lt_succ (Fin.last cfg5.N).isLt)).trans (by rw [PhiA5_eq]; iintro ⟨%xs, -, HS, Hr, Hg⟩; iframe Hr Hg; iexists xs; iexact HS)
end Cert.Kernel.Hand
end
-- ==== Proof.KB.D6.lean ====
import proofs.«427224_j39238821216992_2_alg».proof.Proof.Gen.Kernel.Launch
import proofs.«427224_j39238821216992_2_alg».proof.Proof.Gen.Kernel.Skeleton
import proofs.«427224_j39238821216992_2_alg».proof.Proof.Gen.Kernel.Points
import Idealize.ShloMosaic.Lib.Pipeline.FrameBody
import Idealize.ShloMosaic.Lib.Ring
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))
def out6 (c : Dev nD) (t : Fin cfg6.N) : Vec F S2000x128 .f32 :=
  k6_pay1 (iblk6 V c 0 t) (iblk6 V c 2 t) (iblk6 V c 1 t) (iblk6 V c 3 t) (iblk6 V c 4 t)
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6 V c t
  Φ _ := Pipeline.ΦA spec6 c
  q _ := fullShare
  owed _ := 0
theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6 V c t := by dsimp only [dat6]
end Cert.Kernel.Hand
end
-- ==== Proof.KB.R6.lean ====
import proofs.«427224_j39238821216992_2_alg».proof.Proof.KB.D6
import proofs.«427224_j39238821216992_2_alg».proof.Proof.KB.RLib
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
theorem before6 (c : Dev nD) (t : Fin cfg6.N) : (∀ d, (dat6 V c).before 0 t d = iblk6 V c 0 t)
    ∧ (∀ d, (dat6 V c).before 1 t d = iblk6 V c 1 t)
    ∧ (∀ d, (dat6 V c).before 2 t d = iblk6 V c 2 t)
    ∧ (∀ d, (dat6 V c).before 3 t d = iblk6 V c 3 t)
    ∧ (∀ d, (dat6 V c).before 4 t d = iblk6 V c 4 t) := by
  refine ⟨?_, ?_, ?_, ?_, ?_⟩ <;> exact fun d => ((dat6 V c).before_in_eq_fetched _ rfl (fun _ => rfl) (fun _ _ _ => rfl)
    (fun t => by simp only [after6_0, after6_1, after6_2, after6_3, after6_4]; unfold Dat.blockOf iblk6; rw [A_eq6]; try rfl) t d).trans
    (by unfold Dat.fetched Dat.blockOf iblk6; rw [A_eq6]; try rfl)
/-- Every load of the body reads a whole buffer and its one store covers the output's, which then reads the payload. -/
theorem sound_kernel6 (c : Dev nD) (E : Set ℕ) (i : grid6.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S2000x128 .f32) (harg6 : arg6.IsWhole)
    (x0 x1 xo : Vec F S2000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xo
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k6_pay1 x0 x2 x1 x3 x4)) -∗ K ⟨⟩))
      ⊢ wp frame (wpE (defs₀ (F := F)) Variants.none c none) E (cc6__sage_kernel i arg1 harg1 arg2 harg2 arg3 harg3 arg4 harg4 arg5 harg5 arg6 harg6) K := by
  simp only [cc6__sage_kernel_eq_skeleton]; unfold cc6__sage_kernel_skel
  rw [owns_eq_unread harg1, owns_eq_unread harg2, owns_eq_unread harg3, owns_eq_unread harg4, owns_eq_unread harg5, owns_eq_unread harg6 c _ xo]
  iintro ⟨H0, H1, H2, H3, H4, H5, Hk⟩
  sl_exec
  sl_step
  iapply Hk
  iframe H0 H1 H2 H3 H4
  unfold owns; iexists _; isplitr
  swap; · iexact H5
  ipureintro
  simp only [read_writes_box, readAt_box]
theorem body_obligation6 (c : Dev nD) : BodyObligation (dat6 (F := F) V c) (defs₀ (F := F)) Variants.none () Set.univ := fun t => by
  rw [bigSep_W6, bigSep_W6]
  show iprop((dat6 V c).Φ t.castSucc ∗ (dat6 V c).owesAt () t.castSucc
      ∗ (∃ d, owns (c : Thread nD τ) (st6_0 t) fullShare ((dat6 V c).before 0 t d))
      ∗ (∃ d, owns (c : Thread nD τ) (st6_1 t) fullShare ((dat6 V c).before 1 t d))
      ∗ (∃ d, owns (c : Thread nD τ) (st6_2 t) fullShare ((dat6 V c).before 2 t d))
      ∗ (∃ d, owns (c : Thread nD τ) (st6_3 t) fullShare ((dat6 V c).before 3 t d))
      ∗ (∃ d, owns (c : Thread nD τ) (st6_4 t) fullShare ((dat6 V c).before 4 t d))
      ∗ (∃ d, owns (c : Thread nD τ) (st6_5 t) fullShare ((dat6 V c).before 5 t d)))
    ⊢ wp frame (wpE (defs₀ (F := F)) Variants.none c none) Set.univ (bodyAt6 t) (fun _ =>
      iprop((dat6 V c).Φ t.castSucc ∗ (dat6 V c).owesAt () t.castSucc
        ∗ owns (c : Thread nD τ) (st6_0 t) fullShare (iblk6 V c 0 t) ∗ owns (c : Thread nD τ) (st6_1 t) fullShare (iblk6 V c 1 t)
        ∗ owns (c : Thread nD τ) (st6_2 t) fullShare (iblk6 V c 2 t) ∗ owns (c : Thread nD τ) (st6_3 t) fullShare (iblk6 V c 3 t)
        ∗ owns (c : Thread nD τ) (st6_4 t) fullShare (iblk6 V c 4 t) ∗ owns (c : Thread nD τ) (st6_5 t) fullShare (out6 V c t)))
  simp only [(before6 V c t).1, (before6 V c t).2.1, (before6 V c t).2.2.1, (before6 V c t).2.2.2.1, (before6 V c t).2.2.2.2]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _
    (iblk6 V c 0 t) (iblk6 V c 1 t) _ (iblk6 V c 2 t) (iblk6 V c 3 t) (iblk6 V c 4 t) _)
  iframe H0 H1 H2 H3 H4 H5
  iintro ⟨H0, H1, H2, H3, H4, H5⟩
  iframe
  iexact H5
theorem hin6 (c : Dev nD) : Pipeline.ΦA spec6 c ⊢ (dat6 V c).Φ 0 := .rfl
theorem hout6 (c : Dev nD) : (dat6 V c).Φ (Fin.last cfg6.N) ⊢ Pipeline.ΦA spec6 c := .rfl
end Cert.Kernel.Hand
end
-- ==== Proof.KB.D7.lean ====
import proofs.«427224_j39238821216992_2_alg».proof.Proof.Gen.Kernel.Launch
import proofs.«427224_j39238821216992_2_alg».proof.Proof.Gen.Kernel.Skeleton
import proofs.«427224_j39238821216992_2_alg».proof.Proof.Gen.Kernel.Points
import Idealize.ShloMosaic.Lib.Pipeline.FrameBody
import Idealize.ShloMosaic.Lib.Ring
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))
def acc7 (c : Dev nD) : (n : ℕ) → n < cfg7.N → Vec F S32x128 .f32
  | 0, hn => k7_pay2 (grid7.coords ⟨0, hn⟩) (iblk7 V c 0 ⟨0, hn⟩) (k7_pay1 (F := F)) (iblk7 V c 1 ⟨0, hn⟩)
  | n + 1, hn =>
    if (n + 1) % 8 = 0 then
      k7_pay2 (grid7.coords ⟨n + 1, hn⟩) (iblk7 V c 0 ⟨n + 1, hn⟩) (k7_pay1 (F := F)) (iblk7 V c 1 ⟨n + 1, hn⟩)
    else
      k7_pay2 (grid7.coords ⟨n + 1, hn⟩) (iblk7 V c 0 ⟨n + 1, hn⟩) (acc7 c n (Nat.lt_of_succ_lt hn)) (iblk7 V c 1 ⟨n + 1, hn⟩)
theorem acc7_first (c : Dev nD) (t : Fin cfg7.N) (h : t.val % 8 = 0) :
    acc7 V c t.val t.isLt = k7_pay2 (grid7.coords t) (iblk7 V c 0 t) (k7_pay1 (F := F)) (iblk7 V c 1 t) := by
  obtain ⟨n, hn⟩ := t
  cases n with
  | zero => rfl
  | succ n => exact if_pos h
theorem acc7_next (c : Dev nD) (t : Fin cfg7.N) (h : ¬ t.val % 8 = 0) :
    acc7 V c t.val t.isLt = k7_pay2 (grid7.coords t) (iblk7 V c 0 t) (acc7 V c (t.val - 1) (Nat.lt_of_le_of_lt (Nat.sub_le _ _) t.isLt)) (iblk7 V c 1 t) := by
  obtain ⟨n, hn⟩ := t
  cases n with
  | zero => exact absurd (Nat.zero_mod _) h
  | succ n => exact if_neg h
def PhiS7 (c : Dev nD) : (n : ℕ) → n ≤ cfg7.N → sProp 𝕄
  | 0, _ => Pipeline.ΦA spec7 c
  | n + 1, hn => iprop(owns (c : Thread nD τ) (Memref.whole cc7_scratch0) fullShare (acc7 V c n hn) ∗ Pipeline.scopedRestBut (Ix := Unit) (Name := ℕ) (U := UR sig nD τ) (Lvl := ℕ) (Val := Elt F) spec7 c [cc7_scratch0] ∗ (∃ r, prngReg c r))
theorem PhiS7_zero (c : Dev nD) (n : ℕ) (h : n ≤ cfg7.N) (hz : n = 0) : PhiS7 V c n h = Pipeline.ΦA spec7 c := by
  subst hz; rfl
theorem PhiS7_succ (c : Dev nD) (n : ℕ) (hn : n < cfg7.N) :
    PhiS7 V c (n + 1) hn = iprop(owns (c : Thread nD τ) (Memref.whole cc7_scratch0) fullShare (acc7 V c n hn) ∗ Pipeline.scopedRestBut (Ix := Unit) (Name := ℕ) (U := UR sig nD τ) (Lvl := ℕ) (Val := Elt F) spec7 c [cc7_scratch0] ∗ (∃ r, prngReg c r)) := rfl
theorem PhiS7_pos (c : Dev nD) (n : ℕ) (h : n ≤ cfg7.N) (hz : n ≠ 0) :
    PhiS7 V c n h = iprop(owns (c : Thread nD τ) (Memref.whole cc7_scratch0) fullShare (acc7 V c (n - 1) (by omega)) ∗ Pipeline.scopedRestBut (Ix := Unit) (Name := ℕ) (U := UR sig nD τ) (Lvl := ℕ) (Val := Elt F) spec7 c [cc7_scratch0] ∗ (∃ r, prngReg c r)) := by
  cases n with
  | zero => exact absurd rfl hz
  | succ n => rfl
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => acc7 V c t.val t.isLt
  Φ t := PhiS7 V c t.val (Nat.le_of_lt_succ t.isLt)
  q _ := fullShare
  owed _ := 0
theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = acc7 V c t.val t.isLt := by dsimp only [dat7]
theorem PhiS7_castSucc (c : Dev nD) (t : Fin cfg7.N) :
    (dat7 V c).Φ t.castSucc = PhiS7 V c t.val (Nat.le_of_lt t.isLt) := by
  dsimp only [dat7]; simp only [Fin.coe_castSucc]
end Cert.Kernel.Hand
end
-- ==== Proof.KB.R7.lean ====
import proofs.«427224_j39238821216992_2_alg».proof.Proof.KB.D7
import proofs.«427224_j39238821216992_2_alg».proof.Proof.KB.RLib
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
abbrev cond7_0 (i : grid7.Coords) : Prop := (Scalar.cmpi .ne (Scalar.extui (Scalar.cmpi .eq (BitVec.ofNat 32 (i 1).val) 0#32)) 0#32) = 1#1
theorem hcond7_0 : ∀ t : Fin cfg7.N, cond7_0 (grid7.coords t) ↔ t.val = 0 :=
  (by decide +kernel : ∀ t : Fin grid7.N, cond7_0 (grid7.coords t) ↔ t.val = 0)
abbrev cond7_1 (i : grid7.Coords) : Prop := k7_cond2 i = 1#1
theorem hcond7_1 : ∀ t : Fin cfg7.N, cond7_1 (grid7.coords t) ↔ t.val = 7 :=
  (by decide +kernel : ∀ t : Fin grid7.N, cond7_1 (grid7.coords t) ↔ t.val = 7)
theorem liveAt7_0 : ∀ t : Fin cfg7.N, cfg7.idle 0 (grid7.coords t) = false := by decide +kernel
theorem liveAt7_1 : ∀ t : Fin cfg7.N, cfg7.idle 1 (grid7.coords t) = false := by decide +kernel
theorem idleAt7_2 : ∀ t : Fin cfg7.N, t.val ≠ 7 → cfg7.idle 2 (grid7.coords t) = true := by decide +kernel
theorem noFlush7_2 : ∀ t : Fin cfg7.N, t.val ≠ 7 → (cfg7.win 2).flush t = false := by decide +kernel
theorem liveAt7_2 : ∀ t : Fin cfg7.N, t.val = 7 → cfg7.idle 2 (grid7.coords t) = false := by decide +kernel
/-- The three control cases: `a` is what the scratch accumulates onto, `o` what the output's buffer ends at. -/
theorem kernelRun7 (c : Dev nD) (i : grid7.Coords)
    (arg2 : Memref sig .tc .vmem S1x2560 .i32) (harg2 : arg2.IsWhole) (arg3 : Memref sig .tc .vmem S2560x128 .f32) (harg3 : arg3.IsWhole)
    (arg4 : Memref sig .tc .vmem S32x128 .f32) (harg4 : arg4.IsWhole) (arg5 : Memref sig .tc .vmem S32x128 .f32) (harg5 : arg5.IsWhole)
    (x0 : Vec F S1x2560 .i32) (x1 : Vec F S2560x128 .f32) (xo xs a o : Vec F S32x128 .f32)
    (h : (cond7_0 i ∧ ¬cond7_1 i ∧ a = k7_pay1 ∧ o = xo) ∨ (¬cond7_0 i ∧ ¬cond7_1 i ∧ a = xs ∧ o = xo)
      ∨ (¬cond7_0 i ∧ cond7_1 i ∧ a = xs ∧ o = k7_pay2 i x0 xs x1))
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare o
            ∗ owns (c : Thread nD τ) arg5 fullShare (k7_pay2 i x0 a x1)) -∗ K ⟨⟩))
      ⊢ wp frame (wpE (defs₀ (F := F)) Variants.none c none) E (cc7__scatter_kernel i arg2 harg2 arg3 harg3 arg4 harg4 arg5 harg5) K := by
  simp only [cc7__scatter_kernel_eq_skeleton]; unfold cc7__scatter_kernel_skel
  rw [owns_eq_unread harg2, owns_eq_unread harg3, owns_eq_unread harg4 c _ xo, owns_eq_unread harg5 c _ xs]
  iintro ⟨H0, H1, H2, HS, Hk⟩
  rcases h with ⟨hc0, hc1, rfl, rfl⟩ | ⟨hc0, hc1, rfl, rfl⟩ | ⟨hc0, hc1, rfl, rfl⟩ <;> (
    sl_exec (disch := first | exact hc0 | exact hc1)
    sl_step
    iapply Hk
    iframe H0 H1
    isplitl [H2] <;> (
      unfold owns; iexists _; isplitr
      swap; · iassumption
      ipureintro
      try sl_unfold_run_names
      simp only [read_writes_box, readAt_box, readCov_box, harg4.read_unread]))
/-- The class invariant, with the scratch as a memref owned at some contents. -/
theorem PhiA7_eq (c : Dev nD) :
    (Pipeline.ΦA spec7 c : sProp 𝕄)
      = iprop(iprop(iprop(∃ d, owns (c : Thread nD τ) (Memref.whole cc7_scratch0) fullShare d) ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [owns_whole]; try rfl
theorem before7 (c : Dev nD) (t : Fin cfg7.N) : (∀ d, (dat7 V c).before 0 t d = iblk7 V c 0 t)
    ∧ (∀ d, (dat7 V c).before 1 t d = iblk7 V c 1 t) := by
  refine ⟨?_, ?_⟩ <;> exact fun d => ((dat7 V c).before_in_eq_fetched _ rfl (fun _ => rfl) (fun _ _ _ => rfl)
    (fun t => by simp only [after7_0, after7_1]; unfold Dat.blockOf iblk7; rw [A_eq7]; try rfl) t d).trans
    (by unfold Dat.fetched Dat.blockOf iblk7; rw [A_eq7]; try rfl)
/-- By cases on the point: first, middle or last of its row. -/
theorem body_obligation7 (c : Dev nD) : BodyObligation (dat7 (F := F) V c) (defs₀ (F := F)) Variants.none () Set.univ := fun t => by
  rw [bigSep_W7, bigSep_W7]
  show iprop(PhiS7 V c t.val (Nat.le_of_lt t.isLt) ∗ (dat7 V c).owesAt () t.castSucc
      ∗ (∃ d, owns (c : Thread nD τ) (st7_0 t) fullShare ((dat7 V c).before 0 t d))
      ∗ (∃ d, owns (c : Thread nD τ) (st7_1 t) fullShare ((dat7 V c).before 1 t d))
      ∗ (∃ d, owns (c : Thread nD τ) (st7_2 t) fullShare ((dat7 V c).before 2 t d)))
    ⊢ wp frame (wpE (defs₀ (F := F)) Variants.none c none) Set.univ (bodyAt7 t) (fun _ =>
      iprop(PhiS7 V c (t.val + 1) t.isLt ∗ (dat7 V c).owesAt () t.castSucc
        ∗ (dat7 V c).leavesExact 0 t ∗ (dat7 V c).leavesExact 1 t ∗ (dat7 V c).leavesExact 2 t))
  simp only [(before7 V c t).1, (before7 V c t).2]
  rw [PhiS7_succ,
    show (dat7 V c).leavesExact 0 t = owns (c : Thread nD τ) (st7_0 t) fullShare ((dat7 V c).after 0 t) from by
      unfold Dat.leavesExact; rw [liveAt7_0 t], after7_0,
    show (dat7 V c).leavesExact 1 t = owns (c : Thread nD τ) (st7_1 t) fullShare ((dat7 V c).after 1 t) from by
      unfold Dat.leavesExact; rw [liveAt7_1 t], after7_1]
  have hN : t.val < 8 := lt_of_lt_of_eq t.isLt (show cfg7.N = 8 from N_7)
  by_cases h1 : t.val = 7
  · rw [show (dat7 V c).leavesExact 2 t = owns (c : Thread nD τ) (st7_2 t) fullShare ((dat7 V c).after 2 t) from by
      unfold Dat.leavesExact; rw [liveAt7_2 t h1], after7_2,
      acc7_next V c t (by omega), PhiS7_pos V c _ _ (by omega)]
    iintro ⟨⟨HS, HR, Hg⟩, Ho, ⟨%d0, H0⟩, ⟨%d1, H1⟩, ⟨%d2, H2⟩⟩
    iapply (kernelRun7 c (grid7.coords t) _ _ _ _ _ _ _ _ (iblk7 V c 0 t) (iblk7 V c 1 t) _ _ _ _
      (.inr (.inr ⟨mt (hcond7_0 t).mp (by omega), (hcond7_1 t).mpr h1, rfl, rfl⟩)) Set.univ _)
    iframe H0 H1 H2 HS
    iintro ⟨H0, H1, H2, HS⟩
    iframe
  · rw [Dat.leavesExact_idle (dat7 V c) 2 t (idleAt7_2 t h1) (noFlush7_2 t h1)]
    by_cases h0 : t.val = 0
    · rw [acc7_first V c t (by omega), PhiS7_zero V c _ _ h0, PhiA7_eq]
      iintro ⟨⟨⟨⟨%ds, HS⟩, HR⟩, Hg⟩, Ho, ⟨%d0, H0⟩, ⟨%d1, H1⟩, ⟨%d2, H2⟩⟩
      iapply (kernelRun7 c (grid7.coords t) _ _ _ _ _ _ _ _ (iblk7 V c 0 t) (iblk7 V c 1 t) _ _ _ _
        (.inl ⟨(hcond7_0 t).mpr h0, mt (hcond7_1 t).mp h1, rfl, rfl⟩) Set.univ _)
      iframe H0 H1 H2 HS
      iintro ⟨H0, H1, H2, HS⟩
      iframe
      iexists _; iexact H2
    · rw [acc7_next V c t (by omega), PhiS7_pos V c _ _ h0]
      iintro ⟨⟨HS, HR, Hg⟩, Ho, ⟨%d0, H0⟩, ⟨%d1, H1⟩, ⟨%d2, H2⟩⟩
      iapply (kernelRun7 c (grid7.coords t) _ _ _ _ _ _ _ _ (iblk7 V c 0 t) (iblk7 V c 1 t) _ _ _ _
        (.inr (.inl ⟨mt (hcond7_0 t).mp h0, mt (hcond7_1 t).mp h1, rfl, rfl⟩)) Set.univ _)
      iframe H0 H1 H2 HS
      iintro ⟨H0, H1, H2, HS⟩
      iframe
      iexists _; iexact H2
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _
/-- After the last point the scratch's contents are forgotten. -/
theorem hout7 (c : Dev nD) : (dat7 V c).Φ (Fin.last cfg7.N) ⊢ Pipeline.ΦA spec7 c := by
  have hne : (Fin.last cfg7.N).val ≠ 0 := by rw [Fin.val_last]; have : cfg7.N = 8 := N_7; omega
  rw [show (dat7 V c).Φ (Fin.last cfg7.N) = PhiS7 V c (Fin.last cfg7.N).val (Nat.le_of_lt_succ (Fin.last cfg7.N).isLt) from rfl,
    PhiS7_pos V c _ _ hne, PhiA7_eq]
  iintro ⟨HS, HR, Hg⟩
  iframe HR Hg
  iexists _; iexact HS
end Cert.Kernel.Hand
end
-- ==== Proof.KB.D8.lean ====
import proofs.«427224_j39238821216992_2_alg».proof.Proof.Gen.Kernel.Launch
import proofs.«427224_j39238821216992_2_alg».proof.Proof.Gen.Kernel.Skeleton
import proofs.«427224_j39238821216992_2_alg».proof.Proof.Gen.Kernel.Points
import Idealize.ShloMosaic.Lib.Pipeline.FrameBody
import Idealize.ShloMosaic.Lib.Ring
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))
def out8 (c : Dev nD) (t : Fin cfg8.N) : ((cfg8.win 3).xblock (cfg8.grid.coords t)).Idx → Elt F (cfg8.win 3).elt :=
  k8_pay1 (iblk8 V c 0 t) (iblk8 V c 1 t) (iblk8 V c 2 t)
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8 V c t
  Φ _ := Pipeline.ΦA spec8 c
  q _ := fullShare
  owed _ := 0
theorem A_eq8 (c : Dev nD) (w : Fin cfg8.W) : (dat8 V c).A w = V c (Pipeline.arrRef spec8 w) := by
  dsimp only [dat8]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8 V c t := by dsimp only [dat8]
end Cert.Kernel.Hand
end
-- ==== Proof.KB.R8.lean ====
import proofs.«427224_j39238821216992_2_alg».proof.Proof.KB.D8
import proofs.«427224_j39238821216992_2_alg».proof.Proof.KB.RLib
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
theorem before8 (c : Dev nD) (t : Fin cfg8.N) : (∀ d, (dat8 V c).before 0 t d = iblk8 V c 0 t)
    ∧ (∀ d, (dat8 V c).before 1 t d = iblk8 V c 1 t)
    ∧ (∀ d, (dat8 V c).before 2 t d = iblk8 V c 2 t) := by
  refine ⟨?_, ?_, ?_⟩ <;> exact fun d => ((dat8 V c).before_in_eq_fetched _ rfl (fun _ => rfl) (fun _ _ _ => rfl)
    (fun t => by simp only [after8_0, after8_1, after8_2]; unfold Dat.blockOf iblk8; rw [A_eq8]; try rfl) t d).trans
    (by unfold Dat.fetched Dat.blockOf iblk8; rw [A_eq8]; try rfl)
/-- Every load of the body reads a whole buffer and its one store covers the output's, which then reads the payload. -/
theorem sound_kernel8 (c : Dev nD) (E : Set ℕ) (i : grid8.Coords)
    (arg1 : Memref sig .tc .vmem S32x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S32x128 .f32) (harg4 : arg4.IsWhole)
    (x0 : Vec F S32x128 .f32) (x1 : Vec F S128x128 .f32) (x2 : Vec F S1x128 .f32) (xo : Vec F S32x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo
        ∗ (iprop(owns (c : Thread nD τ) arg1 fullShare x0 ∗ owns (c : Thread nD τ) arg2 fullShare x1 ∗ owns (c : Thread nD τ) arg3 fullShare x2
            ∗ owns (c : Thread nD τ) arg4 fullShare (k8_pay1 x0 x1 x2)) -∗ K ⟨⟩))
      ⊢ wp frame (wpE (defs₀ (F := F)) Variants.none c none) E (cc8__dense_kernel i arg1 harg1 arg2 harg2 arg3 harg3 arg4 harg4) K := by
  simp only [cc8__dense_kernel_eq_skeleton]; unfold cc8__dense_kernel_skel
  rw [owns_eq_unread harg1, owns_eq_unread harg2, owns_eq_unread harg3, owns_eq_unread harg4 c _ xo]
  iintro ⟨H0, H1, H2, H3, Hk⟩
  sl_exec
  sl_step
  iapply Hk
  iframe H0 H1 H2
  unfold owns; iexists _; isplitr
  swap; · iexact H3
  ipureintro
  simp only [read_writes_box, readAt_box]
theorem body_obligation8 (c : Dev nD) : BodyObligation (dat8 (F := F) V c) (defs₀ (F := F)) Variants.none () Set.univ := fun t => by
  rw [bigSep_W8, bigSep_W8]
  show iprop((dat8 V c).Φ t.castSucc ∗ (dat8 V c).owesAt () t.castSucc
      ∗ (∃ d, owns (c : Thread nD τ) (st8_0 t) fullShare ((dat8 V c).before 0 t d))
      ∗ (∃ d, owns (c : Thread nD τ) (st8_1 t) fullShare ((dat8 V c).before 1 t d))
      ∗ (∃ d, owns (c : Thread nD τ) (st8_2 t) fullShare ((dat8 V c).before 2 t d))
      ∗ (∃ d, owns (c : Thread nD τ) (st8_3 t) fullShare ((dat8 V c).before 3 t d)))
    ⊢ wp frame (wpE (defs₀ (F := F)) Variants.none c none) Set.univ (bodyAt8 t) (fun _ =>
      iprop((dat8 V c).Φ t.castSucc ∗ (dat8 V c).owesAt () t.castSucc
        ∗ owns (c : Thread nD τ) (st8_0 t) fullShare (iblk8 V c 0 t) ∗ owns (c : Thread nD τ) (st8_1 t) fullShare (iblk8 V c 1 t)
        ∗ owns (c : Thread nD τ) (st8_2 t) fullShare (iblk8 V c 2 t) ∗ owns (c : Thread nD τ) (st8_3 t) fullShare (out8 V c t)))
  simp only [(before8 V c t).1, (before8 V c t).2.1, (before8 V c t).2.2]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _ _)
  iframe H0 H1 H2 H3
  iintro ⟨H0, H1, H2, H3⟩
  iframe
  iexact H3
theorem hin8 (c : Dev nD) : Pipeline.ΦA spec8 c ⊢ (dat8 V c).Φ 0 := .rfl
theorem hout8 (c : Dev nD) : (dat8 V c).Φ (Fin.last cfg8.N) ⊢ Pipeline.ΦA spec8 c := .rfl
end Cert.Kernel.Hand
end
-- ==== Proof.KB.D9.lean ====
import proofs.«427224_j39238821216992_2_alg».proof.Proof.Gen.Kernel.Launch
import proofs.«427224_j39238821216992_2_alg».proof.Proof.Gen.Kernel.Skeleton
import proofs.«427224_j39238821216992_2_alg».proof.Proof.Gen.Kernel.Points
import Idealize.ShloMosaic.Lib.Pipeline.FrameBody
import Idealize.ShloMosaic.Lib.Ring
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))
def out9 (c : Dev nD) (t : Fin cfg9.N) : ((cfg9.win 3).xblock (cfg9.grid.coords t)).Idx → Elt F (cfg9.win 3).elt :=
  k9_pay1 (iblk9 V c 0 t) (iblk9 V c 1 t) (iblk9 V c 2 t)
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9 V c t
  Φ _ := Pipeline.ΦA spec9 c
  q _ := fullShare
  owed _ := 0
theorem A_eq9 (c : Dev nD) (w : Fin cfg9.W) : (dat9 V c).A w = V c (Pipeline.arrRef spec9 w) := by
  dsimp only [dat9]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9 V c t := by dsimp only [dat9]
end Cert.Kernel.Hand
end
-- ==== Proof.KB.R9.lean ====
import proofs.«427224_j39238821216992_2_alg».proof.Proof.KB.D9
import proofs.«427224_j39238821216992_2_alg».proof.Proof.KB.RLib
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
theorem before9 (c : Dev nD) (t : Fin cfg9.N) : (∀ d, (dat9 V c).before 0 t d = iblk9 V c 0 t)
    ∧ (∀ d, (dat9 V c).before 1 t d = iblk9 V c 1 t)
    ∧ (∀ d, (dat9 V c).before 2 t d = iblk9 V c 2 t) := by
  refine ⟨?_, ?_, ?_⟩ <;> exact fun d => ((dat9 V c).before_in_eq_fetched _ rfl (fun _ => rfl) (fun _ _ _ => rfl)
    (fun t => by simp only [after9_0, after9_1, after9_2]; unfold Dat.blockOf iblk9; rw [A_eq9]; try rfl) t d).trans
    (by unfold Dat.fetched Dat.blockOf iblk9; rw [A_eq9]; try rfl)
/-- Every load of the body reads a whole buffer and its one store covers the output's, which then reads the payload. -/
theorem sound_kernel9 (c : Dev nD) (E : Set ℕ) (i : grid9.Coords)
    (arg1 : Memref sig .tc .vmem S32x128 .f32) (harg1 : arg1.IsWhole) (arg2 : Memref sig .tc .vmem S128x3 .f32) (harg2 : arg2.IsWhole)
    (arg3 : Memref sig .tc .vmem S1x3 .f32) (harg3 : arg3.IsWhole) (arg4 : Memref sig .tc .vmem S32x3 .f32) (harg4 : arg4.IsWhole)
    (x0 : Vec F S32x128 .f32) (x1 : Vec F S128x3 .f32) (x2 : Vec F S1x3 .f32) (xo : Vec F S32x3 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo
        ∗ (iprop(owns (c : Thread nD τ) arg1 fullShare x0 ∗ owns (c : Thread nD τ) arg2 fullShare x1 ∗ owns (c : Thread nD τ) arg3 fullShare x2
            ∗ owns (c : Thread nD τ) arg4 fullShare (k9_pay1 x0 x1 x2)) -∗ K ⟨⟩))
      ⊢ wp frame (wpE (defs₀ (F := F)) Variants.none c none) E (cc9__dense_kernel i arg1 harg1 arg2 harg2 arg3 harg3 arg4 harg4) K := by
  simp only [cc9__dense_kernel_eq_skeleton]; unfold cc9__dense_kernel_skel
  rw [owns_eq_unread harg1, owns_eq_unread harg2, owns_eq_unread harg3, owns_eq_unread harg4 c _ xo]
  iintro ⟨H0, H1, H2, H3, Hk⟩
  sl_exec
  sl_step
  iapply Hk
  iframe H0 H1 H2
  unfold owns; iexists _; isplitr
  swap; · iexact H3
  ipureintro
  simp only [read_writes_box, readAt_box]
theorem body_obligation9 (c : Dev nD) : BodyObligation (dat9 (F := F) V c) (defs₀ (F := F)) Variants.none () Set.univ := fun t => by
  rw [bigSep_W9, bigSep_W9]
  show iprop((dat9 V c).Φ t.castSucc ∗ (dat9 V c).owesAt () t.castSucc
      ∗ (∃ d, owns (c : Thread nD τ) (st9_0 t) fullShare ((dat9 V c).before 0 t d))
      ∗ (∃ d, owns (c : Thread nD τ) (st9_1 t) fullShare ((dat9 V c).before 1 t d))
      ∗ (∃ d, owns (c : Thread nD τ) (st9_2 t) fullShare ((dat9 V c).before 2 t d))
      ∗ (∃ d, owns (c : Thread nD τ) (st9_3 t) fullShare ((dat9 V c).before 3 t d)))
    ⊢ wp frame (wpE (defs₀ (F := F)) Variants.none c none) Set.univ (bodyAt9 t) (fun _ =>
      iprop((dat9 V c).Φ t.castSucc ∗ (dat9 V c).owesAt () t.castSucc
        ∗ owns (c : Thread nD τ) (st9_0 t) fullShare (iblk9 V c 0 t) ∗ owns (c : Thread nD τ) (st9_1 t) fullShare (iblk9 V c 1 t)
        ∗ owns (c : Thread nD τ) (st9_2 t) fullShare (iblk9 V c 2 t) ∗ owns (c : Thread nD τ) (st9_3 t) fullShare (out9 V c t)))
  simp only [(before9 V c t).1, (before9 V c t).2.1, (before9 V c t).2.2]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _ _)
  iframe H0 H1 H2 H3
  iintro ⟨H0, H1, H2, H3⟩
  iframe
  iexact H3
theorem hin9 (c : Dev nD) : Pipeline.ΦA spec9 c ⊢ (dat9 V c).Φ 0 := .rfl
theorem hout9 (c : Dev nD) : (dat9 V c).Φ (Fin.last cfg9.N) ⊢ Pipeline.ΦA spec9 c := .rfl
end Cert.Kernel.Hand
end
-- ==== Proof.KB.Run.lean ====
import proofs.«427224_j39238821216992_2_alg».proof.Proof.KB.R0
import proofs.«427224_j39238821216992_2_alg».proof.Proof.KB.R1
import proofs.«427224_j39238821216992_2_alg».proof.Proof.KB.R2
import proofs.«427224_j39238821216992_2_alg».proof.Proof.KB.R3
import proofs.«427224_j39238821216992_2_alg».proof.Proof.KB.R4
import proofs.«427224_j39238821216992_2_alg».proof.Proof.KB.R5
import proofs.«427224_j39238821216992_2_alg».proof.Proof.KB.R6
import proofs.«427224_j39238821216992_2_alg».proof.Proof.KB.R7
import proofs.«427224_j39238821216992_2_alg».proof.Proof.KB.R8
import proofs.«427224_j39238821216992_2_alg».proof.Proof.KB.R9
import proofs.«427224_j39238821216992_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
abbrev Ent (F : FTy → Type) : Type := (c : Dev nD) → (b : Ref sig .tc) → Buf (Elt F) ((c : Thread nD τ).loc b)
variable (m : (ℓ : Loc nD τ sig) → Buf (Elt F) ℓ) (ρ : Dev nD → PrngReg)
abbrev Wa0 : Dev nD → Valuation τ sig (Elt F) := fun c b => (s₀ m ρ).mem ((c : Dev nD), b)
abbrev Wa1 : Dev nD → Valuation τ sig (Elt F) := fun c => StableHlo.after hostOps0 (Wa0 m ρ c)
abbrev En1 : Ent F := fun c b => Wa1 m ρ c b
def Wa2 (c : Dev nD) : Valuation τ sig (Elt F) :=
  Pipeline.withArrays spec0 c (Wa1 m ρ c) fun w => (dat0 (En1 m ρ) c).arrAt w cfg0.N
abbrev Wa3 : Dev nD → Valuation τ sig (Elt F) := fun c => StableHlo.after hostOps1 (Wa2 m ρ c)
abbrev En3 : Ent F := fun c b => Wa3 m ρ c b
def Wa4 (c : Dev nD) : Valuation τ sig (Elt F) :=
  Pipeline.withArrays spec1 c (Wa3 m ρ c) fun w => (dat1 (En3 m ρ) c).arrAt w cfg1.N
abbrev Wa5 : Dev nD → Valuation τ sig (Elt F) := fun c => StableHlo.after hostOps2 (Wa4 m ρ c)
abbrev Wa6 : Dev nD → Valuation τ sig (Elt F) := fun c => StableHlo.after hostOps2_1 (Wa5 m ρ c)
abbrev Wa7 : Dev nD → Valuation τ sig (Elt F) := fun c => StableHlo.after hostOps2_2 (Wa6 m ρ c)
abbrev Wa8 : Dev nD → Valuation τ sig (Elt F) := fun c => StableHlo.after hostOps2_3 (Wa7 m ρ c)
abbrev Wa9 : Dev nD → Valuation τ sig (Elt F) := fun c => StableHlo.after hostOps2_4 (Wa8 m ρ c)
abbrev En9 : Ent F := fun c b => Wa9 m ρ c b
def Wa10 (c : Dev nD) : Valuation τ sig (Elt F) :=
  Pipeline.withArrays spec2 c (Wa9 m ρ c) fun w => (dat2 (En9 m ρ) c).arrAt w cfg2.N
abbrev Wa11 : Dev nD → Valuation τ sig (Elt F) := fun c => StableHlo.after hostOps3 (Wa10 m ρ c)
abbrev En11 : Ent F := fun c b => Wa11 m ρ c b
def Wa12 (c : Dev nD) : Valuation τ sig (Elt F) :=
  Pipeline.withArrays spec3 c (Wa11 m ρ c) fun w => (dat3 (En11 m ρ) c).arrAt w cfg3.N
abbrev Wa13 : Dev nD → Valuation τ sig (Elt F) := fun c => StableHlo.after hostOps4 (Wa12 m ρ c)
abbrev Wa14 : Dev nD → Valuation τ sig (Elt F) := fun c => StableHlo.after hostOps4_1 (Wa13 m ρ c)
abbrev Wa15 : Dev nD → Valuation τ sig (Elt F) := fun c => StableHlo.after hostOps4_2 (Wa14 m ρ c)
abbrev Wa16 : Dev nD → Valuation τ sig (Elt F) := fun c => StableHlo.after hostOps4_3 (Wa15 m ρ c)
abbrev Wa17 : Dev nD → Valuation τ sig (Elt F) := fun c => StableHlo.after hostOps4_4 (Wa16 m ρ c)
abbrev En17 : Ent F := fun c b => Wa17 m ρ c b
def Wa18 (c : Dev nD) : Valuation τ sig (Elt F) :=
  Pipeline.withArrays spec4 c (Wa17 m ρ c) fun w => (dat4 (En17 m ρ) c).arrAt w cfg4.N
abbrev Wa19 : Dev nD → Valuation τ sig (Elt F) := fun c => StableHlo.after hostOps5 (Wa18 m ρ c)
abbrev En19 : Ent F := fun c b => Wa19 m ρ c b
def Wa20 (c : Dev nD) : Valuation τ sig (Elt F) :=
  Pipeline.withArrays spec5 c (Wa19 m ρ c) fun w => (dat5 (En19 m ρ) c).arrAt w cfg5.N
abbrev Wa21 : Dev nD → Valuation τ sig (Elt F) := fun c => StableHlo.after hostOps6 (Wa20 m ρ c)
abbrev En21 : Ent F := fun c b => Wa21 m ρ c b
def Wa22 (c : Dev nD) : Valuation τ sig (Elt F) :=
  Pipeline.withArrays spec6 c (Wa21 m ρ c) fun w => (dat6 (En21 m ρ) c).arrAt w cfg6.N
abbrev Wa23 : Dev nD → Valuation τ sig (Elt F) := fun c => StableHlo.after hostOps7 (Wa22 m ρ c)
abbrev Wa24 : Dev nD → Valuation τ sig (Elt F) := fun c => StableHlo.after hostOps7_1 (Wa23 m ρ c)
abbrev Wa25 : Dev nD → Valuation τ sig (Elt F) := fun c => StableHlo.after hostOps7_2 (Wa24 m ρ c)
abbrev Wa26 : Dev nD → Valuation τ sig (Elt F) := fun c => StableHlo.after hostOps7_3 (Wa25 m ρ c)
abbrev Wa27 : Dev nD → Valuation τ sig (Elt F) := fun c => StableHlo.after hostOps7_4 (Wa26 m ρ c)
abbrev En27 : Ent F := fun c b => Wa27 m ρ c b
def Wa28 (c : Dev nD) : Valuation τ sig (Elt F) :=
  Pipeline.withArrays spec7 c (Wa27 m ρ c) fun w => (dat7 (En27 m ρ) c).arrAt w cfg7.N
abbrev Wa29 : Dev nD → Valuation τ sig (Elt F) := fun c => StableHlo.after hostOps8 (Wa28 m ρ c)
abbrev En29 : Ent F := fun c b => Wa29 m ρ c b
def Wa30 (c : Dev nD) : Valuation τ sig (Elt F) :=
  Pipeline.withArrays spec8 c (Wa29 m ρ c) fun w => (dat8 (En29 m ρ) c).arrAt w cfg8.N
abbrev Wa31 : Dev nD → Valuation τ sig (Elt F) := fun c => StableHlo.after hostOps9 (Wa30 m ρ c)
abbrev En31 : Ent F := fun c b => Wa31 m ρ c b
def Wa32 (c : Dev nD) : Valuation τ sig (Elt F) :=
  Pipeline.withArrays spec9 c (Wa31 m ρ c) fun w => (dat9 (En31 m ρ) c).arrAt w cfg9.N
/-- A region changes only its output: an input array keeps its entry contents, and so does every buffer that is no array of the region. -/
theorem keepOf {cfg : Cfg sig Λ₀} {c : Dev nD} (D : Dat τ (Elt F) Unit ℕ (UR sig nD τ) ℕ cfg c) (V : Valuation τ sig (Elt F))
    (hinj : Function.Injective (Pipeline.arrRef cfg.spec)) (hA : ∀ w, D.A w = V (Pipeline.arrRef cfg.spec w))
    {o r : Ref sig .tc} (ho : ∀ w, Pipeline.arrRef cfg.spec w ≠ o → (cfg.win w).isOut = false) (h : r ≠ o) :
    Pipeline.withArrays cfg.spec c V (fun w => D.arrAt w cfg.N) r = V r := by
  by_cases hw : ∃ w, Pipeline.arrRef cfg.spec w = r
  · obtain ⟨w, rfl⟩ := hw
    exact (Pipeline.withArrays_arr _ hinj c _ _ w).trans ((D.arrAt_in w (ho w h) _).trans (hA w))
  · exact Pipeline.withArrays_of_ne _ c _ _ r fun w e => hw ⟨w, e⟩
theorem Wa1_keep (c : Dev nD) (r : Ref sig .tc) (h : r ∉ hostOps0_W) : Wa1 m ρ c r = Wa0 m ρ c r :=
  StableHlo.after_of_writes_sub hostOps0 _ hostOps0_writes h
theorem Wa2_keep (c : Dev nD) (r : Ref sig .tc) (h : r ≠ main_v6) : Wa2 m ρ c r = Wa1 m ρ c r :=
  keepOf (dat0 (En1 m ρ) c) _ launch0.win.arr_inj (fun _ => rfl) (by decide) h
theorem Wa2_out (c : Dev nD) : Wa2 m ρ c main_v6 = (dat0 (En1 m ρ) c).arrAt 3 cfg0.N :=
  Pipeline.withArrays_arr spec0 launch0.win.arr_inj c _ _ 3
theorem Wa3_keep (c : Dev nD) (r : Ref sig .tc) (h : r ∉ hostOps1_W) : Wa3 m ρ c r = Wa2 m ρ c r :=
  StableHlo.after_of_writes_sub hostOps1 _ hostOps1_writes h
theorem Wa4_keep (c : Dev nD) (r : Ref sig .tc) (h : r ≠ main_v8) : Wa4 m ρ c r = Wa3 m ρ c r :=
  keepOf (dat1 (En3 m ρ) c) _ launch1.win.arr_inj (fun _ => rfl) (by decide) h
theorem Wa4_out (c : Dev nD) : Wa4 m ρ c main_v8 = (dat1 (En3 m ρ) c).arrAt 1 cfg1.N :=
  Pipeline.withArrays_arr spec1 launch1.win.arr_inj c _ _ 1
theorem Wa5_keep (c : Dev nD) (r : Ref sig .tc) (h : r ∉ hostOps2_W) : Wa5 m ρ c r = Wa4 m ρ c r :=
  StableHlo.after_of_writes_sub hostOps2 _ hostOps2_writes h
theorem Wa6_keep (c : Dev nD) (r : Ref sig .tc) (h : r ∉ hostOps2_1_W) : Wa6 m ρ c r = Wa5 m ρ c r :=
  StableHlo.after_of_writes_sub hostOps2_1 _ hostOps2_1_writes h
theorem Wa7_keep (c : Dev nD) (r : Ref sig .tc) (h : r ∉ hostOps2_2_W) : Wa7 m ρ c r = Wa6 m ρ c r :=
  StableHlo.after_of_writes_sub hostOps2_2 _ hostOps2_2_writes h
theorem Wa8_keep (c : Dev nD) (r : Ref sig .tc) (h : r ∉ hostOps2_3_W) : Wa8 m ρ c r = Wa7 m ρ c r :=
  StableHlo.after_of_writes_sub hostOps2_3 _ hostOps2_3_writes h
theorem Wa9_keep (c : Dev nD) (r : Ref sig .tc) (h : r ∉ hostOps2_4_W) : Wa9 m ρ c r = Wa8 m ρ c r :=
  StableHlo.after_of_writes_sub hostOps2_4 _ hostOps2_4_writes h
theorem Wa10_keep (c : Dev nD) (r : Ref sig .tc) (h : r ≠ main_v19) : Wa10 m ρ c r = Wa9 m ρ c r :=
  keepOf (dat2 (En9 m ρ) c) _ launch2.win.arr_inj (fun _ => rfl) (by decide) h
theorem Wa10_out (c : Dev nD) : Wa10 m ρ c main_v19 = (dat2 (En9 m ρ) c).arrAt 2 cfg2.N :=
  Pipeline.withArrays_arr spec2 launch2.win.arr_inj c _ _ 2
theorem Wa11_keep (c : Dev nD) (r : Ref sig .tc) (h : r ∉ hostOps3_W) : Wa11 m ρ c r = Wa10 m ρ c r :=
  StableHlo.after_of_writes_sub hostOps3 _ hostOps3_writes h
theorem Wa12_keep (c : Dev nD) (r : Ref sig .tc) (h : r ≠ main_v21) : Wa12 m ρ c r = Wa11 m ρ c r :=
  keepOf (dat3 (En11 m ρ) c) _ launch3.win.arr_inj (fun _ => rfl) (by decide) h
theorem Wa12_out (c : Dev nD) : Wa12 m ρ c main_v21 = (dat3 (En11 m ρ) c).arrAt 2 cfg3.N :=
  Pipeline.withArrays_arr spec3 launch3.win.arr_inj c _ _ 2
theorem Wa13_keep (c : Dev nD) (r : Ref sig .tc) (h : r ∉ hostOps4_W) : Wa13 m ρ c r = Wa12 m ρ c r :=
  StableHlo.after_of_writes_sub hostOps4 _ hostOps4_writes h
theorem Wa14_keep (c : Dev nD) (r : Ref sig .tc) (h : r ∉ hostOps4_1_W) : Wa14 m ρ c r = Wa13 m ρ c r :=
  StableHlo.after_of_writes_sub hostOps4_1 _ hostOps4_1_writes h
theorem Wa15_keep (c : Dev nD) (r : Ref sig .tc) (h : r ∉ hostOps4_2_W) : Wa15 m ρ c r = Wa14 m ρ c r :=
  StableHlo.after_of_writes_sub hostOps4_2 _ hostOps4_2_writes h
theorem Wa16_keep (c : Dev nD) (r : Ref sig .tc) (h : r ∉ hostOps4_3_W) : Wa16 m ρ c r = Wa15 m ρ c r :=
  StableHlo.after_of_writes_sub hostOps4_3 _ hostOps4_3_writes h
theorem Wa17_keep (c : Dev nD) (r : Ref sig .tc) (h : r ∉ hostOps4_4_W) : Wa17 m ρ c r = Wa16 m ρ c r :=
  StableHlo.after_of_writes_sub hostOps4_4 _ hostOps4_4_writes h
theorem Wa18_keep (c : Dev nD) (r : Ref sig .tc) (h : r ≠ main_v36) : Wa18 m ρ c r = Wa17 m ρ c r :=
  keepOf (dat4 (En17 m ρ) c) _ launch4.win.arr_inj (fun _ => rfl) (by decide) h
theorem Wa18_out (c : Dev nD) : Wa18 m ρ c main_v36 = (dat4 (En17 m ρ) c).arrAt 2 cfg4.N :=
  Pipeline.withArrays_arr spec4 launch4.win.arr_inj c _ _ 2
theorem Wa19_keep (c : Dev nD) (r : Ref sig .tc) (h : r ∉ hostOps5_W) : Wa19 m ρ c r = Wa18 m ρ c r :=
  StableHlo.after_of_writes_sub hostOps5 _ hostOps5_writes h
theorem Wa20_keep (c : Dev nD) (r : Ref sig .tc) (h : r ≠ main_v38) : Wa20 m ρ c r = Wa19 m ρ c r :=
  keepOf (dat5 (En19 m ρ) c) _ launch5.win.arr_inj (fun _ => rfl) (by decide) h
theorem Wa20_out (c : Dev nD) : Wa20 m ρ c main_v38 = (dat5 (En19 m ρ) c).arrAt 2 cfg5.N :=
  Pipeline.withArrays_arr spec5 launch5.win.arr_inj c _ _ 2
theorem Wa21_keep (c : Dev nD) (r : Ref sig .tc) (h : r ∉ hostOps6_W) : Wa21 m ρ c r = Wa20 m ρ c r :=
  StableHlo.after_of_writes_sub hostOps6 _ hostOps6_writes h
theorem Wa22_keep (c : Dev nD) (r : Ref sig .tc) (h : r ≠ main_v46) : Wa22 m ρ c r = Wa21 m ρ c r :=
  keepOf (dat6 (En21 m ρ) c) _ launch6.win.arr_inj (fun _ => rfl) (by decide) h
theorem Wa22_out (c : Dev nD) : Wa22 m ρ c main_v46 = (dat6 (En21 m ρ) c).arrAt 5 cfg6.N :=
  Pipeline.withArrays_arr spec6 launch6.win.arr_inj c _ _ 5
theorem Wa23_keep (c : Dev nD) (r : Ref sig .tc) (h : r ∉ hostOps7_W) : Wa23 m ρ c r = Wa22 m ρ c r :=
  StableHlo.after_of_writes_sub hostOps7 _ hostOps7_writes h
theorem Wa24_keep (c : Dev nD) (r : Ref sig .tc) (h : r ∉ hostOps7_1_W) : Wa24 m ρ c r = Wa23 m ρ c r :=
  StableHlo.after_of_writes_sub hostOps7_1 _ hostOps7_1_writes h
theorem Wa25_keep (c : Dev nD) (r : Ref sig .tc) (h : r ∉ hostOps7_2_W) : Wa25 m ρ c r = Wa24 m ρ c r :=
  StableHlo.after_of_writes_sub hostOps7_2 _ hostOps7_2_writes h
theorem Wa26_keep (c : Dev nD) (r : Ref sig .tc) (h : r ∉ hostOps7_3_W) : Wa26 m ρ c r = Wa25 m ρ c r :=
  StableHlo.after_of_writes_sub hostOps7_3 _ hostOps7_3_writes h
theorem Wa27_keep (c : Dev nD) (r : Ref sig .tc) (h : r ∉ hostOps7_4_W) : Wa27 m ρ c r = Wa26 m ρ c r :=
  StableHlo.after_of_writes_sub hostOps7_4 _ hostOps7_4_writes h
theorem Wa28_keep (c : Dev nD) (r : Ref sig .tc) (h : r ≠ main_v50) : Wa28 m ρ c r = Wa27 m ρ c r :=
  keepOf (dat7 (En27 m ρ) c) _ launch7.win.arr_inj (fun _ => rfl) (by decide) h
theorem Wa28_out (c : Dev nD) : Wa28 m ρ c main_v50 = (dat7 (En27 m ρ) c).arrAt 2 cfg7.N :=
  Pipeline.withArrays_arr spec7 launch7.win.arr_inj c _ _ 2
theorem Wa29_keep (c : Dev nD) (r : Ref sig .tc) (h : r ∉ hostOps8_W) : Wa29 m ρ c r = Wa28 m ρ c r :=
  StableHlo.after_of_writes_sub hostOps8 _ hostOps8_writes h
theorem Wa30_keep (c : Dev nD) (r : Ref sig .tc) (h : r ≠ main_v52) : Wa30 m ρ c r = Wa29 m ρ c r :=
  keepOf (dat8 (En29 m ρ) c) _ launch8.win.arr_inj (fun _ => rfl) (by decide) h
theorem Wa30_out (c : Dev nD) : Wa30 m ρ c main_v52 = (dat8 (En29 m ρ) c).arrAt 3 cfg8.N :=
  Pipeline.withArrays_arr spec8 launch8.win.arr_inj c _ _ 3
theorem Wa31_keep (c : Dev nD) (r : Ref sig .tc) (h : r ∉ hostOps9_W) : Wa31 m ρ c r = Wa30 m ρ c r :=
  StableHlo.after_of_writes_sub hostOps9 _ hostOps9_writes h
theorem Wa32_keep (c : Dev nD) (r : Ref sig .tc) (h : r ≠ main_v54) : Wa32 m ρ c r = Wa31 m ρ c r :=
  keepOf (dat9 (En31 m ρ) c) _ launch9.win.arr_inj (fun _ => rfl) (by decide) h
theorem Wa32_out (c : Dev nD) : Wa32 m ρ c main_v54 = (dat9 (En31 m ρ) c).arrAt 3 cfg9.N :=
  Pipeline.withArrays_arr spec9 launch9.win.arr_inj c _ _ 3
abbrev written : List (Ref sig .tc) :=
  hostOps0_W ++ [main_v6] ++ hostOps1_W ++ [main_v8] ++ hostOps2_W ++ hostOps2_1_W ++ hostOps2_2_W ++ hostOps2_3_W ++ hostOps2_4_W ++ [main_v19] ++ hostOps3_W ++ [main_v21] ++ hostOps4_W ++ hostOps4_1_W ++ hostOps4_2_W ++ hostOps4_3_W ++ hostOps4_4_W ++ [main_v36] ++ hostOps5_W ++ [main_v38] ++ hostOps6_W ++ [main_v46] ++ hostOps7_W ++ hostOps7_1_W ++ hostOps7_2_W ++ hostOps7_3_W ++ hostOps7_4_W ++ [main_v50] ++ hostOps8_W ++ [main_v52] ++ hostOps9_W ++ [main_v54]
theorem Wa32_unwritten (c : Dev nD) (r : Ref sig .tc) (h : r ∉ written) : Wa32 m ρ c r = m ((c : Thread nD τ).loc r) := by
  simp only [written, List.mem_append, not_or, and_assoc] at h
  obtain ⟨h1, h2, h3, h4, h5, h6, h7, h8, h9, h10, h11, h12, h13, h14, h15, h16, h17, h18, h19, h20, h21, h22, h23, h24, h25, h26, h27, h28, h29, h30, h31, h32⟩ := h
  exact (Wa32_keep m ρ c r (List.ne_of_not_mem_cons h32)).trans <| (Wa31_keep m ρ c r h31).trans <| (Wa30_keep m ρ c r (List.ne_of_not_mem_cons h30)).trans <| (Wa29_keep m ρ c r h29).trans <| (Wa28_keep m ρ c r (List.ne_of_not_mem_cons h28)).trans <| (Wa27_keep m ρ c r h27).trans <| (Wa26_keep m ρ c r h26).trans <| (Wa25_keep m ρ c r h25).trans <| (Wa24_keep m ρ c r h24).trans <| (Wa23_keep m ρ c r h23).trans <| (Wa22_keep m ρ c r (List.ne_of_not_mem_cons h22)).trans <| (Wa21_keep m ρ c r h21).trans <| (Wa20_keep m ρ c r (List.ne_of_not_mem_cons h20)).trans <| (Wa19_keep m ρ c r h19).trans <| (Wa18_keep m ρ c r (List.ne_of_not_mem_cons h18)).trans <| (Wa17_keep m ρ c r h17).trans <| (Wa16_keep m ρ c r h16).trans <| (Wa15_keep m ρ c r h15).trans <| (Wa14_keep m ρ c r h14).trans <| (Wa13_keep m ρ c r h13).trans <| (Wa12_keep m ρ c r (List.ne_of_not_mem_cons h12)).trans <| (Wa11_keep m ρ c r h11).trans <| (Wa10_keep m ρ c r (List.ne_of_not_mem_cons h10)).trans <| (Wa9_keep m ρ c r h9).trans <| (Wa8_keep m ρ c r h8).trans <| (Wa7_keep m ρ c r h7).trans <| (Wa6_keep m ρ c r h6).trans <| (Wa5_keep m ρ c r h5).trans <| (Wa4_keep m ρ c r (List.ne_of_not_mem_cons h4)).trans <| (Wa3_keep m ρ c r h3).trans <| (Wa2_keep m ρ c r (List.ne_of_not_mem_cons h2)).trans <| (Wa1_keep m ρ c r h1).trans rfl
theorem arg_kept {mem : (ℓ : Loc nD τ sig) → Buf (Elt F) ℓ} (c : Dev nD)
    (h : ∀ b ∈ Pipeline.ucRefs τ sig, mem (((c : Thread nD τ)).1, b) = Wa32 m ρ c b) (r : Ref sig .tc)
    (hu : ¬ (Proc.devRef .tc r : DevRef τ sig).isScoped := by decide) (hr : r ∉ written := by decide) :
    mem ((c : Thread nD τ).loc r) = m ((c : Thread nD τ).loc r) :=
  (h _ (Finset.mem_filter.mpr ⟨StableHlo.devRef_mem_tcRefs r, hu⟩)).trans (Wa32_unwritten m ρ c r hr)
theorem args_kept {mem : (ℓ : Loc nD τ sig) → Buf (Elt F) ℓ} (c : Dev nD)
    (h : ∀ b ∈ Pipeline.ucRefs τ sig, mem (((c : Thread nD τ)).1, b) = Wa32 m ρ c b) :
    mem ((c : Thread nD τ).loc main_arg0) = m ((c : Thread nD τ).loc main_arg0)
      ∧ mem ((c : Thread nD τ).loc main_arg1) = m ((c : Thread nD τ).loc main_arg1)
      ∧ mem ((c : Thread nD τ).loc main_arg2) = m ((c : Thread nD τ).loc main_arg2)
      ∧ mem ((c : Thread nD τ).loc main_arg3) = m ((c : Thread nD τ).loc main_arg3)
      ∧ mem ((c : Thread nD τ).loc main_arg4) = m ((c : Thread nD τ).loc main_arg4)
      ∧ mem ((c : Thread nD τ).loc main_arg5) = m ((c : Thread nD τ).loc main_arg5)
      ∧ mem ((c : Thread nD τ).loc main_arg6) = m ((c : Thread nD τ).loc main_arg6)
      ∧ mem ((c : Thread nD τ).loc main_arg7) = m ((c : Thread nD τ).loc main_arg7)
      ∧ mem ((c : Thread nD τ).loc main_arg8) = m ((c : Thread nD τ).loc main_arg8)
      ∧ mem ((c : Thread nD τ).loc main_arg9) = m ((c : Thread nD τ).loc main_arg9)
      ∧ mem ((c : Thread nD τ).loc main_arg10) = m ((c : Thread nD τ).loc main_arg10)
      ∧ mem ((c : Thread nD τ).loc main_arg11) = m ((c : Thread nD τ).loc main_arg11) :=
  ⟨arg_kept m ρ c h main_arg0, arg_kept m ρ c h main_arg1, arg_kept m ρ c h main_arg2, arg_kept m ρ c h main_arg3, arg_kept m ρ c h main_arg4, arg_kept m ρ c h main_arg5, arg_kept m ρ c h main_arg6, arg_kept m ρ c h main_arg7, arg_kept m ρ c h main_arg8, arg_kept m ρ c h main_arg9, arg_kept m ρ c h main_arg10, arg_kept m ρ c h main_arg11⟩
def pdats : (p : Fin 10) → (c : Dev nD) → Dat τ (Elt F) Unit ℕ (UR sig nD τ) ℕ (Pipeline.pin (pcfgs (F := F)) adm p) c
  | ⟨0, _⟩ => fun c => dat0 (En1 m ρ) c
  | ⟨1, _⟩ => fun c => dat1 (En3 m ρ) c
  | ⟨2, _⟩ => fun c => dat2 (En9 m ρ) c
  | ⟨3, _⟩ => fun c => dat3 (En11 m ρ) c
  | ⟨4, _⟩ => fun c => dat4 (En17 m ρ) c
  | ⟨5, _⟩ => fun c => dat5 (En19 m ρ) c
  | ⟨6, _⟩ => fun c => dat6 (En21 m ρ) c
  | ⟨7, _⟩ => fun c => dat7 (En27 m ρ) c
  | ⟨8, _⟩ => fun c => dat8 (En29 m ρ) c
  | ⟨9, _⟩ => fun c => dat9 (En31 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wa32 m ρ c) ∗ ∃ r, prngReg c r)
set_option backward.isDefEq.respectTransparency.types false in
/-- A region as a segment: entered with every unscoped buffer at `V`, left with its arrays at their last contents and every other buffer as entered. -/
def regOf (p : Fin 10) (lk : Pipeline.LaunchFacts (nD := nD) (τ := τ) cfgs p)
    (pd : (p : Fin 10) → (c : Dev nD) → Dat τ (Elt F) Unit ℕ (UR sig nD τ) ℕ (cfgs p) c)
    (V : Dev nD → Valuation τ sig (Elt F))
    (hB : ∀ c, BodyObligation (pd p c) (defs₀ (F := F)) Variants.none () Set.univ)
    (hI : ∀ c, Pipeline.ΦA (cfgs p).spec c ⊢ (pd p c).Φ 0)
    (hO : ∀ c, (pd p c).Φ (Fin.last _) ⊢ Pipeline.ΦA (cfgs p).spec c)
    (hA : ∀ c w, (pd p c).A w = V c (Pipeline.arrRef (cfgs p).spec w) := by exact fun _ _ => rfl)
    (hq : ∀ c w, (pd p c).q w = fullShare := by exact fun _ _ => rfl)
    (h0 : ∀ c t, (pd p c).owed t = 0 := by exact fun _ _ => rfl)
    (hr : ∀ c, (pd p c).recorded 0 = Set.univ := by exact fun _ => rfl) :
    Pipeline.RegionSeg (pcfgs (F := F)) adm pd () defs₀ 𝒱₀ L lv p where
  win := lk.win.to₀
  block_pos := lk.block_pos
  stage_whole := lk.stage_whole
  K := PEmpty
  osem k := k.elim
  ho := Pipeline.OwnSemFacts.none _
  hbody c := (hB c).loose
  hwaits := Pipeline.hwaits_of_owed_zero _ _ _ _ L lv p h0
  pre c := iprop(StableHlo.held (c : Thread nD τ) (Pipeline.ucRefs τ sig) (V c) ∗ R c)
  post c := iprop(StableHlo.held (c : Thread nD τ) (Pipeline.ucRefs τ sig)
    (Pipeline.withArrays (cfgs p).spec c (V c) fun w => (pd p c).arrAt w (cfgs p).N) ∗ R c)
  X c := iprop(∃ r, prngReg c r)
  Y c := iprop(∃ r, prngReg c r)
  Z c := Pipeline.unscopedRest (cfgs p).spec c fun b => V c b
  hentry c := by
    have hsplit := Pipeline.arrays_of_unscopedBufs (p := p) pcfgs adm pd lk.win lk.arr_whole c
      ((pd p c).share_full (hq c)) (fun b => V c b) (hA c)
    rw [Pipeline.unscopedBufs_held] at hsplit
    rw [Pipeline.ownSems0_none]
    unfold Pipeline.Dat.owesAt Pipeline.owesWithin Pipeline.Dat.bound Pipeline.prefHeld
    rw [h0 c, hr c, show (Finset.univ : Finset (Fin 0)) = ∅ from rfl, BI.bigSep_empty]
    iintro ⟨⟨Hub, Hp, %W, HO⟩, -, -⟩
    ihave H := hsplit $$ Hub
    icases H with ⟨Ha, Hrest⟩
    imodintro
    isplitl [Ha]; · iexact Ha
    isplitr; · iempintro
    isplitl [HO]
    · iexists W; isplitr; · ipureintro; exact fun _ _ => Or.inl trivial
      iexact HO
    isplitl [Hp]; · iexact Hp
    iexact Hrest
  hin c := by
    iintro ⟨Hp, -, Hr⟩
    iapply (hI c)
    unfold Pipeline.ΦA
    isplitl [Hr]; · iexact Hr
    iexact Hp
  hout c := by
    rw [Pipeline.ownSems0_none]
    have hΦ := hO c
    unfold Pipeline.ΦA at hΦ
    iintro HΦ
    ihave H := hΦ $$ HΦ
    icases H with ⟨Hr, Hp⟩
    isplitl [Hp]; · iexact Hp
    isplitr; · iempintro
    iexact Hr
  hexit c := by
    have hjoin := Pipeline.unscopedBufs_of_arrays (p := p) pcfgs adm lk.win lk.arr_whole c pd ((pd p c).share_full (hq c)) (fun b => V c b)
      (fun b => Pipeline.withArrays (cfgs p).spec c (V c) (fun w => (pd p c).arrAt w (cfgs p).N) b) ((pd p c).arrAt · (cfgs p).N)
      (fun w => (Pipeline.withArrays_arr _ lk.win.arr_inj c _ ((pd p c).arrAt · _) w).symm)
      fun b hb => Pipeline.withArrays_of_ne _ c _ _ b fun w e => hb (Finset.mem_image.mpr ⟨w, Finset.mem_univ _, e⟩)
    rw [Pipeline.unscopedBufs_held] at hjoin
    unfold Pipeline.Dat.owesAt Pipeline.owesWithin
    rw [h0 c]
    iintro ⟨Ha, ⟨%W, -, HO⟩, HY, Hrest⟩
    imodintro
    isplitl [Ha Hrest]
    · iapply hjoin; isplitl [Ha] <;> iassumption
    isplitl [HY]; · iexact HY
    iexists W; iexact HO
def reg0 := regOf 0 launch0 (pdats m ρ) (Wa1 m ρ) (body_obligation0 _) (hin0 _) (hout0 _)
def reg1 := regOf 1 launch1 (pdats m ρ) (Wa3 m ρ) (body_obligation1 _) (hin1 _) (hout1 _)
def reg2 := regOf 2 launch2 (pdats m ρ) (Wa9 m ρ) (body_obligation2 _) (hin2 _) (hout2 _)
def reg3 := regOf 3 launch3 (pdats m ρ) (Wa11 m ρ) (body_obligation3 _) (hin3 _) (hout3 _)
def reg4 := regOf 4 launch4 (pdats m ρ) (Wa17 m ρ) (body_obligation4 _) (hin4 _) (hout4 _)
def reg5 := regOf 5 launch5 (pdats m ρ) (Wa19 m ρ) (body_obligation5 _) (hin5 _) (hout5 _)
def reg6 := regOf 6 launch6 (pdats m ρ) (Wa21 m ρ) (body_obligation6 _) (hin6 _) (hout6 _)
def reg7 := regOf 7 launch7 (pdats m ρ) (Wa27 m ρ) (body_obligation7 _) (hin7 _) (hout7 _)
def reg8 := regOf 8 launch8 (pdats m ρ) (Wa29 m ρ) (body_obligation8 _) (hin8 _) (hout8 _)
def reg9 := regOf 9 launch9 (pdats m ρ) (Wa31 m ρ) (body_obligation9 _) (hin9 _) (hout9 _)
abbrev rsegs : List (Pipeline.Seg (pcfgs (F := F)) adm (pdats m ρ) () defs₀ 𝒱₀ L lv) :=
  [ .host (hseg hostOps0 hostOps0_sub hostOps0_fresh (Wa0 m ρ)),
    .region (reg0 m ρ),
    .host (hseg hostOps1 hostOps1_sub hostOps1_fresh (Wa2 m ρ)),
    .region (reg1 m ρ),
    .host (hseg hostOps2 hostOps2_sub hostOps2_fresh (Wa4 m ρ)),
    .host (hseg hostOps2_1 hostOps2_1_sub hostOps2_1_fresh (Wa5 m ρ)),
    .host (hseg hostOps2_2 hostOps2_2_sub hostOps2_2_fresh (Wa6 m ρ)),
    .host (hseg hostOps2_3 hostOps2_3_sub hostOps2_3_fresh (Wa7 m ρ)),
    .host (hseg hostOps2_4 hostOps2_4_sub hostOps2_4_fresh (Wa8 m ρ)),
    .region (reg2 m ρ),
    .host (hseg hostOps3 hostOps3_sub hostOps3_fresh (Wa10 m ρ)),
    .region (reg3 m ρ),
    .host (hseg hostOps4 hostOps4_sub hostOps4_fresh (Wa12 m ρ)),
    .host (hseg hostOps4_1 hostOps4_1_sub hostOps4_1_fresh (Wa13 m ρ)),
    .host (hseg hostOps4_2 hostOps4_2_sub hostOps4_2_fresh (Wa14 m ρ)),
    .host (hseg hostOps4_3 hostOps4_3_sub hostOps4_3_fresh (Wa15 m ρ)),
    .host (hseg hostOps4_4 hostOps4_4_sub hostOps4_4_fresh (Wa16 m ρ)),
    .region (reg4 m ρ),
    .host (hseg hostOps5 hostOps5_sub hostOps5_fresh (Wa18 m ρ)),
    .region (reg5 m ρ),
    .host (hseg hostOps6 hostOps6_sub hostOps6_fresh (Wa20 m ρ)),
    .region (reg6 m ρ),
    .host (hseg hostOps7 hostOps7_sub hostOps7_fresh (Wa22 m ρ)),
    .host (hseg hostOps7_1 hostOps7_1_sub hostOps7_1_fresh (Wa23 m ρ)),
    .host (hseg hostOps7_2 hostOps7_2_sub hostOps7_2_fresh (Wa24 m ρ)),
    .host (hseg hostOps7_3 hostOps7_3_sub hostOps7_3_fresh (Wa25 m ρ)),
    .host (hseg hostOps7_4 hostOps7_4_sub hostOps7_4_fresh (Wa26 m ρ)),
    .region (reg7 m ρ),
    .host (hseg hostOps8 hostOps8_sub hostOps8_fresh (Wa28 m ρ)),
    .region (reg8 m ρ),
    .host (hseg hostOps9 hostOps9_sub hostOps9_fresh (Wa30 m ρ)),
    .region (reg9 m ρ) ]
theorem main_run (c : Dev nD) : main (F := F) c = Pipeline.Seg.run (rsegs m ρ) := (main_chain c).trans (by chain_rfl)
set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = Wa32 m ρ c b) :=
  Pipeline.θ_run_regions_kit (pcfgs (F := F)) adm (pdats m ρ) () cellOf_inj emb₁ defs₀ 𝒱₀ L lv m ρ main (rsegs m ρ)
    (fun c Q => by rw [main_run m ρ c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => Laws.sep_assoc.2⟩)
    (hinit := by
      refine Pipeline.initEach L lv fun c => ?_
      rw [show unscopedBufs c (fun b => m ((c : Thread nD τ).loc b)) = StableHlo.held (c : Thread nD τ) (Pipeline.ucRefs τ sig) (Wa0 m ρ c)
        from Pipeline.unscopedBufs_held c (Wa0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wa32 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wa32 m ρ c) s')
      isplitl [Hh] <;> iassumption)
    (hQ := fun s h c => h c)
end Cert.Kernel.Hand
end
-- ==== Proof.KI.D0.lean ====
import proofs.«427224_j39238821216992_2_alg».proof.Proof.Gen.KernelIdeal.Launch
import proofs.«427224_j39238821216992_2_alg».proof.Proof.Gen.KernelIdeal.Skeleton
import proofs.«427224_j39238821216992_2_alg».proof.Proof.Gen.KernelIdeal.Points
import Idealize.ShloMosaic.Lib.Pipeline.FrameBody
import Idealize.ShloMosaic.Lib.Ring
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
def out0 (c : Dev nD) (t : Fin cfg0.N) : ((cfg0.win 3).xblock (cfg0.grid.coords t)).Idx → Elt F (cfg0.win 3).elt :=
  k0_pay1 (iblk0 V c 0 t) (iblk0 V c 1 t) (iblk0 V c 2 t)
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ _ := Pipeline.ΦA spec0 c
  q _ := fullShare
  owed _ := 0
theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]
end Cert.KernelIdeal.Hand
end
-- ==== Proof.KI.RLib.lean ====
import proofs.«427224_j39238821216992_2_alg».proof.Proof.Gen.KernelIdeal.Launch
import Idealize.ShloMosaic.Lib.Pipeline.Value
import Idealize.ShloMosaic.Lib.Pipeline.FrameBody
import Idealize.ShloMosaic.Lib.Ring
import Idealize.ShloMosaic.Lib.Tactic
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
variable {F : FTy → Type} [FloatOps F]
local notation "𝕄" => MT nD τ sig Unit (Elt F) ℕ (UR sig nD τ) ℕ
theorem zero2 : (![0, 0] : Fin 2 → ℕ) = fun _ => 0 := funext fun a => by fin_cases a <;> rfl
/-- Reading through a whole memref is a bijection, so the contents read fix the raw contents held. -/
theorem owns_eq_unread {sp : Space} {sh : Shape} {e : EltTy} {m : Memref sig .tc sp sh e} (h : m.IsWhole) (c : Dev nD)
    (q : PosShare TreeShare) (X : sh.Idx → Elt F e) :
    (owns (c : Thread nD τ) m q X : sProp 𝕄) = (m.view.loc (c : Thread nD τ) ↦[m.view.set]{q} h.unread X) := by
  unfold owns
  have h₁ : iprop(∃ f, ⌜m.view.read (Elt F) f = X⌝ ∗ (m.view.loc (c : Thread nD τ) ↦[m.view.set]{q} f))
      ⊢ (m.view.loc (c : Thread nD τ) ↦[m.view.set]{q} h.unread X : sProp 𝕄) := by
    iintro ⟨%f, %hf, H⟩; obtain rfl := h.eq_unread hf; iexact H
  have h₂ : (m.view.loc (c : Thread nD τ) ↦[m.view.set]{q} h.unread X : sProp 𝕄)
      ⊢ iprop(∃ f, ⌜m.view.read (Elt F) f = X⌝ ∗ (m.view.loc (c : Thread nD τ) ↦[m.view.set]{q} f)) := by
    iintro H; iexists _; isplitr; · ipureintro; exact h.read_unread X
    iexact H
  exact BI.equiv_iff.mp ⟨h₁, h₂⟩
/-- A last store through the whole-shape rectangle covers every index, so the buffer reads its payload. -/
theorem read_writes_unit_zero {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ fun y => ⟨_, List.mem_cons_self, View.mem_set_unit_zero h inb y⟩).trans
    (View.canon_cons_unit_zero h inb w L)
/-- Contents that read `X` through a whole memref are the contents that read `X`. -/
theorem heldAt {sp : Space} {s : Shape} {e : EltTy} {m : Memref sig .tc sp s e} (h : m.IsWhole) (c : Dev nD) {q : PosShare TreeShare}
    {f : m.view.ty.Contents (Elt F)} {X : s.Idx → Elt F e} (hf : m.view.read (Elt F) f = X) :
    (m.view.loc (c : Thread nD τ) ↦[m.view.set]{q} f : sProp 𝕄) ⊢ (m.view.loc (c : Thread nD τ) ↦[m.view.set]{q} h.unread X) := by
  rw [h.eq_unread hf]
/-- A load through the whole box of a whole rank-two buffer reads what the buffer is held at. -/
theorem readAt_box {d : Fin 2 → ℕ} {e : EltTy} {m : Memref sig .tc .vmem ⟨2, d⟩ e} (h : m.IsWhole)
    (inb : ∀ a, (![0, 0] : Fin 2 → ℕ) a + d a ≤ d a) (X : Shape.Idx ⟨2, d⟩ → Elt F e) :
    View.readAt (Elt F) m.view (Rect.unit (s := ⟨2, d⟩) ![0, 0] d inb).toLoadRect (h.unread X) = X := by
  rw [View.readAt_eq_ld, h.read_unread, View.ld_unit_zero zero2 inb]
/-- A store through the whole box of a rank-two buffer, made last, reads back as its payload. -/
theorem read_writes_box {κ : Kind} {sp : Space} {d : Fin 2 → ℕ} {e : EltTy} (v : View sig κ sp ⟨2, d⟩ e) (f : v.ty.Contents (Elt F))
    (inb : ∀ a, (![0, 0] : Fin 2 → ℕ) a + d a ≤ d a) (w : Shape.Idx ⟨2, d⟩ → Elt F e) (L : List (View.Piece (Elt F) ⟨2, d⟩ e)) :
    v.read (Elt F) (v.writes (Elt F) f ((⟨Rect.unit (s := ⟨2, d⟩) ![0, 0] d inb, w⟩ : View.Piece (Elt F) ⟨2, d⟩ e) :: L)) = w :=
  read_writes_unit_zero v f zero2 inb w L
/-- A load through the whole box of what one store through it left reads the payload. -/
theorem readCov_box {κ : Kind} {sp : Space} {d : Fin 2 → ℕ} {e : EltTy} (v : View sig κ sp ⟨2, d⟩ e)
    (inb : ∀ a, (![0, 0] : Fin 2 → ℕ) a + d a ≤ d a) (w : Shape.Idx ⟨2, d⟩ → Elt F e) :
    v.readCov [(⟨Rect.unit (s := ⟨2, d⟩) ![0, 0] d inb, w⟩ : View.Piece (Elt F) ⟨2, d⟩ e)] (Rect.unit (s := ⟨2, d⟩) ![0, 0] d inb).toLoadRect = w :=
  View.readCov_unit_zero v zero2 inb w
end Cert.KernelIdeal.Hand
end
-- ==== Proof.KI.R0.lean ====
import proofs.«427224_j39238821216992_2_alg».proof.Proof.KI.D0
import proofs.«427224_j39238821216992_2_alg».proof.Proof.KI.RLib
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
theorem before0 (c : Dev nD) (t : Fin cfg0.N) : (∀ d, (dat0 V c).before 0 t d = iblk0 V c 0 t)
    ∧ (∀ d, (dat0 V c).before 1 t d = iblk0 V c 1 t)
    ∧ (∀ d, (dat0 V c).before 2 t d = iblk0 V c 2 t) := by
  refine ⟨?_, ?_, ?_⟩ <;> exact fun d => ((dat0 V c).before_in_eq_fetched _ rfl (fun _ => rfl) (fun _ _ _ => rfl)
    (fun t => by simp only [after0_0, after0_1, after0_2]; unfold Dat.blockOf iblk0; rw [A_eq0]; try rfl) t d).trans
    (by unfold Dat.fetched Dat.blockOf iblk0; rw [A_eq0]; try rfl)
/-- Every load of the body reads a whole buffer and its one store covers the output's, which then reads the payload. -/
theorem sound_kernel0 (c : Dev nD) (E : Set ℕ) (i : grid0.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (xo : Vec F S2000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 x0 x1 x2)) -∗ K ⟨⟩))
      ⊢ wp frame (wpE (defs₀ (F := F)) Variants.none c none) E (cc0__dense_kernel i arg1 harg1 arg2 harg2 arg3 harg3 arg4 harg4) K := by
  simp only [cc0__dense_kernel_eq_skeleton]; unfold cc0__dense_kernel_skel
  rw [owns_eq_unread harg1, owns_eq_unread harg2, owns_eq_unread harg3, owns_eq_unread harg4 c _ xo]
  iintro ⟨H0, H1, H2, H3, Hk⟩
  sl_exec
  sl_step
  iapply Hk
  iframe H0 H1 H2
  unfold owns; iexists _; isplitr
  swap; · iexact H3
  ipureintro
  simp only [read_writes_box, readAt_box]
theorem body_obligation0 (c : Dev nD) : BodyObligation (dat0 (F := F) V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d)))
    ⊢ wp frame (wpE (defs₀ (F := F)) Variants.none c none) Set.univ (bodyAt0 t) (fun _ =>
      iprop((dat0 V c).Φ t.castSucc ∗ (dat0 V c).owesAt () t.castSucc
        ∗ owns (c : Thread nD τ) (st0_0 t) fullShare (iblk0 V c 0 t) ∗ owns (c : Thread nD τ) (st0_1 t) fullShare (iblk0 V c 1 t)
        ∗ owns (c : Thread nD τ) (st0_2 t) fullShare (iblk0 V c 2 t) ∗ owns (c : Thread nD τ) (st0_3 t) fullShare (out0 V c t)))
  simp only [(before0 V c t).1, (before0 V c t).2.1, (before0 V c t).2.2]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _ _)
  iframe H0 H1 H2 H3
  iintro ⟨H0, H1, H2, H3⟩
  iframe
  iexact H3
theorem hin0 (c : Dev nD) : Pipeline.ΦA spec0 c ⊢ (dat0 V c).Φ 0 := .rfl
theorem hout0 (c : Dev nD) : (dat0 V c).Φ (Fin.last cfg0.N) ⊢ Pipeline.ΦA spec0 c := .rfl
end Cert.KernelIdeal.Hand
end
-- ==== Proof.KI.D1.lean ====
import proofs.«427224_j39238821216992_2_alg».proof.Proof.Gen.KernelIdeal.Launch
import proofs.«427224_j39238821216992_2_alg».proof.Proof.Gen.KernelIdeal.Skeleton
import proofs.«427224_j39238821216992_2_alg».proof.Proof.Gen.KernelIdeal.Points
import Idealize.ShloMosaic.Lib.Pipeline.FrameBody
import Idealize.ShloMosaic.Lib.Ring
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
def acc1 (c : Dev nD) : (n : ℕ) → n < cfg1.N → Vec F S2048x1 .f32
  | 0, hn => k1_pay2 (grid1.coords ⟨0, hn⟩) (iblk1 V c 0 ⟨0, hn⟩) (k1_pay1 (F := F))
  | n + 1, hn =>
    if (n + 1) % 250 = 0 then k1_pay2 (grid1.coords ⟨n + 1, hn⟩) (iblk1 V c 0 ⟨n + 1, hn⟩) (k1_pay1 (F := F))
    else k1_pay2 (grid1.coords ⟨n + 1, hn⟩) (iblk1 V c 0 ⟨n + 1, hn⟩) (acc1 c n (Nat.lt_of_succ_lt hn))
theorem acc1_first (c : Dev nD) (t : Fin cfg1.N) (h : t.val % 250 = 0) :
    acc1 V c t.val t.isLt = k1_pay2 (grid1.coords t) (iblk1 V c 0 t) (k1_pay1 (F := F)) := by
  obtain ⟨n, hn⟩ := t
  cases n with
  | zero => rfl
  | succ n => exact if_pos h
theorem acc1_next (c : Dev nD) (t : Fin cfg1.N) (h : ¬ t.val % 250 = 0) :
    acc1 V c t.val t.isLt = k1_pay2 (grid1.coords t) (iblk1 V c 0 t) (acc1 V c (t.val - 1) (Nat.lt_of_le_of_lt (Nat.sub_le _ _) t.isLt)) := by
  obtain ⟨n, hn⟩ := t
  cases n with
  | zero => exact absurd (Nat.zero_mod _) h
  | succ n => exact if_neg h
def PhiS1 (c : Dev nD) : (n : ℕ) → n ≤ cfg1.N → sProp 𝕄
  | 0, _ => Pipeline.ΦA spec1 c
  | n + 1, hn => iprop(owns (c : Thread nD τ) (Memref.whole cc1_scratch0) fullShare (acc1 V c n hn) ∗ Pipeline.scopedRestBut (Ix := Unit) (Name := ℕ) (U := UR sig nD τ) (Lvl := ℕ) (Val := Elt F) spec1 c [cc1_scratch0] ∗ (∃ r, prngReg c r))
theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) (Memref.whole cc1_scratch0) fullShare (acc1 V c n hn) ∗ Pipeline.scopedRestBut (Ix := Unit) (Name := ℕ) (U := UR sig nD τ) (Lvl := ℕ) (Val := Elt F) spec1 c [cc1_scratch0] ∗ (∃ r, prngReg c r)) := rfl
theorem PhiS1_pos (c : Dev nD) (n : ℕ) (h : n ≤ cfg1.N) (hz : n ≠ 0) :
    PhiS1 V c n h = iprop(owns (c : Thread nD τ) (Memref.whole cc1_scratch0) fullShare (acc1 V c (n - 1) (by omega)) ∗ Pipeline.scopedRestBut (Ix := Unit) (Name := ℕ) (U := UR sig nD τ) (Lvl := ℕ) (Val := Elt F) spec1 c [cc1_scratch0] ∗ (∃ r, prngReg c r)) := by
  cases n with
  | zero => exact absurd rfl hz
  | succ n => rfl
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => acc1 V c t.val t.isLt
  Φ t := PhiS1 V c t.val (Nat.le_of_lt_succ t.isLt)
  q _ := fullShare
  owed _ := 0
theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = acc1 V c t.val t.isLt := by dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
end Cert.KernelIdeal.Hand
end
-- ==== Proof.KI.R1.lean ====
import proofs.«427224_j39238821216992_2_alg».proof.Proof.KI.D1
import proofs.«427224_j39238821216992_2_alg».proof.Proof.KI.RLib
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1
/-- The three control cases: `a` is what the scratch accumulates onto, `o` what the output's buffer ends at. -/
theorem kernelRun1 (c : Dev nD) (i : grid1.Coords) (arg2 : Memref sig .tc .vmem S1x2560 .i32) (harg2 : arg2.IsWhole)
    (arg3 : Memref sig .tc .vmem S2048x1 .f32) (harg3 : arg3.IsWhole) (arg4 : Memref sig .tc .vmem S2048x1 .f32) (harg4 : arg4.IsWhole)
    (x0 : Vec F S1x2560 .i32) (xo xs a o : Vec F S2048x1 .f32)
    (h : (cond1_0 i ∧ ¬cond1_1 i ∧ a = k1_pay1 ∧ o = xo) ∨ (¬cond1_0 i ∧ ¬cond1_1 i ∧ a = xs ∧ o = xo)
      ∨ (¬cond1_0 i ∧ cond1_1 i ∧ a = xs ∧ o = k1_pay2 i x0 xs))
    (E : Set ℕ) (K : PUnit → sProp 𝕄) :
    iprop(owns (c : Thread nD τ) arg2 fullShare x0 ∗ owns (c : Thread nD τ) arg3 fullShare xo ∗ owns (c : Thread nD τ) arg4 fullShare xs
        ∗ (iprop(owns (c : Thread nD τ) arg2 fullShare x0 ∗ owns (c : Thread nD τ) arg3 fullShare o
            ∗ owns (c : Thread nD τ) arg4 fullShare (k1_pay2 i x0 a)) -∗ K ⟨⟩))
      ⊢ wp frame (wpE (defs₀ (F := F)) Variants.none c none) E (cc1__count_kernel i arg2 harg2 arg3 harg3 arg4 harg4) K := by
  simp only [cc1__count_kernel_eq_skeleton]; unfold cc1__count_kernel_skel
  rw [owns_eq_unread harg2, owns_eq_unread harg3 c _ xo, owns_eq_unread harg4 c _ xs]
  iintro ⟨H0, H1, HS, Hk⟩
  rcases h with ⟨hc0, hc1, rfl, rfl⟩ | ⟨hc0, hc1, rfl, rfl⟩ | ⟨hc0, hc1, rfl, rfl⟩ <;> (
    sl_exec (disch := first | exact hc0 | exact hc1)
    sl_step
    iapply Hk
    iframe H0
    isplitl [H1] <;> (
      unfold owns; iexists _; isplitr
      swap; · iassumption
      ipureintro
      try sl_unfold_run_names
      simp only [read_writes_box, readAt_box, readCov_box, harg3.read_unread]))
theorem hcond1_0 : ∀ t : Fin cfg1.N, cond1_0 (grid1.coords t) ↔ t.val % 250 = 0 :=
  (by decide +kernel : ∀ t : Fin grid1.N, cond1_0 (grid1.coords t) ↔ t.val % 250 = 0)
theorem hcond1_1 : ∀ t : Fin cfg1.N, cond1_1 (grid1.coords t) ↔ t.val % 250 = 249 :=
  (by decide +kernel : ∀ t : Fin grid1.N, cond1_1 (grid1.coords t) ↔ t.val % 250 = 249)
theorem idleAt1_1 (i : grid1.Coords) (h : ¬cond1_1 i) : cfg1.idle 1 i = true := by
  show (!(k1_cond2 i == 1#1)) = true
  rw [Bool.not_eq_true', beq_eq_false_iff_ne]; exact h
theorem liveAt1_1 (i : grid1.Coords) (h : cond1_1 i) : cfg1.idle 1 i = false := by
  show (!(k1_cond2 i == 1#1)) = false
  rw [Bool.not_eq_false', beq_iff_eq]; exact h
theorem noFlush1_1 (t : Fin cfg1.N) (h : ¬t.val % 250 = 249) : (cfg1.win 1).flush t = false :=
  Bool.eq_false_iff.mpr fun hf => h ((flush1_1 t).mp hf)
/-- The class invariant, with the scratch as a memref owned at some contents. -/
theorem PhiA1_eq (c : Dev nD) :
    (Pipeline.ΦA spec1 c : sProp 𝕄)
      = iprop(iprop(iprop((∃ d, owns (c : Thread nD τ) (Memref.whole cc1_scratch0) fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [owns_whole]
theorem before1 (c : Dev nD) (t : Fin cfg1.N) : (∀ d, (dat1 V c).before 0 t d = iblk1 V c 0 t) := by
  exact fun d => ((dat1 V c).before_in_eq_fetched _ rfl (fun _ => rfl) (fun _ _ _ => rfl)
    (fun t => by simp only [after1_0]; unfold Dat.blockOf iblk1; rw [A_eq1]; try rfl) t d).trans
    (by unfold Dat.fetched Dat.blockOf iblk1; rw [A_eq1]; try rfl)
/-- By cases on the point: first, middle or last of its row. -/
theorem body_obligation1 (c : Dev nD) : BodyObligation (dat1 (F := F) V c) (defs₀ (F := F)) Variants.none () Set.univ := fun t => by
  rw [bigSep_W1, bigSep_W1]
  show iprop(PhiS1 V c t.val (Nat.le_of_lt t.isLt) ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d)))
    ⊢ wp frame (wpE (defs₀ (F := F)) Variants.none c none) Set.univ (bodyAt1 t) (fun _ =>
      iprop(PhiS1 V c (t.val + 1) t.isLt ∗ (dat1 V c).owesAt () t.castSucc
        ∗ owns (c : Thread nD τ) (st1_0 t) fullShare (iblk1 V c 0 t) ∗ (dat1 V c).leavesExact 1 t))
  simp only [before1 V c t]
  rw [PhiS1_succ]
  by_cases h1 : t.val % 250 = 249
  · have h0 : ¬t.val % 250 = 0 := by omega
    rw [show (dat1 V c).leavesExact 1 t = owns (c : Thread nD τ) (st1_1 t) fullShare ((dat1 V c).after 1 t) from by
      unfold Dat.leavesExact; rw [liveAt1_1 _ ((hcond1_1 t).mpr h1)], after1_1,
      acc1_next V c t h0, PhiS1_pos V c _ _ (by omega)]
    iintro ⟨⟨HS, HR, Hg⟩, Ho, ⟨%d0, H0⟩, ⟨%d1, H1⟩⟩
    iapply (kernelRun1 c (grid1.coords t) _ _ _ _ _ _ (iblk1 V c 0 t) _ _ _ _
      (.inr (.inr ⟨mt (hcond1_0 t).mp h0, (hcond1_1 t).mpr h1, rfl, rfl⟩)) Set.univ _)
    iframe H0 H1 HS
    iintro ⟨H0, H1, HS⟩
    iframe
  · rw [Dat.leavesExact_idle (dat1 V c) 1 t (idleAt1_1 _ (mt (hcond1_1 t).mp h1)) (noFlush1_1 t h1)]
    by_cases h0 : t.val % 250 = 0
    · rw [acc1_first V c t h0]
      by_cases hz : t.val = 0
      · rw [PhiS1_zero V c _ _ hz, PhiA1_eq]
        iintro ⟨⟨⟨⟨%ds, HS⟩, HR⟩, Hg⟩, Ho, ⟨%d0, H0⟩, ⟨%d1, H1⟩⟩
        iapply (kernelRun1 c (grid1.coords t) _ _ _ _ _ _ (iblk1 V c 0 t) _ _ _ _
          (.inl ⟨(hcond1_0 t).mpr h0, mt (hcond1_1 t).mp h1, rfl, rfl⟩) Set.univ _)
        iframe H0 H1 HS
        iintro ⟨H0, H1, HS⟩
        iframe
        iexists _; iexact H1
      · rw [PhiS1_pos V c _ _ hz]
        iintro ⟨⟨HS, HR, Hg⟩, Ho, ⟨%d0, H0⟩, ⟨%d1, H1⟩⟩
        iapply (kernelRun1 c (grid1.coords t) _ _ _ _ _ _ (iblk1 V c 0 t) _ _ _ _
          (.inl ⟨(hcond1_0 t).mpr h0, mt (hcond1_1 t).mp h1, rfl, rfl⟩) Set.univ _)
        iframe H0 H1 HS
        iintro ⟨H0, H1, HS⟩
        iframe
        iexists _; iexact H1
    · rw [acc1_next V c t h0, PhiS1_pos V c _ _ (fun e => h0 (by rw [e]))]
      iintro ⟨⟨HS, HR, Hg⟩, Ho, ⟨%d0, H0⟩, ⟨%d1, H1⟩⟩
      iapply (kernelRun1 c (grid1.coords t) _ _ _ _ _ _ (iblk1 V c 0 t) _ _ _ _
        (.inr (.inl ⟨mt (hcond1_0 t).mp h0, mt (hcond1_1 t).mp h1, rfl, rfl⟩)) Set.univ _)
      iframe H0 H1 HS
      iintro ⟨H0, H1, HS⟩
      iframe
      iexists _; iexact H1
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _
/-- After the last point the scratch's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 2500 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨HS, HR, Hg⟩
  iframe HR Hg
  iexists _; iexact HS
end Cert.KernelIdeal.Hand
end
-- ==== Proof.KI.D2.lean ====
import proofs.«427224_j39238821216992_2_alg».proof.Proof.Gen.KernelIdeal.Launch
import proofs.«427224_j39238821216992_2_alg».proof.Proof.Gen.KernelIdeal.Skeleton
import proofs.«427224_j39238821216992_2_alg».proof.Proof.Gen.KernelIdeal.Points
import Idealize.ShloMosaic.Lib.Pipeline.FrameBody
import Idealize.ShloMosaic.Lib.Ring
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))
def acc2 (c : Dev nD) : (n : ℕ) → n < cfg2.N → Vec F S2560x128 .f32
  | 0, hn => k2_pay2 (grid2.coords ⟨0, hn⟩) (iblk2 V c 0 ⟨0, hn⟩) (k2_pay1 (F := F)) (iblk2 V c 1 ⟨0, hn⟩)
  | n + 1, hn =>
    if hz : (n + 1) % 10 = 0 then
      k2_pay2 (grid2.coords ⟨n + 1, hn⟩) (iblk2 V c 0 ⟨n + 1, hn⟩) (k2_pay1 (F := F)) (iblk2 V c 1 ⟨n + 1, hn⟩)
    else
      k2_pay2 (grid2.coords ⟨n + 1, hn⟩) (iblk2 V c 0 ⟨n + 1, hn⟩) (acc2 c n (Nat.lt_of_succ_lt hn)) (iblk2 V c 1 ⟨n + 1, hn⟩)
theorem acc2_first (c : Dev nD) (t : Fin cfg2.N) (h : t.val % 10 = 0) :
    acc2 V c t.val t.isLt = k2_pay2 (grid2.coords t) (iblk2 V c 0 t) (k2_pay1 (F := F)) (iblk2 V c 1 t) := by
  obtain ⟨n, hn⟩ := t
  cases n with
  | zero => rfl
  | succ n => exact dif_pos h
theorem acc2_next (c : Dev nD) (t : Fin cfg2.N) (h : ¬ t.val % 10 = 0) :
    acc2 V c t.val t.isLt = k2_pay2 (grid2.coords t) (iblk2 V c 0 t)
      (acc2 V c (t.val - 1) (Nat.lt_of_le_of_lt (Nat.sub_le _ _) t.isLt)) (iblk2 V c 1 t) := by
  obtain ⟨n, hn⟩ := t
  cases n with
  | zero => exact absurd (Nat.zero_mod _) h
  | succ n => exact dif_neg h
def PhiS2 (c : Dev nD) : (n : ℕ) → n ≤ cfg2.N → sProp 𝕄
  | 0, _ => Pipeline.ΦA spec2 c
  | n + 1, hn => iprop(owns (c : Thread nD τ) (Memref.whole cc2_scratch0) fullShare (acc2 V c n hn) ∗ Pipeline.scopedRestBut (Ix := Unit) (Name := ℕ) (U := UR sig nD τ) (Lvl := ℕ) (Val := Elt F) spec2 c [cc2_scratch0] ∗ (∃ r, prngReg c r))
theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(owns (c : Thread nD τ) (Memref.whole cc2_scratch0) fullShare (acc2 V c n hn) ∗ Pipeline.scopedRestBut (Ix := Unit) (Name := ℕ) (U := UR sig nD τ) (Lvl := ℕ) (Val := Elt F) spec2 c [cc2_scratch0] ∗ (∃ r, prngReg c r)) := rfl
theorem PhiS2_pos (c : Dev nD) (n : ℕ) (h : n ≤ cfg2.N) (hz : n ≠ 0) :
    PhiS2 V c n h = iprop(owns (c : Thread nD τ) (Memref.whole cc2_scratch0) fullShare (acc2 V c (n - 1) (by omega)) ∗ Pipeline.scopedRestBut (Ix := Unit) (Name := ℕ) (U := UR sig nD τ) (Lvl := ℕ) (Val := Elt F) spec2 c [cc2_scratch0] ∗ (∃ r, prngReg c r)) := by
  cases n with
  | zero => exact absurd rfl hz
  | succ n => rfl
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (acc2 V c t.val t.isLt)
  Φ t := PhiS2 V c t.val (Nat.le_of_lt_succ t.isLt)
  q _ := fullShare
  owed _ := 0
theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay3 (acc2 V c t.val t.isLt) := by dsimp only [dat2]
end Cert.KernelIdeal.Hand
end
-- ==== Proof.KI.R2.lean ====
import proofs.«427224_j39238821216992_2_alg».proof.Proof.KI.D2
import proofs.«427224_j39238821216992_2_alg».proof.Proof.KI.RLib
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
abbrev condFirst2 (i : grid2.Coords) : Prop := (Scalar.cmpi .ne (Scalar.extui (Scalar.cmpi .eq (BitVec.ofNat 32 (i 1).val) 0#32)) 0#32) = 1#1
abbrev condLast2 (i : grid2.Coords) : Prop := k2_cond2 i = 1#1
set_option maxHeartbeats 1000000 in
/-- The accumulator, zeroed first where the inner coordinate is zero, takes the point's contribution; where the inner axis ends the output is stored from it. -/
theorem run2 (c : Dev nD) (i : grid2.Coords) (arg2 : Memref sig .tc .vmem S2560x1 .i32) (harg2 : arg2.IsWhole) (arg3 : Memref sig .tc .vmem S2048x128 .f32) (harg3 : arg3.IsWhole) (arg4 : Memref sig .tc .vmem S2560x128 .bf16) (harg4 : arg4.IsWhole) (arg5 : Memref sig .tc .vmem S2560x128 .f32) (harg5 : arg5.IsWhole)
    (hFL : condFirst2 i → ¬ condLast2 i)
    (xa : Vec F S2560x1 .i32) (xb : Vec F S2048x128 .f32) (xo : Vec F S2560x128 .bf16) (xs : Vec F S2560x128 .f32) (E : Set ℕ) (K : PUnit → sProp 𝕄) :
    iprop(owns (c : Thread nD τ) arg2 fullShare xa ∗ owns (c : Thread nD τ) arg3 fullShare xb ∗ owns (c : Thread nD τ) arg4 fullShare xo ∗ owns (c : Thread nD τ) arg5 fullShare xs
        ∗ (iprop(owns (c : Thread nD τ) arg2 fullShare xa ∗ owns (c : Thread nD τ) arg3 fullShare xb
             ∗ owns (c : Thread nD τ) arg4 fullShare (if condLast2 i then k2_pay3 (k2_pay2 i xa (if condFirst2 i then k2_pay1 (F := F) else xs) xb) else xo)
             ∗ owns (c : Thread nD τ) arg5 fullShare (k2_pay2 i xa (if condFirst2 i then k2_pay1 (F := F) else xs) xb)) -∗ K ⟨⟩))
      ⊢ wp frame (wpE (defs₀ (F := F)) Variants.none c none) E (cc2__gather_kernel i arg2 harg2 arg3 harg3 arg4 harg4 arg5 harg5) K := by
  simp only [cc2__gather_kernel_eq_skeleton, owns_eq_unread harg2, owns_eq_unread harg3, owns_eq_unread harg4, owns_eq_unread harg5]
  unfold cc2__gather_kernel_skel
  iintro ⟨Ha, Hb, Ho, HS, Hk⟩
  by_cases hcF : condFirst2 i <;> by_cases hcL : condLast2 i
  · exact absurd hcL (hFL hcF)
  all_goals
    first | rw [if_pos hcF] | rw [if_neg hcF]
    first | rw [if_pos hcL] | rw [if_neg hcL]
    sl_exec (disch := first | exact hcF | exact hcL)
    sl_step
    iapply Hk
    iframe Ha Hb
    isplitl [Ho]
    · iapply heldAt harg4 c ?_ $$ Ho
      sl_unfold_run_names
      simp only [harg4.read_unread, read_writes_box, readAt_box, readCov_box]
    iapply heldAt harg5 c ?_ $$ HS
    sl_unfold_run_names
    simp only [read_writes_box, readAt_box, readCov_box]
theorem hcondFirst2 : ∀ t : Fin cfg2.N, condFirst2 (grid2.coords t) ↔ t.val % 10 = 0 :=
  (by decide +kernel : ∀ t : Fin grid2.N, condFirst2 (grid2.coords t) ↔ t.val % 10 = 0)
theorem hcondLast2 : ∀ t : Fin cfg2.N, condLast2 (grid2.coords t) ↔ t.val % 10 = 9 :=
  (by decide +kernel : ∀ t : Fin grid2.N, condLast2 (grid2.coords t) ↔ t.val % 10 = 9)
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
/-- The scoped buffers at some contents, the accumulator apart as a memref owned at some contents. -/
theorem PhiA2_eq (c : Dev nD) :
    (Pipeline.ΦA spec2 c : sProp 𝕄)
      = iprop(iprop(iprop((∃ d, owns (c : Thread nD τ) (Memref.whole cc2_scratch0) fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [owns_whole]; try rfl
/-- Before any point the accumulator is owned at some contents: after the first point, at what the point before left. -/
theorem phiOpen2 (c : Dev nD) (n : ℕ) (h : n ≤ cfg2.N) :
    PhiS2 V c n h ⊢ iprop(∃ xs, ⌜∀ hn : n ≠ 0, xs = acc2 V c (n - 1) (by omega)⌝ ∗ owns (c : Thread nD τ) (Memref.whole cc2_scratch0) fullShare xs
      ∗ Pipeline.scopedRestBut (Ix := Unit) (Name := ℕ) (U := UR sig nD τ) (Lvl := ℕ) (Val := Elt F) spec2 c [cc2_scratch0] ∗ (∃ r, prngReg c r)) := by
  by_cases hn : n = 0
  · rw [PhiS2_zero V c n h hn, PhiA2_eq]; iintro ⟨⟨⟨%xs, HS⟩, Hr⟩, Hg⟩
    iexists xs; iframe HS Hr Hg; ipureintro; exact fun h' => absurd hn h'
  · rw [PhiS2_pos V c n h hn]; iintro ⟨HS, Hr, Hg⟩
    iexists _; iframe HS Hr Hg; ipureintro; exact fun _ => rfl
/-- A point's accumulator is the body's step from the contents before it, zeros standing in where the inner coordinate is zero. -/
theorem accStep2 (c : Dev nD) (t : Fin cfg2.N) (xs : Vec F S2560x128 .f32) (h : ∀ hn : t.val ≠ 0, xs = acc2 V c (t.val - 1) (by omega)) :
    k2_pay2 (grid2.coords t) (iblk2 V c 0 t) (if condFirst2 (grid2.coords t) then k2_pay1 (F := F) else xs) (iblk2 V c 1 t) = acc2 V c t.val t.isLt := by
  by_cases hz : t.val % 10 = 0
  · rw [if_pos ((hcondFirst2 t).mpr hz), acc2_first V c t hz]
  · rw [if_neg fun hF => hz ((hcondFirst2 t).mp hF), acc2_next V c t hz, h fun h0 => hz (by rw [h0])]
/-- Where the inner axis ends the output holds the accumulator narrowed; elsewhere what it held. -/
theorem leavesOut2 (c : Dev nD) (t : Fin cfg2.N) (d) :
    owns (c : Thread nD τ) (win2_2.stage (cfg2.slots t 2)) fullShare (if condLast2 (grid2.coords t) then k2_pay3 (acc2 V c t.val t.isLt) else (dat2 V c).before 2 t d)
      ⊢ (dat2 V c).leavesExact 2 t := by
  by_cases hL : condLast2 (grid2.coords t)
  · rw [if_pos hL, ← after2_2]; unfold Dat.leavesExact
    rw [show cfg2.idle 2 (grid2.coords t) = false by show (!(k2_cond2 (grid2.coords t) == 1#1)) = false; simpa using hL]
  · rw [if_neg hL, Dat.leavesExact_idle _ 2 t (by show (!(k2_cond2 (grid2.coords t) == 1#1)) = true; simpa using hL)
      (Bool.eq_false_iff.mpr fun hf => hL ((hcondLast2 t).mpr ((flush2_2 t).mp hf)))]
    iintro H; iexists d; iexact H
/-- Each point's body turns the invariant before it into the invariant after it. -/
theorem sound_body2 (c : Dev nD) (t : Fin cfg2.N) :
    iprop((dat2 V c).Φ t.castSucc ∗ (dat2 V c).owesAt () t.castSucc
      ∗ (∃ d, owns (c : Thread nD τ) (win2_0.stage (cfg2.slots t 0)) fullShare ((dat2 V c).before 0 t d))
      ∗ (∃ d, owns (c : Thread nD τ) (win2_1.stage (cfg2.slots t 1)) fullShare ((dat2 V c).before 1 t d))
      ∗ (∃ d, owns (c : Thread nD τ) (win2_2.stage (cfg2.slots t 2)) fullShare ((dat2 V c).before 2 t d)))
    ⊢ wp frame (wpE (defs₀ (F := F)) Variants.none c none) Set.univ (bodyAt2 t) (fun _ =>
      iprop(PhiS2 V c (t.val + 1) t.isLt ∗ (dat2 V c).owesAt () t.castSucc
        ∗ owns (c : Thread nD τ) (win2_0.stage (cfg2.slots t 0)) fullShare (iblk2 V c 0 t)
        ∗ owns (c : Thread nD τ) (win2_1.stage (cfg2.slots t 1)) fullShare (iblk2 V c 1 t)
        ∗ (dat2 V c).leavesExact 2 t)) := by
  unfold bodyAt2
  simp only [before2_0, before2_1]
  rw [PhiS2_castSucc V c t, PhiS2_succ]
  iintro ⟨HΦ, Ho, ⟨%da, Ha⟩, ⟨%db, Hb⟩, ⟨%dc, Hc⟩⟩
  ihave ⟨%xs, %hxs, HS, Hr, Hg⟩ := phiOpen2 V c _ _ $$ HΦ
  iapply run2 c (grid2.coords t) _ _ _ _ _ _ _ _ (fun hF hL => by have := (hcondFirst2 t).mp hF; have := (hcondLast2 t).mp hL; omega) (iblk2 V c 0 t) (iblk2 V c 1 t) _ xs Set.univ _
  iframe Ha Hb Hc HS
  rw [accStep2 V c t xs hxs]
  iintro ⟨Ha, Hb, Hc, HS⟩
  iframe HS Hr Hg Ho Ha Hb
  iapply leavesOut2 V c t dc $$ Hc
theorem body_obligation2 (c : Dev nD) : BodyObligation (dat2 (F := F) V c) (defs₀ (F := F)) Variants.none () Set.univ := fun t => by
  rw [bigSep_W2, bigSep_W2]
  exact sound_body2 V c t
theorem hin2 (c : Dev nD) : Pipeline.ΦA spec2 c ⊢ (dat2 V c).Φ 0 := .rfl
theorem hout2 (c : Dev nD) : (dat2 V c).Φ (Fin.last cfg2.N) ⊢ Pipeline.ΦA spec2 c :=
  (phiOpen2 V c _ (Nat.le_of_lt_succ (Fin.last cfg2.N).isLt)).trans (by rw [PhiA2_eq]; iintro ⟨%xs, -, HS, Hr, Hg⟩; iframe Hr Hg; iexists xs; iexact HS)
end Cert.KernelIdeal.Hand
end
-- ==== Proof.KI.D3.lean ====
import proofs.«427224_j39238821216992_2_alg».proof.Proof.Gen.KernelIdeal.Launch
import proofs.«427224_j39238821216992_2_alg».proof.Proof.Gen.KernelIdeal.Skeleton
import proofs.«427224_j39238821216992_2_alg».proof.Proof.Gen.KernelIdeal.Points
import Idealize.ShloMosaic.Lib.Pipeline.FrameBody
import Idealize.ShloMosaic.Lib.Ring
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))
def acc3 (c : Dev nD) : (n : ℕ) → n < cfg3.N → Vec F S2048x128 .f32
  | 0, hn => k3_pay2 (grid3.coords ⟨0, hn⟩) (iblk3 V c 0 ⟨0, hn⟩) (k3_pay1 (F := F)) (iblk3 V c 1 ⟨0, hn⟩)
  | n + 1, hn =>
    if h : (n + 1) % 250 = 0 then
      k3_pay2 (grid3.coords ⟨n + 1, hn⟩) (iblk3 V c 0 ⟨n + 1, hn⟩) (k3_pay1 (F := F)) (iblk3 V c 1 ⟨n + 1, hn⟩)
    else
      k3_pay2 (grid3.coords ⟨n + 1, hn⟩) (iblk3 V c 0 ⟨n + 1, hn⟩) (acc3 c n (Nat.lt_of_succ_lt hn)) (iblk3 V c 1 ⟨n + 1, hn⟩)
theorem acc3_first (c : Dev nD) (t : Fin cfg3.N) (h : t.val % 250 = 0) :
    acc3 V c t.val t.isLt = k3_pay2 (grid3.coords t) (iblk3 V c 0 t) (k3_pay1 (F := F)) (iblk3 V c 1 t) := by
  obtain ⟨n, hn⟩ := t
  cases n with
  | zero => rfl
  | succ n => exact dif_pos h
theorem acc3_next (c : Dev nD) (t : Fin cfg3.N) (h : ¬ t.val % 250 = 0) :
    acc3 V c t.val t.isLt = k3_pay2 (grid3.coords t) (iblk3 V c 0 t) (acc3 V c (t.val - 1) (Nat.lt_of_le_of_lt (Nat.sub_le _ _) t.isLt)) (iblk3 V c 1 t) := by
  obtain ⟨n, hn⟩ := t
  cases n with
  | zero => exact absurd (Nat.zero_mod _) h
  | succ n => exact dif_neg h
def PhiS3 (c : Dev nD) : (n : ℕ) → n ≤ cfg3.N → sProp 𝕄
  | 0, _ => Pipeline.ΦA spec3 c
  | n + 1, hn => iprop(owns (c : Thread nD τ) (Memref.whole cc3_scratch0) fullShare (acc3 V c n hn) ∗ Pipeline.scopedRestBut (Ix := Unit) (Name := ℕ) (U := UR sig nD τ) (Lvl := ℕ) (Val := Elt F) spec3 c [cc3_scratch0] ∗ (∃ r, prngReg c r))
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := PhiS3 V c t.val (Nat.le_of_lt_succ t.isLt)
  q _ := fullShare
  owed _ := 0
theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val t.isLt := by dsimp only [dat3]
theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(owns (c : Thread nD τ) (Memref.whole cc3_scratch0) fullShare (acc3 V c n hn) ∗ Pipeline.scopedRestBut (Ix := Unit) (Name := ℕ) (U := UR sig nD τ) (Lvl := ℕ) (Val := Elt F) spec3 c [cc3_scratch0] ∗ (∃ r, prngReg c r)) := rfl
theorem PhiS3_pos (c : Dev nD) (n : ℕ) (h : n ≤ cfg3.N) (hz : n ≠ 0) :
    PhiS3 V c n h = iprop(owns (c : Thread nD τ) (Memref.whole cc3_scratch0) fullShare (acc3 V c (n - 1) (by omega)) ∗ Pipeline.scopedRestBut (Ix := Unit) (Name := ℕ) (U := UR sig nD τ) (Lvl := ℕ) (Val := Elt F) spec3 c [cc3_scratch0] ∗ (∃ r, prngReg c r)) := by
  cases n with
  | zero => exact absurd rfl hz
  | succ n => rfl
theorem PhiS3_castSucc (c : Dev nD) (t : Fin cfg3.N) :
    (dat3 V c).Φ t.castSucc = PhiS3 V c t.val (Nat.le_of_lt t.isLt) := by
  dsimp only [dat3]; simp only [Fin.coe_castSucc]
end Cert.KernelIdeal.Hand
end
-- ==== Proof.KI.R3.lean ====
import proofs.«427224_j39238821216992_2_alg».proof.Proof.KI.D3
import proofs.«427224_j39238821216992_2_alg».proof.Proof.KI.RLib
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
abbrev cond3_1 (i : grid3.Coords) : Prop := (Scalar.cmpi .ne (Scalar.extui (Scalar.cmpi .eq (BitVec.ofNat 32 (i 1).val) 0#32)) 0#32) = 1#1
abbrev cond3_2 (i : grid3.Coords) : Prop := k3_cond2 i = 1#1
set_option maxHeartbeats 1000000 in
/-- The accumulator, zeroed first where the inner coordinate is zero, takes the point's contribution; where the inner axis ends the output is stored from it. -/
theorem run3 (c : Dev nD) (i : grid3.Coords) (arg2 : Memref sig .tc .vmem S1x2560 .i32) (harg2 : arg2.IsWhole) (arg3 : Memref sig .tc .vmem S2560x128 .bf16) (harg3 : arg3.IsWhole) (arg4 : Memref sig .tc .vmem S2048x128 .f32) (harg4 : arg4.IsWhole) (arg5 : Memref sig .tc .vmem S2048x128 .f32) (harg5 : arg5.IsWhole)
    (hFL : cond3_1 i → ¬ cond3_2 i)
    (xa : Vec F S1x2560 .i32) (xb : Vec F S2560x128 .bf16) (xo : Vec F S2048x128 .f32) (xs : Vec F S2048x128 .f32) (E : Set ℕ) (K : PUnit → sProp 𝕄) :
    iprop(owns (c : Thread nD τ) arg2 fullShare xa ∗ owns (c : Thread nD τ) arg3 fullShare xb ∗ owns (c : Thread nD τ) arg4 fullShare xo ∗ owns (c : Thread nD τ) arg5 fullShare xs
        ∗ (iprop(owns (c : Thread nD τ) arg2 fullShare xa ∗ owns (c : Thread nD τ) arg3 fullShare xb
             ∗ owns (c : Thread nD τ) arg4 fullShare (if cond3_2 i then k3_pay2 i xa (if cond3_1 i then k3_pay1 (F := F) else xs) xb else xo)
             ∗ owns (c : Thread nD τ) arg5 fullShare (k3_pay2 i xa (if cond3_1 i then k3_pay1 (F := F) else xs) xb)) -∗ K ⟨⟩))
      ⊢ wp frame (wpE (defs₀ (F := F)) Variants.none c none) E (cc3__scatter_kernel i arg2 harg2 arg3 harg3 arg4 harg4 arg5 harg5) K := by
  simp only [cc3__scatter_kernel_eq_skeleton, owns_eq_unread harg2, owns_eq_unread harg3, owns_eq_unread harg4, owns_eq_unread harg5]
  unfold cc3__scatter_kernel_skel
  iintro ⟨Ha, Hb, Ho, HS, Hk⟩
  by_cases hcF : cond3_1 i <;> by_cases hcL : cond3_2 i
  · exact absurd hcL (hFL hcF)
  all_goals
    first | rw [if_pos hcF] | rw [if_neg hcF]
    first | rw [if_pos hcL] | rw [if_neg hcL]
    sl_exec (disch := first | exact hcF | exact hcL)
    sl_step
    iapply Hk
    iframe Ha Hb
    isplitl [Ho]
    · iapply heldAt harg4 c ?_ $$ Ho
      sl_unfold_run_names
      simp only [harg4.read_unread, read_writes_box, readAt_box, readCov_box]
    iapply heldAt harg5 c ?_ $$ HS
    sl_unfold_run_names
    simp only [read_writes_box, readAt_box, readCov_box]
theorem hcond3_1 : ∀ t : Fin cfg3.N, cond3_1 (grid3.coords t) ↔ t.val % 250 = 0 :=
  (by decide +kernel : ∀ t : Fin grid3.N, cond3_1 (grid3.coords t) ↔ t.val % 250 = 0)
theorem hcond3_2 : ∀ t : Fin cfg3.N, cond3_2 (grid3.coords t) ↔ t.val % 250 = 249 :=
  (by decide +kernel : ∀ t : Fin grid3.N, cond3_2 (grid3.coords t) ↔ t.val % 250 = 249)
theorem before3_0 (c : Dev nD) (t : Fin cfg3.N) (d) : (dat3 V c).before 0 t d = iblk3 V c 0 t := by
  rw [Dat.before_fetched _ 0 t (fetch3_0 t) d]
  unfold Dat.fetched Dat.blockOf iblk3; rw [A_eq3]; try rfl
theorem before3_1 (c : Dev nD) (t : Fin cfg3.N) (d) : (dat3 V c).before 1 t d = iblk3 V c 1 t := by
  rw [Dat.before_fetched _ 1 t (fetch3_1 t) d]
  unfold Dat.fetched Dat.blockOf iblk3; rw [A_eq3]; try rfl
/-- The scoped buffers at some contents, the accumulator apart as a memref owned at some contents. -/
theorem PhiA3_eq (c : Dev nD) :
    (Pipeline.ΦA spec3 c : sProp 𝕄)
      = iprop(iprop(iprop((∃ d, owns (c : Thread nD τ) (Memref.whole cc3_scratch0) fullShare d)) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [owns_whole]; try rfl
/-- Before any point the accumulator is owned at some contents: after the first point, at what the point before left. -/
theorem phiOpen3 (c : Dev nD) (n : ℕ) (h : n ≤ cfg3.N) :
    PhiS3 V c n h ⊢ iprop(∃ xs, ⌜∀ hn : n ≠ 0, xs = acc3 V c (n - 1) (by omega)⌝ ∗ owns (c : Thread nD τ) (Memref.whole cc3_scratch0) fullShare xs
      ∗ Pipeline.scopedRestBut (Ix := Unit) (Name := ℕ) (U := UR sig nD τ) (Lvl := ℕ) (Val := Elt F) spec3 c [cc3_scratch0] ∗ (∃ r, prngReg c r)) := by
  by_cases hn : n = 0
  · rw [PhiS3_zero V c n h hn, PhiA3_eq]; iintro ⟨⟨⟨%xs, HS⟩, Hr⟩, Hg⟩
    iexists xs; iframe HS Hr Hg; ipureintro; exact fun h' => absurd hn h'
  · rw [PhiS3_pos V c n h hn]; iintro ⟨HS, Hr, Hg⟩
    iexists _; iframe HS Hr Hg; ipureintro; exact fun _ => rfl
/-- A point's accumulator is the body's step from the contents before it, zeros standing in where the inner coordinate is zero. -/
theorem accStep3 (c : Dev nD) (t : Fin cfg3.N) (xs : Vec F S2048x128 .f32) (h : ∀ hn : t.val ≠ 0, xs = acc3 V c (t.val - 1) (by omega)) :
    k3_pay2 (grid3.coords t) (iblk3 V c 0 t) (if cond3_1 (grid3.coords t) then k3_pay1 (F := F) else xs) (iblk3 V c 1 t) = acc3 V c t.val t.isLt := by
  by_cases hz : t.val % 250 = 0
  · rw [if_pos ((hcond3_1 t).mpr hz), acc3_first V c t hz]
  · rw [if_neg fun hF => hz ((hcond3_1 t).mp hF), acc3_next V c t hz, h fun h0 => hz (by rw [h0])]
/-- Where the inner axis ends the output holds the accumulator; elsewhere what it held. -/
theorem leavesOut3 (c : Dev nD) (t : Fin cfg3.N) (d) :
    owns (c : Thread nD τ) (win3_2.stage (cfg3.slots t 2)) fullShare (if cond3_2 (grid3.coords t) then acc3 V c t.val t.isLt else (dat3 V c).before 2 t d)
      ⊢ (dat3 V c).leavesExact 2 t := by
  by_cases hL : cond3_2 (grid3.coords t)
  · rw [if_pos hL, ← after3_2]; unfold Dat.leavesExact
    rw [show cfg3.idle 2 (grid3.coords t) = false by show (!(k3_cond2 (grid3.coords t) == 1#1)) = false; simpa using hL]
  · rw [if_neg hL, Dat.leavesExact_idle _ 2 t (by show (!(k3_cond2 (grid3.coords t) == 1#1)) = true; simpa using hL)
      (Bool.eq_false_iff.mpr fun hf => hL ((hcond3_2 t).mpr ((flush3_2 t).mp hf)))]
    iintro H; iexists d; iexact H
/-- Each point's body turns the invariant before it into the invariant after it. -/
theorem sound_body3 (c : Dev nD) (t : Fin cfg3.N) :
    iprop((dat3 V c).Φ t.castSucc ∗ (dat3 V c).owesAt () t.castSucc
      ∗ (∃ d, owns (c : Thread nD τ) (win3_0.stage (cfg3.slots t 0)) fullShare ((dat3 V c).before 0 t d))
      ∗ (∃ d, owns (c : Thread nD τ) (win3_1.stage (cfg3.slots t 1)) fullShare ((dat3 V c).before 1 t d))
      ∗ (∃ d, owns (c : Thread nD τ) (win3_2.stage (cfg3.slots t 2)) fullShare ((dat3 V c).before 2 t d)))
    ⊢ wp frame (wpE (defs₀ (F := F)) Variants.none c none) Set.univ (bodyAt3 t) (fun _ =>
      iprop(PhiS3 V c (t.val + 1) t.isLt ∗ (dat3 V c).owesAt () t.castSucc
        ∗ owns (c : Thread nD τ) (win3_0.stage (cfg3.slots t 0)) fullShare (iblk3 V c 0 t)
        ∗ owns (c : Thread nD τ) (win3_1.stage (cfg3.slots t 1)) fullShare (iblk3 V c 1 t)
        ∗ (dat3 V c).leavesExact 2 t)) := by
  unfold bodyAt3
  simp only [before3_0, before3_1]
  rw [PhiS3_castSucc V c t, PhiS3_succ]
  iintro ⟨HΦ, Ho, ⟨%da, Ha⟩, ⟨%db, Hb⟩, ⟨%dc, Hc⟩⟩
  ihave ⟨%xs, %hxs, HS, Hr, Hg⟩ := phiOpen3 V c _ _ $$ HΦ
  iapply run3 c (grid3.coords t) _ _ _ _ _ _ _ _ (fun hF hL => by have := (hcond3_1 t).mp hF; have := (hcond3_2 t).mp hL; omega) (iblk3 V c 0 t) (iblk3 V c 1 t) _ xs Set.univ _
  iframe Ha Hb Hc HS
  rw [accStep3 V c t xs hxs]
  iintro ⟨Ha, Hb, Hc, HS⟩
  iframe HS Hr Hg Ho Ha Hb
  iapply leavesOut3 V c t dc $$ Hc
theorem body_obligation3 (c : Dev nD) : BodyObligation (dat3 (F := F) V c) (defs₀ (F := F)) Variants.none () Set.univ := fun t => by
  rw [bigSep_W3, bigSep_W3]
  exact sound_body3 V c t
theorem hin3 (c : Dev nD) : Pipeline.ΦA spec3 c ⊢ (dat3 V c).Φ 0 := .rfl
theorem hout3 (c : Dev nD) : (dat3 V c).Φ (Fin.last cfg3.N) ⊢ Pipeline.ΦA spec3 c :=
  (phiOpen3 V c _ (Nat.le_of_lt_succ (Fin.last cfg3.N).isLt)).trans (by rw [PhiA3_eq]; iintro ⟨%xs, -, HS, Hr, Hg⟩; iframe Hr Hg; iexists xs; iexact HS)
end Cert.KernelIdeal.Hand
end
-- ==== Proof.KI.D4.lean ====
import proofs.«427224_j39238821216992_2_alg».proof.Proof.Gen.KernelIdeal.Launch
import proofs.«427224_j39238821216992_2_alg».proof.Proof.Gen.KernelIdeal.Skeleton
import proofs.«427224_j39238821216992_2_alg».proof.Proof.Gen.KernelIdeal.Points
import Idealize.ShloMosaic.Lib.Pipeline.FrameBody
import Idealize.ShloMosaic.Lib.Ring
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))
def acc4 (c : Dev nD) : (n : ℕ) → n < cfg4.N → Vec F S2560x128 .f32
  | 0, hn => k4_pay2 (grid4.coords ⟨0, hn⟩) (iblk4 V c 0 ⟨0, hn⟩) (k4_pay1 (F := F)) (iblk4 V c 1 ⟨0, hn⟩)
  | n + 1, hn =>
    if hz : (n + 1) % 10 = 0 then
      k4_pay2 (grid4.coords ⟨n + 1, hn⟩) (iblk4 V c 0 ⟨n + 1, hn⟩) (k4_pay1 (F := F)) (iblk4 V c 1 ⟨n + 1, hn⟩)
    else
      k4_pay2 (grid4.coords ⟨n + 1, hn⟩) (iblk4 V c 0 ⟨n + 1, hn⟩) (acc4 c n (Nat.lt_of_succ_lt hn)) (iblk4 V c 1 ⟨n + 1, hn⟩)
theorem acc4_first (c : Dev nD) (t : Fin cfg4.N) (h : t.val % 10 = 0) :
    acc4 V c t.val t.isLt = k4_pay2 (grid4.coords t) (iblk4 V c 0 t) (k4_pay1 (F := F)) (iblk4 V c 1 t) := by
  obtain ⟨n, hn⟩ := t
  cases n with
  | zero => rfl
  | succ n => exact dif_pos h
theorem acc4_next (c : Dev nD) (t : Fin cfg4.N) (h : ¬ t.val % 10 = 0) :
    acc4 V c t.val t.isLt = k4_pay2 (grid4.coords t) (iblk4 V c 0 t)
      (acc4 V c (t.val - 1) (Nat.lt_of_le_of_lt (Nat.sub_le _ _) t.isLt)) (iblk4 V c 1 t) := by
  obtain ⟨n, hn⟩ := t
  cases n with
  | zero => exact absurd (Nat.zero_mod _) h
  | succ n => exact dif_neg h
def PhiS4 (c : Dev nD) : (n : ℕ) → n ≤ cfg4.N → sProp 𝕄
  | 0, _ => Pipeline.ΦA spec4 c
  | n + 1, hn => iprop(owns (c : Thread nD τ) (Memref.whole cc4_scratch0) fullShare (acc4 V c n hn) ∗ Pipeline.scopedRestBut (Ix := Unit) (Name := ℕ) (U := UR sig nD τ) (Lvl := ℕ) (Val := Elt F) spec4 c [cc4_scratch0] ∗ (∃ r, prngReg c r))
theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(owns (c : Thread nD τ) (Memref.whole cc4_scratch0) fullShare (acc4 V c n hn) ∗ Pipeline.scopedRestBut (Ix := Unit) (Name := ℕ) (U := UR sig nD τ) (Lvl := ℕ) (Val := Elt F) spec4 c [cc4_scratch0] ∗ (∃ r, prngReg c r)) := rfl
theorem PhiS4_pos (c : Dev nD) (n : ℕ) (h : n ≤ cfg4.N) (hz : n ≠ 0) :
    PhiS4 V c n h = iprop(owns (c : Thread nD τ) (Memref.whole cc4_scratch0) fullShare (acc4 V c (n - 1) (by omega)) ∗ Pipeline.scopedRestBut (Ix := Unit) (Name := ℕ) (U := UR sig nD τ) (Lvl := ℕ) (Val := Elt F) spec4 c [cc4_scratch0] ∗ (∃ r, prngReg c r)) := by
  cases n with
  | zero => exact absurd rfl hz
  | succ n => rfl
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k4_pay3 (acc4 V c t.val t.isLt)
  Φ t := PhiS4 V c t.val (Nat.le_of_lt_succ t.isLt)
  q _ := fullShare
  owed _ := 0
theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = k4_pay3 (acc4 V c t.val t.isLt) := by dsimp only [dat4]
end Cert.KernelIdeal.Hand
end
-- ==== Proof.KI.R4.lean ====
import proofs.«427224_j39238821216992_2_alg».proof.Proof.KI.D4
import proofs.«427224_j39238821216992_2_alg».proof.Proof.KI.RLib
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
abbrev condFirst4 (i : grid4.Coords) : Prop := (Scalar.cmpi .ne (Scalar.extui (Scalar.cmpi .eq (BitVec.ofNat 32 (i 1).val) 0#32)) 0#32) = 1#1
abbrev condLast4 (i : grid4.Coords) : Prop := k4_cond2 i = 1#1
set_option maxHeartbeats 1000000 in
/-- The accumulator, zeroed first where the inner coordinate is zero, takes the point's contribution; where the inner axis ends the output is stored from it. -/
theorem run4 (c : Dev nD) (i : grid4.Coords) (arg2 : Memref sig .tc .vmem S2560x1 .i32) (harg2 : arg2.IsWhole) (arg3 : Memref sig .tc .vmem S2048x128 .f32) (harg3 : arg3.IsWhole) (arg4 : Memref sig .tc .vmem S2560x128 .bf16) (harg4 : arg4.IsWhole) (arg5 : Memref sig .tc .vmem S2560x128 .f32) (harg5 : arg5.IsWhole)
    (hFL : condFirst4 i → ¬ condLast4 i)
    (xa : Vec F S2560x1 .i32) (xb : Vec F S2048x128 .f32) (xo : Vec F S2560x128 .bf16) (xs : Vec F S2560x128 .f32) (E : Set ℕ) (K : PUnit → sProp 𝕄) :
    iprop(owns (c : Thread nD τ) arg2 fullShare xa ∗ owns (c : Thread nD τ) arg3 fullShare xb ∗ owns (c : Thread nD τ) arg4 fullShare xo ∗ owns (c : Thread nD τ) arg5 fullShare xs
        ∗ (iprop(owns (c : Thread nD τ) arg2 fullShare xa ∗ owns (c : Thread nD τ) arg3 fullShare xb
             ∗ owns (c : Thread nD τ) arg4 fullShare (if condLast4 i then k4_pay3 (k4_pay2 i xa (if condFirst4 i then k4_pay1 (F := F) else xs) xb) else xo)
             ∗ owns (c : Thread nD τ) arg5 fullShare (k4_pay2 i xa (if condFirst4 i then k4_pay1 (F := F) else xs) xb)) -∗ K ⟨⟩))
      ⊢ wp frame (wpE (defs₀ (F := F)) Variants.none c none) E (cc4__gather_kernel i arg2 harg2 arg3 harg3 arg4 harg4 arg5 harg5) K := by
  simp only [cc4__gather_kernel_eq_skeleton, owns_eq_unread harg2, owns_eq_unread harg3, owns_eq_unread harg4, owns_eq_unread harg5]
  unfold cc4__gather_kernel_skel
  iintro ⟨Ha, Hb, Ho, HS, Hk⟩
  by_cases hcF : condFirst4 i <;> by_cases hcL : condLast4 i
  · exact absurd hcL (hFL hcF)
  all_goals
    first | rw [if_pos hcF] | rw [if_neg hcF]
    first | rw [if_pos hcL] | rw [if_neg hcL]
    sl_exec (disch := first | exact hcF | exact hcL)
    sl_step
    iapply Hk
    iframe Ha Hb
    isplitl [Ho]
    · iapply heldAt harg4 c ?_ $$ Ho
      sl_unfold_run_names
      simp only [harg4.read_unread, read_writes_box, readAt_box, readCov_box]
    iapply heldAt harg5 c ?_ $$ HS
    sl_unfold_run_names
    simp only [read_writes_box, readAt_box, readCov_box]
theorem hcondFirst4 : ∀ t : Fin cfg4.N, condFirst4 (grid4.coords t) ↔ t.val % 10 = 0 :=
  (by decide +kernel : ∀ t : Fin grid4.N, condFirst4 (grid4.coords t) ↔ t.val % 10 = 0)
theorem hcondLast4 : ∀ t : Fin cfg4.N, condLast4 (grid4.coords t) ↔ t.val % 10 = 9 :=
  (by decide +kernel : ∀ t : Fin grid4.N, condLast4 (grid4.coords t) ↔ t.val % 10 = 9)
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
/-- The scoped buffers at some contents, the accumulator apart as a memref owned at some contents. -/
theorem PhiA4_eq (c : Dev nD) :
    (Pipeline.ΦA spec4 c : sProp 𝕄)
      = iprop(iprop(iprop((∃ d, owns (c : Thread nD τ) (Memref.whole cc4_scratch0) fullShare d)) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [owns_whole]; try rfl
/-- Before any point the accumulator is owned at some contents: after the first point, at what the point before left. -/
theorem phiOpen4 (c : Dev nD) (n : ℕ) (h : n ≤ cfg4.N) :
    PhiS4 V c n h ⊢ iprop(∃ xs, ⌜∀ hn : n ≠ 0, xs = acc4 V c (n - 1) (by omega)⌝ ∗ owns (c : Thread nD τ) (Memref.whole cc4_scratch0) fullShare xs
      ∗ Pipeline.scopedRestBut (Ix := Unit) (Name := ℕ) (U := UR sig nD τ) (Lvl := ℕ) (Val := Elt F) spec4 c [cc4_scratch0] ∗ (∃ r, prngReg c r)) := by
  by_cases hn : n = 0
  · rw [PhiS4_zero V c n h hn, PhiA4_eq]; iintro ⟨⟨⟨%xs, HS⟩, Hr⟩, Hg⟩
    iexists xs; iframe HS Hr Hg; ipureintro; exact fun h' => absurd hn h'
  · rw [PhiS4_pos V c n h hn]; iintro ⟨HS, Hr, Hg⟩
    iexists _; iframe HS Hr Hg; ipureintro; exact fun _ => rfl
/-- A point's accumulator is the body's step from the contents before it, zeros standing in where the inner coordinate is zero. -/
theorem accStep4 (c : Dev nD) (t : Fin cfg4.N) (xs : Vec F S2560x128 .f32) (h : ∀ hn : t.val ≠ 0, xs = acc4 V c (t.val - 1) (by omega)) :
    k4_pay2 (grid4.coords t) (iblk4 V c 0 t) (if condFirst4 (grid4.coords t) then k4_pay1 (F := F) else xs) (iblk4 V c 1 t) = acc4 V c t.val t.isLt := by
  by_cases hz : t.val % 10 = 0
  · rw [if_pos ((hcondFirst4 t).mpr hz), acc4_first V c t hz]
  · rw [if_neg fun hF => hz ((hcondFirst4 t).mp hF), acc4_next V c t hz, h fun h0 => hz (by rw [h0])]
/-- Where the inner axis ends the output holds the accumulator narrowed; elsewhere what it held. -/
theorem leavesOut4 (c : Dev nD) (t : Fin cfg4.N) (d) :
    owns (c : Thread nD τ) (win4_2.stage (cfg4.slots t 2)) fullShare (if condLast4 (grid4.coords t) then k4_pay3 (acc4 V c t.val t.isLt) else (dat4 V c).before 2 t d)
      ⊢ (dat4 V c).leavesExact 2 t := by
  by_cases hL : condLast4 (grid4.coords t)
  · rw [if_pos hL, ← after4_2]; unfold Dat.leavesExact
    rw [show cfg4.idle 2 (grid4.coords t) = false by show (!(k4_cond2 (grid4.coords t) == 1#1)) = false; simpa using hL]
  · rw [if_neg hL, Dat.leavesExact_idle _ 2 t (by show (!(k4_cond2 (grid4.coords t) == 1#1)) = true; simpa using hL)
      (Bool.eq_false_iff.mpr fun hf => hL ((hcondLast4 t).mpr ((flush4_2 t).mp hf)))]
    iintro H; iexists d; iexact H
/-- Each point's body turns the invariant before it into the invariant after it. -/
theorem sound_body4 (c : Dev nD) (t : Fin cfg4.N) :
    iprop((dat4 V c).Φ t.castSucc ∗ (dat4 V c).owesAt () t.castSucc
      ∗ (∃ d, owns (c : Thread nD τ) (win4_0.stage (cfg4.slots t 0)) fullShare ((dat4 V c).before 0 t d))
      ∗ (∃ d, owns (c : Thread nD τ) (win4_1.stage (cfg4.slots t 1)) fullShare ((dat4 V c).before 1 t d))
      ∗ (∃ d, owns (c : Thread nD τ) (win4_2.stage (cfg4.slots t 2)) fullShare ((dat4 V c).before 2 t d)))
    ⊢ wp frame (wpE (defs₀ (F := F)) Variants.none c none) Set.univ (bodyAt4 t) (fun _ =>
      iprop(PhiS4 V c (t.val + 1) t.isLt ∗ (dat4 V c).owesAt () t.castSucc
        ∗ owns (c : Thread nD τ) (win4_0.stage (cfg4.slots t 0)) fullShare (iblk4 V c 0 t)
        ∗ owns (c : Thread nD τ) (win4_1.stage (cfg4.slots t 1)) fullShare (iblk4 V c 1 t)
        ∗ (dat4 V c).leavesExact 2 t)) := by
  unfold bodyAt4
  simp only [before4_0, before4_1]
  rw [PhiS4_castSucc V c t, PhiS4_succ]
  iintro ⟨HΦ, Ho, ⟨%da, Ha⟩, ⟨%db, Hb⟩, ⟨%dc, Hc⟩⟩
  ihave ⟨%xs, %hxs, HS, Hr, Hg⟩ := phiOpen4 V c _ _ $$ HΦ
  iapply run4 c (grid4.coords t) _ _ _ _ _ _ _ _ (fun hF hL => by have := (hcondFirst4 t).mp hF; have := (hcondLast4 t).mp hL; omega) (iblk4 V c 0 t) (iblk4 V c 1 t) _ xs Set.univ _
  iframe Ha Hb Hc HS
  rw [accStep4 V c t xs hxs]
  iintro ⟨Ha, Hb, Hc, HS⟩
  iframe HS Hr Hg Ho Ha Hb
  iapply leavesOut4 V c t dc $$ Hc
theorem body_obligation4 (c : Dev nD) : BodyObligation (dat4 (F := F) V c) (defs₀ (F := F)) Variants.none () Set.univ := fun t => by
  rw [bigSep_W4, bigSep_W4]
  exact sound_body4 V c t
theorem hin4 (c : Dev nD) : Pipeline.ΦA spec4 c ⊢ (dat4 V c).Φ 0 := .rfl
theorem hout4 (c : Dev nD) : (dat4 V c).Φ (Fin.last cfg4.N) ⊢ Pipeline.ΦA spec4 c :=
  (phiOpen4 V c _ (Nat.le_of_lt_succ (Fin.last cfg4.N).isLt)).trans (by rw [PhiA4_eq]; iintro ⟨%xs, -, HS, Hr, Hg⟩; iframe Hr Hg; iexists xs; iexact HS)
end Cert.KernelIdeal.Hand
end
-- ==== Proof.KI.D5.lean ====
import proofs.«427224_j39238821216992_2_alg».proof.Proof.Gen.KernelIdeal.Launch
import proofs.«427224_j39238821216992_2_alg».proof.Proof.Gen.KernelIdeal.Skeleton
import proofs.«427224_j39238821216992_2_alg».proof.Proof.Gen.KernelIdeal.Points
import Idealize.ShloMosaic.Lib.Pipeline.FrameBody
import Idealize.ShloMosaic.Lib.Ring
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))
def acc5 (c : Dev nD) : (n : ℕ) → n < cfg5.N → Vec F S2048x128 .f32
  | 0, hn => k5_pay2 (grid5.coords ⟨0, hn⟩) (iblk5 V c 0 ⟨0, hn⟩) (k5_pay1 (F := F)) (iblk5 V c 1 ⟨0, hn⟩)
  | n + 1, hn =>
    if h : (n + 1) % 250 = 0 then
      k5_pay2 (grid5.coords ⟨n + 1, hn⟩) (iblk5 V c 0 ⟨n + 1, hn⟩) (k5_pay1 (F := F)) (iblk5 V c 1 ⟨n + 1, hn⟩)
    else
      k5_pay2 (grid5.coords ⟨n + 1, hn⟩) (iblk5 V c 0 ⟨n + 1, hn⟩) (acc5 c n (Nat.lt_of_succ_lt hn)) (iblk5 V c 1 ⟨n + 1, hn⟩)
theorem acc5_first (c : Dev nD) (t : Fin cfg5.N) (h : t.val % 250 = 0) :
    acc5 V c t.val t.isLt = k5_pay2 (grid5.coords t) (iblk5 V c 0 t) (k5_pay1 (F := F)) (iblk5 V c 1 t) := by
  obtain ⟨n, hn⟩ := t
  cases n with
  | zero => rfl
  | succ n => exact dif_pos h
theorem acc5_next (c : Dev nD) (t : Fin cfg5.N) (h : ¬ t.val % 250 = 0) :
    acc5 V c t.val t.isLt = k5_pay2 (grid5.coords t) (iblk5 V c 0 t) (acc5 V c (t.val - 1) (Nat.lt_of_le_of_lt (Nat.sub_le _ _) t.isLt)) (iblk5 V c 1 t) := by
  obtain ⟨n, hn⟩ := t
  cases n with
  | zero => exact absurd (Nat.zero_mod _) h
  | succ n => exact dif_neg h
def PhiS5 (c : Dev nD) : (n : ℕ) → n ≤ cfg5.N → sProp 𝕄
  | 0, _ => Pipeline.ΦA spec5 c
  | n + 1, hn => iprop(owns (c : Thread nD τ) (Memref.whole cc5_scratch0) fullShare (acc5 V c n hn) ∗ Pipeline.scopedRestBut (Ix := Unit) (Name := ℕ) (U := UR sig nD τ) (Lvl := ℕ) (Val := Elt F) spec5 c [cc5_scratch0] ∗ (∃ r, prngReg c r))
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => acc5 V c t.val t.isLt
  Φ t := PhiS5 V c t.val (Nat.le_of_lt_succ t.isLt)
  q _ := fullShare
  owed _ := 0
theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = acc5 V c t.val t.isLt := by dsimp only [dat5]
theorem PhiS5_zero (c : Dev nD) (n : ℕ) (h : n ≤ cfg5.N) (hz : n = 0) : PhiS5 V c n h = Pipeline.ΦA spec5 c := by
  subst hz; rfl
theorem PhiS5_succ (c : Dev nD) (n : ℕ) (hn : n < cfg5.N) :
    PhiS5 V c (n + 1) hn = iprop(owns (c : Thread nD τ) (Memref.whole cc5_scratch0) fullShare (acc5 V c n hn) ∗ Pipeline.scopedRestBut (Ix := Unit) (Name := ℕ) (U := UR sig nD τ) (Lvl := ℕ) (Val := Elt F) spec5 c [cc5_scratch0] ∗ (∃ r, prngReg c r)) := rfl
theorem PhiS5_pos (c : Dev nD) (n : ℕ) (h : n ≤ cfg5.N) (hz : n ≠ 0) :
    PhiS5 V c n h = iprop(owns (c : Thread nD τ) (Memref.whole cc5_scratch0) fullShare (acc5 V c (n - 1) (by omega)) ∗ Pipeline.scopedRestBut (Ix := Unit) (Name := ℕ) (U := UR sig nD τ) (Lvl := ℕ) (Val := Elt F) spec5 c [cc5_scratch0] ∗ (∃ r, prngReg c r)) := by
  cases n with
  | zero => exact absurd rfl hz
  | succ n => rfl
theorem PhiS5_castSucc (c : Dev nD) (t : Fin cfg5.N) :
    (dat5 V c).Φ t.castSucc = PhiS5 V c t.val (Nat.le_of_lt t.isLt) := by
  dsimp only [dat5]; simp only [Fin.coe_castSucc]
end Cert.KernelIdeal.Hand
end
-- ==== Proof.KI.R5.lean ====
import proofs.«427224_j39238821216992_2_alg».proof.Proof.KI.D5
import proofs.«427224_j39238821216992_2_alg».proof.Proof.KI.RLib
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
abbrev cond5_1 (i : grid5.Coords) : Prop := (Scalar.cmpi .ne (Scalar.extui (Scalar.cmpi .eq (BitVec.ofNat 32 (i 1).val) 0#32)) 0#32) = 1#1
abbrev cond5_2 (i : grid5.Coords) : Prop := k5_cond2 i = 1#1
set_option maxHeartbeats 1000000 in
/-- The accumulator, zeroed first where the inner coordinate is zero, takes the point's contribution; where the inner axis ends the output is stored from it. -/
theorem run5 (c : Dev nD) (i : grid5.Coords) (arg2 : Memref sig .tc .vmem S1x2560 .i32) (harg2 : arg2.IsWhole) (arg3 : Memref sig .tc .vmem S2560x128 .bf16) (harg3 : arg3.IsWhole) (arg4 : Memref sig .tc .vmem S2048x128 .f32) (harg4 : arg4.IsWhole) (arg5 : Memref sig .tc .vmem S2048x128 .f32) (harg5 : arg5.IsWhole)
    (hFL : cond5_1 i → ¬ cond5_2 i)
    (xa : Vec F S1x2560 .i32) (xb : Vec F S2560x128 .bf16) (xo : Vec F S2048x128 .f32) (xs : Vec F S2048x128 .f32) (E : Set ℕ) (K : PUnit → sProp 𝕄) :
    iprop(owns (c : Thread nD τ) arg2 fullShare xa ∗ owns (c : Thread nD τ) arg3 fullShare xb ∗ owns (c : Thread nD τ) arg4 fullShare xo ∗ owns (c : Thread nD τ) arg5 fullShare xs
        ∗ (iprop(owns (c : Thread nD τ) arg2 fullShare xa ∗ owns (c : Thread nD τ) arg3 fullShare xb
             ∗ owns (c : Thread nD τ) arg4 fullShare (if cond5_2 i then k5_pay2 i xa (if cond5_1 i then k5_pay1 (F := F) else xs) xb else xo)
             ∗ owns (c : Thread nD τ) arg5 fullShare (k5_pay2 i xa (if cond5_1 i then k5_pay1 (F := F) else xs) xb)) -∗ K ⟨⟩))
      ⊢ wp frame (wpE (defs₀ (F := F)) Variants.none c none) E (cc5__scatter_kernel i arg2 harg2 arg3 harg3 arg4 harg4 arg5 harg5) K := by
  simp only [cc5__scatter_kernel_eq_skeleton, owns_eq_unread harg2, owns_eq_unread harg3, owns_eq_unread harg4, owns_eq_unread harg5]
  unfold cc5__scatter_kernel_skel
  iintro ⟨Ha, Hb, Ho, HS, Hk⟩
  by_cases hcF : cond5_1 i <;> by_cases hcL : cond5_2 i
  · exact absurd hcL (hFL hcF)
  all_goals
    first | rw [if_pos hcF] | rw [if_neg hcF]
    first | rw [if_pos hcL] | rw [if_neg hcL]
    sl_exec (disch := first | exact hcF | exact hcL)
    sl_step
    iapply Hk
    iframe Ha Hb
    isplitl [Ho]
    · iapply heldAt harg4 c ?_ $$ Ho
      sl_unfold_run_names
      simp only [harg4.read_unread, read_writes_box, readAt_box, readCov_box]
    iapply heldAt harg5 c ?_ $$ HS
    sl_unfold_run_names
    simp only [read_writes_box, readAt_box, readCov_box]
theorem hcond5_1 : ∀ t : Fin cfg5.N, cond5_1 (grid5.coords t) ↔ t.val % 250 = 0 :=
  (by decide +kernel : ∀ t : Fin grid5.N, cond5_1 (grid5.coords t) ↔ t.val % 250 = 0)
theorem hcond5_2 : ∀ t : Fin cfg5.N, cond5_2 (grid5.coords t) ↔ t.val % 250 = 249 :=
  (by decide +kernel : ∀ t : Fin grid5.N, cond5_2 (grid5.coords t) ↔ t.val % 250 = 249)
theorem before5_0 (c : Dev nD) (t : Fin cfg5.N) (d) : (dat5 V c).before 0 t d = iblk5 V c 0 t := by
  rw [Dat.before_fetched _ 0 t (fetch5_0 t) d]
  unfold Dat.fetched Dat.blockOf iblk5; rw [A_eq5]; try rfl
theorem before5_1 (c : Dev nD) (t : Fin cfg5.N) (d) : (dat5 V c).before 1 t d = iblk5 V c 1 t := by
  rw [Dat.before_fetched _ 1 t (fetch5_1 t) d]
  unfold Dat.fetched Dat.blockOf iblk5; rw [A_eq5]; try rfl
/-- The scoped buffers at some contents, the accumulator apart as a memref owned at some contents. -/
theorem PhiA5_eq (c : Dev nD) :
    (Pipeline.ΦA spec5 c : sProp 𝕄)
      = iprop(iprop(iprop((∃ d, owns (c : Thread nD τ) (Memref.whole cc5_scratch0) fullShare d)) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [owns_whole]; try rfl
/-- Before any point the accumulator is owned at some contents: after the first point, at what the point before left. -/
theorem phiOpen5 (c : Dev nD) (n : ℕ) (h : n ≤ cfg5.N) :
    PhiS5 V c n h ⊢ iprop(∃ xs, ⌜∀ hn : n ≠ 0, xs = acc5 V c (n - 1) (by omega)⌝ ∗ owns (c : Thread nD τ) (Memref.whole cc5_scratch0) fullShare xs
      ∗ Pipeline.scopedRestBut (Ix := Unit) (Name := ℕ) (U := UR sig nD τ) (Lvl := ℕ) (Val := Elt F) spec5 c [cc5_scratch0] ∗ (∃ r, prngReg c r)) := by
  by_cases hn : n = 0
  · rw [PhiS5_zero V c n h hn, PhiA5_eq]; iintro ⟨⟨⟨%xs, HS⟩, Hr⟩, Hg⟩
    iexists xs; iframe HS Hr Hg; ipureintro; exact fun h' => absurd hn h'
  · rw [PhiS5_pos V c n h hn]; iintro ⟨HS, Hr, Hg⟩
    iexists _; iframe HS Hr Hg; ipureintro; exact fun _ => rfl
/-- A point's accumulator is the body's step from the contents before it, zeros standing in where the inner coordinate is zero. -/
theorem accStep5 (c : Dev nD) (t : Fin cfg5.N) (xs : Vec F S2048x128 .f32) (h : ∀ hn : t.val ≠ 0, xs = acc5 V c (t.val - 1) (by omega)) :
    k5_pay2 (grid5.coords t) (iblk5 V c 0 t) (if cond5_1 (grid5.coords t) then k5_pay1 (F := F) else xs) (iblk5 V c 1 t) = acc5 V c t.val t.isLt := by
  by_cases hz : t.val % 250 = 0
  · rw [if_pos ((hcond5_1 t).mpr hz), acc5_first V c t hz]
  · rw [if_neg fun hF => hz ((hcond5_1 t).mp hF), acc5_next V c t hz, h fun h0 => hz (by rw [h0])]
/-- Where the inner axis ends the output holds the accumulator; elsewhere what it held. -/
theorem leavesOut5 (c : Dev nD) (t : Fin cfg5.N) (d) :
    owns (c : Thread nD τ) (win5_2.stage (cfg5.slots t 2)) fullShare (if cond5_2 (grid5.coords t) then acc5 V c t.val t.isLt else (dat5 V c).before 2 t d)
      ⊢ (dat5 V c).leavesExact 2 t := by
  by_cases hL : cond5_2 (grid5.coords t)
  · rw [if_pos hL, ← after5_2]; unfold Dat.leavesExact
    rw [show cfg5.idle 2 (grid5.coords t) = false by show (!(k5_cond2 (grid5.coords t) == 1#1)) = false; simpa using hL]
  · rw [if_neg hL, Dat.leavesExact_idle _ 2 t (by show (!(k5_cond2 (grid5.coords t) == 1#1)) = true; simpa using hL)
      (Bool.eq_false_iff.mpr fun hf => hL ((hcond5_2 t).mpr ((flush5_2 t).mp hf)))]
    iintro H; iexists d; iexact H
/-- Each point's body turns the invariant before it into the invariant after it. -/
theorem sound_body5 (c : Dev nD) (t : Fin cfg5.N) :
    iprop((dat5 V c).Φ t.castSucc ∗ (dat5 V c).owesAt () t.castSucc
      ∗ (∃ d, owns (c : Thread nD τ) (win5_0.stage (cfg5.slots t 0)) fullShare ((dat5 V c).before 0 t d))
      ∗ (∃ d, owns (c : Thread nD τ) (win5_1.stage (cfg5.slots t 1)) fullShare ((dat5 V c).before 1 t d))
      ∗ (∃ d, owns (c : Thread nD τ) (win5_2.stage (cfg5.slots t 2)) fullShare ((dat5 V c).before 2 t d)))
    ⊢ wp frame (wpE (defs₀ (F := F)) Variants.none c none) Set.univ (bodyAt5 t) (fun _ =>
      iprop(PhiS5 V c (t.val + 1) t.isLt ∗ (dat5 V c).owesAt () t.castSucc
        ∗ owns (c : Thread nD τ) (win5_0.stage (cfg5.slots t 0)) fullShare (iblk5 V c 0 t)
        ∗ owns (c : Thread nD τ) (win5_1.stage (cfg5.slots t 1)) fullShare (iblk5 V c 1 t)
        ∗ (dat5 V c).leavesExact 2 t)) := by
  unfold bodyAt5
  simp only [before5_0, before5_1]
  rw [PhiS5_castSucc V c t, PhiS5_succ]
  iintro ⟨HΦ, Ho, ⟨%da, Ha⟩, ⟨%db, Hb⟩, ⟨%dc, Hc⟩⟩
  ihave ⟨%xs, %hxs, HS, Hr, Hg⟩ := phiOpen5 V c _ _ $$ HΦ
  iapply run5 c (grid5.coords t) _ _ _ _ _ _ _ _ (fun hF hL => by have := (hcond5_1 t).mp hF; have := (hcond5_2 t).mp hL; omega) (iblk5 V c 0 t) (iblk5 V c 1 t) _ xs Set.univ _
  iframe Ha Hb Hc HS
  rw [accStep5 V c t xs hxs]
  iintro ⟨Ha, Hb, Hc, HS⟩
  iframe HS Hr Hg Ho Ha Hb
  iapply leavesOut5 V c t dc $$ Hc
theorem body_obligation5 (c : Dev nD) : BodyObligation (dat5 (F := F) V c) (defs₀ (F := F)) Variants.none () Set.univ := fun t => by
  rw [bigSep_W5, bigSep_W5]
  exact sound_body5 V c t
theorem hin5 (c : Dev nD) : Pipeline.ΦA spec5 c ⊢ (dat5 V c).Φ 0 := .rfl
theorem hout5 (c : Dev nD) : (dat5 V c).Φ (Fin.last cfg5.N) ⊢ Pipeline.ΦA spec5 c :=
  (phiOpen5 V c _ (Nat.le_of_lt_succ (Fin.last cfg5.N).isLt)).trans (by rw [PhiA5_eq]; iintro ⟨%xs, -, HS, Hr, Hg⟩; iframe Hr Hg; iexists xs; iexact HS)
end Cert.KernelIdeal.Hand
end
-- ==== Proof.KI.D6.lean ====
import proofs.«427224_j39238821216992_2_alg».proof.Proof.Gen.KernelIdeal.Launch
import proofs.«427224_j39238821216992_2_alg».proof.Proof.Gen.KernelIdeal.Skeleton
import proofs.«427224_j39238821216992_2_alg».proof.Proof.Gen.KernelIdeal.Points
import Idealize.ShloMosaic.Lib.Pipeline.FrameBody
import Idealize.ShloMosaic.Lib.Ring
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))
def out6 (c : Dev nD) (t : Fin cfg6.N) : Vec F S2000x128 .f32 :=
  k6_pay1 (iblk6 V c 0 t) (iblk6 V c 2 t) (iblk6 V c 1 t) (iblk6 V c 3 t) (iblk6 V c 4 t)
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6 V c t
  Φ _ := Pipeline.ΦA spec6 c
  q _ := fullShare
  owed _ := 0
theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6 V c t := by dsimp only [dat6]
end Cert.KernelIdeal.Hand
end
-- ==== Proof.KI.R6.lean ====
import proofs.«427224_j39238821216992_2_alg».proof.Proof.KI.D6
import proofs.«427224_j39238821216992_2_alg».proof.Proof.KI.RLib
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
theorem before6 (c : Dev nD) (t : Fin cfg6.N) : (∀ d, (dat6 V c).before 0 t d = iblk6 V c 0 t)
    ∧ (∀ d, (dat6 V c).before 1 t d = iblk6 V c 1 t)
    ∧ (∀ d, (dat6 V c).before 2 t d = iblk6 V c 2 t)
    ∧ (∀ d, (dat6 V c).before 3 t d = iblk6 V c 3 t)
    ∧ (∀ d, (dat6 V c).before 4 t d = iblk6 V c 4 t) := by
  refine ⟨?_, ?_, ?_, ?_, ?_⟩ <;> exact fun d => ((dat6 V c).before_in_eq_fetched _ rfl (fun _ => rfl) (fun _ _ _ => rfl)
    (fun t => by simp only [after6_0, after6_1, after6_2, after6_3, after6_4]; unfold Dat.blockOf iblk6; rw [A_eq6]; try rfl) t d).trans
    (by unfold Dat.fetched Dat.blockOf iblk6; rw [A_eq6]; try rfl)
/-- Every load of the body reads a whole buffer and its one store covers the output's, which then reads the payload. -/
theorem sound_kernel6 (c : Dev nD) (E : Set ℕ) (i : grid6.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S2000x128 .f32) (harg6 : arg6.IsWhole)
    (x0 x1 xo : Vec F S2000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xo
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k6_pay1 x0 x2 x1 x3 x4)) -∗ K ⟨⟩))
      ⊢ wp frame (wpE (defs₀ (F := F)) Variants.none c none) E (cc6__sage_kernel i arg1 harg1 arg2 harg2 arg3 harg3 arg4 harg4 arg5 harg5 arg6 harg6) K := by
  simp only [cc6__sage_kernel_eq_skeleton]; unfold cc6__sage_kernel_skel
  rw [owns_eq_unread harg1, owns_eq_unread harg2, owns_eq_unread harg3, owns_eq_unread harg4, owns_eq_unread harg5, owns_eq_unread harg6 c _ xo]
  iintro ⟨H0, H1, H2, H3, H4, H5, Hk⟩
  sl_exec
  sl_step
  iapply Hk
  iframe H0 H1 H2 H3 H4
  unfold owns; iexists _; isplitr
  swap; · iexact H5
  ipureintro
  simp only [read_writes_box, readAt_box]
theorem body_obligation6 (c : Dev nD) : BodyObligation (dat6 (F := F) V c) (defs₀ (F := F)) Variants.none () Set.univ := fun t => by
  rw [bigSep_W6, bigSep_W6]
  show iprop((dat6 V c).Φ t.castSucc ∗ (dat6 V c).owesAt () t.castSucc
      ∗ (∃ d, owns (c : Thread nD τ) (st6_0 t) fullShare ((dat6 V c).before 0 t d))
      ∗ (∃ d, owns (c : Thread nD τ) (st6_1 t) fullShare ((dat6 V c).before 1 t d))
      ∗ (∃ d, owns (c : Thread nD τ) (st6_2 t) fullShare ((dat6 V c).before 2 t d))
      ∗ (∃ d, owns (c : Thread nD τ) (st6_3 t) fullShare ((dat6 V c).before 3 t d))
      ∗ (∃ d, owns (c : Thread nD τ) (st6_4 t) fullShare ((dat6 V c).before 4 t d))
      ∗ (∃ d, owns (c : Thread nD τ) (st6_5 t) fullShare ((dat6 V c).before 5 t d)))
    ⊢ wp frame (wpE (defs₀ (F := F)) Variants.none c none) Set.univ (bodyAt6 t) (fun _ =>
      iprop((dat6 V c).Φ t.castSucc ∗ (dat6 V c).owesAt () t.castSucc
        ∗ owns (c : Thread nD τ) (st6_0 t) fullShare (iblk6 V c 0 t) ∗ owns (c : Thread nD τ) (st6_1 t) fullShare (iblk6 V c 1 t)
        ∗ owns (c : Thread nD τ) (st6_2 t) fullShare (iblk6 V c 2 t) ∗ owns (c : Thread nD τ) (st6_3 t) fullShare (iblk6 V c 3 t)
        ∗ owns (c : Thread nD τ) (st6_4 t) fullShare (iblk6 V c 4 t) ∗ owns (c : Thread nD τ) (st6_5 t) fullShare (out6 V c t)))
  simp only [(before6 V c t).1, (before6 V c t).2.1, (before6 V c t).2.2.1, (before6 V c t).2.2.2.1, (before6 V c t).2.2.2.2]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _
    (iblk6 V c 0 t) (iblk6 V c 1 t) _ (iblk6 V c 2 t) (iblk6 V c 3 t) (iblk6 V c 4 t) _)
  iframe H0 H1 H2 H3 H4 H5
  iintro ⟨H0, H1, H2, H3, H4, H5⟩
  iframe
  iexact H5
theorem hin6 (c : Dev nD) : Pipeline.ΦA spec6 c ⊢ (dat6 V c).Φ 0 := .rfl
theorem hout6 (c : Dev nD) : (dat6 V c).Φ (Fin.last cfg6.N) ⊢ Pipeline.ΦA spec6 c := .rfl
end Cert.KernelIdeal.Hand
end
-- ==== Proof.KI.D7.lean ====
import proofs.«427224_j39238821216992_2_alg».proof.Proof.Gen.KernelIdeal.Launch
import proofs.«427224_j39238821216992_2_alg».proof.Proof.Gen.KernelIdeal.Skeleton
import proofs.«427224_j39238821216992_2_alg».proof.Proof.Gen.KernelIdeal.Points
import Idealize.ShloMosaic.Lib.Pipeline.FrameBody
import Idealize.ShloMosaic.Lib.Ring
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))
def acc7 (c : Dev nD) : (n : ℕ) → n < cfg7.N → Vec F S32x128 .f32
  | 0, hn => k7_pay2 (grid7.coords ⟨0, hn⟩) (iblk7 V c 0 ⟨0, hn⟩) (k7_pay1 (F := F)) (iblk7 V c 1 ⟨0, hn⟩)
  | n + 1, hn =>
    if (n + 1) % 8 = 0 then
      k7_pay2 (grid7.coords ⟨n + 1, hn⟩) (iblk7 V c 0 ⟨n + 1, hn⟩) (k7_pay1 (F := F)) (iblk7 V c 1 ⟨n + 1, hn⟩)
    else
      k7_pay2 (grid7.coords ⟨n + 1, hn⟩) (iblk7 V c 0 ⟨n + 1, hn⟩) (acc7 c n (Nat.lt_of_succ_lt hn)) (iblk7 V c 1 ⟨n + 1, hn⟩)
theorem acc7_first (c : Dev nD) (t : Fin cfg7.N) (h : t.val % 8 = 0) :
    acc7 V c t.val t.isLt = k7_pay2 (grid7.coords t) (iblk7 V c 0 t) (k7_pay1 (F := F)) (iblk7 V c 1 t) := by
  obtain ⟨n, hn⟩ := t
  cases n with
  | zero => rfl
  | succ n => exact if_pos h
theorem acc7_next (c : Dev nD) (t : Fin cfg7.N) (h : ¬ t.val % 8 = 0) :
    acc7 V c t.val t.isLt = k7_pay2 (grid7.coords t) (iblk7 V c 0 t) (acc7 V c (t.val - 1) (Nat.lt_of_le_of_lt (Nat.sub_le _ _) t.isLt)) (iblk7 V c 1 t) := by
  obtain ⟨n, hn⟩ := t
  cases n with
  | zero => exact absurd (Nat.zero_mod _) h
  | succ n => exact if_neg h
def PhiS7 (c : Dev nD) : (n : ℕ) → n ≤ cfg7.N → sProp 𝕄
  | 0, _ => Pipeline.ΦA spec7 c
  | n + 1, hn => iprop(owns (c : Thread nD τ) (Memref.whole cc7_scratch0) fullShare (acc7 V c n hn) ∗ Pipeline.scopedRestBut (Ix := Unit) (Name := ℕ) (U := UR sig nD τ) (Lvl := ℕ) (Val := Elt F) spec7 c [cc7_scratch0] ∗ (∃ r, prngReg c r))
theorem PhiS7_zero (c : Dev nD) (n : ℕ) (h : n ≤ cfg7.N) (hz : n = 0) : PhiS7 V c n h = Pipeline.ΦA spec7 c := by
  subst hz; rfl
theorem PhiS7_succ (c : Dev nD) (n : ℕ) (hn : n < cfg7.N) :
    PhiS7 V c (n + 1) hn = iprop(owns (c : Thread nD τ) (Memref.whole cc7_scratch0) fullShare (acc7 V c n hn) ∗ Pipeline.scopedRestBut (Ix := Unit) (Name := ℕ) (U := UR sig nD τ) (Lvl := ℕ) (Val := Elt F) spec7 c [cc7_scratch0] ∗ (∃ r, prngReg c r)) := rfl
theorem PhiS7_pos (c : Dev nD) (n : ℕ) (h : n ≤ cfg7.N) (hz : n ≠ 0) :
    PhiS7 V c n h = iprop(owns (c : Thread nD τ) (Memref.whole cc7_scratch0) fullShare (acc7 V c (n - 1) (by omega)) ∗ Pipeline.scopedRestBut (Ix := Unit) (Name := ℕ) (U := UR sig nD τ) (Lvl := ℕ) (Val := Elt F) spec7 c [cc7_scratch0] ∗ (∃ r, prngReg c r)) := by
  cases n with
  | zero => exact absurd rfl hz
  | succ n => rfl
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => acc7 V c t.val t.isLt
  Φ t := PhiS7 V c t.val (Nat.le_of_lt_succ t.isLt)
  q _ := fullShare
  owed _ := 0
theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = acc7 V c t.val t.isLt := by dsimp only [dat7]
theorem PhiS7_castSucc (c : Dev nD) (t : Fin cfg7.N) :
    (dat7 V c).Φ t.castSucc = PhiS7 V c t.val (Nat.le_of_lt t.isLt) := by
  dsimp only [dat7]; simp only [Fin.coe_castSucc]
end Cert.KernelIdeal.Hand
end
-- ==== Proof.KI.R7.lean ====
import proofs.«427224_j39238821216992_2_alg».proof.Proof.KI.D7
import proofs.«427224_j39238821216992_2_alg».proof.Proof.KI.RLib
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
abbrev cond7_0 (i : grid7.Coords) : Prop := (Scalar.cmpi .ne (Scalar.extui (Scalar.cmpi .eq (BitVec.ofNat 32 (i 1).val) 0#32)) 0#32) = 1#1
theorem hcond7_0 : ∀ t : Fin cfg7.N, cond7_0 (grid7.coords t) ↔ t.val = 0 :=
  (by decide +kernel : ∀ t : Fin grid7.N, cond7_0 (grid7.coords t) ↔ t.val = 0)
abbrev cond7_1 (i : grid7.Coords) : Prop := k7_cond2 i = 1#1
theorem hcond7_1 : ∀ t : Fin cfg7.N, cond7_1 (grid7.coords t) ↔ t.val = 7 :=
  (by decide +kernel : ∀ t : Fin grid7.N, cond7_1 (grid7.coords t) ↔ t.val = 7)
theorem liveAt7_0 : ∀ t : Fin cfg7.N, cfg7.idle 0 (grid7.coords t) = false := by decide +kernel
theorem liveAt7_1 : ∀ t : Fin cfg7.N, cfg7.idle 1 (grid7.coords t) = false := by decide +kernel
theorem idleAt7_2 : ∀ t : Fin cfg7.N, t.val ≠ 7 → cfg7.idle 2 (grid7.coords t) = true := by decide +kernel
theorem noFlush7_2 : ∀ t : Fin cfg7.N, t.val ≠ 7 → (cfg7.win 2).flush t = false := by decide +kernel
theorem liveAt7_2 : ∀ t : Fin cfg7.N, t.val = 7 → cfg7.idle 2 (grid7.coords t) = false := by decide +kernel
/-- The three control cases: `a` is what the scratch accumulates onto, `o` what the output's buffer ends at. -/
theorem kernelRun7 (c : Dev nD) (i : grid7.Coords)
    (arg2 : Memref sig .tc .vmem S1x2560 .i32) (harg2 : arg2.IsWhole) (arg3 : Memref sig .tc .vmem S2560x128 .f32) (harg3 : arg3.IsWhole)
    (arg4 : Memref sig .tc .vmem S32x128 .f32) (harg4 : arg4.IsWhole) (arg5 : Memref sig .tc .vmem S32x128 .f32) (harg5 : arg5.IsWhole)
    (x0 : Vec F S1x2560 .i32) (x1 : Vec F S2560x128 .f32) (xo xs a o : Vec F S32x128 .f32)
    (h : (cond7_0 i ∧ ¬cond7_1 i ∧ a = k7_pay1 ∧ o = xo) ∨ (¬cond7_0 i ∧ ¬cond7_1 i ∧ a = xs ∧ o = xo)
      ∨ (¬cond7_0 i ∧ cond7_1 i ∧ a = xs ∧ o = k7_pay2 i x0 xs x1))
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare o
            ∗ owns (c : Thread nD τ) arg5 fullShare (k7_pay2 i x0 a x1)) -∗ K ⟨⟩))
      ⊢ wp frame (wpE (defs₀ (F := F)) Variants.none c none) E (cc7__scatter_kernel i arg2 harg2 arg3 harg3 arg4 harg4 arg5 harg5) K := by
  simp only [cc7__scatter_kernel_eq_skeleton]; unfold cc7__scatter_kernel_skel
  rw [owns_eq_unread harg2, owns_eq_unread harg3, owns_eq_unread harg4 c _ xo, owns_eq_unread harg5 c _ xs]
  iintro ⟨H0, H1, H2, HS, Hk⟩
  rcases h with ⟨hc0, hc1, rfl, rfl⟩ | ⟨hc0, hc1, rfl, rfl⟩ | ⟨hc0, hc1, rfl, rfl⟩ <;> (
    sl_exec (disch := first | exact hc0 | exact hc1)
    sl_step
    iapply Hk
    iframe H0 H1
    isplitl [H2] <;> (
      unfold owns; iexists _; isplitr
      swap; · iassumption
      ipureintro
      try sl_unfold_run_names
      simp only [read_writes_box, readAt_box, readCov_box, harg4.read_unread]))
/-- The class invariant, with the scratch as a memref owned at some contents. -/
theorem PhiA7_eq (c : Dev nD) :
    (Pipeline.ΦA spec7 c : sProp 𝕄)
      = iprop(iprop(iprop(∃ d, owns (c : Thread nD τ) (Memref.whole cc7_scratch0) fullShare d) ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [owns_whole]; try rfl
theorem before7 (c : Dev nD) (t : Fin cfg7.N) : (∀ d, (dat7 V c).before 0 t d = iblk7 V c 0 t)
    ∧ (∀ d, (dat7 V c).before 1 t d = iblk7 V c 1 t) := by
  refine ⟨?_, ?_⟩ <;> exact fun d => ((dat7 V c).before_in_eq_fetched _ rfl (fun _ => rfl) (fun _ _ _ => rfl)
    (fun t => by simp only [after7_0, after7_1]; unfold Dat.blockOf iblk7; rw [A_eq7]; try rfl) t d).trans
    (by unfold Dat.fetched Dat.blockOf iblk7; rw [A_eq7]; try rfl)
/-- By cases on the point: first, middle or last of its row. -/
theorem body_obligation7 (c : Dev nD) : BodyObligation (dat7 (F := F) V c) (defs₀ (F := F)) Variants.none () Set.univ := fun t => by
  rw [bigSep_W7, bigSep_W7]
  show iprop(PhiS7 V c t.val (Nat.le_of_lt t.isLt) ∗ (dat7 V c).owesAt () t.castSucc
      ∗ (∃ d, owns (c : Thread nD τ) (st7_0 t) fullShare ((dat7 V c).before 0 t d))
      ∗ (∃ d, owns (c : Thread nD τ) (st7_1 t) fullShare ((dat7 V c).before 1 t d))
      ∗ (∃ d, owns (c : Thread nD τ) (st7_2 t) fullShare ((dat7 V c).before 2 t d)))
    ⊢ wp frame (wpE (defs₀ (F := F)) Variants.none c none) Set.univ (bodyAt7 t) (fun _ =>
      iprop(PhiS7 V c (t.val + 1) t.isLt ∗ (dat7 V c).owesAt () t.castSucc
        ∗ (dat7 V c).leavesExact 0 t ∗ (dat7 V c).leavesExact 1 t ∗ (dat7 V c).leavesExact 2 t))
  simp only [(before7 V c t).1, (before7 V c t).2]
  rw [PhiS7_succ,
    show (dat7 V c).leavesExact 0 t = owns (c : Thread nD τ) (st7_0 t) fullShare ((dat7 V c).after 0 t) from by
      unfold Dat.leavesExact; rw [liveAt7_0 t], after7_0,
    show (dat7 V c).leavesExact 1 t = owns (c : Thread nD τ) (st7_1 t) fullShare ((dat7 V c).after 1 t) from by
      unfold Dat.leavesExact; rw [liveAt7_1 t], after7_1]
  have hN : t.val < 8 := lt_of_lt_of_eq t.isLt (show cfg7.N = 8 from N_7)
  by_cases h1 : t.val = 7
  · rw [show (dat7 V c).leavesExact 2 t = owns (c : Thread nD τ) (st7_2 t) fullShare ((dat7 V c).after 2 t) from by
      unfold Dat.leavesExact; rw [liveAt7_2 t h1], after7_2,
      acc7_next V c t (by omega), PhiS7_pos V c _ _ (by omega)]
    iintro ⟨⟨HS, HR, Hg⟩, Ho, ⟨%d0, H0⟩, ⟨%d1, H1⟩, ⟨%d2, H2⟩⟩
    iapply (kernelRun7 c (grid7.coords t) _ _ _ _ _ _ _ _ (iblk7 V c 0 t) (iblk7 V c 1 t) _ _ _ _
      (.inr (.inr ⟨mt (hcond7_0 t).mp (by omega), (hcond7_1 t).mpr h1, rfl, rfl⟩)) Set.univ _)
    iframe H0 H1 H2 HS
    iintro ⟨H0, H1, H2, HS⟩
    iframe
  · rw [Dat.leavesExact_idle (dat7 V c) 2 t (idleAt7_2 t h1) (noFlush7_2 t h1)]
    by_cases h0 : t.val = 0
    · rw [acc7_first V c t (by omega), PhiS7_zero V c _ _ h0, PhiA7_eq]
      iintro ⟨⟨⟨⟨%ds, HS⟩, HR⟩, Hg⟩, Ho, ⟨%d0, H0⟩, ⟨%d1, H1⟩, ⟨%d2, H2⟩⟩
      iapply (kernelRun7 c (grid7.coords t) _ _ _ _ _ _ _ _ (iblk7 V c 0 t) (iblk7 V c 1 t) _ _ _ _
        (.inl ⟨(hcond7_0 t).mpr h0, mt (hcond7_1 t).mp h1, rfl, rfl⟩) Set.univ _)
      iframe H0 H1 H2 HS
      iintro ⟨H0, H1, H2, HS⟩
      iframe
      iexists _; iexact H2
    · rw [acc7_next V c t (by omega), PhiS7_pos V c _ _ h0]
      iintro ⟨⟨HS, HR, Hg⟩, Ho, ⟨%d0, H0⟩, ⟨%d1, H1⟩, ⟨%d2, H2⟩⟩
      iapply (kernelRun7 c (grid7.coords t) _ _ _ _ _ _ _ _ (iblk7 V c 0 t) (iblk7 V c 1 t) _ _ _ _
        (.inr (.inl ⟨mt (hcond7_0 t).mp h0, mt (hcond7_1 t).mp h1, rfl, rfl⟩)) Set.univ _)
      iframe H0 H1 H2 HS
      iintro ⟨H0, H1, H2, HS⟩
      iframe
      iexists _; iexact H2
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _
/-- After the last point the scratch's contents are forgotten. -/
theorem hout7 (c : Dev nD) : (dat7 V c).Φ (Fin.last cfg7.N) ⊢ Pipeline.ΦA spec7 c := by
  have hne : (Fin.last cfg7.N).val ≠ 0 := by rw [Fin.val_last]; have : cfg7.N = 8 := N_7; omega
  rw [show (dat7 V c).Φ (Fin.last cfg7.N) = PhiS7 V c (Fin.last cfg7.N).val (Nat.le_of_lt_succ (Fin.last cfg7.N).isLt) from rfl,
    PhiS7_pos V c _ _ hne, PhiA7_eq]
  iintro ⟨HS, HR, Hg⟩
  iframe HR Hg
  iexists _; iexact HS
end Cert.KernelIdeal.Hand
end
-- ==== Proof.KI.D8.lean ====
import proofs.«427224_j39238821216992_2_alg».proof.Proof.Gen.KernelIdeal.Launch
import proofs.«427224_j39238821216992_2_alg».proof.Proof.Gen.KernelIdeal.Skeleton
import proofs.«427224_j39238821216992_2_alg».proof.Proof.Gen.KernelIdeal.Points
import Idealize.ShloMosaic.Lib.Pipeline.FrameBody
import Idealize.ShloMosaic.Lib.Ring
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))
def out8 (c : Dev nD) (t : Fin cfg8.N) : ((cfg8.win 3).xblock (cfg8.grid.coords t)).Idx → Elt F (cfg8.win 3).elt :=
  k8_pay1 (iblk8 V c 0 t) (iblk8 V c 1 t) (iblk8 V c 2 t)
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8 V c t
  Φ _ := Pipeline.ΦA spec8 c
  q _ := fullShare
  owed _ := 0
theorem A_eq8 (c : Dev nD) (w : Fin cfg8.W) : (dat8 V c).A w = V c (Pipeline.arrRef spec8 w) := by
  dsimp only [dat8]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8 V c t := by dsimp only [dat8]
end Cert.KernelIdeal.Hand
end
-- ==== Proof.KI.R8.lean ====
import proofs.«427224_j39238821216992_2_alg».proof.Proof.KI.D8
import proofs.«427224_j39238821216992_2_alg».proof.Proof.KI.RLib
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
theorem before8 (c : Dev nD) (t : Fin cfg8.N) : (∀ d, (dat8 V c).before 0 t d = iblk8 V c 0 t)
    ∧ (∀ d, (dat8 V c).before 1 t d = iblk8 V c 1 t)
    ∧ (∀ d, (dat8 V c).before 2 t d = iblk8 V c 2 t) := by
  refine ⟨?_, ?_, ?_⟩ <;> exact fun d => ((dat8 V c).before_in_eq_fetched _ rfl (fun _ => rfl) (fun _ _ _ => rfl)
    (fun t => by simp only [after8_0, after8_1, after8_2]; unfold Dat.blockOf iblk8; rw [A_eq8]; try rfl) t d).trans
    (by unfold Dat.fetched Dat.blockOf iblk8; rw [A_eq8]; try rfl)
/-- Every load of the body reads a whole buffer and its one store covers the output's, which then reads the payload. -/
theorem sound_kernel8 (c : Dev nD) (E : Set ℕ) (i : grid8.Coords)
    (arg1 : Memref sig .tc .vmem S32x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S32x128 .f32) (harg4 : arg4.IsWhole)
    (x0 : Vec F S32x128 .f32) (x1 : Vec F S128x128 .f32) (x2 : Vec F S1x128 .f32) (xo : Vec F S32x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo
        ∗ (iprop(owns (c : Thread nD τ) arg1 fullShare x0 ∗ owns (c : Thread nD τ) arg2 fullShare x1 ∗ owns (c : Thread nD τ) arg3 fullShare x2
            ∗ owns (c : Thread nD τ) arg4 fullShare (k8_pay1 x0 x1 x2)) -∗ K ⟨⟩))
      ⊢ wp frame (wpE (defs₀ (F := F)) Variants.none c none) E (cc8__dense_kernel i arg1 harg1 arg2 harg2 arg3 harg3 arg4 harg4) K := by
  simp only [cc8__dense_kernel_eq_skeleton]; unfold cc8__dense_kernel_skel
  rw [owns_eq_unread harg1, owns_eq_unread harg2, owns_eq_unread harg3, owns_eq_unread harg4 c _ xo]
  iintro ⟨H0, H1, H2, H3, Hk⟩
  sl_exec
  sl_step
  iapply Hk
  iframe H0 H1 H2
  unfold owns; iexists _; isplitr
  swap; · iexact H3
  ipureintro
  simp only [read_writes_box, readAt_box]
theorem body_obligation8 (c : Dev nD) : BodyObligation (dat8 (F := F) V c) (defs₀ (F := F)) Variants.none () Set.univ := fun t => by
  rw [bigSep_W8, bigSep_W8]
  show iprop((dat8 V c).Φ t.castSucc ∗ (dat8 V c).owesAt () t.castSucc
      ∗ (∃ d, owns (c : Thread nD τ) (st8_0 t) fullShare ((dat8 V c).before 0 t d))
      ∗ (∃ d, owns (c : Thread nD τ) (st8_1 t) fullShare ((dat8 V c).before 1 t d))
      ∗ (∃ d, owns (c : Thread nD τ) (st8_2 t) fullShare ((dat8 V c).before 2 t d))
      ∗ (∃ d, owns (c : Thread nD τ) (st8_3 t) fullShare ((dat8 V c).before 3 t d)))
    ⊢ wp frame (wpE (defs₀ (F := F)) Variants.none c none) Set.univ (bodyAt8 t) (fun _ =>
      iprop((dat8 V c).Φ t.castSucc ∗ (dat8 V c).owesAt () t.castSucc
        ∗ owns (c : Thread nD τ) (st8_0 t) fullShare (iblk8 V c 0 t) ∗ owns (c : Thread nD τ) (st8_1 t) fullShare (iblk8 V c 1 t)
        ∗ owns (c : Thread nD τ) (st8_2 t) fullShare (iblk8 V c 2 t) ∗ owns (c : Thread nD τ) (st8_3 t) fullShare (out8 V c t)))
  simp only [(before8 V c t).1, (before8 V c t).2.1, (before8 V c t).2.2]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _ _)
  iframe H0 H1 H2 H3
  iintro ⟨H0, H1, H2, H3⟩
  iframe
  iexact H3
theorem hin8 (c : Dev nD) : Pipeline.ΦA spec8 c ⊢ (dat8 V c).Φ 0 := .rfl
theorem hout8 (c : Dev nD) : (dat8 V c).Φ (Fin.last cfg8.N) ⊢ Pipeline.ΦA spec8 c := .rfl
end Cert.KernelIdeal.Hand
end
-- ==== Proof.KI.D9.lean ====
import proofs.«427224_j39238821216992_2_alg».proof.Proof.Gen.KernelIdeal.Launch
import proofs.«427224_j39238821216992_2_alg».proof.Proof.Gen.KernelIdeal.Skeleton
import proofs.«427224_j39238821216992_2_alg».proof.Proof.Gen.KernelIdeal.Points
import Idealize.ShloMosaic.Lib.Pipeline.FrameBody
import Idealize.ShloMosaic.Lib.Ring
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))
def out9 (c : Dev nD) (t : Fin cfg9.N) : ((cfg9.win 3).xblock (cfg9.grid.coords t)).Idx → Elt F (cfg9.win 3).elt :=
  k9_pay1 (iblk9 V c 0 t) (iblk9 V c 1 t) (iblk9 V c 2 t)
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9 V c t
  Φ _ := Pipeline.ΦA spec9 c
  q _ := fullShare
  owed _ := 0
theorem A_eq9 (c : Dev nD) (w : Fin cfg9.W) : (dat9 V c).A w = V c (Pipeline.arrRef spec9 w) := by
  dsimp only [dat9]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9 V c t := by dsimp only [dat9]
end Cert.KernelIdeal.Hand
end
-- ==== Proof.KI.R9.lean ====
import proofs.«427224_j39238821216992_2_alg».proof.Proof.KI.D9
import proofs.«427224_j39238821216992_2_alg».proof.Proof.KI.RLib
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
theorem before9 (c : Dev nD) (t : Fin cfg9.N) : (∀ d, (dat9 V c).before 0 t d = iblk9 V c 0 t)
    ∧ (∀ d, (dat9 V c).before 1 t d = iblk9 V c 1 t)
    ∧ (∀ d, (dat9 V c).before 2 t d = iblk9 V c 2 t) := by
  refine ⟨?_, ?_, ?_⟩ <;> exact fun d => ((dat9 V c).before_in_eq_fetched _ rfl (fun _ => rfl) (fun _ _ _ => rfl)
    (fun t => by simp only [after9_0, after9_1, after9_2]; unfold Dat.blockOf iblk9; rw [A_eq9]; try rfl) t d).trans
    (by unfold Dat.fetched Dat.blockOf iblk9; rw [A_eq9]; try rfl)
/-- Every load of the body reads a whole buffer and its one store covers the output's, which then reads the payload. -/
theorem sound_kernel9 (c : Dev nD) (E : Set ℕ) (i : grid9.Coords)
    (arg1 : Memref sig .tc .vmem S32x128 .f32) (harg1 : arg1.IsWhole) (arg2 : Memref sig .tc .vmem S128x3 .f32) (harg2 : arg2.IsWhole)
    (arg3 : Memref sig .tc .vmem S1x3 .f32) (harg3 : arg3.IsWhole) (arg4 : Memref sig .tc .vmem S32x3 .f32) (harg4 : arg4.IsWhole)
    (x0 : Vec F S32x128 .f32) (x1 : Vec F S128x3 .f32) (x2 : Vec F S1x3 .f32) (xo : Vec F S32x3 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo
        ∗ (iprop(owns (c : Thread nD τ) arg1 fullShare x0 ∗ owns (c : Thread nD τ) arg2 fullShare x1 ∗ owns (c : Thread nD τ) arg3 fullShare x2
            ∗ owns (c : Thread nD τ) arg4 fullShare (k9_pay1 x0 x1 x2)) -∗ K ⟨⟩))
      ⊢ wp frame (wpE (defs₀ (F := F)) Variants.none c none) E (cc9__dense_kernel i arg1 harg1 arg2 harg2 arg3 harg3 arg4 harg4) K := by
  simp only [cc9__dense_kernel_eq_skeleton]; unfold cc9__dense_kernel_skel
  rw [owns_eq_unread harg1, owns_eq_unread harg2, owns_eq_unread harg3, owns_eq_unread harg4 c _ xo]
  iintro ⟨H0, H1, H2, H3, Hk⟩
  sl_exec
  sl_step
  iapply Hk
  iframe H0 H1 H2
  unfold owns; iexists _; isplitr
  swap; · iexact H3
  ipureintro
  simp only [read_writes_box, readAt_box]
theorem body_obligation9 (c : Dev nD) : BodyObligation (dat9 (F := F) V c) (defs₀ (F := F)) Variants.none () Set.univ := fun t => by
  rw [bigSep_W9, bigSep_W9]
  show iprop((dat9 V c).Φ t.castSucc ∗ (dat9 V c).owesAt () t.castSucc
      ∗ (∃ d, owns (c : Thread nD τ) (st9_0 t) fullShare ((dat9 V c).before 0 t d))
      ∗ (∃ d, owns (c : Thread nD τ) (st9_1 t) fullShare ((dat9 V c).before 1 t d))
      ∗ (∃ d, owns (c : Thread nD τ) (st9_2 t) fullShare ((dat9 V c).before 2 t d))
      ∗ (∃ d, owns (c : Thread nD τ) (st9_3 t) fullShare ((dat9 V c).before 3 t d)))
    ⊢ wp frame (wpE (defs₀ (F := F)) Variants.none c none) Set.univ (bodyAt9 t) (fun _ =>
      iprop((dat9 V c).Φ t.castSucc ∗ (dat9 V c).owesAt () t.castSucc
        ∗ owns (c : Thread nD τ) (st9_0 t) fullShare (iblk9 V c 0 t) ∗ owns (c : Thread nD τ) (st9_1 t) fullShare (iblk9 V c 1 t)
        ∗ owns (c : Thread nD τ) (st9_2 t) fullShare (iblk9 V c 2 t) ∗ owns (c : Thread nD τ) (st9_3 t) fullShare (out9 V c t)))
  simp only [(before9 V c t).1, (before9 V c t).2.1, (before9 V c t).2.2]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _ _)
  iframe H0 H1 H2 H3
  iintro ⟨H0, H1, H2, H3⟩
  iframe
  iexact H3
theorem hin9 (c : Dev nD) : Pipeline.ΦA spec9 c ⊢ (dat9 V c).Φ 0 := .rfl
theorem hout9 (c : Dev nD) : (dat9 V c).Φ (Fin.last cfg9.N) ⊢ Pipeline.ΦA spec9 c := .rfl
end Cert.KernelIdeal.Hand
end
-- ==== Proof.KI.Run.lean ====
import proofs.«427224_j39238821216992_2_alg».proof.Proof.KI.R0
import proofs.«427224_j39238821216992_2_alg».proof.Proof.KI.R1
import proofs.«427224_j39238821216992_2_alg».proof.Proof.KI.R2
import proofs.«427224_j39238821216992_2_alg».proof.Proof.KI.R3
import proofs.«427224_j39238821216992_2_alg».proof.Proof.KI.R4
import proofs.«427224_j39238821216992_2_alg».proof.Proof.KI.R5
import proofs.«427224_j39238821216992_2_alg».proof.Proof.KI.R6
import proofs.«427224_j39238821216992_2_alg».proof.Proof.KI.R7
import proofs.«427224_j39238821216992_2_alg».proof.Proof.KI.R8
import proofs.«427224_j39238821216992_2_alg».proof.Proof.KI.R9
import proofs.«427224_j39238821216992_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
abbrev Ent (F : FTy → Type) : Type := (c : Dev nD) → (b : Ref sig .tc) → Buf (Elt F) ((c : Thread nD τ).loc b)
variable (m : (ℓ : Loc nD τ sig) → Buf (Elt F) ℓ) (ρ : Dev nD → PrngReg)
abbrev Wa0 : Dev nD → Valuation τ sig (Elt F) := fun c b => (s₀ m ρ).mem ((c : Dev nD), b)
abbrev Wa1 : Dev nD → Valuation τ sig (Elt F) := fun c => StableHlo.after hostOps0 (Wa0 m ρ c)
abbrev En1 : Ent F := fun c b => Wa1 m ρ c b
def Wa2 (c : Dev nD) : Valuation τ sig (Elt F) :=
  Pipeline.withArrays spec0 c (Wa1 m ρ c) fun w => (dat0 (En1 m ρ) c).arrAt w cfg0.N
abbrev Wa3 : Dev nD → Valuation τ sig (Elt F) := fun c => StableHlo.after hostOps1 (Wa2 m ρ c)
abbrev En3 : Ent F := fun c b => Wa3 m ρ c b
def Wa4 (c : Dev nD) : Valuation τ sig (Elt F) :=
  Pipeline.withArrays spec1 c (Wa3 m ρ c) fun w => (dat1 (En3 m ρ) c).arrAt w cfg1.N
abbrev Wa5 : Dev nD → Valuation τ sig (Elt F) := fun c => StableHlo.after hostOps2 (Wa4 m ρ c)
abbrev Wa6 : Dev nD → Valuation τ sig (Elt F) := fun c => StableHlo.after hostOps2_1 (Wa5 m ρ c)
abbrev Wa7 : Dev nD → Valuation τ sig (Elt F) := fun c => StableHlo.after hostOps2_2 (Wa6 m ρ c)
abbrev Wa8 : Dev nD → Valuation τ sig (Elt F) := fun c => StableHlo.after hostOps2_3 (Wa7 m ρ c)
abbrev Wa9 : Dev nD → Valuation τ sig (Elt F) := fun c => StableHlo.after hostOps2_4 (Wa8 m ρ c)
abbrev En9 : Ent F := fun c b => Wa9 m ρ c b
def Wa10 (c : Dev nD) : Valuation τ sig (Elt F) :=
  Pipeline.withArrays spec2 c (Wa9 m ρ c) fun w => (dat2 (En9 m ρ) c).arrAt w cfg2.N
abbrev Wa11 : Dev nD → Valuation τ sig (Elt F) := fun c => StableHlo.after hostOps3 (Wa10 m ρ c)
abbrev En11 : Ent F := fun c b => Wa11 m ρ c b
def Wa12 (c : Dev nD) : Valuation τ sig (Elt F) :=
  Pipeline.withArrays spec3 c (Wa11 m ρ c) fun w => (dat3 (En11 m ρ) c).arrAt w cfg3.N
abbrev Wa13 : Dev nD → Valuation τ sig (Elt F) := fun c => StableHlo.after hostOps4 (Wa12 m ρ c)
abbrev Wa14 : Dev nD → Valuation τ sig (Elt F) := fun c => StableHlo.after hostOps4_1 (Wa13 m ρ c)
abbrev Wa15 : Dev nD → Valuation τ sig (Elt F) := fun c => StableHlo.after hostOps4_2 (Wa14 m ρ c)
abbrev Wa16 : Dev nD → Valuation τ sig (Elt F) := fun c => StableHlo.after hostOps4_3 (Wa15 m ρ c)
abbrev Wa17 : Dev nD → Valuation τ sig (Elt F) := fun c => StableHlo.after hostOps4_4 (Wa16 m ρ c)
abbrev En17 : Ent F := fun c b => Wa17 m ρ c b
def Wa18 (c : Dev nD) : Valuation τ sig (Elt F) :=
  Pipeline.withArrays spec4 c (Wa17 m ρ c) fun w => (dat4 (En17 m ρ) c).arrAt w cfg4.N
abbrev Wa19 : Dev nD → Valuation τ sig (Elt F) := fun c => StableHlo.after hostOps5 (Wa18 m ρ c)
abbrev En19 : Ent F := fun c b => Wa19 m ρ c b
def Wa20 (c : Dev nD) : Valuation τ sig (Elt F) :=
  Pipeline.withArrays spec5 c (Wa19 m ρ c) fun w => (dat5 (En19 m ρ) c).arrAt w cfg5.N
abbrev Wa21 : Dev nD → Valuation τ sig (Elt F) := fun c => StableHlo.after hostOps6 (Wa20 m ρ c)
abbrev En21 : Ent F := fun c b => Wa21 m ρ c b
def Wa22 (c : Dev nD) : Valuation τ sig (Elt F) :=
  Pipeline.withArrays spec6 c (Wa21 m ρ c) fun w => (dat6 (En21 m ρ) c).arrAt w cfg6.N
abbrev Wa23 : Dev nD → Valuation τ sig (Elt F) := fun c => StableHlo.after hostOps7 (Wa22 m ρ c)
abbrev Wa24 : Dev nD → Valuation τ sig (Elt F) := fun c => StableHlo.after hostOps7_1 (Wa23 m ρ c)
abbrev Wa25 : Dev nD → Valuation τ sig (Elt F) := fun c => StableHlo.after hostOps7_2 (Wa24 m ρ c)
abbrev Wa26 : Dev nD → Valuation τ sig (Elt F) := fun c => StableHlo.after hostOps7_3 (Wa25 m ρ c)
abbrev Wa27 : Dev nD → Valuation τ sig (Elt F) := fun c => StableHlo.after hostOps7_4 (Wa26 m ρ c)
abbrev En27 : Ent F := fun c b => Wa27 m ρ c b
def Wa28 (c : Dev nD) : Valuation τ sig (Elt F) :=
  Pipeline.withArrays spec7 c (Wa27 m ρ c) fun w => (dat7 (En27 m ρ) c).arrAt w cfg7.N
abbrev Wa29 : Dev nD → Valuation τ sig (Elt F) := fun c => StableHlo.after hostOps8 (Wa28 m ρ c)
abbrev En29 : Ent F := fun c b => Wa29 m ρ c b
def Wa30 (c : Dev nD) : Valuation τ sig (Elt F) :=
  Pipeline.withArrays spec8 c (Wa29 m ρ c) fun w => (dat8 (En29 m ρ) c).arrAt w cfg8.N
abbrev Wa31 : Dev nD → Valuation τ sig (Elt F) := fun c => StableHlo.after hostOps9 (Wa30 m ρ c)
abbrev En31 : Ent F := fun c b => Wa31 m ρ c b
def Wa32 (c : Dev nD) : Valuation τ sig (Elt F) :=
  Pipeline.withArrays spec9 c (Wa31 m ρ c) fun w => (dat9 (En31 m ρ) c).arrAt w cfg9.N
/-- A region changes only its output: an input array keeps its entry contents, and so does every buffer that is no array of the region. -/
theorem keepOf {cfg : Cfg sig Λ₀} {c : Dev nD} (D : Dat τ (Elt F) Unit ℕ (UR sig nD τ) ℕ cfg c) (V : Valuation τ sig (Elt F))
    (hinj : Function.Injective (Pipeline.arrRef cfg.spec)) (hA : ∀ w, D.A w = V (Pipeline.arrRef cfg.spec w))
    {o r : Ref sig .tc} (ho : ∀ w, Pipeline.arrRef cfg.spec w ≠ o → (cfg.win w).isOut = false) (h : r ≠ o) :
    Pipeline.withArrays cfg.spec c V (fun w => D.arrAt w cfg.N) r = V r := by
  by_cases hw : ∃ w, Pipeline.arrRef cfg.spec w = r
  · obtain ⟨w, rfl⟩ := hw
    exact (Pipeline.withArrays_arr _ hinj c _ _ w).trans ((D.arrAt_in w (ho w h) _).trans (hA w))
  · exact Pipeline.withArrays_of_ne _ c _ _ r fun w e => hw ⟨w, e⟩
theorem Wa1_keep (c : Dev nD) (r : Ref sig .tc) (h : r ∉ hostOps0_W) : Wa1 m ρ c r = Wa0 m ρ c r :=
  StableHlo.after_of_writes_sub hostOps0 _ hostOps0_writes h
theorem Wa2_keep (c : Dev nD) (r : Ref sig .tc) (h : r ≠ main_v6) : Wa2 m ρ c r = Wa1 m ρ c r :=
  keepOf (dat0 (En1 m ρ) c) _ launch0.win.arr_inj (fun _ => rfl) (by decide) h
theorem Wa2_out (c : Dev nD) : Wa2 m ρ c main_v6 = (dat0 (En1 m ρ) c).arrAt 3 cfg0.N :=
  Pipeline.withArrays_arr spec0 launch0.win.arr_inj c _ _ 3
theorem Wa3_keep (c : Dev nD) (r : Ref sig .tc) (h : r ∉ hostOps1_W) : Wa3 m ρ c r = Wa2 m ρ c r :=
  StableHlo.after_of_writes_sub hostOps1 _ hostOps1_writes h
theorem Wa4_keep (c : Dev nD) (r : Ref sig .tc) (h : r ≠ main_v8) : Wa4 m ρ c r = Wa3 m ρ c r :=
  keepOf (dat1 (En3 m ρ) c) _ launch1.win.arr_inj (fun _ => rfl) (by decide) h
theorem Wa4_out (c : Dev nD) : Wa4 m ρ c main_v8 = (dat1 (En3 m ρ) c).arrAt 1 cfg1.N :=
  Pipeline.withArrays_arr spec1 launch1.win.arr_inj c _ _ 1
theorem Wa5_keep (c : Dev nD) (r : Ref sig .tc) (h : r ∉ hostOps2_W) : Wa5 m ρ c r = Wa4 m ρ c r :=
  StableHlo.after_of_writes_sub hostOps2 _ hostOps2_writes h
theorem Wa6_keep (c : Dev nD) (r : Ref sig .tc) (h : r ∉ hostOps2_1_W) : Wa6 m ρ c r = Wa5 m ρ c r :=
  StableHlo.after_of_writes_sub hostOps2_1 _ hostOps2_1_writes h
theorem Wa7_keep (c : Dev nD) (r : Ref sig .tc) (h : r ∉ hostOps2_2_W) : Wa7 m ρ c r = Wa6 m ρ c r :=
  StableHlo.after_of_writes_sub hostOps2_2 _ hostOps2_2_writes h
theorem Wa8_keep (c : Dev nD) (r : Ref sig .tc) (h : r ∉ hostOps2_3_W) : Wa8 m ρ c r = Wa7 m ρ c r :=
  StableHlo.after_of_writes_sub hostOps2_3 _ hostOps2_3_writes h
theorem Wa9_keep (c : Dev nD) (r : Ref sig .tc) (h : r ∉ hostOps2_4_W) : Wa9 m ρ c r = Wa8 m ρ c r :=
  StableHlo.after_of_writes_sub hostOps2_4 _ hostOps2_4_writes h
theorem Wa10_keep (c : Dev nD) (r : Ref sig .tc) (h : r ≠ main_v19) : Wa10 m ρ c r = Wa9 m ρ c r :=
  keepOf (dat2 (En9 m ρ) c) _ launch2.win.arr_inj (fun _ => rfl) (by decide) h
theorem Wa10_out (c : Dev nD) : Wa10 m ρ c main_v19 = (dat2 (En9 m ρ) c).arrAt 2 cfg2.N :=
  Pipeline.withArrays_arr spec2 launch2.win.arr_inj c _ _ 2
theorem Wa11_keep (c : Dev nD) (r : Ref sig .tc) (h : r ∉ hostOps3_W) : Wa11 m ρ c r = Wa10 m ρ c r :=
  StableHlo.after_of_writes_sub hostOps3 _ hostOps3_writes h
theorem Wa12_keep (c : Dev nD) (r : Ref sig .tc) (h : r ≠ main_v21) : Wa12 m ρ c r = Wa11 m ρ c r :=
  keepOf (dat3 (En11 m ρ) c) _ launch3.win.arr_inj (fun _ => rfl) (by decide) h
theorem Wa12_out (c : Dev nD) : Wa12 m ρ c main_v21 = (dat3 (En11 m ρ) c).arrAt 2 cfg3.N :=
  Pipeline.withArrays_arr spec3 launch3.win.arr_inj c _ _ 2
theorem Wa13_keep (c : Dev nD) (r : Ref sig .tc) (h : r ∉ hostOps4_W) : Wa13 m ρ c r = Wa12 m ρ c r :=
  StableHlo.after_of_writes_sub hostOps4 _ hostOps4_writes h
theorem Wa14_keep (c : Dev nD) (r : Ref sig .tc) (h : r ∉ hostOps4_1_W) : Wa14 m ρ c r = Wa13 m ρ c r :=
  StableHlo.after_of_writes_sub hostOps4_1 _ hostOps4_1_writes h
theorem Wa15_keep (c : Dev nD) (r : Ref sig .tc) (h : r ∉ hostOps4_2_W) : Wa15 m ρ c r = Wa14 m ρ c r :=
  StableHlo.after_of_writes_sub hostOps4_2 _ hostOps4_2_writes h
theorem Wa16_keep (c : Dev nD) (r : Ref sig .tc) (h : r ∉ hostOps4_3_W) : Wa16 m ρ c r = Wa15 m ρ c r :=
  StableHlo.after_of_writes_sub hostOps4_3 _ hostOps4_3_writes h
theorem Wa17_keep (c : Dev nD) (r : Ref sig .tc) (h : r ∉ hostOps4_4_W) : Wa17 m ρ c r = Wa16 m ρ c r :=
  StableHlo.after_of_writes_sub hostOps4_4 _ hostOps4_4_writes h
theorem Wa18_keep (c : Dev nD) (r : Ref sig .tc) (h : r ≠ main_v36) : Wa18 m ρ c r = Wa17 m ρ c r :=
  keepOf (dat4 (En17 m ρ) c) _ launch4.win.arr_inj (fun _ => rfl) (by decide) h
theorem Wa18_out (c : Dev nD) : Wa18 m ρ c main_v36 = (dat4 (En17 m ρ) c).arrAt 2 cfg4.N :=
  Pipeline.withArrays_arr spec4 launch4.win.arr_inj c _ _ 2
theorem Wa19_keep (c : Dev nD) (r : Ref sig .tc) (h : r ∉ hostOps5_W) : Wa19 m ρ c r = Wa18 m ρ c r :=
  StableHlo.after_of_writes_sub hostOps5 _ hostOps5_writes h
theorem Wa20_keep (c : Dev nD) (r : Ref sig .tc) (h : r ≠ main_v38) : Wa20 m ρ c r = Wa19 m ρ c r :=
  keepOf (dat5 (En19 m ρ) c) _ launch5.win.arr_inj (fun _ => rfl) (by decide) h
theorem Wa20_out (c : Dev nD) : Wa20 m ρ c main_v38 = (dat5 (En19 m ρ) c).arrAt 2 cfg5.N :=
  Pipeline.withArrays_arr spec5 launch5.win.arr_inj c _ _ 2
theorem Wa21_keep (c : Dev nD) (r : Ref sig .tc) (h : r ∉ hostOps6_W) : Wa21 m ρ c r = Wa20 m ρ c r :=
  StableHlo.after_of_writes_sub hostOps6 _ hostOps6_writes h
theorem Wa22_keep (c : Dev nD) (r : Ref sig .tc) (h : r ≠ main_v46) : Wa22 m ρ c r = Wa21 m ρ c r :=
  keepOf (dat6 (En21 m ρ) c) _ launch6.win.arr_inj (fun _ => rfl) (by decide) h
theorem Wa22_out (c : Dev nD) : Wa22 m ρ c main_v46 = (dat6 (En21 m ρ) c).arrAt 5 cfg6.N :=
  Pipeline.withArrays_arr spec6 launch6.win.arr_inj c _ _ 5
theorem Wa23_keep (c : Dev nD) (r : Ref sig .tc) (h : r ∉ hostOps7_W) : Wa23 m ρ c r = Wa22 m ρ c r :=
  StableHlo.after_of_writes_sub hostOps7 _ hostOps7_writes h
theorem Wa24_keep (c : Dev nD) (r : Ref sig .tc) (h : r ∉ hostOps7_1_W) : Wa24 m ρ c r = Wa23 m ρ c r :=
  StableHlo.after_of_writes_sub hostOps7_1 _ hostOps7_1_writes h
theorem Wa25_keep (c : Dev nD) (r : Ref sig .tc) (h : r ∉ hostOps7_2_W) : Wa25 m ρ c r = Wa24 m ρ c r :=
  StableHlo.after_of_writes_sub hostOps7_2 _ hostOps7_2_writes h
theorem Wa26_keep (c : Dev nD) (r : Ref sig .tc) (h : r ∉ hostOps7_3_W) : Wa26 m ρ c r = Wa25 m ρ c r :=
  StableHlo.after_of_writes_sub hostOps7_3 _ hostOps7_3_writes h
theorem Wa27_keep (c : Dev nD) (r : Ref sig .tc) (h : r ∉ hostOps7_4_W) : Wa27 m ρ c r = Wa26 m ρ c r :=
  StableHlo.after_of_writes_sub hostOps7_4 _ hostOps7_4_writes h
theorem Wa28_keep (c : Dev nD) (r : Ref sig .tc) (h : r ≠ main_v50) : Wa28 m ρ c r = Wa27 m ρ c r :=
  keepOf (dat7 (En27 m ρ) c) _ launch7.win.arr_inj (fun _ => rfl) (by decide) h
theorem Wa28_out (c : Dev nD) : Wa28 m ρ c main_v50 = (dat7 (En27 m ρ) c).arrAt 2 cfg7.N :=
  Pipeline.withArrays_arr spec7 launch7.win.arr_inj c _ _ 2
theorem Wa29_keep (c : Dev nD) (r : Ref sig .tc) (h : r ∉ hostOps8_W) : Wa29 m ρ c r = Wa28 m ρ c r :=
  StableHlo.after_of_writes_sub hostOps8 _ hostOps8_writes h
theorem Wa30_keep (c : Dev nD) (r : Ref sig .tc) (h : r ≠ main_v52) : Wa30 m ρ c r = Wa29 m ρ c r :=
  keepOf (dat8 (En29 m ρ) c) _ launch8.win.arr_inj (fun _ => rfl) (by decide) h
theorem Wa30_out (c : Dev nD) : Wa30 m ρ c main_v52 = (dat8 (En29 m ρ) c).arrAt 3 cfg8.N :=
  Pipeline.withArrays_arr spec8 launch8.win.arr_inj c _ _ 3
theorem Wa31_keep (c : Dev nD) (r : Ref sig .tc) (h : r ∉ hostOps9_W) : Wa31 m ρ c r = Wa30 m ρ c r :=
  StableHlo.after_of_writes_sub hostOps9 _ hostOps9_writes h
theorem Wa32_keep (c : Dev nD) (r : Ref sig .tc) (h : r ≠ main_v54) : Wa32 m ρ c r = Wa31 m ρ c r :=
  keepOf (dat9 (En31 m ρ) c) _ launch9.win.arr_inj (fun _ => rfl) (by decide) h
theorem Wa32_out (c : Dev nD) : Wa32 m ρ c main_v54 = (dat9 (En31 m ρ) c).arrAt 3 cfg9.N :=
  Pipeline.withArrays_arr spec9 launch9.win.arr_inj c _ _ 3
abbrev written : List (Ref sig .tc) :=
  hostOps0_W ++ [main_v6] ++ hostOps1_W ++ [main_v8] ++ hostOps2_W ++ hostOps2_1_W ++ hostOps2_2_W ++ hostOps2_3_W ++ hostOps2_4_W ++ [main_v19] ++ hostOps3_W ++ [main_v21] ++ hostOps4_W ++ hostOps4_1_W ++ hostOps4_2_W ++ hostOps4_3_W ++ hostOps4_4_W ++ [main_v36] ++ hostOps5_W ++ [main_v38] ++ hostOps6_W ++ [main_v46] ++ hostOps7_W ++ hostOps7_1_W ++ hostOps7_2_W ++ hostOps7_3_W ++ hostOps7_4_W ++ [main_v50] ++ hostOps8_W ++ [main_v52] ++ hostOps9_W ++ [main_v54]
theorem Wa32_unwritten (c : Dev nD) (r : Ref sig .tc) (h : r ∉ written) : Wa32 m ρ c r = m ((c : Thread nD τ).loc r) := by
  simp only [written, List.mem_append, not_or, and_assoc] at h
  obtain ⟨h1, h2, h3, h4, h5, h6, h7, h8, h9, h10, h11, h12, h13, h14, h15, h16, h17, h18, h19, h20, h21, h22, h23, h24, h25, h26, h27, h28, h29, h30, h31, h32⟩ := h
  exact (Wa32_keep m ρ c r (List.ne_of_not_mem_cons h32)).trans <| (Wa31_keep m ρ c r h31).trans <| (Wa30_keep m ρ c r (List.ne_of_not_mem_cons h30)).trans <| (Wa29_keep m ρ c r h29).trans <| (Wa28_keep m ρ c r (List.ne_of_not_mem_cons h28)).trans <| (Wa27_keep m ρ c r h27).trans <| (Wa26_keep m ρ c r h26).trans <| (Wa25_keep m ρ c r h25).trans <| (Wa24_keep m ρ c r h24).trans <| (Wa23_keep m ρ c r h23).trans <| (Wa22_keep m ρ c r (List.ne_of_not_mem_cons h22)).trans <| (Wa21_keep m ρ c r h21).trans <| (Wa20_keep m ρ c r (List.ne_of_not_mem_cons h20)).trans <| (Wa19_keep m ρ c r h19).trans <| (Wa18_keep m ρ c r (List.ne_of_not_mem_cons h18)).trans <| (Wa17_keep m ρ c r h17).trans <| (Wa16_keep m ρ c r h16).trans <| (Wa15_keep m ρ c r h15).trans <| (Wa14_keep m ρ c r h14).trans <| (Wa13_keep m ρ c r h13).trans <| (Wa12_keep m ρ c r (List.ne_of_not_mem_cons h12)).trans <| (Wa11_keep m ρ c r h11).trans <| (Wa10_keep m ρ c r (List.ne_of_not_mem_cons h10)).trans <| (Wa9_keep m ρ c r h9).trans <| (Wa8_keep m ρ c r h8).trans <| (Wa7_keep m ρ c r h7).trans <| (Wa6_keep m ρ c r h6).trans <| (Wa5_keep m ρ c r h5).trans <| (Wa4_keep m ρ c r (List.ne_of_not_mem_cons h4)).trans <| (Wa3_keep m ρ c r h3).trans <| (Wa2_keep m ρ c r (List.ne_of_not_mem_cons h2)).trans <| (Wa1_keep m ρ c r h1).trans rfl
theorem arg_kept {mem : (ℓ : Loc nD τ sig) → Buf (Elt F) ℓ} (c : Dev nD)
    (h : ∀ b ∈ Pipeline.ucRefs τ sig, mem (((c : Thread nD τ)).1, b) = Wa32 m ρ c b) (r : Ref sig .tc)
    (hu : ¬ (Proc.devRef .tc r : DevRef τ sig).isScoped := by decide) (hr : r ∉ written := by decide) :
    mem ((c : Thread nD τ).loc r) = m ((c : Thread nD τ).loc r) :=
  (h _ (Finset.mem_filter.mpr ⟨StableHlo.devRef_mem_tcRefs r, hu⟩)).trans (Wa32_unwritten m ρ c r hr)
theorem args_kept {mem : (ℓ : Loc nD τ sig) → Buf (Elt F) ℓ} (c : Dev nD)
    (h : ∀ b ∈ Pipeline.ucRefs τ sig, mem (((c : Thread nD τ)).1, b) = Wa32 m ρ c b) :
    mem ((c : Thread nD τ).loc main_arg0) = m ((c : Thread nD τ).loc main_arg0)
      ∧ mem ((c : Thread nD τ).loc main_arg1) = m ((c : Thread nD τ).loc main_arg1)
      ∧ mem ((c : Thread nD τ).loc main_arg2) = m ((c : Thread nD τ).loc main_arg2)
      ∧ mem ((c : Thread nD τ).loc main_arg3) = m ((c : Thread nD τ).loc main_arg3)
      ∧ mem ((c : Thread nD τ).loc main_arg4) = m ((c : Thread nD τ).loc main_arg4)
      ∧ mem ((c : Thread nD τ).loc main_arg5) = m ((c : Thread nD τ).loc main_arg5)
      ∧ mem ((c : Thread nD τ).loc main_arg6) = m ((c : Thread nD τ).loc main_arg6)
      ∧ mem ((c : Thread nD τ).loc main_arg7) = m ((c : Thread nD τ).loc main_arg7)
      ∧ mem ((c : Thread nD τ).loc main_arg8) = m ((c : Thread nD τ).loc main_arg8)
      ∧ mem ((c : Thread nD τ).loc main_arg9) = m ((c : Thread nD τ).loc main_arg9)
      ∧ mem ((c : Thread nD τ).loc main_arg10) = m ((c : Thread nD τ).loc main_arg10)
      ∧ mem ((c : Thread nD τ).loc main_arg11) = m ((c : Thread nD τ).loc main_arg11) :=
  ⟨arg_kept m ρ c h main_arg0, arg_kept m ρ c h main_arg1, arg_kept m ρ c h main_arg2, arg_kept m ρ c h main_arg3, arg_kept m ρ c h main_arg4, arg_kept m ρ c h main_arg5, arg_kept m ρ c h main_arg6, arg_kept m ρ c h main_arg7, arg_kept m ρ c h main_arg8, arg_kept m ρ c h main_arg9, arg_kept m ρ c h main_arg10, arg_kept m ρ c h main_arg11⟩
def pdats : (p : Fin 10) → (c : Dev nD) → Dat τ (Elt F) Unit ℕ (UR sig nD τ) ℕ (Pipeline.pin (pcfgs (F := F)) adm p) c
  | ⟨0, _⟩ => fun c => dat0 (En1 m ρ) c
  | ⟨1, _⟩ => fun c => dat1 (En3 m ρ) c
  | ⟨2, _⟩ => fun c => dat2 (En9 m ρ) c
  | ⟨3, _⟩ => fun c => dat3 (En11 m ρ) c
  | ⟨4, _⟩ => fun c => dat4 (En17 m ρ) c
  | ⟨5, _⟩ => fun c => dat5 (En19 m ρ) c
  | ⟨6, _⟩ => fun c => dat6 (En21 m ρ) c
  | ⟨7, _⟩ => fun c => dat7 (En27 m ρ) c
  | ⟨8, _⟩ => fun c => dat8 (En29 m ρ) c
  | ⟨9, _⟩ => fun c => dat9 (En31 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wa32 m ρ c) ∗ ∃ r, prngReg c r)
set_option backward.isDefEq.respectTransparency.types false in
/-- A region as a segment: entered with every unscoped buffer at `V`, left with its arrays at their last contents and every other buffer as entered. -/
def regOf (p : Fin 10) (lk : Pipeline.LaunchFacts (nD := nD) (τ := τ) cfgs p)
    (pd : (p : Fin 10) → (c : Dev nD) → Dat τ (Elt F) Unit ℕ (UR sig nD τ) ℕ (cfgs p) c)
    (V : Dev nD → Valuation τ sig (Elt F))
    (hB : ∀ c, BodyObligation (pd p c) (defs₀ (F := F)) Variants.none () Set.univ)
    (hI : ∀ c, Pipeline.ΦA (cfgs p).spec c ⊢ (pd p c).Φ 0)
    (hO : ∀ c, (pd p c).Φ (Fin.last _) ⊢ Pipeline.ΦA (cfgs p).spec c)
    (hA : ∀ c w, (pd p c).A w = V c (Pipeline.arrRef (cfgs p).spec w) := by exact fun _ _ => rfl)
    (hq : ∀ c w, (pd p c).q w = fullShare := by exact fun _ _ => rfl)
    (h0 : ∀ c t, (pd p c).owed t = 0 := by exact fun _ _ => rfl)
    (hr : ∀ c, (pd p c).recorded 0 = Set.univ := by exact fun _ => rfl) :
    Pipeline.RegionSeg (pcfgs (F := F)) adm pd () defs₀ 𝒱₀ L lv p where
  win := lk.win.to₀
  block_pos := lk.block_pos
  stage_whole := lk.stage_whole
  K := PEmpty
  osem k := k.elim
  ho := Pipeline.OwnSemFacts.none _
  hbody c := (hB c).loose
  hwaits := Pipeline.hwaits_of_owed_zero _ _ _ _ L lv p h0
  pre c := iprop(StableHlo.held (c : Thread nD τ) (Pipeline.ucRefs τ sig) (V c) ∗ R c)
  post c := iprop(StableHlo.held (c : Thread nD τ) (Pipeline.ucRefs τ sig)
    (Pipeline.withArrays (cfgs p).spec c (V c) fun w => (pd p c).arrAt w (cfgs p).N) ∗ R c)
  X c := iprop(∃ r, prngReg c r)
  Y c := iprop(∃ r, prngReg c r)
  Z c := Pipeline.unscopedRest (cfgs p).spec c fun b => V c b
  hentry c := by
    have hsplit := Pipeline.arrays_of_unscopedBufs (p := p) pcfgs adm pd lk.win lk.arr_whole c
      ((pd p c).share_full (hq c)) (fun b => V c b) (hA c)
    rw [Pipeline.unscopedBufs_held] at hsplit
    rw [Pipeline.ownSems0_none]
    unfold Pipeline.Dat.owesAt Pipeline.owesWithin Pipeline.Dat.bound Pipeline.prefHeld
    rw [h0 c, hr c, show (Finset.univ : Finset (Fin 0)) = ∅ from rfl, BI.bigSep_empty]
    iintro ⟨⟨Hub, Hp, %W, HO⟩, -, -⟩
    ihave H := hsplit $$ Hub
    icases H with ⟨Ha, Hrest⟩
    imodintro
    isplitl [Ha]; · iexact Ha
    isplitr; · iempintro
    isplitl [HO]
    · iexists W; isplitr; · ipureintro; exact fun _ _ => Or.inl trivial
      iexact HO
    isplitl [Hp]; · iexact Hp
    iexact Hrest
  hin c := by
    iintro ⟨Hp, -, Hr⟩
    iapply (hI c)
    unfold Pipeline.ΦA
    isplitl [Hr]; · iexact Hr
    iexact Hp
  hout c := by
    rw [Pipeline.ownSems0_none]
    have hΦ := hO c
    unfold Pipeline.ΦA at hΦ
    iintro HΦ
    ihave H := hΦ $$ HΦ
    icases H with ⟨Hr, Hp⟩
    isplitl [Hp]; · iexact Hp
    isplitr; · iempintro
    iexact Hr
  hexit c := by
    have hjoin := Pipeline.unscopedBufs_of_arrays (p := p) pcfgs adm lk.win lk.arr_whole c pd ((pd p c).share_full (hq c)) (fun b => V c b)
      (fun b => Pipeline.withArrays (cfgs p).spec c (V c) (fun w => (pd p c).arrAt w (cfgs p).N) b) ((pd p c).arrAt · (cfgs p).N)
      (fun w => (Pipeline.withArrays_arr _ lk.win.arr_inj c _ ((pd p c).arrAt · _) w).symm)
      fun b hb => Pipeline.withArrays_of_ne _ c _ _ b fun w e => hb (Finset.mem_image.mpr ⟨w, Finset.mem_univ _, e⟩)
    rw [Pipeline.unscopedBufs_held] at hjoin
    unfold Pipeline.Dat.owesAt Pipeline.owesWithin
    rw [h0 c]
    iintro ⟨Ha, ⟨%W, -, HO⟩, HY, Hrest⟩
    imodintro
    isplitl [Ha Hrest]
    · iapply hjoin; isplitl [Ha] <;> iassumption
    isplitl [HY]; · iexact HY
    iexists W; iexact HO
def reg0 := regOf 0 launch0 (pdats m ρ) (Wa1 m ρ) (body_obligation0 _) (hin0 _) (hout0 _)
def reg1 := regOf 1 launch1 (pdats m ρ) (Wa3 m ρ) (body_obligation1 _) (hin1 _) (hout1 _)
def reg2 := regOf 2 launch2 (pdats m ρ) (Wa9 m ρ) (body_obligation2 _) (hin2 _) (hout2 _)
def reg3 := regOf 3 launch3 (pdats m ρ) (Wa11 m ρ) (body_obligation3 _) (hin3 _) (hout3 _)
def reg4 := regOf 4 launch4 (pdats m ρ) (Wa17 m ρ) (body_obligation4 _) (hin4 _) (hout4 _)
def reg5 := regOf 5 launch5 (pdats m ρ) (Wa19 m ρ) (body_obligation5 _) (hin5 _) (hout5 _)
def reg6 := regOf 6 launch6 (pdats m ρ) (Wa21 m ρ) (body_obligation6 _) (hin6 _) (hout6 _)
def reg7 := regOf 7 launch7 (pdats m ρ) (Wa27 m ρ) (body_obligation7 _) (hin7 _) (hout7 _)
def reg8 := regOf 8 launch8 (pdats m ρ) (Wa29 m ρ) (body_obligation8 _) (hin8 _) (hout8 _)
def reg9 := regOf 9 launch9 (pdats m ρ) (Wa31 m ρ) (body_obligation9 _) (hin9 _) (hout9 _)
abbrev rsegs : List (Pipeline.Seg (pcfgs (F := F)) adm (pdats m ρ) () defs₀ 𝒱₀ L lv) :=
  [ .host (hseg hostOps0 hostOps0_sub hostOps0_fresh (Wa0 m ρ)),
    .region (reg0 m ρ),
    .host (hseg hostOps1 hostOps1_sub hostOps1_fresh (Wa2 m ρ)),
    .region (reg1 m ρ),
    .host (hseg hostOps2 hostOps2_sub hostOps2_fresh (Wa4 m ρ)),
    .host (hseg hostOps2_1 hostOps2_1_sub hostOps2_1_fresh (Wa5 m ρ)),
    .host (hseg hostOps2_2 hostOps2_2_sub hostOps2_2_fresh (Wa6 m ρ)),
    .host (hseg hostOps2_3 hostOps2_3_sub hostOps2_3_fresh (Wa7 m ρ)),
    .host (hseg hostOps2_4 hostOps2_4_sub hostOps2_4_fresh (Wa8 m ρ)),
    .region (reg2 m ρ),
    .host (hseg hostOps3 hostOps3_sub hostOps3_fresh (Wa10 m ρ)),
    .region (reg3 m ρ),
    .host (hseg hostOps4 hostOps4_sub hostOps4_fresh (Wa12 m ρ)),
    .host (hseg hostOps4_1 hostOps4_1_sub hostOps4_1_fresh (Wa13 m ρ)),
    .host (hseg hostOps4_2 hostOps4_2_sub hostOps4_2_fresh (Wa14 m ρ)),
    .host (hseg hostOps4_3 hostOps4_3_sub hostOps4_3_fresh (Wa15 m ρ)),
    .host (hseg hostOps4_4 hostOps4_4_sub hostOps4_4_fresh (Wa16 m ρ)),
    .region (reg4 m ρ),
    .host (hseg hostOps5 hostOps5_sub hostOps5_fresh (Wa18 m ρ)),
    .region (reg5 m ρ),
    .host (hseg hostOps6 hostOps6_sub hostOps6_fresh (Wa20 m ρ)),
    .region (reg6 m ρ),
    .host (hseg hostOps7 hostOps7_sub hostOps7_fresh (Wa22 m ρ)),
    .host (hseg hostOps7_1 hostOps7_1_sub hostOps7_1_fresh (Wa23 m ρ)),
    .host (hseg hostOps7_2 hostOps7_2_sub hostOps7_2_fresh (Wa24 m ρ)),
    .host (hseg hostOps7_3 hostOps7_3_sub hostOps7_3_fresh (Wa25 m ρ)),
    .host (hseg hostOps7_4 hostOps7_4_sub hostOps7_4_fresh (Wa26 m ρ)),
    .region (reg7 m ρ),
    .host (hseg hostOps8 hostOps8_sub hostOps8_fresh (Wa28 m ρ)),
    .region (reg8 m ρ),
    .host (hseg hostOps9 hostOps9_sub hostOps9_fresh (Wa30 m ρ)),
    .region (reg9 m ρ) ]
theorem main_run (c : Dev nD) : main (F := F) c = Pipeline.Seg.run (rsegs m ρ) := (main_chain c).trans (by chain_rfl)
set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = Wa32 m ρ c b) :=
  Pipeline.θ_run_regions_kit (pcfgs (F := F)) adm (pdats m ρ) () cellOf_inj emb₁ defs₀ 𝒱₀ L lv m ρ main (rsegs m ρ)
    (fun c Q => by rw [main_run m ρ c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => Laws.sep_assoc.2⟩)
    (hinit := by
      refine Pipeline.initEach L lv fun c => ?_
      rw [show unscopedBufs c (fun b => m ((c : Thread nD τ).loc b)) = StableHlo.held (c : Thread nD τ) (Pipeline.ucRefs τ sig) (Wa0 m ρ c)
        from Pipeline.unscopedBufs_held c (Wa0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wa32 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wa32 m ρ c) s')
      isplitl [Hh] <;> iassumption)
    (hQ := fun s h c => h c)
end Cert.KernelIdeal.Hand
end
-- ==== Proof.Spec.lean ====
import Idealize.ShloMosaic.PureOps.Ideal
import Idealize.ShloMosaic.Lib.ValueIdx
noncomputable section
open scoped BigOperators
namespace Cert.Spec
open Idealize.ShloMosaic Idealize.ShloMosaic.ValueIdx
def countAt {E : Nat} (idx : Fin E → BitVec 32) (n : Nat) : EReal :=
  ∑ e : Fin E, if idx e = BitVec.ofNat 32 n then (1 : EReal) else 0
def gatherAt {Np : Nat} (word : BitVec 32) (col : Fin Np → EReal) : EReal :=
  ∑ n : Fin Np, if word = BitVec.ofNat 32 n.val then col n else 0
def scatterAt {E : Nat} (idx : Fin E → BitVec 32) (col : Fin E → EReal) (n : Nat) : EReal :=
  ∑ e : Fin E, if idx e = BitVec.ofNat 32 n then col e else 0
def dotAt {K : Nat} (row : Fin K → EReal) (col : Fin K → EReal) : EReal :=
  ∑ k : Fin K, row k * col k
def countArr {E Np : Nat} (idx : (⟨2, ![1, E]⟩ : Shape).Idx → BitVec 32) : (⟨2, ![Np, 1]⟩ : Shape).Idx → EReal :=
  fun j => countAt (fun e : Fin E => idx (ix2 (0 : Fin 1) e)) (j 0).val
def gatherArr {E Np H : Nat} (idx : (⟨2, ![E, 1]⟩ : Shape).Idx → BitVec 32) (tab : (⟨2, ![Np, H]⟩ : Shape).Idx → EReal) :
    (⟨2, ![E, H]⟩ : Shape).Idx → EReal :=
  fun j => gatherAt (idx (ix2 (j 0) (0 : Fin 1))) (fun n : Fin Np => tab (ix2 n (j 1)))
def scatterArr {E Np H : Nat} (idx : (⟨2, ![1, E]⟩ : Shape).Idx → BitVec 32) (feat : (⟨2, ![E, H]⟩ : Shape).Idx → EReal) :
    (⟨2, ![Np, H]⟩ : Shape).Idx → EReal :=
  fun j => scatterAt (fun e : Fin E => idx (ix2 (0 : Fin 1) e)) (fun e : Fin E => feat (ix2 e (j 1))) (j 0).val
def denseArr {M K N : Nat} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun j => dotAt (fun k : Fin K => x (ix2 (j 0) k)) (fun k : Fin K => w (ix2 k (j 1))) + b (ix2 (0 : Fin 1) (j 1))
def denseReluArr {M K N : Nat} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun j => max (denseArr x w b j) 0
def sageArr {M K N : Nat} (x : (⟨2, ![M, K]⟩ : Shape).Idx → EReal) (y : (⟨2, ![M, K]⟩ : Shape).Idx → EReal)
    (wl : (⟨2, ![K, N]⟩ : Shape).Idx → EReal) (wr : (⟨2, ![K, N]⟩ : Shape).Idx → EReal)
    (b : (⟨2, ![1, N]⟩ : Shape).Idx → EReal) : (⟨2, ![M, N]⟩ : Shape).Idx → EReal :=
  fun j => max ((dotAt (fun k : Fin K => x (ix2 (j 0) k)) (fun k : Fin K => wl (ix2 k (j 1)))
      + dotAt (fun k : Fin K => y (ix2 (j 0) k)) (fun k : Fin K => wr (ix2 k (j 1)))) + b (ix2 (0 : Fin 1) (j 1))) 0
end Cert.Spec
end
-- ==== Proof.KI.Finals.lean ====
import proofs.«427224_j39238821216992_2_alg».proof.Proof.KI.D0
import proofs.«427224_j39238821216992_2_alg».proof.Proof.KI.D1
import proofs.«427224_j39238821216992_2_alg».proof.Proof.KI.D2
import proofs.«427224_j39238821216992_2_alg».proof.Proof.KI.D3
import proofs.«427224_j39238821216992_2_alg».proof.Proof.KI.D4
import proofs.«427224_j39238821216992_2_alg».proof.Proof.KI.D5
import proofs.«427224_j39238821216992_2_alg».proof.Proof.KI.D6
import proofs.«427224_j39238821216992_2_alg».proof.Proof.KI.D7
import proofs.«427224_j39238821216992_2_alg».proof.Proof.KI.D8
import proofs.«427224_j39238821216992_2_alg».proof.Proof.KI.D9
import proofs.«427224_j39238821216992_2_alg».proof.Proof.Spec
noncomputable section
namespace Cert.KernelIdeal.Hand
open Idealize.ShloMosaic Idealize.ShloMosaic.TcCoe Idealize.SL.Sem
open Idealize.ShloMosaic.Pipeline (Dat)
open Cert.KernelIdeal Cert.KernelIdeal.Gen
structure Finals : Prop where
  f0 : ∀ (V : (c : Dev nD) → (b : Ref sig .tc) → Buf (Elt Ideal) ((c : Thread nD τ).loc b)) (c : Dev nD), (dat0 (F := Ideal) V c).arrAt 3 cfg0.N = Cert.Spec.denseArr (M := 20000) (K := 128) (N := 128) (V c main_arg0) (V c main_arg3) (V c main_v5)
  f1 : ∀ (V : (c : Dev nD) → (b : Ref sig .tc) → Buf (Elt Ideal) ((c : Thread nD τ).loc b)) (c : Dev nD), (dat1 (F := Ideal) V c).arrAt 1 cfg1.N = Cert.Spec.countArr (E := 640000) (Np := 20480) (V c main_v7)
  f2 : ∀ (V : (c : Dev nD) → (b : Ref sig .tc) → Buf (Elt Ideal) ((c : Thread nD τ).loc b)) (c : Dev nD), (dat2 (F := Ideal) V c).arrAt 2 cfg2.N = Cert.Spec.gatherArr (E := 640000) (Np := 20480) (H := 128) (V c main_v18) (V c main_v17)
  f3 : ∀ (V : (c : Dev nD) → (b : Ref sig .tc) → Buf (Elt Ideal) ((c : Thread nD τ).loc b)) (c : Dev nD), (dat3 (F := Ideal) V c).arrAt 2 cfg3.N = Cert.Spec.scatterArr (E := 640000) (Np := 20480) (H := 128) (V c main_v20) (V c main_v19)
  f4 : ∀ (V : (c : Dev nD) → (b : Ref sig .tc) → Buf (Elt Ideal) ((c : Thread nD τ).loc b)) (c : Dev nD), (dat4 (F := Ideal) V c).arrAt 2 cfg4.N = Cert.Spec.gatherArr (E := 640000) (Np := 20480) (H := 128) (V c main_v35) (V c main_v34)
  f5 : ∀ (V : (c : Dev nD) → (b : Ref sig .tc) → Buf (Elt Ideal) ((c : Thread nD τ).loc b)) (c : Dev nD), (dat5 (F := Ideal) V c).arrAt 2 cfg5.N = Cert.Spec.scatterArr (E := 640000) (Np := 20480) (H := 128) (V c main_v37) (V c main_v36)
  f6 : ∀ (V : (c : Dev nD) → (b : Ref sig .tc) → Buf (Elt Ideal) ((c : Thread nD τ).loc b)) (c : Dev nD), (dat6 (F := Ideal) V c).arrAt 5 cfg6.N = Cert.Spec.sageArr (M := 20000) (K := 128) (N := 128) (V c main_v44) (V c main_v33) (V c main_arg5) (V c main_arg6) (V c main_v45)
  f7 : ∀ (V : (c : Dev nD) → (b : Ref sig .tc) → Buf (Elt Ideal) ((c : Thread nD τ).loc b)) (c : Dev nD), (dat7 (F := Ideal) V c).arrAt 2 cfg7.N = Cert.Spec.scatterArr (E := 20480) (Np := 32) (H := 128) (V c main_v49) (V c main_v48)
  f8 : ∀ (V : (c : Dev nD) → (b : Ref sig .tc) → Buf (Elt Ideal) ((c : Thread nD τ).loc b)) (c : Dev nD), (dat8 (F := Ideal) V c).arrAt 3 cfg8.N = Cert.Spec.denseReluArr (M := 32) (K := 128) (N := 128) (V c main_v50) (V c main_arg8) (V c main_v51)
  f9 : ∀ (V : (c : Dev nD) → (b : Ref sig .tc) → Buf (Elt Ideal) ((c : Thread nD τ).loc b)) (c : Dev nD), (dat9 (F := Ideal) V c).arrAt 3 cfg9.N = Cert.Spec.denseArr (M := 32) (K := 128) (N := 3) (V c main_v52) (V c main_arg10) (V c main_v53)
end Cert.KernelIdeal.Hand
end
-- ==== Proof.KI.V0.lean ====
import proofs.«427224_j39238821216992_2_alg».proof.Proof.KI.D0
import proofs.«427224_j39238821216992_2_alg».proof.Proof.Spec
import Idealize.ShloMosaic.Lib.Pipeline.Value
import Idealize.ShloMosaic.Lib.ValueIdx
import Idealize.ShloMosaic.Lib.StackMember
import Idealize.ShloMosaic.PureOps.Ideal.Laws
set_option maxRecDepth 16384
noncomputable section
namespace Cert.KernelIdeal.Hand
open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators
variable (V : (c : Dev nD) → (b : Ref sig .tc) → Buf (Elt Ideal) ((c : Thread nD τ).loc b))
theorem pay0_apply (x0 : Vec Ideal S2000x128 .f32) (x1 : Vec Ideal S128x128 .f32) (x2 : Vec Ideal S1x128 .f32) (a : Fin 2000) (b : Fin 128) :
    k0_pay1 x0 x1 x2 (ix2 a b)
      = Cert.Spec.dotAt (fun k : Fin 128 => x0 (ix2 a k)) (fun k : Fin 128 => x1 (ix2 k b)) + x2 (ix2 (0 : Fin 1) b) := by
  show ((matmul (F := Ideal) (DotDims.plain 2000 128 128) none (truncf .bf16 x0 bitsLt_bf16_f32) (truncf .bf16 x1 bitsLt_bf16_f32) (constant (F := Ideal) S2000x128 .f32 0x00000000#32)) (ix2 a b) : EReal)
      + (broadcastTo S2000x128 (shapeCast S1x128 x2 shapeCasts_S1x128_S1x128) broadcasts_S1x128_S2000x128 (ix2 a b) : EReal) = _
  rw [matmul_zero_eq_dotGeneral, StackMember.dotGeneral_plain_apply, shapeCast_self,
    broadcastTo_apply x2 broadcasts_S1x128_S2000x128 (ix2 a b) (ix2 (0 : Fin 1) b) (by intro ax; match ax with | ⟨0, _⟩ => rfl | ⟨1, _⟩ => rfl)]
  rfl
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)
theorem flushed0_eq (c : Dev nD) (t : Fin cfg0.N) :
    (dat0 (F := Ideal) V c).flushed 3 t = ((cfg0.win 3).blk t).view.read (Elt Ideal)
      (Cert.Spec.denseArr (M := 20000) (K := 128) (N := 128) (V c main_arg0) (V c main_arg3) (V c main_v5)) := by
  show (cfg0.win 3).cut (grid0.coords t) ((dat0 V c).after 3 t) = _
  rw [after0_3]
  unfold out0
  obtain ⟨e00, e01, e10, e11, e20, e21, e30, e31⟩ := idx_facts0 t
  refine funext fun (j : S2000x128.Idx) => ?_
  obtain ⟨a, b, rfl⟩ : ∃ (a : Fin 2000) (b : Fin 128), j = ix2 a b := ⟨j 0, j 1, eq_ix2 j⟩
  have ha : a.val < 2000 := a.isLt
  have hb : b.val < 128 := b.isLt
  obtain ⟨E, hE⟩ : ∃ E : S20000x128.Idx, E = ((cfg0.win 3).blk t).view.emb (ix2 a b) := ⟨_, rfl⟩
  have hE0 : (E 0).val = t.val * 2000 + a.val := by
    rw [hE]; show win0_3.index t (0 : Fin 2) * 2000 + 1 * a.val = _; omega
  have hE1 : (E 1).val = b.val := by
    rw [hE]; show win0_3.index t (1 : Fin 2) * 128 + 1 * b.val = _; omega
  have h0 : ∀ k : Fin 128, ((cfg0.win 0).blk t).view.emb (ix2 a k) = (ix2 (E 0) k : S20000x128.Idx) := fun k => by
    have hk : k.val < 128 := k.isLt
    funext ax; apply Fin.ext
    match ax with
    | ⟨0, _⟩ => show win0_0.index t (0 : Fin 2) * 2000 + 1 * a.val = (E 0).val; omega
    | ⟨1, _⟩ => show win0_0.index t (1 : Fin 2) * 128 + 1 * k.val = k.val; omega
  have h1 : ∀ k : Fin 128, ((cfg0.win 1).blk t).view.emb (ix2 k b) = (ix2 k (E 1) : S128x128.Idx) := fun k => by
    have hk : k.val < 128 := k.isLt
    funext ax; apply Fin.ext
    match ax with
    | ⟨0, _⟩ => show win0_1.index t (0 : Fin 2) * 128 + 1 * k.val = k.val; omega
    | ⟨1, _⟩ => show win0_1.index t (1 : Fin 2) * 128 + 1 * b.val = (E 1).val; omega
  have h2 : ((cfg0.win 2).blk t).view.emb (ix2 (0 : Fin 1) b) = (ix2 (0 : Fin 1) (E 1) : S1x128.Idx) := by
    funext ax; apply Fin.ext
    match ax with
    | ⟨0, _⟩ => show win0_2.index t (0 : Fin 2) * 1 + 1 * 0 = 0; omega
    | ⟨1, _⟩ => show win0_2.index t (1 : Fin 2) * 128 + 1 * b.val = (E 1).val; omega
  show k0_pay1 (iblk0 V c 0 t) (iblk0 V c 1 t) (iblk0 V c 2 t) (ix2 a b)
    = Cert.Spec.denseArr (M := 20000) (K := 128) (N := 128) (V c main_arg0) (V c main_arg3) (V c main_v5) (((cfg0.win 3).blk t).view.emb (ix2 a b))
  rw [pay0_apply, ← hE]
  show Cert.Spec.dotAt (fun k : Fin 128 => V c main_arg0 (((cfg0.win 0).blk t).view.emb (ix2 a k)))
        (fun k : Fin 128 => V c main_arg3 (((cfg0.win 1).blk t).view.emb (ix2 k b)))
      + V c main_v5 (((cfg0.win 2).blk t).view.emb (ix2 (0 : Fin 1) b))
    = Cert.Spec.dotAt (fun k : Fin 128 => V c main_arg0 (ix2 (E 0) k)) (fun k : Fin 128 => V c main_arg3 (ix2 k (E 1)))
      + V c main_v5 (ix2 (0 : Fin 1) (E 1))
  simp only [h0, h1, h2]
theorem cover0 (i : S20000x128.Idx) : ∃ t : Fin cfg0.N, (cfg0.win 3).flush t = true ∧ i ∈ ((cfg0.win 3).blk t).view.set := by
  have hi0 : (i 0).val < 20000 := (i 0).isLt
  have hi1 : (i 1).val < 128 := (i 1).isLt
  have hN : cfg0.N = 10 := N_0
  let t : Fin cfg0.N := ⟨(i 0).val / 2000, by rw [hN]; omega⟩
  obtain ⟨e00, e01, e10, e11, e20, e21, e30, e31⟩ := idx_facts0 t
  have ht : t.val = (i 0).val / 2000 := rfl
  refine ⟨t, flush0_3 t, ?_⟩
  show i ∈ ((View.whole main_v6).slice (win0_3.rect t)).set
  rw [View.set_slice_whole, Rect.mem_set_unit]
  intro ax
  match ax with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega
theorem final0 (c : Dev nD) : (dat0 (F := Ideal) V c).arrAt 3 cfg0.N
    = Cert.Spec.denseArr (M := 20000) (K := 128) (N := 128) (V c main_arg0) (V c main_arg3) (V c main_v5) :=
  (dat0 (F := Ideal) V c).arrAt_eq_of_cover 3 _ (fun t _ => flushed0_eq V c t) (cover0)
end Cert.KernelIdeal.Hand
end
-- ==== Proof.KI.V1.lean ====
import proofs.«427224_j39238821216992_2_alg».proof.Proof.KI.D1
import proofs.«427224_j39238821216992_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import Mathlib.Algebra.BigOperators.Fin
set_option maxRecDepth 16384
noncomputable section
namespace Cert.KernelIdeal.Hand
open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen
open scoped BigOperators
theorem indicator_eq (a b : BitVec 32) :
    ((((IntOp.cmpi .eq a b).setWidth 32).toInt : ℝ) : EReal) = if a = b then (1 : EReal) else 0 := by
  unfold IntOp.cmpi
  by_cases h : a = b
  · rw [if_pos h, show (a == b) = true from beq_iff_eq.mpr h,
      show ((BitVec.ofBool true).setWidth 32).toInt = 1 from by decide, Int.cast_one, EReal.coe_one]
  · rw [if_neg h, show (a == b) = false from beq_eq_false_iff_ne.mpr h,
      show ((BitVec.ofBool false).setWidth 32).toInt = 0 from by decide, Int.cast_zero, EReal.coe_zero]
/-- A plain block product into zeros at an entry: the left factor's row against the right factor's column. -/
theorem plain_mm_apply {M K N : ℕ} {φ₁ φ₂ : FTy} (a : FVec Ideal ⟨2, ![M, K]⟩ φ₁) (b : FVec Ideal ⟨2, ![K, N]⟩ φ₂) (r : Fin M) (h : Fin N) :
    matmul (DotDims.plain M K N) none a b (constant ⟨2, ![M, N]⟩ .f32 0x00000000#32) (ix2 r h) = ∑ k : Fin K, a (ix2 r k) * b (ix2 k h) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  exact congrArg₂ (fun x y => a x * b y) (Shape.idx_ext₂ rfl hk) (Shape.idx_ext₂ hk rfl)
/-- The widened, converted test of two arrays of words for equality, at an index: one where they agree, zero elsewhere. -/
theorem eqMask_apply {s : Shape} (x y : IVec s 32) (h1 : 1 < 32) (hb : FTy.bf16.bits < FTy.f32.bits) (j : s.Idx) :
    (truncf .bf16 (sitofp (F := Ideal) .f32 (extui 32 (cmpi .eq x y) h1)) hb : FVec Ideal s .bf16) j = if x j = y j then (1 : EReal) else 0 :=
  indicator_eq _ _
/-- A sum over `a·b` positions, as `a` consecutive runs of `b`. -/
theorem sum_tiles {M : Type*} [AddCommMonoid M] (a b : ℕ) (f : ℕ → M) :
    ∑ e : Fin (a * b), f e.val = ∑ s ∈ Finset.range a, ∑ l : Fin b, f (b * s + l.val) := by
  rw [Finset.sum_range, ← Equiv.sum_comp finProdFinEquiv, Fintype.sum_prod_type]
  exact Finset.sum_congr rfl fun s _ => Finset.sum_congr rfl fun l _ => congrArg f (Nat.add_comm _ _)
/-- A point-indexed array that restarts from `Z + M n` at the multiples of `J` and gains `M n` at every other point is `Z` plus its run's addends so far. -/
theorem acc_run_apply {N : ℕ} {ι β : Type*} [AddCommMonoid β] (f : (n : ℕ) → n < N → ι → β) (J : ℕ) (hJ : 0 < J) (Z : ι → β) (M : ℕ → ι → β)
    (h0 : ∀ (n : ℕ) (h : n < N), n % J = 0 → ∀ i, f n h i = Z i + M n i)
    (hs : ∀ (n : ℕ) (h : n + 1 < N), ¬(n + 1) % J = 0 → ∀ i, f (n + 1) h i = f n (Nat.lt_of_succ_lt h) i + M (n + 1) i)
    (t : ℕ) (ht : t < N) (i : ι) : f t ht i = Z i + ∑ s ∈ Finset.range (t % J + 1), M (J * (t / J) + s) i := by
  have h' : J * (t / J) + t % J < N := by rw [Nat.div_add_mod]; exact ht
  rw [Pipeline.eq_accAt_of_mod f J (fun n _ i => Z i + M n i) (fun n _ acc i => acc i + M n i) (fun n h hm => funext (h0 n h hm))
    (fun n h hm => funext (hs n h hm)) hJ t ht h']
  exact Pipeline.accAt_add_apply _ _ Z M _ (t % J) (fun _ _ => rfl) (fun _ _ _ _ _ _ => rfl) _ le_rfl h' i
theorem pay1_apply (j : S2048x1.Idx) : (k1_pay1 (F := Ideal) : S2048x1.Idx → EReal) j = 0 := by
  unfold k1_pay1
  rw [shapeCast_self]
  show Ideal.ofBits .f32 0x00000000#32 = 0
  exact Ideal.ofBits_zero_f32
theorem pay2_apply (i : grid1.Coords) (x0 : Vec Ideal S1x2560 .i32) (acc : Vec Ideal S2048x1 .f32) (r : Fin 2048) :
    (k1_pay2 (F := Ideal) i x0 acc : S2048x1.Idx → EReal) (ix2 r (0 : Fin 1))
      = (acc (ix2 r (0 : Fin 1)) : EReal)
        + ∑ l : Fin 2560, (if (x0 (ix2 (0 : Fin 1) l) : BitVec 32) - BitVec.ofNat 32 (i 0).val * 2048#32 = BitVec.ofNat 32 r.val then (1 : EReal) else 0) := by
  unfold k1_pay2
  dsimp only
  rw [shapeCast_self, shapeCast_self, shapeCast_self]
  refine (addf_apply _ _ _).trans ?_
  congr 1
  refine (shapeCast_apply _ shapeCasts_S2048_S2048x1 (ix2 r (0 : Fin 1)) (ix1 r) ?_).trans ?_
  · rw [Shape.rowMajor_val_one, Shape.rowMajor_val_two]; show r.val = r.val * 1 + 0; omega
  refine (Ideal.multiReduction_add_single _ _ reduces_S2048x2560_S2048 _ _ (ix1 r)).trans ?_
  refine Finset.sum_congr rfl fun l _ => ?_
  have hb : broadcastTo S2048x2560 (subi x0 (broadcast S1x2560 (Scalar.muli (BitVec.ofNat 32 (i 0).val) 2048#32))) broadcasts_S1x2560_S2048x2560
        (reduces_S2048x2560_S2048.lift (ix1 r) l) = (x0 (ix2 (0 : Fin 1) l) : BitVec 32) - BitVec.ofNat 32 (i 0).val * 2048#32 :=
    (broadcastTo_apply _ broadcasts_S1x2560_S2048x2560 _ (ix2 (0 : Fin 1) l) (fun a => by
      match a with
      | ⟨0, _⟩ => rfl
      | ⟨1, _⟩ => rfl)).trans rfl
  have hi : iota .tc S2048x2560 32 [0] iota_S2048x2560_d0_w32 (reduces_S2048x2560_S2048.lift (ix1 r) l) = BitVec.ofNat 32 r.val :=
    (iota_single_apply .tc S2048x2560 32 0 iota_S2048x2560_d0_w32 _).trans rfl
  exact (congrArg₂ (fun a b : BitVec 32 => ((((IntOp.cmpi .eq a b).setWidth 32).toInt : ℝ) : EReal)) hb hi).trans (indicator_eq _ _)
variable (V : (c : Dev nD) → (b : Ref sig .tc) → Buf (Elt Ideal) ((c : Thread nD τ).loc b))
def wordN (c : Dev nD) (e : ℕ) : BitVec 32 :=
  (V c main_v7 : S1x640000.Idx → BitVec 32) (ix2 (0 : Fin 1) (⟨e % 640000, Nat.mod_lt e (by decide)⟩ : Fin 640000))
theorem wordN_val (c : Dev nD) (e : Fin 640000) :
    wordN V c e.val = (V c main_v7 : S1x640000.Idx → BitVec 32) (ix2 (0 : Fin 1) e) := by
  unfold wordN
  exact congrArg (fun x : Fin 640000 => (V c main_v7 : S1x640000.Idx → BitVec 32) (ix2 (0 : Fin 1) x)) (Fin.ext (Nat.mod_eq_of_lt e.isLt))
theorem idx_facts1 : ∀ t : Fin cfg1.N,
    win1_0.index t (0 : Fin 2) = 0 ∧ win1_0.index t (1 : Fin 2) = t.val % 250
    ∧ win1_1.index t (0 : Fin 2) = t.val / 250 ∧ win1_1.index t (1 : Fin 2) = 0
    ∧ ((grid1.coords t) 0).val = t.val / 250 :=
  (by decide +kernel : ∀ t : Fin grid1.N, _)
theorem iblk1_apply (c : Dev nD) (t : Fin cfg1.N) (x : S1x2560.Idx) (k : S1x640000.Idx)
    (hk0 : (k 0).val = (x 0).val) (hk1 : (k 1).val = 2560 * (t.val % 250) + (x 1).val) :
    (iblk1 V c 0 t : Vec Ideal S1x2560 .i32) x = (V c main_v7 : S1x640000.Idx → BitVec 32) k := by
  obtain ⟨e0, e1, -, -, -⟩ := idx_facts1 t
  unfold iblk1
  rw [View.read_apply]
  show V c main_v7 _ = V c main_v7 k
  exact congrArg _ (Shape.idx_ext₂ (by show win1_0.index t 0 * 1 + 1 * (x 0).val = (k 0).val; omega) (by show win1_0.index t 1 * 2560 + 1 * (x 1).val = (k 1).val; omega))
theorem iblk1_word (c : Dev nD) (t : Fin cfg1.N) (l : Fin 2560) :
    (iblk1 V c 0 t : Vec Ideal S1x2560 .i32) (ix2 (0 : Fin 1) l) = wordN V c (2560 * (t.val % 250) + l.val) := by
  unfold wordN
  refine iblk1_apply V c t (ix2 (0 : Fin 1) l) _ rfl ?_
  show (2560 * (t.val % 250) + l.val) % 640000 = 2560 * (t.val % 250) + l.val
  exact Nat.mod_eq_of_lt (by have := Nat.mod_lt t.val (show 0 < 250 by decide); have := l.isLt; omega)
theorem word_sub_eq_iff (w : BitVec 32) (q r : ℕ) :
    w - BitVec.ofNat 32 q * 2048#32 = BitVec.ofNat 32 r ↔ w = BitVec.ofNat 32 (2048 * q + r) := by
  have e : BitVec.ofNat 32 (2048 * q + r) = BitVec.ofNat 32 r + BitVec.ofNat 32 q * 2048#32 := by
    rw [BitVec.ofNat_add, BitVec.ofNat_mul, BitVec.add_comm, BitVec.mul_comm]
  rw [e]
  constructor
  · intro h; rw [← h]; exact (BitVec.sub_add_cancel _ _).symm
  · intro h; rw [h]; exact BitVec.add_sub_cancel _ _
def cnt1 (c : Dev nD) (n : ℕ) (j : S2048x1.Idx) : EReal :=
  ∑ l : Fin 2560, if wordN V c (2560 * (n % 250) + l.val) = BitVec.ofNat 32 (2048 * (n / 250) + (j 0).val) then (1 : EReal) else 0
theorem step1_apply (c : Dev nD) (t : Fin cfg1.N) (acc : Vec Ideal S2048x1 .f32) (j : S2048x1.Idx) :
    (k1_pay2 (F := Ideal) (grid1.coords t) (iblk1 V c 0 t) acc : S2048x1.Idx → EReal) j = (acc j : EReal) + cnt1 V c t.val j := by
  obtain ⟨r, rfl⟩ : ∃ r : Fin 2048, j = ix2 r (0 : Fin 1) :=
    ⟨j 0, (eq_ix2 j).trans (congrArg (ix2 (j 0)) (Fin.eq_zero (j 1)))⟩
  obtain ⟨-, -, -, -, e4⟩ := idx_facts1 t
  refine (pay2_apply (grid1.coords t) (iblk1 V c 0 t) acc r).trans ?_
  congr 1
  unfold cnt1
  refine Finset.sum_congr rfl fun l _ => ?_
  rw [iblk1_word V c t l, e4]
  exact if_congr (word_sub_eq_iff _ _ _) rfl rfl
theorem acc1_closed (c : Dev nD) (t : Fin cfg1.N) (h249 : t.val % 250 = 249) (j : S2048x1.Idx) :
    (acc1 V c t.val t.isLt : S2048x1.Idx → EReal) j = ∑ s ∈ Finset.range 250, cnt1 V c (250 * (t.val / 250) + s) j := by
  refine (acc_run_apply (fun n h => (acc1 V c n h : S2048x1.Idx → EReal)) 250 (by decide) (fun _ => 0) (cnt1 V c)
    (fun n h hm i => (congrFun (acc1_first V c ⟨n, h⟩ hm) i).trans ((step1_apply V c ⟨n, h⟩ _ i).trans (by rw [pay1_apply])))
    (fun n h hm i => (congrFun (acc1_next V c ⟨n + 1, h⟩ hm) i).trans (step1_apply V c ⟨n + 1, h⟩ _ i)) t.val t.isLt j).trans ?_
  rw [zero_add, h249]
theorem flushed1_eq (c : Dev nD) (t : Fin cfg1.N) (hf : (cfg1.win 1).flush t = true) :
    (dat1 (F := Ideal) V c).flushed 1 t
      = ((cfg1.win 1).blk t).view.read (Elt Ideal) (Cert.Spec.countArr (E := 640000) (Np := 20480) (V c main_v7)) := by
  have h249 : t.val % 250 = 249 := (flush1_1 t).mp hf
  obtain ⟨-, -, e2, e3, -⟩ := idx_facts1 t
  show (cfg1.win 1).cut (grid1.coords t) ((dat1 (F := Ideal) V c).after 1 t) = _
  rw [after1_1]
  funext j
  rw [View.read_apply]
  show (acc1 V c t.val t.isLt : S2048x1.Idx → EReal) j = _
  rw [acc1_closed V c t h249 j]
  rw [cast_eq]
  unfold Cert.Spec.countArr Cert.Spec.countAt
  have he : ((((cfg1.win 1).blk t).view.emb j) 0).val = 2048 * (t.val / 250) + (j 0).val := by
    show win1_1.index t 0 * 2048 + 1 * (j 0).val = _
    rw [e2]; omega
  dsimp only
  rw [he]
  have hw := sum_tiles 250 2560 (fun e => if wordN V c e = BitVec.ofNat 32 (2048 * (t.val / 250) + (j 0).val) then (1 : EReal) else 0)
  refine Eq.trans ?_ ((hw.symm.trans (Finset.sum_congr rfl fun e _ => by rw [wordN_val V c e])))
  refine Finset.sum_congr rfl fun s hs => ?_
  have hs' : s < 250 := Finset.mem_range.mp hs
  unfold cnt1
  rw [Nat.mul_add_mod, Nat.mod_eq_of_lt hs', show (250 * (t.val / 250) + s) / 250 = t.val / 250 from by omega]
theorem cover1 (i : S20480x1.Idx) :
    ∃ t : Fin cfg1.N, (cfg1.win 1).flush t = true ∧ i ∈ ((cfg1.win 1).blk t).view.set := by
  have hi0 : (i 0).val < 20480 := (i 0).isLt
  have hi1 : (i 1).val < 1 := (i 1).isLt
  have hN : cfg1.N = 2500 := N_1
  obtain ⟨t, ht⟩ : ∃ t : Fin cfg1.N, t.val = 250 * ((i 0).val / 2048) + 249 := ⟨⟨_, by rw [hN]; omega⟩, rfl⟩
  obtain ⟨-, -, e2, e3, -⟩ := idx_facts1 t
  refine ⟨t, (flush1_1 t).mpr (by omega), ?_⟩
  show i ∈ ((View.whole main_v8).slice (win1_1.rect t)).set
  rw [View.set_slice_whole, Rect.mem_set_unit]
  exact Fin.forall_fin_two.mpr ⟨by show win1_1.index t 0 * 2048 ≤ (i 0).val ∧ (i 0).val < win1_1.index t 0 * 2048 + 2048; omega,
    by show win1_1.index t 1 * 1 ≤ (i 1).val ∧ (i 1).val < win1_1.index t 1 * 1 + 1; omega⟩
theorem final1 (c : Dev nD) :
    (dat1 (F := Ideal) V c).arrAt 1 cfg1.N = Cert.Spec.countArr (E := 640000) (Np := 20480) (V c main_v7) :=
  (dat1 (F := Ideal) V c).arrAt_eq_of_cover 1 _ (fun t hf => flushed1_eq V c t hf) (cover1)
end Cert.KernelIdeal.Hand
end
-- ==== Proof.KI.V2.lean ====
import proofs.«427224_j39238821216992_2_alg».proof.Proof.KI.D2
import proofs.«427224_j39238821216992_2_alg».proof.Proof.KI.V1
set_option maxRecDepth 16384
noncomputable section
namespace Cert.KernelIdeal.Hand
open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen
open Cert.Spec
open scoped BigOperators
variable (V : (c : Dev nD) → (b : Ref sig .tc) → Buf (Elt Ideal) ((c : Thread nD τ).loc b))
theorem pay1_apply2 (j : S2560x128.Idx) : (k2_pay1 (F := Ideal)) j = 0 := by
  unfold k2_pay1
  simp only [shapeCast_self]
  exact Ideal.ofBits_zero_f32
/-- The step at an entry adds the rows of the table tile that the entry's index word names. -/
theorem pay2_apply2 (i : grid2.Coords) (xa : Vec Ideal S2560x1 .i32) (xs : Vec Ideal S2560x128 .f32) (xb : Vec Ideal S2048x128 .f32)
    (r : Fin 2560) (h : Fin 128) :
    k2_pay2 (F := Ideal) i xa xs xb (ix2 r h)
      = xs (ix2 r h) + ∑ n : Fin 2048, (if xa (ix2 r (0 : Fin 1)) = BitVec.ofNat 32 (2048 * (i 1).val + n.val) then xb (ix2 n h) else 0) := by
  unfold k2_pay2
  simp only [shapeCast_self]
  refine (addf_apply _ _ _).trans (congrArg (xs (ix2 r h) + ·) ((plain_mm_apply _ _ r h).trans (Finset.sum_congr rfl fun n _ => ?_)))
  rw [eqMask_apply, iota_single_apply, broadcastTo_apply _ _ _ (ix2 r (0 : Fin 1)) (fun a => by match a with | ⟨0, _⟩ => rfl | ⟨1, _⟩ => rfl)]
  exact (boole_mul _ _).trans (if_congr (word_sub_eq_iff _ _ _) rfl rfl)
theorem idxFacts2 : ∀ t : Fin cfg2.N,
    win2_0.index t (0 : Fin 2) = t.val / 10 ∧ win2_0.index t (1 : Fin 2) = 0
    ∧ win2_1.index t (0 : Fin 2) = t.val % 10 ∧ win2_1.index t (1 : Fin 2) = 0
    ∧ win2_2.index t (0 : Fin 2) = t.val / 10 ∧ win2_2.index t (1 : Fin 2) = 0
    ∧ ((grid2.coords t) 1).val = t.val % 10 :=
  (by decide +kernel : ∀ t : Fin grid2.N, _)
/-- Row `N` of the table where entry `e`'s index word names it, nothing elsewhere. -/
def edge2 (c : Dev nD) (e : ℕ) (h : Fin 128) (N : ℕ) : EReal :=
  if (V c main_v18 : S640000x1.Idx → BitVec 32) (ix2 ⟨e % 640000, Nat.mod_lt _ (by decide)⟩ (0 : Fin 1)) = BitVec.ofNat 32 N
    then (V c main_v17 : S20480x128.Idx → EReal) (ix2 ⟨N % 20480, Nat.mod_lt _ (by decide)⟩ h) else 0
/-- Point `n`'s addend at an entry of its block: the named rows of the point's table tile. -/
def add2 (c : Dev nD) (n : ℕ) (j : S2560x128.Idx) : EReal :=
  ∑ m : Fin 2048, edge2 V c (2560 * (n / 10) + (j 0).val) (j 1) (2048 * (n % 10) + m.val)
/-- One point's step, its blocks read off the arrays where the index maps put them. -/
theorem step_apply2 (c : Dev nD) (t : Fin cfg2.N) (acc : Vec Ideal S2560x128 .f32) (j : S2560x128.Idx) :
    k2_pay2 (F := Ideal) (grid2.coords t) (iblk2 V c 0 t) acc (iblk2 V c 1 t) j = acc j + add2 V c t.val j := by
  obtain ⟨r, h, rfl⟩ : ∃ (r : Fin 2560) (h : Fin 128), j = ix2 r h := ⟨j 0, j 1, eq_ix2 j⟩
  obtain ⟨f0, f1, g0, g1, -, -, fc⟩ := idxFacts2 t
  have hN : t.val < 2500 := lt_of_lt_of_eq t.isLt N_2
  rw [pay2_apply2, fc]
  refine congrArg (acc (ix2 r h) + ·) (Finset.sum_congr rfl fun n _ => ?_)
  have := n.isLt
  have := r.isLt
  exact congrArg₂ (fun (x : S640000x1.Idx) (y : S20480x128.Idx) => if (V c main_v18 : S640000x1.Idx → BitVec 32) x = BitVec.ofNat 32 (2048 * (t.val % 10) + n.val) then (V c main_v17 : S20480x128.Idx → EReal) y else (0 : EReal))
    (Shape.idx_ext₂ (by show win2_0.index t 0 * 2560 + 1 * r.val = (2560 * (t.val / 10) + r.val) % 640000; omega) (by show win2_0.index t 1 * 1 + 1 * 0 = 0; omega))
    (Shape.idx_ext₂ (by show win2_1.index t 0 * 2048 + 1 * n.val = (2048 * (t.val % 10) + n.val) % 20480; omega) (by show win2_1.index t 1 * 128 + 1 * h.val = h.val; omega))
/-- Where the inner axis ends the accumulator is the gather's entry: the ten tiles are all the table's rows. -/
theorem acc_last2 (c : Dev nD) (t : Fin cfg2.N) (hl : t.val % 10 = 9) (r : Fin 2560) (h : Fin 128)
    (e : Fin 640000) (he : e.val = 2560 * (t.val / 10) + r.val) :
    acc2 V c t.val t.isLt (ix2 r h) = gatherArr (E := 640000) (Np := 20480) (H := 128) (V c main_v18) (V c main_v17) (ix2 e h) := by
  refine (acc_run_apply (fun n hn => acc2 V c n hn) 10 (by decide) (fun _ => 0) (add2 V c)
    (fun n hn hm i => (congrFun (acc2_first V c ⟨n, hn⟩ hm) i).trans ((step_apply2 V c ⟨n, hn⟩ _ i).trans (by rw [pay1_apply2])))
    (fun n hn hm i => (congrFun (acc2_next V c ⟨n + 1, hn⟩ hm) i).trans (step_apply2 V c ⟨n + 1, hn⟩ _ i)) t.val t.isLt (ix2 r h)).trans ?_
  rw [zero_add, hl]
  unfold gatherArr gatherAt
  refine (Finset.sum_congr rfl fun s hs => ?_).trans ((sum_tiles 10 2048 (edge2 V c (2560 * (t.val / 10) + r.val) h)).symm.trans
    (Finset.sum_congr rfl fun N _ => ?_))
  · have := Finset.mem_range.mp hs
    unfold add2
    rw [show (10 * (t.val / 10) + s) / 10 = t.val / 10 by omega, show (10 * (t.val / 10) + s) % 10 = s by omega]
  · have := e.isLt
    exact congrArg₂ (fun (x : Fin 640000) (y : Fin 20480) => if (V c main_v18 : S640000x1.Idx → BitVec 32) (ix2 x (0 : Fin 1)) = BitVec.ofNat 32 N.val then (V c main_v17 : S20480x128.Idx → EReal) (ix2 y h) else (0 : EReal))
      (Fin.ext (show (2560 * (t.val / 10) + r.val) % 640000 = e.val by omega)) (Fin.ext (Nat.mod_eq_of_lt N.isLt))
theorem flushed_eq2 (c : Dev nD) (t : Fin cfg2.N) (hf : (cfg2.win 2).flush t = true) :
    (dat2 (F := Ideal) V c).flushed 2 t = ((cfg2.win 2).blk t).view.read (Elt Ideal)
      (gatherArr (E := 640000) (Np := 20480) (H := 128) (V c main_v18) (V c main_v17)) := by
  have hN : t.val < 2500 := lt_of_lt_of_eq t.isLt (show cfg2.N = 2500 from N_2)
  obtain ⟨-, -, -, -, f0, f1, -⟩ := idxFacts2 t
  show (cfg2.win 2).cut (grid2.coords t) ((dat2 (F := Ideal) V c).after 2 t) = _
  rw [after2_2]
  funext j
  obtain ⟨r, h, rfl⟩ : ∃ (r : Fin 2560) (h : Fin 128), j = ix2 r h := ⟨j 0, j 1, eq_ix2 j⟩
  show acc2 V c t.val t.isLt (ix2 r h) = _
  have he : 2560 * (t.val / 10) + r.val < 640000 := by have := r.isLt; omega
  refine (acc_last2 V c t ((flush2_2 t).mp hf) r h ⟨_, he⟩ rfl).trans ?_
  generalize gatherArr (E := 640000) (Np := 20480) (H := 128) (V c main_v18) (V c main_v17) = G
  exact congrArg G (Shape.idx_ext₂ (by show 2560 * (t.val / 10) + r.val = win2_2.index t 0 * 2560 + 1 * r.val; omega) (by show h.val = win2_2.index t 1 * 128 + 1 * h.val; omega))
theorem cover2 (i : S640000x128.Idx) : ∃ t : Fin cfg2.N, (cfg2.win 2).flush t = true ∧ i ∈ ((cfg2.win 2).blk t).view.set := by
  have hi0 : (i 0).val < 640000 := (i 0).isLt
  have hi1 : (i 1).val < 128 := (i 1).isLt
  have hN : cfg2.N = 2500 := N_2
  obtain ⟨t, ht⟩ : ∃ t : Fin cfg2.N, t.val = 10 * ((i 0).val / 2560) + 9 := ⟨⟨_, by rw [hN]; omega⟩, rfl⟩
  obtain ⟨-, -, -, -, f0, f1, -⟩ := idxFacts2 t
  refine ⟨t, (flush2_2 t).mpr (by omega), ?_⟩
  show i ∈ ((View.whole main_v19).slice (win2_2.rect t)).set
  rw [View.set_slice_whole, Rect.mem_set_unit]
  exact Fin.forall_fin_two.mpr ⟨by show win2_2.index t 0 * 2560 ≤ (i 0).val ∧ (i 0).val < win2_2.index t 0 * 2560 + 2560; omega,
    by show win2_2.index t 1 * 128 ≤ (i 1).val ∧ (i 1).val < win2_2.index t 1 * 128 + 128; omega⟩
theorem final2 (c : Dev nD) : (dat2 (F := Ideal) V c).arrAt 2 cfg2.N
    = Cert.Spec.gatherArr (E := 640000) (Np := 20480) (H := 128) (V c main_v18) (V c main_v17) :=
  (dat2 (F := Ideal) V c).arrAt_eq_of_cover 2 _ (flushed_eq2 V c) cover2
end Cert.KernelIdeal.Hand
end
-- ==== Proof.KI.V3.lean ====
import proofs.«427224_j39238821216992_2_alg».proof.Proof.KI.D3
import proofs.«427224_j39238821216992_2_alg».proof.Proof.KI.V1
set_option maxRecDepth 16384
noncomputable section
namespace Cert.KernelIdeal.Hand
open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open Cert.Spec Idealize.ShloMosaic.ValueIdx
open scoped BigOperators
variable (V : (c : Dev nD) → (b : Ref sig .tc) → Buf (Elt Ideal) ((c : Thread nD τ).loc b))
theorem zero3_apply (j : S2048x128.Idx) : k3_pay1 (F := Ideal) j = 0 := by
  unfold k3_pay1
  simp only [shapeCast_self]
  exact Ideal.ofBits_zero_f32
theorem pay3_apply (i : grid3.Coords) (x4 : Vec Ideal S1x2560 .i32) (x15 : Vec Ideal S2048x128 .f32) (x16 : Vec Ideal S2560x128 .bf16) (r : Fin 2048) (h : Fin 128) :
    k3_pay2 (F := Ideal) i x4 x15 x16 (ix2 r h)
      = x15 (ix2 r h) + ∑ k : Fin 2560, if x4 (ix2 (0 : Fin 1) k) = BitVec.ofNat 32 (2048 * (i 0).val + r.val) then x16 (ix2 k h) else 0 := by
  unfold k3_pay2
  simp only [shapeCast_self]
  refine (addf_apply _ _ _).trans (congrArg (x15 (ix2 r h) + ·) ((plain_mm_apply (φ₂ := .bf16) _ x16 r h).trans (Finset.sum_congr rfl fun k _ => ?_)))
  rw [eqMask_apply, iota_single_apply, broadcastTo_1b_ab_apply]
  exact (boole_mul _ _).trans (if_congr (word_sub_eq_iff _ _ _) rfl rfl)
abbrev idx3arr (c : Dev nD) : S1x640000.Idx → BitVec 32 := V c main_v20
abbrev feat3arr (c : Dev nD) : S640000x128.Idx → EReal := V c main_v19
theorem idx3_facts : ∀ t : Fin cfg3.N, win3_0.index t (0 : Fin 2) = 0 ∧ win3_0.index t (1 : Fin 2) = t.val % 250
    ∧ win3_1.index t (0 : Fin 2) = t.val % 250 ∧ win3_1.index t (1 : Fin 2) = 0
    ∧ win3_2.index t (0 : Fin 2) = t.val / 250 ∧ win3_2.index t (1 : Fin 2) = 0
    ∧ (grid3.coords t (0 : Fin 2)).val = t.val / 250 :=
  (by decide +kernel : ∀ t : Fin grid3.N, _)
def edge3 (c : Dev nD) (n : ℕ) (h : Fin 128) (e : ℕ) : EReal :=
  if idx3arr V c (ix2 (0 : Fin 1) ⟨e % 640000, Nat.mod_lt _ (by decide)⟩) = BitVec.ofNat 32 n
    then feat3arr V c (ix2 ⟨e % 640000, Nat.mod_lt _ (by decide)⟩ h) else 0
/-- Point `n`'s addend at an entry of its tile: the named rows among the point's 2560 edges. -/
def add3 (c : Dev nD) (n : ℕ) (j : S2048x128.Idx) : EReal :=
  ∑ k : Fin 2560, edge3 V c (2048 * (n / 250) + (j 0).val) (j 1) (2560 * (n % 250) + k.val)
/-- One point's step, its blocks read off the arrays where the index maps put them. -/
theorem step3_apply (c : Dev nD) (t : Fin cfg3.N) (acc : Vec Ideal S2048x128 .f32) (j : S2048x128.Idx) :
    k3_pay2 (F := Ideal) (grid3.coords t) (iblk3 V c 0 t) acc (iblk3 V c 1 t) j = acc j + add3 V c t.val j := by
  obtain ⟨r, h, rfl⟩ : ∃ (r : Fin 2048) (h : Fin 128), j = ix2 r h := ⟨j 0, j 1, eq_ix2 j⟩
  obtain ⟨e0, e1, e2, e3, -, -, ec⟩ := idx3_facts t
  rw [pay3_apply, ec]
  refine congrArg (acc (ix2 r h) + ·) (Finset.sum_congr rfl fun k _ => ?_)
  have := k.isLt
  exact congrArg₂ (fun (x : S1x640000.Idx) (y : S640000x128.Idx) => if idx3arr V c x = BitVec.ofNat 32 (2048 * (t.val / 250) + r.val) then feat3arr V c y else (0 : EReal))
    (Shape.idx_ext₂ (by show win3_0.index t 0 * 1 + 1 * 0 = 0; omega) (by show win3_0.index t 1 * 2560 + 1 * k.val = (2560 * (t.val % 250) + k.val) % 640000; omega))
    (Shape.idx_ext₂ (by show win3_1.index t 0 * 2560 + 1 * k.val = (2560 * (t.val % 250) + k.val) % 640000; omega) (by show win3_1.index t 1 * 128 + 1 * h.val = h.val; omega))
theorem block3_val (c : Dev nD) (t : Fin cfg3.N) (h249 : t.val % 250 = 249) (r : Fin 2048) (h : Fin 128) (n : Fin 20480)
    (hn : n.val = 2048 * (t.val / 250) + r.val) :
    acc3 V c t.val t.isLt (ix2 r h)
      = scatterArr (E := 640000) (Np := 20480) (H := 128) (idx3arr V c) (feat3arr V c) (ix2 n h) := by
  refine (acc_run_apply (fun n hn => acc3 V c n hn) 250 (by decide) (fun _ => 0) (add3 V c)
    (fun n hn hm i => (congrFun (acc3_first V c ⟨n, hn⟩ hm) i).trans ((step3_apply V c ⟨n, hn⟩ _ i).trans (by rw [zero3_apply])))
    (fun n hn hm i => (congrFun (acc3_next V c ⟨n + 1, hn⟩ hm) i).trans (step3_apply V c ⟨n + 1, hn⟩ _ i)) t.val t.isLt (ix2 r h)).trans ?_
  rw [zero_add, h249]
  unfold scatterArr scatterAt
  refine (Finset.sum_congr rfl fun s hs => ?_).trans ((sum_tiles 250 2560 (edge3 V c n.val h)).symm.trans
    (Finset.sum_congr rfl fun e _ => ?_))
  · have := Finset.mem_range.mp hs
    unfold add3
    rw [show (250 * (t.val / 250) + s) / 250 = t.val / 250 by omega, show (250 * (t.val / 250) + s) % 250 = s by omega, hn]
  · exact congrArg (fun x : Fin 640000 => if idx3arr V c (ix2 (0 : Fin 1) x) = BitVec.ofNat 32 n.val then feat3arr V c (ix2 x h) else (0 : EReal))
      (Fin.ext (Nat.mod_eq_of_lt e.isLt))
/-- What a writing point writes back is its block of the scatter-add of the whole arrays. -/
theorem flushed3_eq (c : Dev nD) (t : Fin cfg3.N) (hf : (cfg3.win 2).flush t = true) :
    (dat3 (F := Ideal) V c).flushed 2 t
      = ((cfg3.win 2).blk t).view.read (Elt Ideal) (scatterArr (E := 640000) (Np := 20480) (H := 128) (idx3arr V c) (feat3arr V c)) := by
  have hN : t.val < 2500 := lt_of_lt_of_eq t.isLt N_3
  obtain ⟨-, -, -, -, e4, e5, -⟩ := idx3_facts t
  show (cfg3.win 2).cut (grid3.coords t) ((dat3 (F := Ideal) V c).after 2 t) = _
  rw [after3_2]
  funext j
  obtain ⟨r, h, rfl⟩ : ∃ (r : Fin 2048) (h : Fin 128), j = ix2 r h := ⟨j 0, j 1, eq_ix2 j⟩
  have hn : 2048 * (t.val / 250) + r.val < 20480 := by have := r.isLt; omega
  refine (block3_val V c t ((flush3_2 t).mp hf) r h ⟨_, hn⟩ rfl).trans ?_
  generalize scatterArr (E := 640000) (Np := 20480) (H := 128) (idx3arr V c) (feat3arr V c) = G
  exact congrArg G (Shape.idx_ext₂ (by show 2048 * (t.val / 250) + r.val = win3_2.index t 0 * 2048 + 1 * r.val; omega) (by show h.val = win3_2.index t 1 * 128 + 1 * h.val; omega))
theorem cover3 (i : S20480x128.Idx) : ∃ t : Fin cfg3.N, (cfg3.win 2).flush t = true ∧ i ∈ ((cfg3.win 2).blk t).view.set := by
  have hN : cfg3.N = 2500 := N_3
  have h0 : (i 0).val < 20480 := (i 0).isLt
  have h1 : (i 1).val < 128 := (i 1).isLt
  obtain ⟨t, htv⟩ : ∃ t : Fin cfg3.N, t.val = 250 * ((i 0).val / 2048) + 249 := ⟨⟨_, by rw [hN]; omega⟩, rfl⟩
  obtain ⟨-, -, -, -, e4, e5, -⟩ := idx3_facts t
  refine ⟨t, (flush3_2 t).mpr (by omega), ?_⟩
  show i ∈ ((View.whole main_v21).slice (win3_2.rect t)).set
  rw [View.set_slice_whole, Rect.mem_set_unit]
  exact Fin.forall_fin_two.mpr ⟨by show win3_2.index t 0 * 2048 ≤ (i 0).val ∧ (i 0).val < win3_2.index t 0 * 2048 + 2048; omega,
    by show win3_2.index t 1 * 128 ≤ (i 1).val ∧ (i 1).val < win3_2.index t 1 * 128 + 128; omega⟩
theorem final3 (c : Dev nD) : (dat3 (F := Ideal) V c).arrAt 2 cfg3.N
    = Cert.Spec.scatterArr (E := 640000) (Np := 20480) (H := 128) (V c main_v20) (V c main_v19) :=
  (dat3 (F := Ideal) V c).arrAt_eq_of_cover 2 _ (fun t hf => flushed3_eq V c t hf) cover3
end Cert.KernelIdeal.Hand
end
-- ==== Proof.KI.V4.lean ====
import proofs.«427224_j39238821216992_2_alg».proof.Proof.KI.D4
import proofs.«427224_j39238821216992_2_alg».proof.Proof.KI.V1
set_option maxRecDepth 16384
noncomputable section
namespace Cert.KernelIdeal.Hand
open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen
open Cert.Spec
open scoped BigOperators
variable (V : (c : Dev nD) → (b : Ref sig .tc) → Buf (Elt Ideal) ((c : Thread nD τ).loc b))
theorem pay1_apply4 (j : S2560x128.Idx) : (k4_pay1 (F := Ideal)) j = 0 := by
  unfold k4_pay1
  simp only [shapeCast_self]
  exact Ideal.ofBits_zero_f32
/-- The step at an entry adds the rows of the table tile that the entry's index word names. -/
theorem pay4_apply2 (i : grid4.Coords) (xa : Vec Ideal S2560x1 .i32) (xs : Vec Ideal S2560x128 .f32) (xb : Vec Ideal S2048x128 .f32)
    (r : Fin 2560) (h : Fin 128) :
    k4_pay2 (F := Ideal) i xa xs xb (ix2 r h)
      = xs (ix2 r h) + ∑ n : Fin 2048, (if xa (ix2 r (0 : Fin 1)) = BitVec.ofNat 32 (2048 * (i 1).val + n.val) then xb (ix2 n h) else 0) := by
  unfold k4_pay2
  simp only [shapeCast_self]
  refine (addf_apply _ _ _).trans (congrArg (xs (ix2 r h) + ·) ((plain_mm_apply _ _ r h).trans (Finset.sum_congr rfl fun n _ => ?_)))
  rw [eqMask_apply, iota_single_apply, broadcastTo_apply _ _ _ (ix2 r (0 : Fin 1)) (fun a => by match a with | ⟨0, _⟩ => rfl | ⟨1, _⟩ => rfl)]
  exact (boole_mul _ _).trans (if_congr (word_sub_eq_iff _ _ _) rfl rfl)
theorem idxFacts4 : ∀ t : Fin cfg4.N,
    win4_0.index t (0 : Fin 2) = t.val / 10 ∧ win4_0.index t (1 : Fin 2) = 0
    ∧ win4_1.index t (0 : Fin 2) = t.val % 10 ∧ win4_1.index t (1 : Fin 2) = 0
    ∧ win4_2.index t (0 : Fin 2) = t.val / 10 ∧ win4_2.index t (1 : Fin 2) = 0
    ∧ ((grid4.coords t) 1).val = t.val % 10 :=
  (by decide +kernel : ∀ t : Fin grid4.N, _)
/-- Row `N` of the table where entry `e`'s index word names it, nothing elsewhere. -/
def edge4 (c : Dev nD) (e : ℕ) (h : Fin 128) (N : ℕ) : EReal :=
  if (V c main_v35 : S640000x1.Idx → BitVec 32) (ix2 ⟨e % 640000, Nat.mod_lt _ (by decide)⟩ (0 : Fin 1)) = BitVec.ofNat 32 N
    then (V c main_v34 : S20480x128.Idx → EReal) (ix2 ⟨N % 20480, Nat.mod_lt _ (by decide)⟩ h) else 0
/-- Point `n`'s addend at an entry of its block: the named rows of the point's table tile. -/
def add4 (c : Dev nD) (n : ℕ) (j : S2560x128.Idx) : EReal :=
  ∑ m : Fin 2048, edge4 V c (2560 * (n / 10) + (j 0).val) (j 1) (2048 * (n % 10) + m.val)
/-- One point's step, its blocks read off the arrays where the index maps put them. -/
theorem step_apply4 (c : Dev nD) (t : Fin cfg4.N) (acc : Vec Ideal S2560x128 .f32) (j : S2560x128.Idx) :
    k4_pay2 (F := Ideal) (grid4.coords t) (iblk4 V c 0 t) acc (iblk4 V c 1 t) j = acc j + add4 V c t.val j := by
  obtain ⟨r, h, rfl⟩ : ∃ (r : Fin 2560) (h : Fin 128), j = ix2 r h := ⟨j 0, j 1, eq_ix2 j⟩
  obtain ⟨f0, f1, g0, g1, -, -, fc⟩ := idxFacts4 t
  have hN : t.val < 2500 := lt_of_lt_of_eq t.isLt N_4
  rw [pay4_apply2, fc]
  refine congrArg (acc (ix2 r h) + ·) (Finset.sum_congr rfl fun n _ => ?_)
  have := n.isLt
  have := r.isLt
  exact congrArg₂ (fun (x : S640000x1.Idx) (y : S20480x128.Idx) => if (V c main_v35 : S640000x1.Idx → BitVec 32) x = BitVec.ofNat 32 (2048 * (t.val % 10) + n.val) then (V c main_v34 : S20480x128.Idx → EReal) y else (0 : EReal))
    (Shape.idx_ext₂ (by show win4_0.index t 0 * 2560 + 1 * r.val = (2560 * (t.val / 10) + r.val) % 640000; omega) (by show win4_0.index t 1 * 1 + 1 * 0 = 0; omega))
    (Shape.idx_ext₂ (by show win4_1.index t 0 * 2048 + 1 * n.val = (2048 * (t.val % 10) + n.val) % 20480; omega) (by show win4_1.index t 1 * 128 + 1 * h.val = h.val; omega))
/-- Where the inner axis ends the accumulator is the gather's entry: the ten tiles are all the table's rows. -/
theorem acc_last4 (c : Dev nD) (t : Fin cfg4.N) (hl : t.val % 10 = 9) (r : Fin 2560) (h : Fin 128)
    (e : Fin 640000) (he : e.val = 2560 * (t.val / 10) + r.val) :
    acc4 V c t.val t.isLt (ix2 r h) = gatherArr (E := 640000) (Np := 20480) (H := 128) (V c main_v35) (V c main_v34) (ix2 e h) := by
  refine (acc_run_apply (fun n hn => acc4 V c n hn) 10 (by decide) (fun _ => 0) (add4 V c)
    (fun n hn hm i => (congrFun (acc4_first V c ⟨n, hn⟩ hm) i).trans ((step_apply4 V c ⟨n, hn⟩ _ i).trans (by rw [pay1_apply4])))
    (fun n hn hm i => (congrFun (acc4_next V c ⟨n + 1, hn⟩ hm) i).trans (step_apply4 V c ⟨n + 1, hn⟩ _ i)) t.val t.isLt (ix2 r h)).trans ?_
  rw [zero_add, hl]
  unfold gatherArr gatherAt
  refine (Finset.sum_congr rfl fun s hs => ?_).trans ((sum_tiles 10 2048 (edge4 V c (2560 * (t.val / 10) + r.val) h)).symm.trans
    (Finset.sum_congr rfl fun N _ => ?_))
  · have := Finset.mem_range.mp hs
    unfold add4
    rw [show (10 * (t.val / 10) + s) / 10 = t.val / 10 by omega, show (10 * (t.val / 10) + s) % 10 = s by omega]
  · have := e.isLt
    exact congrArg₂ (fun (x : Fin 640000) (y : Fin 20480) => if (V c main_v35 : S640000x1.Idx → BitVec 32) (ix2 x (0 : Fin 1)) = BitVec.ofNat 32 N.val then (V c main_v34 : S20480x128.Idx → EReal) (ix2 y h) else (0 : EReal))
      (Fin.ext (show (2560 * (t.val / 10) + r.val) % 640000 = e.val by omega)) (Fin.ext (Nat.mod_eq_of_lt N.isLt))
theorem flushed_eq4 (c : Dev nD) (t : Fin cfg4.N) (hf : (cfg4.win 2).flush t = true) :
    (dat4 (F := Ideal) V c).flushed 2 t = ((cfg4.win 2).blk t).view.read (Elt Ideal)
      (gatherArr (E := 640000) (Np := 20480) (H := 128) (V c main_v35) (V c main_v34)) := by
  have hN : t.val < 2500 := lt_of_lt_of_eq t.isLt (show cfg4.N = 2500 from N_4)
  obtain ⟨-, -, -, -, f0, f1, -⟩ := idxFacts4 t
  show (cfg4.win 2).cut (grid4.coords t) ((dat4 (F := Ideal) V c).after 2 t) = _
  rw [after4_2]
  funext j
  obtain ⟨r, h, rfl⟩ : ∃ (r : Fin 2560) (h : Fin 128), j = ix2 r h := ⟨j 0, j 1, eq_ix2 j⟩
  show acc4 V c t.val t.isLt (ix2 r h) = _
  have he : 2560 * (t.val / 10) + r.val < 640000 := by have := r.isLt; omega
  refine (acc_last4 V c t ((flush4_2 t).mp hf) r h ⟨_, he⟩ rfl).trans ?_
  generalize gatherArr (E := 640000) (Np := 20480) (H := 128) (V c main_v35) (V c main_v34) = G
  exact congrArg G (Shape.idx_ext₂ (by show 2560 * (t.val / 10) + r.val = win4_2.index t 0 * 2560 + 1 * r.val; omega) (by show h.val = win4_2.index t 1 * 128 + 1 * h.val; omega))
theorem cover4 (i : S640000x128.Idx) : ∃ t : Fin cfg4.N, (cfg4.win 2).flush t = true ∧ i ∈ ((cfg4.win 2).blk t).view.set := by
  have hi0 : (i 0).val < 640000 := (i 0).isLt
  have hi1 : (i 1).val < 128 := (i 1).isLt
  have hN : cfg4.N = 2500 := N_4
  obtain ⟨t, ht⟩ : ∃ t : Fin cfg4.N, t.val = 10 * ((i 0).val / 2560) + 9 := ⟨⟨_, by rw [hN]; omega⟩, rfl⟩
  obtain ⟨-, -, -, -, f0, f1, -⟩ := idxFacts4 t
  refine ⟨t, (flush4_2 t).mpr (by omega), ?_⟩
  show i ∈ ((View.whole main_v36).slice (win4_2.rect t)).set
  rw [View.set_slice_whole, Rect.mem_set_unit]
  exact Fin.forall_fin_two.mpr ⟨by show win4_2.index t 0 * 2560 ≤ (i 0).val ∧ (i 0).val < win4_2.index t 0 * 2560 + 2560; omega,
    by show win4_2.index t 1 * 128 ≤ (i 1).val ∧ (i 1).val < win4_2.index t 1 * 128 + 128; omega⟩
theorem final4 (c : Dev nD) : (dat4 (F := Ideal) V c).arrAt 2 cfg4.N
    = Cert.Spec.gatherArr (E := 640000) (Np := 20480) (H := 128) (V c main_v35) (V c main_v34) :=
  (dat4 (F := Ideal) V c).arrAt_eq_of_cover 2 _ (flushed_eq4 V c) cover4
end Cert.KernelIdeal.Hand
end
-- ==== Proof.KI.V5.lean ====
import proofs.«427224_j39238821216992_2_alg».proof.Proof.KI.D5
import proofs.«427224_j39238821216992_2_alg».proof.Proof.KI.V1
set_option maxRecDepth 16384
noncomputable section
namespace Cert.KernelIdeal.Hand
open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open Cert.Spec Idealize.ShloMosaic.ValueIdx
open scoped BigOperators
variable (V : (c : Dev nD) → (b : Ref sig .tc) → Buf (Elt Ideal) ((c : Thread nD τ).loc b))
theorem zero5_apply (j : S2048x128.Idx) : k5_pay1 (F := Ideal) j = 0 := by
  unfold k5_pay1
  simp only [shapeCast_self]
  exact Ideal.ofBits_zero_f32
theorem pay5_apply (i : grid5.Coords) (x4 : Vec Ideal S1x2560 .i32) (x15 : Vec Ideal S2048x128 .f32) (x16 : Vec Ideal S2560x128 .bf16) (r : Fin 2048) (h : Fin 128) :
    k5_pay2 (F := Ideal) i x4 x15 x16 (ix2 r h)
      = x15 (ix2 r h) + ∑ k : Fin 2560, if x4 (ix2 (0 : Fin 1) k) = BitVec.ofNat 32 (2048 * (i 0).val + r.val) then x16 (ix2 k h) else 0 := by
  unfold k5_pay2
  simp only [shapeCast_self]
  refine (addf_apply _ _ _).trans (congrArg (x15 (ix2 r h) + ·) ((plain_mm_apply (φ₂ := .bf16) _ x16 r h).trans (Finset.sum_congr rfl fun k _ => ?_)))
  rw [eqMask_apply, iota_single_apply, broadcastTo_1b_ab_apply]
  exact (boole_mul _ _).trans (if_congr (word_sub_eq_iff _ _ _) rfl rfl)
abbrev idx5arr (c : Dev nD) : S1x640000.Idx → BitVec 32 := V c main_v37
abbrev feat5arr (c : Dev nD) : S640000x128.Idx → EReal := V c main_v36
theorem idx5_facts : ∀ t : Fin cfg5.N, win5_0.index t (0 : Fin 2) = 0 ∧ win5_0.index t (1 : Fin 2) = t.val % 250
    ∧ win5_1.index t (0 : Fin 2) = t.val % 250 ∧ win5_1.index t (1 : Fin 2) = 0
    ∧ win5_2.index t (0 : Fin 2) = t.val / 250 ∧ win5_2.index t (1 : Fin 2) = 0
    ∧ (grid5.coords t (0 : Fin 2)).val = t.val / 250 :=
  (by decide +kernel : ∀ t : Fin grid5.N, _)
def edge5 (c : Dev nD) (n : ℕ) (h : Fin 128) (e : ℕ) : EReal :=
  if idx5arr V c (ix2 (0 : Fin 1) ⟨e % 640000, Nat.mod_lt _ (by decide)⟩) = BitVec.ofNat 32 n
    then feat5arr V c (ix2 ⟨e % 640000, Nat.mod_lt _ (by decide)⟩ h) else 0
/-- Point `n`'s addend at an entry of its tile: the named rows among the point's 2560 edges. -/
def add5 (c : Dev nD) (n : ℕ) (j : S2048x128.Idx) : EReal :=
  ∑ k : Fin 2560, edge5 V c (2048 * (n / 250) + (j 0).val) (j 1) (2560 * (n % 250) + k.val)
/-- One point's step, its blocks read off the arrays where the index maps put them. -/
theorem step5_apply (c : Dev nD) (t : Fin cfg5.N) (acc : Vec Ideal S2048x128 .f32) (j : S2048x128.Idx) :
    k5_pay2 (F := Ideal) (grid5.coords t) (iblk5 V c 0 t) acc (iblk5 V c 1 t) j = acc j + add5 V c t.val j := by
  obtain ⟨r, h, rfl⟩ : ∃ (r : Fin 2048) (h : Fin 128), j = ix2 r h := ⟨j 0, j 1, eq_ix2 j⟩
  obtain ⟨e0, e1, e2, e3, -, -, ec⟩ := idx5_facts t
  rw [pay5_apply, ec]
  refine congrArg (acc (ix2 r h) + ·) (Finset.sum_congr rfl fun k _ => ?_)
  have := k.isLt
  exact congrArg₂ (fun (x : S1x640000.Idx) (y : S640000x128.Idx) => if idx5arr V c x = BitVec.ofNat 32 (2048 * (t.val / 250) + r.val) then feat5arr V c y else (0 : EReal))
    (Shape.idx_ext₂ (by show win5_0.index t 0 * 1 + 1 * 0 = 0; omega) (by show win5_0.index t 1 * 2560 + 1 * k.val = (2560 * (t.val % 250) + k.val) % 640000; omega))
    (Shape.idx_ext₂ (by show win5_1.index t 0 * 2560 + 1 * k.val = (2560 * (t.val % 250) + k.val) % 640000; omega) (by show win5_1.index t 1 * 128 + 1 * h.val = h.val; omega))
theorem block5_val (c : Dev nD) (t : Fin cfg5.N) (h249 : t.val % 250 = 249) (r : Fin 2048) (h : Fin 128) (n : Fin 20480)
    (hn : n.val = 2048 * (t.val / 250) + r.val) :
    acc5 V c t.val t.isLt (ix2 r h)
      = scatterArr (E := 640000) (Np := 20480) (H := 128) (idx5arr V c) (feat5arr V c) (ix2 n h) := by
  refine (acc_run_apply (fun n hn => acc5 V c n hn) 250 (by decide) (fun _ => 0) (add5 V c)
    (fun n hn hm i => (congrFun (acc5_first V c ⟨n, hn⟩ hm) i).trans ((step5_apply V c ⟨n, hn⟩ _ i).trans (by rw [zero5_apply])))
    (fun n hn hm i => (congrFun (acc5_next V c ⟨n + 1, hn⟩ hm) i).trans (step5_apply V c ⟨n + 1, hn⟩ _ i)) t.val t.isLt (ix2 r h)).trans ?_
  rw [zero_add, h249]
  unfold scatterArr scatterAt
  refine (Finset.sum_congr rfl fun s hs => ?_).trans ((sum_tiles 250 2560 (edge5 V c n.val h)).symm.trans
    (Finset.sum_congr rfl fun e _ => ?_))
  · have := Finset.mem_range.mp hs
    unfold add5
    rw [show (250 * (t.val / 250) + s) / 250 = t.val / 250 by omega, show (250 * (t.val / 250) + s) % 250 = s by omega, hn]
  · exact congrArg (fun x : Fin 640000 => if idx5arr V c (ix2 (0 : Fin 1) x) = BitVec.ofNat 32 n.val then feat5arr V c (ix2 x h) else (0 : EReal))
      (Fin.ext (Nat.mod_eq_of_lt e.isLt))
/-- What a writing point writes back is its block of the scatter-add of the whole arrays. -/
theorem flushed5_eq (c : Dev nD) (t : Fin cfg5.N) (hf : (cfg5.win 2).flush t = true) :
    (dat5 (F := Ideal) V c).flushed 2 t
      = ((cfg5.win 2).blk t).view.read (Elt Ideal) (scatterArr (E := 640000) (Np := 20480) (H := 128) (idx5arr V c) (feat5arr V c)) := by
  have hN : t.val < 2500 := lt_of_lt_of_eq t.isLt N_5
  obtain ⟨-, -, -, -, e4, e5, -⟩ := idx5_facts t
  show (cfg5.win 2).cut (grid5.coords t) ((dat5 (F := Ideal) V c).after 2 t) = _
  rw [after5_2]
  funext j
  obtain ⟨r, h, rfl⟩ : ∃ (r : Fin 2048) (h : Fin 128), j = ix2 r h := ⟨j 0, j 1, eq_ix2 j⟩
  have hn : 2048 * (t.val / 250) + r.val < 20480 := by have := r.isLt; omega
  refine (block5_val V c t ((flush5_2 t).mp hf) r h ⟨_, hn⟩ rfl).trans ?_
  generalize scatterArr (E := 640000) (Np := 20480) (H := 128) (idx5arr V c) (feat5arr V c) = G
  exact congrArg G (Shape.idx_ext₂ (by show 2048 * (t.val / 250) + r.val = win5_2.index t 0 * 2048 + 1 * r.val; omega) (by show h.val = win5_2.index t 1 * 128 + 1 * h.val; omega))
theorem cover5 (i : S20480x128.Idx) : ∃ t : Fin cfg5.N, (cfg5.win 2).flush t = true ∧ i ∈ ((cfg5.win 2).blk t).view.set := by
  have hN : cfg5.N = 2500 := N_5
  have h0 : (i 0).val < 20480 := (i 0).isLt
  have h1 : (i 1).val < 128 := (i 1).isLt
  obtain ⟨t, htv⟩ : ∃ t : Fin cfg5.N, t.val = 250 * ((i 0).val / 2048) + 249 := ⟨⟨_, by rw [hN]; omega⟩, rfl⟩
  obtain ⟨-, -, -, -, e4, e5, -⟩ := idx5_facts t
  refine ⟨t, (flush5_2 t).mpr (by omega), ?_⟩
  show i ∈ ((View.whole main_v38).slice (win5_2.rect t)).set
  rw [View.set_slice_whole, Rect.mem_set_unit]
  exact Fin.forall_fin_two.mpr ⟨by show win5_2.index t 0 * 2048 ≤ (i 0).val ∧ (i 0).val < win5_2.index t 0 * 2048 + 2048; omega,
    by show win5_2.index t 1 * 128 ≤ (i 1).val ∧ (i 1).val < win5_2.index t 1 * 128 + 128; omega⟩
theorem final5 (c : Dev nD) : (dat5 (F := Ideal) V c).arrAt 2 cfg5.N
    = Cert.Spec.scatterArr (E := 640000) (Np := 20480) (H := 128) (V c main_v37) (V c main_v36) :=
  (dat5 (F := Ideal) V c).arrAt_eq_of_cover 2 _ (fun t hf => flushed5_eq V c t hf) cover5
end Cert.KernelIdeal.Hand
end
-- ==== Proof.KI.V6.lean ====
import proofs.«427224_j39238821216992_2_alg».proof.Proof.KI.D6
import proofs.«427224_j39238821216992_2_alg».proof.Proof.KI.V1
set_option maxRecDepth 16384
noncomputable section
namespace Cert.KernelIdeal.Hand
open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen
open scoped BigOperators
theorem mm6_apply (a : FVec Ideal S2000x128 .bf16) (w : FVec Ideal S128x128 .bf16) (p : Fin 2000) (q : Fin 128) :
    matmul dot_S2000x128_S128x128_S2000x128_1_0_0_1_n_n none a w (constant (F := Ideal) S2000x128 .f32 0x00000000#32) (ix2 p q)
      = ∑ k : Fin 128, a (ix2 p k) * w (ix2 k q) :=
  plain_mm_apply a w p q
theorem pay6_apply (x0 x1 : Vec Ideal S2000x128 .f32) (w0 w1 : Vec Ideal S128x128 .f32) (b : Vec Ideal S1x128 .f32) (p : Fin 2000) (q : Fin 128) :
    k6_pay1 (F := Ideal) x0 w0 x1 w1 b (ix2 p q)
      = max ((Cert.Spec.dotAt (fun k : Fin 128 => x0 (ix2 p k)) (fun k : Fin 128 => w0 (ix2 k q))
          + Cert.Spec.dotAt (fun k : Fin 128 => x1 (ix2 p k)) (fun k : Fin 128 => w1 (ix2 k q))) + b (ix2 (0 : Fin 1) q)) 0 := by
  unfold k6_pay1
  rw [maximumf_apply, addf_apply, addf_apply, broadcast_apply, mm6_apply, mm6_apply,
    broadcastTo_1b_ab_apply (a := 2000) (b := 128) _ _ p q]
  simp only [shapeCast_self, truncf_apply]
  rw [show (FloatOps.ofBits FTy.f32 0#32 : Ideal FTy.f32) = 0 from Ideal.ofBits_zero_f32]
  rfl
variable (V : (c : Dev nD) → (b : Ref sig .tc) → Buf (Elt Ideal) ((c : Thread nD τ).loc b))
theorem idx6_0 : ∀ t : Fin cfg6.N, win6_0.index t (0 : Fin 2) = t.val ∧ win6_0.index t (1 : Fin 2) = 0 :=
  (by decide +kernel : ∀ t : Fin grid6.N, _)
theorem idx6_1 : ∀ t : Fin cfg6.N, win6_1.index t (0 : Fin 2) = t.val ∧ win6_1.index t (1 : Fin 2) = 0 :=
  (by decide +kernel : ∀ t : Fin grid6.N, _)
theorem idx6_2 : ∀ t : Fin cfg6.N, win6_2.index t (0 : Fin 2) = 0 ∧ win6_2.index t (1 : Fin 2) = 0 :=
  (by decide +kernel : ∀ t : Fin grid6.N, _)
theorem idx6_3 : ∀ t : Fin cfg6.N, win6_3.index t (0 : Fin 2) = 0 ∧ win6_3.index t (1 : Fin 2) = 0 :=
  (by decide +kernel : ∀ t : Fin grid6.N, _)
theorem idx6_4 : ∀ t : Fin cfg6.N, win6_4.index t (0 : Fin 2) = 0 ∧ win6_4.index t (1 : Fin 2) = 0 :=
  (by decide +kernel : ∀ t : Fin grid6.N, _)
theorem idx6_5 : ∀ t : Fin cfg6.N, win6_5.index t (0 : Fin 2) = t.val ∧ win6_5.index t (1 : Fin 2) = 0 :=
  (by decide +kernel : ∀ t : Fin grid6.N, _)
def row6 (t : Fin cfg6.N) (p : Fin 2000) : Fin 20000 :=
  ⟨t.val * 2000 + p.val, by have ht : t.val < grid6.N := t.isLt; rw [N_6] at ht; have hp := p.isLt; omega⟩
theorem emb6_0 (t : Fin cfg6.N) (p : Fin 2000) (k : Fin 128) :
    (((cfg6.win 0).blk t).view.emb (ix2 p k) : S20000x128.Idx) = ix2 (row6 t p) k := by
  obtain ⟨e0, e1⟩ := idx6_0 t
  exact Shape.idx_ext₂ (by show win6_0.index t (0 : Fin 2) * 2000 + 1 * p.val = t.val * 2000 + p.val; omega) (by show win6_0.index t (1 : Fin 2) * 128 + 1 * k.val = k.val; omega)
theorem emb6_1 (t : Fin cfg6.N) (p : Fin 2000) (k : Fin 128) :
    (((cfg6.win 1).blk t).view.emb (ix2 p k) : S20000x128.Idx) = ix2 (row6 t p) k := by
  obtain ⟨e0, e1⟩ := idx6_1 t
  exact Shape.idx_ext₂ (by show win6_1.index t (0 : Fin 2) * 2000 + 1 * p.val = t.val * 2000 + p.val; omega) (by show win6_1.index t (1 : Fin 2) * 128 + 1 * k.val = k.val; omega)
theorem emb6_2 (t : Fin cfg6.N) (k : Fin 128) (q : Fin 128) :
    (((cfg6.win 2).blk t).view.emb (ix2 k q) : S128x128.Idx) = ix2 k q := by
  obtain ⟨e0, e1⟩ := idx6_2 t
  exact Shape.idx_ext₂ (by show win6_2.index t (0 : Fin 2) * 128 + 1 * k.val = k.val; omega) (by show win6_2.index t (1 : Fin 2) * 128 + 1 * q.val = q.val; omega)
theorem emb6_3 (t : Fin cfg6.N) (k : Fin 128) (q : Fin 128) :
    (((cfg6.win 3).blk t).view.emb (ix2 k q) : S128x128.Idx) = ix2 k q := by
  obtain ⟨e0, e1⟩ := idx6_3 t
  exact Shape.idx_ext₂ (by show win6_3.index t (0 : Fin 2) * 128 + 1 * k.val = k.val; omega) (by show win6_3.index t (1 : Fin 2) * 128 + 1 * q.val = q.val; omega)
theorem emb6_4 (t : Fin cfg6.N) (z : Fin 1) (q : Fin 128) :
    (((cfg6.win 4).blk t).view.emb (ix2 z q) : S1x128.Idx) = ix2 z q := by
  obtain ⟨e0, e1⟩ := idx6_4 t
  exact Shape.idx_ext₂ (by show win6_4.index t (0 : Fin 2) * 1 + 1 * z.val = z.val; omega) (by show win6_4.index t (1 : Fin 2) * 128 + 1 * q.val = q.val; omega)
theorem emb6_5 (t : Fin cfg6.N) (p : Fin 2000) (q : Fin 128) :
    (((cfg6.win 5).blk t).view.emb (ix2 p q) : S20000x128.Idx) = ix2 (row6 t p) q := by
  obtain ⟨e0, e1⟩ := idx6_5 t
  exact Shape.idx_ext₂ (by show win6_5.index t (0 : Fin 2) * 2000 + 1 * p.val = t.val * 2000 + p.val; omega) (by show win6_5.index t (1 : Fin 2) * 128 + 1 * q.val = q.val; omega)
theorem iblk6_0_apply (c : Dev nD) (t : Fin cfg6.N) (p : Fin 2000) (k : Fin 128) :
    iblk6 V c 0 t (ix2 p k) = (V c main_v44 : S20000x128.Idx → EReal) (ix2 (row6 t p) k) :=
  congrArg (V c main_v44 : S20000x128.Idx → EReal) (emb6_0 t p k)
theorem iblk6_1_apply (c : Dev nD) (t : Fin cfg6.N) (p : Fin 2000) (k : Fin 128) :
    iblk6 V c 1 t (ix2 p k) = (V c main_v33 : S20000x128.Idx → EReal) (ix2 (row6 t p) k) :=
  congrArg (V c main_v33 : S20000x128.Idx → EReal) (emb6_1 t p k)
theorem iblk6_2_apply (c : Dev nD) (t : Fin cfg6.N) (k : Fin 128) (q : Fin 128) :
    iblk6 V c 2 t (ix2 k q) = (V c main_arg5 : S128x128.Idx → EReal) (ix2 k q) :=
  congrArg (V c main_arg5 : S128x128.Idx → EReal) (emb6_2 t k q)
theorem iblk6_3_apply (c : Dev nD) (t : Fin cfg6.N) (k : Fin 128) (q : Fin 128) :
    iblk6 V c 3 t (ix2 k q) = (V c main_arg6 : S128x128.Idx → EReal) (ix2 k q) :=
  congrArg (V c main_arg6 : S128x128.Idx → EReal) (emb6_3 t k q)
theorem iblk6_4_apply (c : Dev nD) (t : Fin cfg6.N) (z : Fin 1) (q : Fin 128) :
    iblk6 V c 4 t (ix2 z q) = (V c main_v45 : S1x128.Idx → EReal) (ix2 z q) :=
  congrArg (V c main_v45 : S1x128.Idx → EReal) (emb6_4 t z q)
abbrev G6 (c : Dev nD) : S20000x128.Idx → EReal :=
  Cert.Spec.sageArr (M := 20000) (K := 128) (N := 128) (V c main_v44) (V c main_v33) (V c main_arg5) (V c main_arg6) (V c main_v45)
theorem flushed6_eq (c : Dev nD) (t : Fin cfg6.N) :
    (dat6 (F := Ideal) V c).flushed 5 t = ((cfg6.win 5).blk t).view.read (Elt Ideal) (G6 V c) := by
  show (cfg6.win 5).cut (grid6.coords t) ((dat6 V c).after 5 t) = _
  rw [after6_5]
  unfold out6
  funext j
  obtain ⟨p, q, rfl⟩ : ∃ (p : Fin 2000) (q : Fin 128), j = ix2 p q := ⟨j 0, j 1, eq_ix2 j⟩
  show k6_pay1 (F := Ideal) (iblk6 V c 0 t) (iblk6 V c 2 t) (iblk6 V c 1 t) (iblk6 V c 3 t) (iblk6 V c 4 t) (ix2 p q)
      = G6 V c (((cfg6.win 5).blk t).view.emb (ix2 p q))
  refine (pay6_apply _ _ _ _ _ p q).trans ?_
  rw [emb6_5]
  simp only [iblk6_0_apply, iblk6_1_apply, iblk6_2_apply, iblk6_3_apply, iblk6_4_apply]
  rfl
theorem cover6v (i : S20000x128.Idx) :
    ∃ t : Fin cfg6.N, (cfg6.win 5).flush t = true ∧ i ∈ ((cfg6.win 5).blk t).view.set := by
  have hi0 : (i 0).val < 20000 := (i 0).isLt
  have hi1 : (i 1).val < 128 := (i 1).isLt
  let t : Fin cfg6.N := ⟨(i 0).val / 2000, by show (i 0).val / 2000 < grid6.N; rw [N_6]; omega⟩
  have ht : t.val = (i 0).val / 2000 := rfl
  obtain ⟨e0, e1⟩ := idx6_5 t
  refine ⟨t, flush6_5 t, ?_⟩
  show i ∈ ((View.whole main_v46).slice (win6_5.rect t)).set
  rw [View.set_slice_whole, Rect.mem_set_unit]
  exact Fin.forall_fin_two.mpr ⟨by show win6_5.index t 0 * 2000 ≤ (i 0).val ∧ (i 0).val < win6_5.index t 0 * 2000 + 2000; omega,
    by show win6_5.index t 1 * 128 ≤ (i 1).val ∧ (i 1).val < win6_5.index t 1 * 128 + 128; omega⟩
theorem final6 (c : Dev nD) :
    (dat6 (F := Ideal) V c).arrAt 5 cfg6.N
      = Cert.Spec.sageArr (M := 20000) (K := 128) (N := 128) (V c main_v44) (V c main_v33) (V c main_arg5) (V c main_arg6) (V c main_v45) :=
  (dat6 (F := Ideal) V c).arrAt_eq_of_cover 5 (G6 V c) (fun t _ => flushed6_eq V c t) cover6v
end Cert.KernelIdeal.Hand
end
-- ==== Proof.KI.V7.lean ====
import proofs.«427224_j39238821216992_2_alg».proof.Proof.KI.D7
import proofs.«427224_j39238821216992_2_alg».proof.Proof.KI.V1
import proofs.«427224_j39238821216992_2_alg».proof.Proof.Spec
import Idealize.ShloMosaic.Lib.Pipeline.Value
import Idealize.ShloMosaic.Lib.ValueIdx
import Idealize.ShloMosaic.PureOps.Ideal.Laws
import Mathlib.Algebra.BigOperators.Fin
set_option maxRecDepth 16384
noncomputable section
namespace Cert.KernelIdeal.Hand
open Idealize.ShloMosaic Idealize.ShloMosaic.TcCoe Idealize.ShloMosaic.ValueIdx
open Idealize.SL.Sem
open Idealize.ShloMosaic.Pipeline (Dat Cfg Window)
open Cert.KernelIdeal Cert.KernelIdeal.Gen
open scoped BigOperators
variable (V : (c : Dev nD) → (b : Ref sig .tc) → Buf (Elt Ideal) ((c : Thread nD τ).loc b))
abbrev Dm7 : DotDims S32x2560 S2560x128 S32x128 := dot_S32x2560_S2560x128_S32x128_1_0_0_1_n_n
theorem off7 (i : grid7.Coords) : Scalar.muli (BitVec.ofNat 32 (i 0).val) 32#32 = 0#32 := by
  have h : (i 0).val = 0 := Nat.lt_one_iff.mp (i 0).isLt
  rw [h]; decide
theorem pay2_7_apply (i : grid7.Coords) (x0 : Vec Ideal S1x2560 .i32) (xs : Vec Ideal S32x128 .f32) (x1 : Vec Ideal S2560x128 .f32) (j : S32x128.Idx) :
    k7_pay2 i x0 xs x1 j = (xs j : EReal) + ∑ e : Fin 2560, if (x0 (ix2 (0 : Fin 1) e) : BitVec 32) = BitVec.ofNat 32 (j 0).val then (x1 (ix2 e (j 1)) : EReal) else 0 := by
  obtain ⟨r, h, rfl⟩ : ∃ (r : Fin 32) (h : Fin 128), j = ix2 r h := ⟨j 0, j 1, eq_ix2 j⟩
  unfold k7_pay2
  simp only [shapeCast_self]
  refine (addf_apply _ _ _).trans (congrArg ((xs (ix2 r h) : EReal) + ·) ((plain_mm_apply _ _ r h).trans (Finset.sum_congr rfl fun e _ => ?_)))
  rw [eqMask_apply, iota_single_apply, broadcastTo_1b_ab_apply]
  refine (boole_mul _ _).trans (if_congr ?_ rfl rfl)
  show x0 (ix2 (0 : Fin 1) e) - Scalar.muli (BitVec.ofNat 32 (i 0).val) 32#32 = BitVec.ofNat 32 r.val ↔ x0 (ix2 (0 : Fin 1) e) = BitVec.ofNat 32 r.val
  rw [off7, BitVec.sub_zero]
theorem widx7_0 (t : Fin cfg7.N) : win7_0.index t 0 = 0 ∧ win7_0.index t 1 = t.val := by
  rcases fin_N7 t with rfl | rfl | rfl | rfl | rfl | rfl | rfl | rfl <;> decide
theorem widx7_1 (t : Fin cfg7.N) : win7_1.index t 0 = t.val ∧ win7_1.index t 1 = 0 := by
  rcases fin_N7 t with rfl | rfl | rfl | rfl | rfl | rfl | rfl | rfl <;> decide
theorem iblk7_0_apply (c : Dev nD) (t : Fin cfg7.N) (e : Fin 2560) (k : S1x20480.Idx) (hk0 : (k 0).val = 0)
    (hk1 : (k 1).val = 2560 * t.val + e.val) :
    (iblk7 V c 0 t : Vec Ideal S1x2560 .i32) (ix2 (0 : Fin 1) e) = (V c main_v49 : S1x20480.Idx → BitVec 32) k := by
  obtain ⟨i0, i1⟩ := widx7_0 t
  exact congrArg (V c main_v49 : S1x20480.Idx → BitVec 32) (Shape.idx_ext₂ (by show win7_0.index t 0 * 1 + 1 * 0 = (k 0).val; omega) (by show win7_0.index t 1 * 2560 + 1 * e.val = (k 1).val; omega))
theorem iblk7_1_apply (c : Dev nD) (t : Fin cfg7.N) (e : Fin 2560) (h : Fin 128) (k : S20480x128.Idx)
    (hk0 : (k 0).val = 2560 * t.val + e.val) (hk1 : (k 1).val = h.val) :
    (iblk7 V c 1 t : Vec Ideal S2560x128 .f32) (ix2 e h) = (V c main_v48 : S20480x128.Idx → EReal) k := by
  obtain ⟨i0, i1⟩ := widx7_1 t
  exact congrArg (V c main_v48 : S20480x128.Idx → EReal) (Shape.idx_ext₂ (by show win7_1.index t 0 * 2560 + 1 * e.val = (k 0).val; omega) (by show win7_1.index t 1 * 128 + 1 * h.val = (k 1).val; omega))
def contrib7 (c : Dev nD) (j : S32x128.Idx) (p : ℕ) : EReal :=
  if h : p < 20480 then
    (if (V c main_v49 : S1x20480.Idx → BitVec 32) (ix2 (0 : Fin 1) ⟨p, h⟩) = BitVec.ofNat 32 (j 0).val
      then (V c main_v48 : S20480x128.Idx → EReal) (ix2 ⟨p, h⟩ (j 1)) else 0)
  else 0
theorem step7 (c : Dev nD) (t : Fin cfg7.N) (xs : Vec Ideal S32x128 .f32) (j : S32x128.Idx) :
    k7_pay2 (grid7.coords t) (iblk7 V c 0 t) xs (iblk7 V c 1 t) j
      = (xs j : EReal) + ∑ e : Fin 2560, contrib7 V c j (2560 * t.val + e.val) := by
  rw [pay2_7_apply]
  congr 1
  refine Finset.sum_congr rfl fun e _ => ?_
  have hN : t.val < 8 := lt_of_lt_of_eq t.isLt N_7
  have hp : 2560 * t.val + e.val < 20480 := by have := e.isLt; omega
  unfold contrib7
  rw [dif_pos hp, iblk7_0_apply V c t e (ix2 (0 : Fin 1) ⟨_, hp⟩) rfl rfl, iblk7_1_apply V c t e (j 1) (ix2 ⟨_, hp⟩ (j 1)) rfl rfl]
theorem pay1_7_apply (j : S32x128.Idx) : (k7_pay1 (F := Ideal) j : EReal) = 0 := by
  unfold k7_pay1
  rw [shapeCast_self]
  exact Ideal.ofBits_zero_f32
theorem acc7_closed (c : Dev nD) : ∀ (n : ℕ) (hn : n < cfg7.N) (j : S32x128.Idx),
    (acc7 V c n hn j : EReal) = ∑ s ∈ Finset.range (n + 1), ∑ e : Fin 2560, contrib7 V c j (2560 * s + e.val)
  | 0, hn, j => by
    rw [show acc7 V c 0 hn = _ from acc7_first V c ⟨0, hn⟩ rfl, step7, pay1_7_apply, zero_add, Finset.sum_range_one]
  | n + 1, hn, j => by
    have hN : n + 1 < 8 := lt_of_lt_of_eq hn N_7
    have h8 : ¬(n + 1) % 8 = 0 := by omega
    have ih := acc7_closed c n (Nat.lt_of_succ_lt hn) j
    rw [show acc7 V c (n + 1) hn = _ from acc7_next V c ⟨n + 1, hn⟩ h8, step7, Finset.sum_range_succ _ (n + 1), ← ih]
    rfl
theorem after_last7 (c : Dev nD) (j : S32x128.Idx) :
    (acc7 V c t7_7.val t7_7.isLt j : EReal)
      = Cert.Spec.scatterArr (E := 20480) (Np := 32) (H := 128) (V c main_v49) (V c main_v48) j := by
  refine (acc7_closed V c t7_7.val t7_7.isLt j).trans ?_
  unfold Cert.Spec.scatterArr Cert.Spec.scatterAt
  refine (sum_tiles 8 2560 (contrib7 V c j)).symm.trans (Finset.sum_congr rfl fun p _ => ?_)
  unfold contrib7
  rw [dif_pos (show p.val < 20480 from p.isLt)]
  try rfl
theorem flushed7 (c : Dev nD) (t : Fin cfg7.N) (hf : (cfg7.win 2).flush t = true) :
    (dat7 V c).flushed 2 t = ((cfg7.win 2).blk t).view.read (Elt Ideal)
      (Cert.Spec.scatterArr (E := 20480) (Np := 32) (H := 128) (V c main_v49) (V c main_v48)) := by
  have hN : t.val < 8 := lt_of_lt_of_eq t.isLt N_7
  have h7 : t.val = 7 := by have := (flush7_2 t).mp hf; omega
  obtain rfl : t = t7_7 := Fin.ext h7
  show (cfg7.win 2).cut (grid7.coords t7_7) ((dat7 V c).after 2 t7_7) = _
  rw [after7_2]
  have hz' : (fun a => win7_2.index t7_7 a * main_v50.ty.shape.size a) = fun _ => 0 := funext fun a => by fin_cases a <;> decide
  refine Eq.trans ?_ (Memref.read_access_unit_zero (Elt Ideal) main_v50 hz' (fun a => by rw [congrFun hz' a]; simp) _).symm
  funext j
  exact after_last7 V c j
theorem final7 (c : Dev nD) : (dat7 (F := Ideal) V c).arrAt 2 cfg7.N
    = Cert.Spec.scatterArr (E := 20480) (Np := 32) (H := 128) (V c main_v49) (V c main_v48) :=
  (dat7 V c).arrAt_eq_of_cover 2 _ (flushed7 V c) fun i =>
    ⟨t7_7, (flush7_2 t7_7).mpr rfl, by
      show i ∈ ((View.whole main_v50).slice (win7_2.rect t7_7)).set
      rw [View.set_slice_whole, Rect.mem_set_unit]
      intro a
      have h0 : (i 0 : Nat) < 32 := (i 0).isLt
      have h1 : (i 1 : Nat) < 128 := (i 1).isLt
      match a with
      | ⟨0, _⟩ =>
        show win7_2.index t7_7 0 * win7_2.size 0 ≤ (i 0 : Nat) ∧ (i 0 : Nat) < win7_2.index t7_7 0 * win7_2.size 0 + win7_2.xsize (grid7.coords t7_7) 0
        rw [show win7_2.index t7_7 0 * win7_2.size 0 = 0 from by decide +kernel, show win7_2.xsize (grid7.coords t7_7) 0 = 32 from by decide +kernel]; omega
      | ⟨1, _⟩ =>
        show win7_2.index t7_7 1 * win7_2.size 1 ≤ (i 1 : Nat) ∧ (i 1 : Nat) < win7_2.index t7_7 1 * win7_2.size 1 + win7_2.xsize (grid7.coords t7_7) 1
        rw [show win7_2.index t7_7 1 * win7_2.size 1 = 0 from by decide +kernel, show win7_2.xsize (grid7.coords t7_7) 1 = 128 from by decide +kernel]; omega⟩
end Cert.KernelIdeal.Hand
end
-- ==== Proof.KI.V8.lean ====
import proofs.«427224_j39238821216992_2_alg».proof.Proof.KI.D8
import proofs.«427224_j39238821216992_2_alg».proof.Proof.Spec
import Idealize.ShloMosaic.Lib.Pipeline.Value
import Idealize.ShloMosaic.Lib.ValueIdx
import Idealize.ShloMosaic.Lib.StackMember
import Idealize.ShloMosaic.PureOps.Ideal.Laws
set_option maxRecDepth 16384
noncomputable section
namespace Cert.KernelIdeal.Hand
open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators
variable (V : (c : Dev nD) → (b : Ref sig .tc) → Buf (Elt Ideal) ((c : Thread nD τ).loc b))
theorem pay8_apply (x0 : Vec Ideal S32x128 .f32) (x1 : Vec Ideal S128x128 .f32) (x2 : Vec Ideal S1x128 .f32) (a : Fin 32) (b : Fin 128) :
    k8_pay1 x0 x1 x2 (ix2 a b)
      = max (Cert.Spec.dotAt (fun k : Fin 128 => x0 (ix2 a k)) (fun k : Fin 128 => x1 (ix2 k b)) + x2 (ix2 (0 : Fin 1) b)) 0 := by
  show max (((matmul (F := Ideal) (DotDims.plain 32 128 128) none (truncf .bf16 (shapeCast S32x128 x0 shapeCasts_S32x128_S32x128) bitsLt_bf16_f32) (truncf .bf16 x1 bitsLt_bf16_f32) (constant (F := Ideal) S32x128 .f32 0x00000000#32)) (ix2 a b) : EReal)
      + (broadcastTo S32x128 (shapeCast S1x128 x2 shapeCasts_S1x128_S1x128) broadcasts_S1x128_S32x128 (ix2 a b) : EReal)) (Ideal.ofBits .f32 0x00000000#32) = _
  rw [matmul_zero_eq_dotGeneral, StackMember.dotGeneral_plain_apply, shapeCast_self, shapeCast_self,
    broadcastTo_apply x2 broadcasts_S1x128_S32x128 (ix2 a b) (ix2 (0 : Fin 1) b) (by intro ax; match ax with | ⟨0, _⟩ => rfl | ⟨1, _⟩ => rfl), Ideal.ofBits_zero_f32]
  rfl
theorem idx_facts8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)
theorem flushed8_eq (c : Dev nD) (t : Fin cfg8.N) :
    (dat8 (F := Ideal) V c).flushed 3 t = ((cfg8.win 3).blk t).view.read (Elt Ideal)
      (Cert.Spec.denseReluArr (M := 32) (K := 128) (N := 128) (V c main_v50) (V c main_arg8) (V c main_v51)) := by
  show (cfg8.win 3).cut (grid8.coords t) ((dat8 V c).after 3 t) = _
  rw [after8_3]
  unfold out8
  obtain ⟨e00, e01, e10, e11, e20, e21, e30, e31⟩ := idx_facts8 t
  refine funext fun (j : S32x128.Idx) => ?_
  obtain ⟨a, b, rfl⟩ : ∃ (a : Fin 32) (b : Fin 128), j = ix2 a b := ⟨j 0, j 1, eq_ix2 j⟩
  have ha : a.val < 32 := a.isLt
  have hb : b.val < 128 := b.isLt
  obtain ⟨E, hE⟩ : ∃ E : S32x128.Idx, E = ((cfg8.win 3).blk t).view.emb (ix2 a b) := ⟨_, rfl⟩
  have hE0 : (E 0).val = t.val * 32 + a.val := by
    rw [hE]; show win8_3.index t (0 : Fin 2) * 32 + 1 * a.val = _; omega
  have hE1 : (E 1).val = b.val := by
    rw [hE]; show win8_3.index t (1 : Fin 2) * 128 + 1 * b.val = _; omega
  have h0 : ∀ k : Fin 128, ((cfg8.win 0).blk t).view.emb (ix2 a k) = (ix2 (E 0) k : S32x128.Idx) := fun k => by
    have hk : k.val < 128 := k.isLt
    funext ax; apply Fin.ext
    match ax with
    | ⟨0, _⟩ => show win8_0.index t (0 : Fin 2) * 32 + 1 * a.val = (E 0).val; omega
    | ⟨1, _⟩ => show win8_0.index t (1 : Fin 2) * 128 + 1 * k.val = k.val; omega
  have h1 : ∀ k : Fin 128, ((cfg8.win 1).blk t).view.emb (ix2 k b) = (ix2 k (E 1) : S128x128.Idx) := fun k => by
    have hk : k.val < 128 := k.isLt
    funext ax; apply Fin.ext
    match ax with
    | ⟨0, _⟩ => show win8_1.index t (0 : Fin 2) * 128 + 1 * k.val = k.val; omega
    | ⟨1, _⟩ => show win8_1.index t (1 : Fin 2) * 128 + 1 * b.val = (E 1).val; omega
  have h2 : ((cfg8.win 2).blk t).view.emb (ix2 (0 : Fin 1) b) = (ix2 (0 : Fin 1) (E 1) : S1x128.Idx) := by
    funext ax; apply Fin.ext
    match ax with
    | ⟨0, _⟩ => show win8_2.index t (0 : Fin 2) * 1 + 1 * 0 = 0; omega
    | ⟨1, _⟩ => show win8_2.index t (1 : Fin 2) * 128 + 1 * b.val = (E 1).val; omega
  show k8_pay1 (iblk8 V c 0 t) (iblk8 V c 1 t) (iblk8 V c 2 t) (ix2 a b)
    = Cert.Spec.denseReluArr (M := 32) (K := 128) (N := 128) (V c main_v50) (V c main_arg8) (V c main_v51) (((cfg8.win 3).blk t).view.emb (ix2 a b))
  rw [pay8_apply, ← hE]
  show max (Cert.Spec.dotAt (fun k : Fin 128 => V c main_v50 (((cfg8.win 0).blk t).view.emb (ix2 a k)))
        (fun k : Fin 128 => V c main_arg8 (((cfg8.win 1).blk t).view.emb (ix2 k b)))
      + V c main_v51 (((cfg8.win 2).blk t).view.emb (ix2 (0 : Fin 1) b))) 0
    = max (Cert.Spec.dotAt (fun k : Fin 128 => V c main_v50 (ix2 (E 0) k)) (fun k : Fin 128 => V c main_arg8 (ix2 k (E 1)))
      + V c main_v51 (ix2 (0 : Fin 1) (E 1))) 0
  simp only [h0, h1, h2]
theorem cover8 (i : S32x128.Idx) : ∃ t : Fin cfg8.N, (cfg8.win 3).flush t = true ∧ i ∈ ((cfg8.win 3).blk t).view.set := by
  have hi0 : (i 0).val < 32 := (i 0).isLt
  have hi1 : (i 1).val < 128 := (i 1).isLt
  have hN : cfg8.N = 1 := N_8
  let t : Fin cfg8.N := ⟨(i 0).val / 32, by rw [hN]; omega⟩
  obtain ⟨e00, e01, e10, e11, e20, e21, e30, e31⟩ := idx_facts8 t
  have ht : t.val = (i 0).val / 32 := rfl
  refine ⟨t, flush8_3 t, ?_⟩
  show i ∈ ((View.whole main_v52).slice (win8_3.rect t)).set
  rw [View.set_slice_whole, Rect.mem_set_unit]
  intro ax
  match ax with
  | ⟨0, _⟩ => show win8_3.index t (0 : Fin 2) * 32 ≤ (i 0).val ∧ (i 0).val < win8_3.index t (0 : Fin 2) * 32 + 32; omega
  | ⟨1, _⟩ => show win8_3.index t (1 : Fin 2) * 128 ≤ (i 1).val ∧ (i 1).val < win8_3.index t (1 : Fin 2) * 128 + 128; omega
theorem final8 (c : Dev nD) : (dat8 (F := Ideal) V c).arrAt 3 cfg8.N
    = Cert.Spec.denseReluArr (M := 32) (K := 128) (N := 128) (V c main_v50) (V c main_arg8) (V c main_v51) :=
  (dat8 (F := Ideal) V c).arrAt_eq_of_cover 3 _ (fun t _ => flushed8_eq V c t) (cover8)
end Cert.KernelIdeal.Hand
end
-- ==== Proof.KI.V9.lean ====
import proofs.«427224_j39238821216992_2_alg».proof.Proof.KI.D9
import proofs.«427224_j39238821216992_2_alg».proof.Proof.Spec
import Idealize.ShloMosaic.Lib.Pipeline.Value
import Idealize.ShloMosaic.Lib.ValueIdx
import Idealize.ShloMosaic.Lib.StackMember
import Idealize.ShloMosaic.PureOps.Ideal.Laws
set_option maxRecDepth 16384
noncomputable section
namespace Cert.KernelIdeal.Hand
open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators
variable (V : (c : Dev nD) → (b : Ref sig .tc) → Buf (Elt Ideal) ((c : Thread nD τ).loc b))
theorem pay9_apply (x0 : Vec Ideal S32x128 .f32) (x1 : Vec Ideal S128x3 .f32) (x2 : Vec Ideal S1x3 .f32) (a : Fin 32) (b : Fin 3) :
    k9_pay1 x0 x1 x2 (ix2 a b)
      = Cert.Spec.dotAt (fun k : Fin 128 => x0 (ix2 a k)) (fun k : Fin 128 => x1 (ix2 k b)) + x2 (ix2 (0 : Fin 1) b) := by
  show ((matmul (F := Ideal) (DotDims.plain 32 128 3) none (truncf .bf16 (shapeCast S32x128 x0 shapeCasts_S32x128_S32x128) bitsLt_bf16_f32) (truncf .bf16 x1 bitsLt_bf16_f32) (constant (F := Ideal) S32x3 .f32 0x00000000#32)) (ix2 a b) : EReal)
      + (broadcastTo S32x3 (shapeCast S1x3 x2 shapeCasts_S1x3_S1x3) broadcasts_S1x3_S32x3 (ix2 a b) : EReal) = _
  rw [matmul_zero_eq_dotGeneral, StackMember.dotGeneral_plain_apply, shapeCast_self, shapeCast_self,
    broadcastTo_apply x2 broadcasts_S1x3_S32x3 (ix2 a b) (ix2 (0 : Fin 1) b) (by intro ax; match ax with | ⟨0, _⟩ => rfl | ⟨1, _⟩ => rfl)]
  rfl
theorem idx_facts9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)
theorem flushed9_eq (c : Dev nD) (t : Fin cfg9.N) :
    (dat9 (F := Ideal) V c).flushed 3 t = ((cfg9.win 3).blk t).view.read (Elt Ideal)
      (Cert.Spec.denseArr (M := 32) (K := 128) (N := 3) (V c main_v52) (V c main_arg10) (V c main_v53)) := by
  show (cfg9.win 3).cut (grid9.coords t) ((dat9 V c).after 3 t) = _
  rw [after9_3]
  unfold out9
  obtain ⟨e00, e01, e10, e11, e20, e21, e30, e31⟩ := idx_facts9 t
  refine funext fun (j : S32x3.Idx) => ?_
  obtain ⟨a, b, rfl⟩ : ∃ (a : Fin 32) (b : Fin 3), j = ix2 a b := ⟨j 0, j 1, eq_ix2 j⟩
  have ha : a.val < 32 := a.isLt
  have hb : b.val < 3 := b.isLt
  obtain ⟨E, hE⟩ : ∃ E : S32x3.Idx, E = ((cfg9.win 3).blk t).view.emb (ix2 a b) := ⟨_, rfl⟩
  have hE0 : (E 0).val = t.val * 32 + a.val := by
    rw [hE]; show win9_3.index t (0 : Fin 2) * 32 + 1 * a.val = _; omega
  have hE1 : (E 1).val = b.val := by
    rw [hE]; show win9_3.index t (1 : Fin 2) * 3 + 1 * b.val = _; omega
  have h0 : ∀ k : Fin 128, ((cfg9.win 0).blk t).view.emb (ix2 a k) = (ix2 (E 0) k : S32x128.Idx) := fun k => by
    have hk : k.val < 128 := k.isLt
    funext ax; apply Fin.ext
    match ax with
    | ⟨0, _⟩ => show win9_0.index t (0 : Fin 2) * 32 + 1 * a.val = (E 0).val; omega
    | ⟨1, _⟩ => show win9_0.index t (1 : Fin 2) * 128 + 1 * k.val = k.val; omega
  have h1 : ∀ k : Fin 128, ((cfg9.win 1).blk t).view.emb (ix2 k b) = (ix2 k (E 1) : S128x3.Idx) := fun k => by
    have hk : k.val < 128 := k.isLt
    funext ax; apply Fin.ext
    match ax with
    | ⟨0, _⟩ => show win9_1.index t (0 : Fin 2) * 128 + 1 * k.val = k.val; omega
    | ⟨1, _⟩ => show win9_1.index t (1 : Fin 2) * 3 + 1 * b.val = (E 1).val; omega
  have h2 : ((cfg9.win 2).blk t).view.emb (ix2 (0 : Fin 1) b) = (ix2 (0 : Fin 1) (E 1) : S1x3.Idx) := by
    funext ax; apply Fin.ext
    match ax with
    | ⟨0, _⟩ => show win9_2.index t (0 : Fin 2) * 1 + 1 * 0 = 0; omega
    | ⟨1, _⟩ => show win9_2.index t (1 : Fin 2) * 3 + 1 * b.val = (E 1).val; omega
  show k9_pay1 (iblk9 V c 0 t) (iblk9 V c 1 t) (iblk9 V c 2 t) (ix2 a b)
    = Cert.Spec.denseArr (M := 32) (K := 128) (N := 3) (V c main_v52) (V c main_arg10) (V c main_v53) (((cfg9.win 3).blk t).view.emb (ix2 a b))
  rw [pay9_apply, ← hE]
  show Cert.Spec.dotAt (fun k : Fin 128 => V c main_v52 (((cfg9.win 0).blk t).view.emb (ix2 a k)))
        (fun k : Fin 128 => V c main_arg10 (((cfg9.win 1).blk t).view.emb (ix2 k b)))
      + V c main_v53 (((cfg9.win 2).blk t).view.emb (ix2 (0 : Fin 1) b))
    = Cert.Spec.dotAt (fun k : Fin 128 => V c main_v52 (ix2 (E 0) k)) (fun k : Fin 128 => V c main_arg10 (ix2 k (E 1)))
      + V c main_v53 (ix2 (0 : Fin 1) (E 1))
  simp only [h0, h1, h2]
theorem cover9 (i : S32x3.Idx) : ∃ t : Fin cfg9.N, (cfg9.win 3).flush t = true ∧ i ∈ ((cfg9.win 3).blk t).view.set := by
  have hi0 : (i 0).val < 32 := (i 0).isLt
  have hi1 : (i 1).val < 3 := (i 1).isLt
  have hN : cfg9.N = 1 := N_9
  let t : Fin cfg9.N := ⟨(i 0).val / 32, by rw [hN]; omega⟩
  obtain ⟨e00, e01, e10, e11, e20, e21, e30, e31⟩ := idx_facts9 t
  have ht : t.val = (i 0).val / 32 := rfl
  refine ⟨t, flush9_3 t, ?_⟩
  show i ∈ ((View.whole main_v54).slice (win9_3.rect t)).set
  rw [View.set_slice_whole, Rect.mem_set_unit]
  intro ax
  match ax with
  | ⟨0, _⟩ => show win9_3.index t (0 : Fin 2) * 32 ≤ (i 0).val ∧ (i 0).val < win9_3.index t (0 : Fin 2) * 32 + 32; omega
  | ⟨1, _⟩ => show win9_3.index t (1 : Fin 2) * 3 ≤ (i 1).val ∧ (i 1).val < win9_3.index t (1 : Fin 2) * 3 + 3; omega
theorem final9 (c : Dev nD) : (dat9 (F := Ideal) V c).arrAt 3 cfg9.N
    = Cert.Spec.denseArr (M := 32) (K := 128) (N := 3) (V c main_v52) (V c main_arg10) (V c main_v53) :=
  (dat9 (F := Ideal) V c).arrAt_eq_of_cover 3 _ (fun t _ => flushed9_eq V c t) (cover9)
end Cert.KernelIdeal.Hand
end
-- ==== Proof.KI.FinalsAll.lean ====
import proofs.«427224_j39238821216992_2_alg».proof.Proof.KI.Finals
import proofs.«427224_j39238821216992_2_alg».proof.Proof.KI.V0
import proofs.«427224_j39238821216992_2_alg».proof.Proof.KI.V1
import proofs.«427224_j39238821216992_2_alg».proof.Proof.KI.V2
import proofs.«427224_j39238821216992_2_alg».proof.Proof.KI.V3
import proofs.«427224_j39238821216992_2_alg».proof.Proof.KI.V4
import proofs.«427224_j39238821216992_2_alg».proof.Proof.KI.V5
import proofs.«427224_j39238821216992_2_alg».proof.Proof.KI.V6
import proofs.«427224_j39238821216992_2_alg».proof.Proof.KI.V7
import proofs.«427224_j39238821216992_2_alg».proof.Proof.KI.V8
import proofs.«427224_j39238821216992_2_alg».proof.Proof.KI.V9
noncomputable section
namespace Cert.KernelIdeal.Hand
open Idealize.ShloMosaic Idealize.ShloMosaic.TcCoe Idealize.SL.Sem
open Cert.KernelIdeal Cert.KernelIdeal.Gen
theorem finalsAll : Finals where
  f0 := fun V c => final0 V c
  f1 := fun V c => final1 V c
  f2 := fun V c => final2 V c
  f3 := fun V c => final3 V c
  f4 := fun V c => final4 V c
  f5 := fun V c => final5 V c
  f6 := fun V c => final6 V c
  f7 := fun V c => final7 V c
  f8 := fun V c => final8 V c
  f9 := fun V c => final9 V c
end Cert.KernelIdeal.Hand
end
-- ==== Proof.SpecMain.lean ====
import proofs.«427224_j39238821216992_2_alg».proof.Proof.Spec
noncomputable section
open scoped BigOperators
namespace Cert.Spec
open Idealize.ShloMosaic Idealize.ShloMosaic.ValueIdx
abbrev A2 (a b : Nat) : Type := (⟨2, ![a, b]⟩ : Shape).Idx → EReal
abbrev A1 (a : Nat) : Type := (⟨1, ![a]⟩ : Shape).Idx → EReal
abbrev W2 (a b : Nat) : Type := (⟨2, ![a, b]⟩ : Shape).Idx → BitVec 32
abbrev W1 (a : Nat) : Type := (⟨1, ![a]⟩ : Shape).Idx → BitVec 32
abbrev pad (v : Fin 20000) : Fin 20480 := Fin.castLE (by decide) v
def dinvOf (d : EReal) : EReal := Scalar.select (Ideal.cmp .ogt d 0) (Ideal.rsqrt d) 0
section Kernel
variable (x : A2 20000 128) (ei : W2 2 640000) (bt : W1 20000) (Wg : A2 128 128) (bg : A1 128) (Wl Wr : A2 128 128) (bs : A1 128)
  (Wa : A2 128 128) (ba : A1 128) (Wb : A2 128 3) (bb : A1 3)
def srcCol : W2 640000 1 := fun j => ei (ix2 (0 : Fin 2) (j 0))
def tgtRow : W2 1 640000 := fun j => ei (ix2 (1 : Fin 2) (j 1))
def kH : A2 20000 128 := denseArr x Wg (fun _ => 0)
def kCnt : A2 20480 1 := countArr (E := 640000) (Np := 20480) (tgtRow ei)
def kDinv : A2 20480 1 := fun j => dinvOf (kCnt ei j + 1)
def padRows (t : A2 20000 128) : A2 20480 128 :=
  fun j => if h : (j 0).val < 20000 then t (ix2 (⟨(j 0).val, h⟩ : Fin 20000) (j 1)) else 0
def kG : A2 20480 128 := fun j => padRows (kH x Wg) j * kDinv ei (ix2 (j 0) (0 : Fin 1))
def kGRow : A2 640000 128 := gatherArr (srcCol ei) (kG x ei Wg)
def kRaw : A2 20480 128 := scatterArr (E := 640000) (Np := 20480) (H := 128) (tgtRow ei) (kGRow x ei Wg)
def kGcn : A2 20000 128 := fun j =>
  max (((kRaw x ei Wg (ix2 (pad (j 0)) (j 1)) * kDinv ei (ix2 (pad (j 0)) (0 : Fin 1)))
        + kH x Wg j * (kDinv ei (ix2 (pad (j 0)) (0 : Fin 1)) * kDinv ei (ix2 (pad (j 0)) (0 : Fin 1))))
       + bg (ix1 (j 1))) 0
def kGcnRow : A2 640000 128 := gatherArr (srcCol ei) (padRows (kGcn x ei Wg bg))
def kNsum : A2 20480 128 := scatterArr (E := 640000) (Np := 20480) (H := 128) (tgtRow ei) (kGcnRow x ei Wg bg)
def kNeigh : A2 20000 128 := fun j =>
  Ideal.div (kNsum x ei Wg bg (ix2 (pad (j 0)) (j 1))) (max (kCnt ei (ix2 (pad (j 0)) (0 : Fin 1))) 1)
def kSage : A2 20000 128 :=
  sageArr (kNeigh x ei Wg bg) (kGcn x ei Wg bg) Wl Wr (fun j => bs (ix1 (j 1)))
def kBtRow : W2 1 20480 := fun j => if h : (j 1).val < 20000 then bt (ix1 (⟨(j 1).val, h⟩ : Fin 20000)) else 0xFFFFFFFF#32
def kPooled : A2 32 128 :=
  scatterArr (E := 20480) (Np := 32) (H := 128) (kBtRow bt) (padRows (kSage x ei Wg bg Wl Wr bs))
def kHid : A2 32 128 := denseReluArr (kPooled x ei bt Wg bg Wl Wr bs) Wa (fun j => ba (ix1 (j 1)))
def KSpec : A2 32 3 := denseArr (kHid x ei bt Wg bg Wl Wr bs Wa ba) Wb (fun j => bb (ix1 (j 1)))
end Kernel
section Reference
variable (rd : BitVec 32 → Fin 20000)
variable (x : A2 20000 128) (ei : W2 2 640000) (bt : W1 20000) (Wg : A2 128 128) (bg : A1 128) (Wl Wr : A2 128 128) (bs : A1 128)
  (Wa : A2 128 128) (ba : A1 128) (Wb : A2 128 3) (bb : A1 3)
def src (e : Fin 640000) : BitVec 32 := ei (ix2 (0 : Fin 2) e)
def tgt (e : Fin 640000) : BitVec 32 := ei (ix2 (1 : Fin 2) e)
def rH (v : Fin 20000) (q : Fin 128) : EReal := dotAt (fun k : Fin 128 => x (ix2 v k)) (fun k : Fin 128 => Wg (ix2 k q))
def rCnt (v : Fin 20000) : EReal := countAt (tgt ei) v.val
def rDinv (v : Fin 20000) : EReal := dinvOf (rCnt ei v + 1)
def rGcn (v : Fin 20000) (q : Fin 128) : EReal :=
  max (((∑ e : Fin 640000, if tgt ei e = BitVec.ofNat 32 v.val
            then rH x Wg (rd (src ei e)) q * (rDinv ei (rd (src ei e)) * rDinv ei (rd (tgt ei e))) else 0)
        + rH x Wg v q * (rDinv ei v * rDinv ei v))
       + bg (ix1 q)) 0
def rNeigh (v : Fin 20000) (q : Fin 128) : EReal :=
  Ideal.div (∑ e : Fin 640000, if tgt ei e = BitVec.ofNat 32 v.val then rGcn rd x ei Wg bg (rd (src ei e)) q else 0)
    (max (rCnt ei v) 1)
def rSage (v : Fin 20000) (q : Fin 128) : EReal :=
  max ((dotAt (fun k : Fin 128 => rNeigh rd x ei Wg bg v k) (fun k : Fin 128 => Wl (ix2 k q))
        + dotAt (fun k : Fin 128 => rGcn rd x ei Wg bg v k) (fun k : Fin 128 => Wr (ix2 k q))) + bs (ix1 q)) 0
def rPooled (g : Fin 32) (q : Fin 128) : EReal :=
  ∑ v : Fin 20000, if bt (ix1 v) = BitVec.ofNat 32 g.val then rSage rd x ei Wg bg Wl Wr bs v q else 0
def rHid (g : Fin 32) (q : Fin 128) : EReal :=
  max (dotAt (fun k : Fin 128 => rPooled rd x ei bt Wg bg Wl Wr bs g k) (fun k : Fin 128 => Wa (ix2 k q)) + ba (ix1 q)) 0
def RefSpec : A2 32 3 := fun j =>
  dotAt (fun k : Fin 128 => rHid rd x ei bt Wg bg Wl Wr bs Wa ba (j 0) k) (fun k : Fin 128 => Wb (ix2 k (j 1))) + bb (ix1 (j 1))
end Reference
def Fin2 {a b : Nat} (X : A2 a b) : Prop := ∀ j, ∃ r : ℝ, X j = (r : EReal)
def Fin1 {a : Nat} (X : A1 a) : Prop := ∀ j, ∃ r : ℝ, X j = (r : EReal)
def SrcInRange (ei : W2 2 640000) : Prop := ∀ e : Fin 640000, ∃ r : Fin 20000, ei (ix2 (0 : Fin 2) e) = BitVec.ofNat 32 r.val
end Cert.Spec
end
-- ==== Proof.KI.ValueA.lean ====
import proofs.«427224_j39238821216992_2_alg».proof.Proof.KI.Run
import proofs.«427224_j39238821216992_2_alg».proof.Proof.KI.Finals
import proofs.«427224_j39238821216992_2_alg».proof.Proof.SpecMain
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
noncomputable section
namespace Cert.KernelIdeal.Hand
open Idealize.ShloMosaic Idealize.ShloMosaic.TcCoe Idealize.SL.Sem Idealize.ShloMosaic.ValueIdx
open Cert.KernelIdeal Cert.KernelIdeal.Gen
abbrev arr (S : Shape) (x : S.Idx → EReal) : S.Idx → EReal := x
abbrev wrd (S : Shape) (x : S.Idx → BitVec 32) : S.Idx → BitVec 32 := x
abbrev bit1 (S : Shape) (x : S.Idx → BitVec 1) : S.Idx → BitVec 1 := x
section Layout
variable {α : Type}
theorem bcastCol_apply {n k : Nat} (x : (⟨2, ![n, 1]⟩ : Shape).Idx → α)
    (h : (⟨2, ![n, 1]⟩ : Shape).BroadcastsInDim ⟨2, ![n, k]⟩ ![0, 1]) (a : Fin n) (b : Fin k) :
    broadcastInDim ⟨2, ![n, k]⟩ ![0, 1] h x (ix2 a b) = x (ix2 a (0 : Fin 1)) :=
  broadcastInDim_apply _ h x _ _ (fun ax => by
    match ax with
    | ⟨0, _⟩ => show a.val = if n = 1 then 0 else a.val; have := a.isLt; split <;> omega
    | ⟨1, _⟩ => show (0 : ℕ) = if (1 : ℕ) = 1 then 0 else b.val; rfl)
theorem bcastRow_apply {n k : Nat} (x : (⟨2, ![1, k]⟩ : Shape).Idx → α)
    (h : (⟨2, ![1, k]⟩ : Shape).BroadcastsInDim ⟨2, ![n, k]⟩ ![0, 1]) (a : Fin n) (b : Fin k) :
    broadcastInDim ⟨2, ![n, k]⟩ ![0, 1] h x (ix2 a b) = x (ix2 (0 : Fin 1) b) :=
  broadcastInDim_apply _ h x _ _ (fun ax => by
    match ax with
    | ⟨0, _⟩ => show (0 : ℕ) = if (1 : ℕ) = 1 then 0 else a.val; rfl
    | ⟨1, _⟩ => show b.val = if k = 1 then 0 else b.val; have := b.isLt; split <;> omega)
theorem bcastVecRow_apply {k : Nat} (x : (⟨1, ![k]⟩ : Shape).Idx → α)
    (h : (⟨1, ![k]⟩ : Shape).BroadcastsInDim ⟨2, ![1, k]⟩ ![1]) (a : Fin 1) (b : Fin k) :
    broadcastInDim ⟨2, ![1, k]⟩ ![1] h x (ix2 a b) = x (ix1 b) :=
  broadcastInDim_apply _ h x _ _ (fun ax => by
    match ax with
    | ⟨0, _⟩ => show b.val = if k = 1 then 0 else b.val; have := b.isLt; split <;> omega)
theorem sliceTop_apply {n0 n1 r : Nat} (hle : r ≤ n0) (X : (⟨2, ![n0, n1]⟩ : Shape).Idx → α)
    (h : (⟨2, ![n0, n1]⟩ : Shape).Slices ![0, 0] ⟨2, ![r, n1]⟩) (a : Fin r) (b : Fin n1) :
    extractStridedSlice ⟨2, ![r, n1]⟩ ![0, 0] X h (ix2 a b) = X (ix2 (Fin.castLE hle a) b) :=
  slice2_axis0_apply 0 X h a b (Fin.castLE hle a) (Nat.zero_add _).symm
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])
end Layout
section Stretches
variable (V : Valuation τ sig (Elt Ideal))
theorem rd0_v1 : (wrd S640000 (StableHlo.after (hostOps0 (F := Ideal)) V main_v1))
    = fun e => (wrd S2x640000 (V main_arg1)) (ix2 (0 : Fin 2) (e 0)) := by
  show StableHlo.after _ _ (Proc.devRef .tc main_v1) = _
  after_results
  refine funext fun (e : S640000.Idx) => ?_
  obtain ⟨i, rfl⟩ : ∃ i, e = ix1 i := ⟨e 0, eq_ix1 e⟩
  show shapeCast S640000 _ _ (ix1 i) = _
  rw [shapeCast_1a_a_apply, slice2_axis0_apply 0 _ _ (0 : Fin 1) i (0 : Fin 2) rfl]
theorem rd0_v3 : (wrd S640000 (StableHlo.after (hostOps0 (F := Ideal)) V main_v3))
    = fun e => (wrd S2x640000 (V main_arg1)) (ix2 (1 : Fin 2) (e 0)) := by
  show StableHlo.after _ _ (Proc.devRef .tc main_v3) = _
  after_results
  refine funext fun (e : S640000.Idx) => ?_
  obtain ⟨i, rfl⟩ : ∃ i, e = ix1 i := ⟨e 0, eq_ix1 e⟩
  show shapeCast S640000 _ _ (ix1 i) = _
  rw [shapeCast_1a_a_apply, slice2_axis0_apply 1 _ _ (0 : Fin 1) i (1 : Fin 2) rfl]
theorem rd0_v5 : (arr S1x128 (StableHlo.after (hostOps0 (F := Ideal)) V main_v5)) = fun _ => 0 := by
  show StableHlo.after _ _ (Proc.devRef .tc main_v5) = _
  after_results
  refine funext fun (j : S1x128.Idx) => ?_
  obtain ⟨a, b, rfl⟩ : ∃ a b, j = ix2 a b := ⟨j 0, j 1, eq_ix2 j⟩
  show shapeCast S1x128 _ _ (ix2 a b) = _
  rw [shapeCast_a_1a_apply, broadcastInDim_scalar_apply, constant_apply, Ideal.ofBits_zero_f32]
theorem rd1_v7 : (wrd S1x640000 (StableHlo.after (hostOps1 (F := Ideal)) V main_v7))
    = fun j => (wrd S640000 (V main_v3)) (ix1 (j 1)) := by
  show StableHlo.after _ _ (Proc.devRef .tc main_v7) = _
  after_results
  refine funext fun (j : S1x640000.Idx) => ?_
  obtain ⟨a, b, rfl⟩ : ∃ a b, j = ix2 a b := ⟨j 0, j 1, eq_ix2 j⟩
  show shapeCast S1x640000 _ _ (ix2 a b) = _
  rw [shapeCast_a_1a_apply]
theorem rd3_v20 : (wrd S1x640000 (StableHlo.after (hostOps3 (F := Ideal)) V main_v20))
    = fun j => (wrd S640000 (V main_v3)) (ix1 (j 1)) := by
  show StableHlo.after _ _ (Proc.devRef .tc main_v20) = _
  after_results
  refine funext fun (j : S1x640000.Idx) => ?_
  obtain ⟨a, b, rfl⟩ : ∃ a b, j = ix2 a b := ⟨j 0, j 1, eq_ix2 j⟩
  show shapeCast S1x640000 _ _ (ix2 a b) = _
  rw [shapeCast_a_1a_apply]
theorem rd2_v12 : (bit1 S20480x1 (StableHlo.after (hostOps2 (F := Ideal)) V main_v12))
    = fun j => Ideal.cmp .ogt ((arr S20480x1 (V main_v8)) j + 1) 0 := by
  show StableHlo.after _ _ (Proc.devRef .tc main_v12) = _
  after_results
  refine funext fun (j : S20480x1.Idx) => ?_
  rw [cmpf_apply, addf_apply, broadcastInDim_scalar_apply, broadcastInDim_scalar_apply, constant_apply, constant_apply,
    Ideal.ofBits_one_f32, Ideal.ofBits_zero_f32]
  rfl
theorem rd2_v13 : (arr S20480x1 (StableHlo.after (hostOps2 (F := Ideal)) V main_v13))
    = fun j => Ideal.rsqrt ((arr S20480x1 (V main_v8)) j + 1) := by
  show StableHlo.after _ _ (Proc.devRef .tc main_v13) = _
  after_results
  refine funext fun (j : S20480x1.Idx) => ?_
  show FloatOps.hostUnary .rsqrt (addf _ _ j) = _
  rw [Ideal.hostUnary_rsqrt_def, addf_apply, broadcastInDim_scalar_apply, constant_apply, Ideal.ofBits_one_f32]
theorem rd2_cst2 : (arr S_ (StableHlo.after (hostOps2 (F := Ideal)) V main_cst_2)) = fun _ => 0 := by
  show StableHlo.after _ _ (Proc.devRef .tc main_cst_2) = _
  after_results
  refine funext fun (j : S_.Idx) => ?_
  rw [constant_apply, Ideal.ofBits_zero_f32]
theorem rd2_1_v14 : (arr S20480x1 (StableHlo.after (hostOps2_1 (F := Ideal)) V main_v14))
    = fun j => Scalar.select ((bit1 S20480x1 (V main_v12)) j) ((arr S20480x1 (V main_v13)) j)
        ((arr S_ (V main_cst_2)) ix0) := by
  show StableHlo.after _ _ (Proc.devRef .tc main_v14) = _
  after_results
  try simp only [StableHlo.TRef.ofBuf, StableHlo.TRef.toBuf, cast_eq]
  refine funext fun (j : S20480x1.Idx) => ?_
  rw [select_apply, broadcastInDim_scalar_apply]
  rfl
theorem rd2_2_c : (wrd S_ (StableHlo.after (hostOps2_2 (F := Ideal)) V main_c)) = fun _ => 0#32 := by
  show StableHlo.after _ _ (Proc.devRef .tc main_c) = _
  after_results
  rfl
theorem rd2_3_v15 (hc : (wrd S_ (V main_c)) = fun _ => 0#32) :
    (arr S20480x128 (StableHlo.after (hostOps2_3 (F := Ideal)) V main_v15))
      = Cert.Spec.padRows (arr S20000x128 (V main_v6)) := by
  show StableHlo.after _ _ (Proc.devRef .tc main_v15) = _
  after_results
  try simp only [StableHlo.TRef.ofBuf, StableHlo.TRef.toBuf, cast_eq]
  refine funext fun (j : S20480x128.Idx) => ?_
  obtain ⟨a, b, rfl⟩ : ∃ a b, j = ix2 a b := ⟨j 0, j 1, eq_ix2 j⟩
  unfold Cert.Spec.padRows
  beta_reduce
  by_cases h : a.val < 20000
  · rw [dif_pos (show ((ix2 a b : S20480x128.Idx) 0).val < 20000 from h)]
    exact pad_apply_of_inside _ _ _ _ _ _ _ (ix2 a b) (ix2 (⟨a.val, h⟩ : Fin 20000) b) (fun ax => by
      match ax with
      | ⟨0, _⟩ => show a.val = 0 + a.val * (0 + 1); omega
      | ⟨1, _⟩ => show b.val = 0 + b.val * (0 + 1); omega)
  · rw [dif_neg (show ¬ ((ix2 a b : S20480x128.Idx) 0).val < 20000 from h)]
    rw [pad_apply_of_not_inside _ _ _ _ _ _ _ (ix2 a b) (0 : Fin 2) (by
      show ¬(0 ≤ a.val ∧ (a.val - 0) % (0 + 1) = 0 ∧ (a.val - 0) / (0 + 1) < 20000)
      omega)]
    have hc0 : V (Proc.devRef .tc main_c) (Shape.Idx.first h_S_) = 0#32 := congrFun hc _
    rw [sitofp_apply, hc0]
    show ((((0#32 : BitVec 32).toInt : ℤ) : ℝ) : EReal) = 0
    simp
theorem rd2_4_v17 : (arr S20480x128 (StableHlo.after (hostOps2_4 (F := Ideal)) V main_v17))
    = fun j => (arr S20480x128 (V main_v15)) j * (arr S20480x1 (V main_v14)) (ix2 (j 0) (0 : Fin 1)) := by
  show StableHlo.after _ _ (Proc.devRef .tc main_v17) = _
  after_results
  refine funext fun (j : S20480x128.Idx) => ?_
  obtain ⟨a, b, rfl⟩ : ∃ a b, j = ix2 a b := ⟨j 0, j 1, eq_ix2 j⟩
  rw [mulf_apply, bcastCol_apply]
theorem rd2_4_v18 : (wrd S640000x1 (StableHlo.after (hostOps2_4 (F := Ideal)) V main_v18))
    = fun j => (wrd S640000 (V main_v1)) (ix1 (j 0)) := by
  show StableHlo.after _ _ (Proc.devRef .tc main_v18) = _
  after_results
  refine funext fun (j : S640000x1.Idx) => ?_
  obtain ⟨a, b, rfl⟩ : ∃ a b, j = ix2 a b := ⟨j 0, j 1, eq_ix2 j⟩
  show shapeCast S640000x1 _ _ (ix2 a b) = _
  rw [shapeCast_a_a1_apply]
theorem rd4_v32 : (arr S20000x128 (StableHlo.after (hostOps4 (F := Ideal)) V main_v32))
    = fun j => (((arr S20480x128 (V main_v21)) (ix2 (Cert.Spec.pad (j 0)) (j 1))
            * (arr S20480x1 (V main_v14)) (ix2 (Cert.Spec.pad (j 0)) (0 : Fin 1)))
          + (arr S20000x128 (V main_v6)) j
            * ((arr S20480x1 (V main_v14)) (ix2 (Cert.Spec.pad (j 0)) (0 : Fin 1))
              * (arr S20480x1 (V main_v14)) (ix2 (Cert.Spec.pad (j 0)) (0 : Fin 1))))
        + (arr S128 (V main_arg4)) (ix1 (j 1)) := by
  show StableHlo.after _ _ (Proc.devRef .tc main_v32) = _
  after_results
  refine funext fun (j : S20000x128.Idx) => ?_
  obtain ⟨a, b, rfl⟩ : ∃ a b, j = ix2 a b := ⟨j 0, j 1, eq_ix2 j⟩
  simp only [addf_apply, mulf_apply, sliceTop_apply (by decide : 20000 ≤ 20480)]
  rw [bcastCol_apply, bcastCol_apply, mulf_apply, sliceTop_apply (by decide : 20000 ≤ 20480), bcastRow_apply, bcastVecRow_apply]
theorem rd4_1_v33 : (arr S20000x128 (StableHlo.after (hostOps4_1 (F := Ideal)) V main_v33))
    = fun j => max ((arr S20000x128 (V main_v32)) j) 0 := by
  show StableHlo.after _ _ (Proc.devRef .tc main_v33) = _
  after_results
  try simp only [StableHlo.TRef.ofBuf, StableHlo.TRef.toBuf, cast_eq]
  refine funext fun (j : S20000x128.Idx) => ?_
  rw [maximumf_apply, broadcastInDim_scalar_apply, constant_apply, Ideal.ofBits_zero_f32]
end Stretches
theorem h_eq (hfin : Finals) (m : (ℓ : Loc nD τ sig) → Buf (Elt Ideal) ℓ) (ρ : Dev nD → PrngReg) (c : Dev nD) :
    (Wa2 (F := Ideal) m ρ c main_v6 : S20000x128.Idx → EReal) = Cert.Spec.kH (m ((c : Thread nD τ).loc main_arg0)) (m ((c : Thread nD τ).loc main_arg3)) := by
  refine (Wa2_out m ρ c).trans ((hfin.f0 (En1 m ρ) c).trans ?_)
  show Cert.Spec.denseArr (M := 20000) (K := 128) (N := 128) (Wa1 m ρ c main_arg0) (Wa1 m ρ c main_arg3) (arr S1x128 (Wa1 m ρ c main_v5)) = _
  rw [Wa1_keep m ρ c main_arg0 (by decide), Wa1_keep m ρ c main_arg3 (by decide), rd0_v5 (Wa0 m ρ c)]
  rfl
theorem cnt_eq (hfin : Finals) (m : (ℓ : Loc nD τ sig) → Buf (Elt Ideal) ℓ) (ρ : Dev nD → PrngReg) (c : Dev nD) :
    (Wa4 (F := Ideal) m ρ c main_v8 : S20480x1.Idx → EReal) = Cert.Spec.kCnt (m ((c : Thread nD τ).loc main_arg1)) := by
  refine (Wa4_out m ρ c).trans ((hfin.f1 (En3 m ρ) c).trans ?_)
  show Cert.Spec.countArr (E := 640000) (Np := 20480) (wrd S1x640000 (Wa3 m ρ c main_v7)) = _
  rw [rd1_v7 (Wa2 m ρ c), Wa2_keep m ρ c main_v3 (by decide), rd0_v3 (Wa0 m ρ c)]
  rfl
section Chain2
variable (hfin : Finals) (m : (ℓ : Loc nD τ sig) → Buf (Elt Ideal) ℓ) (ρ : Dev nD → PrngReg) (c : Dev nD)
include hfin
theorem dinv_at6 : (arr S20480x1 (Wa6 m ρ c main_v14)) = Cert.Spec.kDinv (m ((c : Thread nD τ).loc main_arg1)) := by
  refine (rd2_1_v14 (Wa5 m ρ c)).trans ?_
  refine funext fun (j : S20480x1.Idx) => ?_
  rw [rd2_v12 (Wa4 m ρ c), rd2_v13 (Wa4 m ρ c), rd2_cst2 (Wa4 m ρ c), cnt_eq hfin m ρ c]
  rfl
theorem dinv_at8 : (arr S20480x1 (Wa8 m ρ c main_v14)) = Cert.Spec.kDinv (m ((c : Thread nD τ).loc main_arg1)) :=
  (Wa8_keep m ρ c main_v14 (by decide)).trans <| (Wa7_keep m ρ c main_v14 (by decide)).trans <| dinv_at6 hfin m ρ c
theorem dinv_at12 : (arr S20480x1 (Wa12 m ρ c main_v14)) = Cert.Spec.kDinv (m ((c : Thread nD τ).loc main_arg1)) :=
  (Wa12_keep m ρ c main_v14 (by decide)).trans <| (Wa11_keep m ρ c main_v14 (by decide)).trans <| (Wa10_keep m ρ c main_v14 (by decide)).trans <| (Wa9_keep m ρ c main_v14 (by decide)).trans <| dinv_at8 hfin m ρ c
theorem h_at7 : (arr S20000x128 (Wa7 m ρ c main_v6)) = Cert.Spec.kH (m ((c : Thread nD τ).loc main_arg0)) (m ((c : Thread nD τ).loc main_arg3)) :=
  (Wa7_keep m ρ c main_v6 (by decide)).trans <| (Wa6_keep m ρ c main_v6 (by decide)).trans <| (Wa5_keep m ρ c main_v6 (by decide)).trans <| (Wa4_keep m ρ c main_v6 (by decide)).trans <| (Wa3_keep m ρ c main_v6 (by decide)).trans <| h_eq hfin m ρ c
theorem h_at12 : (arr S20000x128 (Wa12 m ρ c main_v6)) = Cert.Spec.kH (m ((c : Thread nD τ).loc main_arg0)) (m ((c : Thread nD τ).loc main_arg3)) :=
  (Wa12_keep m ρ c main_v6 (by decide)).trans <| (Wa11_keep m ρ c main_v6 (by decide)).trans <| (Wa10_keep m ρ c main_v6 (by decide)).trans <| (Wa9_keep m ρ c main_v6 (by decide)).trans <| (Wa8_keep m ρ c main_v6 (by decide)).trans <| h_at7 hfin m ρ c
theorem hpad_at8 : (arr S20480x128 (Wa8 m ρ c main_v15)) = Cert.Spec.padRows (Cert.Spec.kH (m ((c : Thread nD τ).loc main_arg0)) (m ((c : Thread nD τ).loc main_arg3))) :=
  (rd2_3_v15 (Wa7 m ρ c) (rd2_2_c (Wa6 m ρ c))).trans (congrArg Cert.Spec.padRows (h_at7 hfin m ρ c))
theorem g_at9 : (arr S20480x128 (Wa9 m ρ c main_v17)) = Cert.Spec.kG (m ((c : Thread nD τ).loc main_arg0)) (m ((c : Thread nD τ).loc main_arg1)) (m ((c : Thread nD τ).loc main_arg3)) := by
  refine (rd2_4_v17 (Wa8 m ρ c)).trans ?_
  refine funext fun (j : S20480x128.Idx) => ?_
  rw [hpad_at8 hfin m ρ c, dinv_at8 hfin m ρ c]
  rfl
theorem grow_at10 : (arr S640000x128 (Wa10 m ρ c main_v19)) = Cert.Spec.kGRow (m ((c : Thread nD τ).loc main_arg0)) (m ((c : Thread nD τ).loc main_arg1)) (m ((c : Thread nD τ).loc main_arg3)) := by
  refine (Wa10_out m ρ c).trans ((hfin.f2 (En9 m ρ) c).trans ?_)
  show Cert.Spec.gatherArr (E := 640000) (Np := 20480) (H := 128) (wrd S640000x1 (Wa9 m ρ c main_v18)) (arr S20480x128 (Wa9 m ρ c main_v17)) = _
  rw [rd2_4_v18 (Wa8 m ρ c), Wa8_keep m ρ c main_v1 (by decide), Wa7_keep m ρ c main_v1 (by decide), Wa6_keep m ρ c main_v1 (by decide), Wa5_keep m ρ c main_v1 (by decide), Wa4_keep m ρ c main_v1 (by decide), Wa3_keep m ρ c main_v1 (by decide), Wa2_keep m ρ c main_v1 (by decide), rd0_v1 (Wa0 m ρ c), g_at9 hfin m ρ c]
  rfl
theorem raw_at12 : (arr S20480x128 (Wa12 m ρ c main_v21)) = Cert.Spec.kRaw (m ((c : Thread nD τ).loc main_arg0)) (m ((c : Thread nD τ).loc main_arg1)) (m ((c : Thread nD τ).loc main_arg3)) := by
  refine (Wa12_out m ρ c).trans ((hfin.f3 (En11 m ρ) c).trans ?_)
  show Cert.Spec.scatterArr (E := 640000) (Np := 20480) (H := 128) (wrd S1x640000 (Wa11 m ρ c main_v20)) (arr S640000x128 (Wa11 m ρ c main_v19)) = _
  rw [rd3_v20 (Wa10 m ρ c), Wa10_keep m ρ c main_v3 (by decide), Wa9_keep m ρ c main_v3 (by decide), Wa8_keep m ρ c main_v3 (by decide), Wa7_keep m ρ c main_v3 (by decide), Wa6_keep m ρ c main_v3 (by decide), Wa5_keep m ρ c main_v3 (by decide), Wa4_keep m ρ c main_v3 (by decide), Wa3_keep m ρ c main_v3 (by decide), Wa2_keep m ρ c main_v3 (by decide), rd0_v3 (Wa0 m ρ c), Wa11_keep m ρ c main_v19 (by decide), grow_at10 hfin m ρ c]
  rfl
end Chain2
theorem gcn_eq (hfin : Finals) (m : (ℓ : Loc nD τ sig) → Buf (Elt Ideal) ℓ) (ρ : Dev nD → PrngReg) (c : Dev nD) :
    (Wa14 (F := Ideal) m ρ c main_v33 : S20000x128.Idx → EReal)
      = Cert.Spec.kGcn (m ((c : Thread nD τ).loc main_arg0)) (m ((c : Thread nD τ).loc main_arg1)) (m ((c : Thread nD τ).loc main_arg3)) (m ((c : Thread nD τ).loc main_arg4)) := by
  refine (rd4_1_v33 (Wa13 m ρ c)).trans ?_
  refine funext fun (j : S20000x128.Idx) => ?_
  show max ((arr S20000x128 (Wa13 m ρ c main_v32)) j) 0 = _
  rw [show (arr S20000x128 (Wa13 m ρ c main_v32)) = _ from rd4_v32 (Wa12 m ρ c)]
  rw [raw_at12 hfin m ρ c, dinv_at12 hfin m ρ c, h_at12 hfin m ρ c, Wa12_keep m ρ c main_arg4 (by decide), Wa11_keep m ρ c main_arg4 (by decide), Wa10_keep m ρ c main_arg4 (by decide), Wa9_keep m ρ c main_arg4 (by decide), Wa8_keep m ρ c main_arg4 (by decide), Wa7_keep m ρ c main_arg4 (by decide), Wa6_keep m ρ c main_arg4 (by decide), Wa5_keep m ρ c main_arg4 (by decide), Wa4_keep m ρ c main_arg4 (by decide), Wa3_keep m ρ c main_arg4 (by decide), Wa2_keep m ρ c main_arg4 (by decide), Wa1_keep m ρ c main_arg4 (by decide)]
  rfl
end Cert.KernelIdeal.Hand
end
-- ==== Proof.KI.ValueB.lean ====
import proofs.«427224_j39238821216992_2_alg».proof.Proof.KI.Run
import proofs.«427224_j39238821216992_2_alg».proof.Proof.KI.Finals
import proofs.«427224_j39238821216992_2_alg».proof.Proof.SpecMain
import Idealize.ShloMosaic.Lib.IdealHost
import Idealize.ShloMosaic.Lib.KernelVsHost
set_option maxRecDepth 16384
noncomputable section
namespace Cert.KernelIdeal.Hand
open Idealize.ShloMosaic Idealize.ShloMosaic.TcCoe Idealize.ShloMosaic.ValueIdx
open Idealize.SL Idealize.SL.Sem
open Cert.KernelIdeal Cert.KernelIdeal.Gen
open scoped BigOperators
theorem pad_rows_eq (x : S20000x128.Idx → EReal) (v : S_.Idx → EReal) (hv : v (Shape.Idx.first h_S_) = 0) :
    (pad S20480x128 ![0, 0] ![480, 0] ![0, 0] x v pads_S20000x128_S20480x128_04800_000 h_S_ : S20480x128.Idx → EReal)
      = Cert.Spec.padRows x := by
  funext j
  unfold Cert.Spec.padRows
  by_cases h : (j 0).val < 20000
  · rw [dif_pos h]
    refine pad_apply_of_inside _ _ _ x v _ _ j (ix2 (⟨(j 0).val, h⟩ : Fin 20000) (j 1)) fun a => ?_
    match a with
    | ⟨0, _⟩ => show (j 0).val = 0 + (j 0).val * (0 + 1); omega
    | ⟨1, _⟩ => show (j 1).val = 0 + (j 1).val * (0 + 1); omega
  · rw [dif_neg h, pad_apply_of_not_inside _ _ _ x v _ _ j (0 : Fin 2) (fun hin => h (by
      have := hin.2.2
      have e : ((j 0).val - 0) / (0 + 1) < 20000 := this
      omega)), hv]
theorem v1_eq (W : Valuation τ sig (Elt Ideal)) :
    (StableHlo.after (hostOps0 (F := Ideal)) W (Proc.devRef .tc main_v1) : S640000.Idx → BitVec 32)
      = fun e => (W (Proc.devRef .tc main_arg1) : S2x640000.Idx → BitVec 32) (ix2 (0 : Fin 2) (e 0)) := by
  after_results
  funext e
  show shapeCast S640000 (extractStridedSlice S1x640000 ![0, 0] (W (Proc.devRef .tc main_arg1) : S2x640000.Idx → BitVec 32) slices_S2x640000_S1x640000_0_0)
      shapeCasts_S1x640000_S640000 e = _
  rw [shapeCast_apply _ shapeCasts_S1x640000_S640000 e (ix2 (0 : Fin 1) (e 0)) (by
    rw [Shape.rowMajor_val_two, Shape.rowMajor_val_one]; show (0 : Nat) * 640000 + (e 0).val = (e 0).val; omega)]
  exact extractStridedSlice_apply _ _ _ _ (ix2 (0 : Fin 2) (e 0)) fun a => by
    match a with
    | ⟨0, _⟩ => rfl
    | ⟨1, _⟩ => show (e 0).val = 0 + (e 0).val; omega
theorem v3_eq (W : Valuation τ sig (Elt Ideal)) :
    (StableHlo.after (hostOps0 (F := Ideal)) W (Proc.devRef .tc main_v3) : S640000.Idx → BitVec 32)
      = fun e => (W (Proc.devRef .tc main_arg1) : S2x640000.Idx → BitVec 32) (ix2 (1 : Fin 2) (e 0)) := by
  after_results
  funext e
  show shapeCast S640000 (extractStridedSlice S1x640000 ![1, 0] (W (Proc.devRef .tc main_arg1) : S2x640000.Idx → BitVec 32) slices_S2x640000_S1x640000_1_0)
      shapeCasts_S1x640000_S640000 e = _
  rw [shapeCast_apply _ shapeCasts_S1x640000_S640000 e (ix2 (0 : Fin 1) (e 0)) (by
    rw [Shape.rowMajor_val_two, Shape.rowMajor_val_one]; show (0 : Nat) * 640000 + (e 0).val = (e 0).val; omega)]
  exact extractStridedSlice_apply _ _ _ _ (ix2 (1 : Fin 2) (e 0)) fun a => by
    match a with
    | ⟨0, _⟩ => rfl
    | ⟨1, _⟩ => show (e 0).val = 0 + (e 0).val; omega
theorem col_eq (x : S640000.Idx → BitVec 32) :
    shapeCast S640000x1 x shapeCasts_S640000_S640000x1 = fun j => x (ix1 (j 0)) := by
  funext j
  exact shapeCast_apply _ _ j (ix1 (j 0)) (by
    rw [Shape.rowMajor_val_two, Shape.rowMajor_val_one]
    have : (j 1).val < 1 := (j 1).isLt
    show (j 0).val = (j 0).val * 1 + (j 1).val; omega)
/-- A vector as one row. -/
theorem row_eq {α : Type} {n : ℕ} (x : Shape.Idx ⟨1, ![n]⟩ → α) (h : Shape.ShapeCasts ⟨1, ![n]⟩ ⟨2, ![1, n]⟩) :
    shapeCast ⟨2, ![1, n]⟩ x h = fun j => x (ix1 (j 1)) := by
  funext j
  exact shapeCast_apply _ _ j (ix1 (j 1)) (by
    rw [Shape.rowMajor_val_two, Shape.rowMajor_val_one, show (j 0).val = 0 from Nat.lt_one_iff.mp (j 0).isLt]
    show (j 1).val = 0 * n + (j 1).val; omega)
theorem v35_eq (W : Valuation τ sig (Elt Ideal)) :
    (StableHlo.after (hostOps4_4 (F := Ideal)) W (Proc.devRef .tc main_v35) : S640000x1.Idx → BitVec 32)
      = fun j => (W (Proc.devRef .tc main_v1) : S640000.Idx → BitVec 32) (ix1 (j 0)) := by
  after_results
  exact col_eq _
theorem v37_eq (W : Valuation τ sig (Elt Ideal)) :
    (StableHlo.after (hostOps5 (F := Ideal)) W (Proc.devRef .tc main_v37) : S1x640000.Idx → BitVec 32)
      = fun j => (W (Proc.devRef .tc main_v3) : S640000.Idx → BitVec 32) (ix1 (j 1)) := by
  after_results
  exact row_eq _ _
theorem v45_eq (W : Valuation τ sig (Elt Ideal)) :
    (StableHlo.after (hostOps6 (F := Ideal)) W (Proc.devRef .tc main_v45) : S1x128.Idx → EReal)
      = fun j => (W (Proc.devRef .tc main_arg7) : S128.Idx → EReal) (ix1 (j 1)) := by
  after_results
  exact row_eq _ _
theorem v51_eq (W : Valuation τ sig (Elt Ideal)) :
    (StableHlo.after (hostOps8 (F := Ideal)) W (Proc.devRef .tc main_v51) : S1x128.Idx → EReal)
      = fun j => (W (Proc.devRef .tc main_arg9) : S128.Idx → EReal) (ix1 (j 1)) := by
  after_results
  exact row_eq _ _
theorem v53_eq (W : Valuation τ sig (Elt Ideal)) :
    (StableHlo.after (hostOps9 (F := Ideal)) W (Proc.devRef .tc main_v53) : S1x3.Idx → EReal)
      = fun j => (W (Proc.devRef .tc main_arg11) : S3.Idx → EReal) (ix1 (j 1)) := by
  after_results
  exact row_eq _ _
theorem v34_eq (W : Valuation τ sig (Elt Ideal)) :
    (StableHlo.after (hostOps4_3 (F := Ideal)) (StableHlo.after (hostOps4_2 (F := Ideal)) W) (Proc.devRef .tc main_v34) : S20480x128.Idx → EReal)
      = Cert.Spec.padRows (W (Proc.devRef .tc main_v33) : S20000x128.Idx → EReal) := by
  after_results
  refine pad_rows_eq _ _ ?_
  exact sitofp_zero (φ := .f32)
theorem v48_eq (W : Valuation τ sig (Elt Ideal)) :
    (StableHlo.after (hostOps7_3 (F := Ideal)) (StableHlo.after (hostOps7_2 (F := Ideal)) W) (Proc.devRef .tc main_v48) : S20480x128.Idx → EReal)
      = Cert.Spec.padRows (W (Proc.devRef .tc main_v46) : S20000x128.Idx → EReal) := by
  after_results
  refine pad_rows_eq _ _ ?_
  exact sitofp_zero (φ := .f32)
theorem v47_eq (W : Valuation τ sig (Elt Ideal)) :
    (StableHlo.after (hostOps7_1 (F := Ideal)) (StableHlo.after (hostOps7 (F := Ideal)) W) (Proc.devRef .tc main_v47) : S20480.Idx → BitVec 32)
      = fun j => if h : (j 0).val < 20000 then (W (Proc.devRef .tc main_arg2) : S20000.Idx → BitVec 32) (ix1 (⟨(j 0).val, h⟩ : Fin 20000)) else 0xFFFFFFFF#32 := by
  after_results
  refine funext fun (j : S20480.Idx) => ?_
  show pad S20480 ![0] ![480] ![0] (W (Proc.devRef .tc main_arg2) : S20000.Idx → BitVec 32) (constantI S_ 32 4294967295#32) pads_S20000_S20480_04800 h_S_ j
    = if h : (j 0).val < 20000 then (W (Proc.devRef .tc main_arg2) : S20000.Idx → BitVec 32) (ix1 (⟨(j 0).val, h⟩ : Fin 20000)) else 0xFFFFFFFF#32
  by_cases h : (j 0).val < 20000
  · rw [dif_pos h]
    refine pad_apply_of_inside _ _ _ _ _ _ _ j (ix1 (⟨(j 0).val, h⟩ : Fin 20000)) fun a => ?_
    match a with
    | ⟨0, _⟩ => show (j 0).val = 0 + (j 0).val * (0 + 1); omega
  · rw [dif_neg h, pad_apply_of_not_inside (s := S20000) (t := S20480) _ _ _ _ _ _ _ j (0 : Fin 1) (fun hin => h (by
      have e : ((j 0).val - 0) / (0 + 1) < 20000 := hin.2.2
      omega))]
    rfl
theorem v49_eq (W : Valuation τ sig (Elt Ideal)) :
    (StableHlo.after (hostOps7_4 (F := Ideal)) W (Proc.devRef .tc main_v49) : S1x20480.Idx → BitVec 32)
      = fun j => (W (Proc.devRef .tc main_v47) : S20480.Idx → BitVec 32) (ix1 (j 1)) := by
  after_results
  exact row_eq _ _
theorem v44_eq (W : Valuation τ sig (Elt Ideal)) :
    (StableHlo.after (hostOps6 (F := Ideal)) W (Proc.devRef .tc main_v44) : S20000x128.Idx → EReal)
      = fun j => Ideal.div ((W (Proc.devRef .tc main_v38) : S20480x128.Idx → EReal) (ix2 (Cert.Spec.pad (j 0)) (j 1)))
          (max ((W (Proc.devRef .tc main_v8) : S20480x1.Idx → EReal) (ix2 (Cert.Spec.pad (j 0)) (0 : Fin 1))) 1) := by
  after_results
  refine funext fun (j : S20000x128.Idx) => ?_
  obtain ⟨a, b, rfl⟩ : ∃ (a : Fin 20000) (b : Fin 128), j = ix2 a b := ⟨j 0, j 1, eq_ix2 j⟩
  show Ideal.div (extractStridedSlice S20000x128 ![0, 0] (W (Proc.devRef .tc main_v38) : S20480x128.Idx → EReal) slices_S20480x128_S20000x128_0_0 (ix2 a b))
      (broadcastInDim S20000x128 ![0, 1] bcast_S20000x1_S20000x128_0_1
        (maximumf (F := Ideal) (extractStridedSlice S20000x1 ![0, 0] (W (Proc.devRef .tc main_v8) : S20480x1.Idx → EReal) slices_S20480x1_S20000x1_0_0)
          (broadcastInDim S20000x1 ![] bcast_S_S20000x1 (constant (F := Ideal) S_ .f32 0x3F800000#32))) (ix2 a b))
    = Ideal.div ((W (Proc.devRef .tc main_v38) : S20480x128.Idx → EReal) (ix2 (Cert.Spec.pad a) b))
        (max ((W (Proc.devRef .tc main_v8) : S20480x1.Idx → EReal) (ix2 (Cert.Spec.pad a) (0 : Fin 1))) 1)
  rw [extractStridedSlice_apply _ _ slices_S20480x128_S20000x128_0_0 (ix2 a b) (ix2 (Cert.Spec.pad a) b) (fun ax => by
      match ax with
      | ⟨0, _⟩ => show a.val = 0 + a.val; omega
      | ⟨1, _⟩ => show b.val = 0 + b.val; omega),
    broadcastInDim_apply ![0, 1] bcast_S20000x1_S20000x128_0_1 _ (ix2 a b) (ix2 a (0 : Fin 1)) (fun ax => by
      match ax with
      | ⟨0, _⟩ => rfl
      | ⟨1, _⟩ => rfl),
    maximumf_apply,
    extractStridedSlice_apply _ _ slices_S20480x1_S20000x1_0_0 (ix2 a (0 : Fin 1)) (ix2 (Cert.Spec.pad a) (0 : Fin 1)) (fun ax => by
      match ax with
      | ⟨0, _⟩ => show a.val = 0 + a.val; omega
      | ⟨1, _⟩ => rfl),
    broadcastInDim_scalar_apply, constant_apply, Ideal.ofBits_one_f32]
section Chain
variable (m : (ℓ : Loc nD τ sig) → Buf (Elt Ideal) ℓ) (ρ : Dev nD → PrngReg) (c : Dev nD)
/-- Buffer `r` of core `c` in the initial memory. -/
abbrev arg (r : Ref sig .tc) := m ((c : Thread nD τ).loc r)
variable (hfin : Finals)
  (hcnt : (Wa4 (F := Ideal) m ρ c main_v8 : S20480x1.Idx → EReal) = Cert.Spec.kCnt (arg m c main_arg1))
  (hgcn : (Wa14 (F := Ideal) m ρ c main_v33 : S20000x128.Idx → EReal) = Cert.Spec.kGcn (arg m c main_arg0) (arg m c main_arg1) (arg m c main_arg3) (arg m c main_arg4))
/-! ### A buffer no item writes holds, from the twentieth boundary on, its initial contents -/
section Kept
variable (r : Ref sig .tc) (h : r ∉ written)
include h
theorem kept31 : Wa31 (F := Ideal) m ρ c r = arg m c r :=
  (Wa32_keep m ρ c r (by rintro rfl; exact h (by decide))).symm.trans (Wa32_unwritten m ρ c r h)
theorem kept30 : Wa30 (F := Ideal) m ρ c r = arg m c r :=
  (Wa31_keep m ρ c r fun hm => h ((by decide : hostOps9_W ⊆ written) hm)).symm.trans (kept31 m ρ c r h)
theorem kept29 : Wa29 (F := Ideal) m ρ c r = arg m c r :=
  (Wa30_keep m ρ c r (by rintro rfl; exact h (by decide))).symm.trans (kept30 m ρ c r h)
theorem kept28 : Wa28 (F := Ideal) m ρ c r = arg m c r :=
  (Wa29_keep m ρ c r fun hm => h ((by decide : hostOps8_W ⊆ written) hm)).symm.trans (kept29 m ρ c r h)
theorem kept22 : Wa22 (F := Ideal) m ρ c r = arg m c r :=
  (Wa23_keep m ρ c r fun hm => h ((by decide : hostOps7_W ⊆ written) hm)).symm.trans <| (Wa24_keep m ρ c r fun hm => h ((by decide : hostOps7_1_W ⊆ written) hm)).symm.trans <|
    (Wa25_keep m ρ c r fun hm => h ((by decide : hostOps7_2_W ⊆ written) hm)).symm.trans <| (Wa26_keep m ρ c r fun hm => h ((by decide : hostOps7_3_W ⊆ written) hm)).symm.trans <|
    (Wa27_keep m ρ c r fun hm => h ((by decide : hostOps7_4_W ⊆ written) hm)).symm.trans <| (Wa28_keep m ρ c r (by rintro rfl; exact h (by decide))).symm.trans (kept28 m ρ c r h)
theorem kept21 : Wa21 (F := Ideal) m ρ c r = arg m c r :=
  (Wa22_keep m ρ c r (by rintro rfl; exact h (by decide))).symm.trans (kept22 m ρ c r h)
theorem kept20 : Wa20 (F := Ideal) m ρ c r = arg m c r :=
  (Wa21_keep m ρ c r fun hm => h ((by decide : hostOps6_W ⊆ written) hm)).symm.trans (kept21 m ρ c r h)
end Kept
theorem st_v1 : (Wa16 (F := Ideal) m ρ c main_v1 : S640000.Idx → BitVec 32)
    = fun e => ((arg m c main_arg1) : S2x640000.Idx → BitVec 32) (ix2 (0 : Fin 2) (e 0)) :=
  (Wa16_keep m ρ c main_v1 (by decide)).trans <| (Wa15_keep m ρ c main_v1 (by decide)).trans <| (Wa14_keep m ρ c main_v1 (by decide)).trans <| (Wa13_keep m ρ c main_v1 (by decide)).trans <| (Wa12_keep m ρ c main_v1 (by decide)).trans <| (Wa11_keep m ρ c main_v1 (by decide)).trans <| (Wa10_keep m ρ c main_v1 (by decide)).trans <| (Wa9_keep m ρ c main_v1 (by decide)).trans <| (Wa8_keep m ρ c main_v1 (by decide)).trans <| (Wa7_keep m ρ c main_v1 (by decide)).trans <| (Wa6_keep m ρ c main_v1 (by decide)).trans <| (Wa5_keep m ρ c main_v1 (by decide)).trans <| (Wa4_keep m ρ c main_v1 (by decide)).trans <| (Wa3_keep m ρ c main_v1 (by decide)).trans <| (Wa2_keep m ρ c main_v1 (by decide)).trans <| (v1_eq (Wa0 m ρ c)).trans rfl
theorem st_v3 : (Wa18 (F := Ideal) m ρ c main_v3 : S640000.Idx → BitVec 32)
    = fun e => ((arg m c main_arg1) : S2x640000.Idx → BitVec 32) (ix2 (1 : Fin 2) (e 0)) :=
  (Wa18_keep m ρ c main_v3 (by decide)).trans <| (Wa17_keep m ρ c main_v3 (by decide)).trans <| (Wa16_keep m ρ c main_v3 (by decide)).trans <| (Wa15_keep m ρ c main_v3 (by decide)).trans <| (Wa14_keep m ρ c main_v3 (by decide)).trans <| (Wa13_keep m ρ c main_v3 (by decide)).trans <| (Wa12_keep m ρ c main_v3 (by decide)).trans <| (Wa11_keep m ρ c main_v3 (by decide)).trans <| (Wa10_keep m ρ c main_v3 (by decide)).trans <| (Wa9_keep m ρ c main_v3 (by decide)).trans <| (Wa8_keep m ρ c main_v3 (by decide)).trans <| (Wa7_keep m ρ c main_v3 (by decide)).trans <| (Wa6_keep m ρ c main_v3 (by decide)).trans <| (Wa5_keep m ρ c main_v3 (by decide)).trans <| (Wa4_keep m ρ c main_v3 (by decide)).trans <| (Wa3_keep m ρ c main_v3 (by decide)).trans <| (Wa2_keep m ρ c main_v3 (by decide)).trans <| (v3_eq (Wa0 m ρ c)).trans rfl
theorem st_v35 : (Wa17 (F := Ideal) m ρ c main_v35 : S640000x1.Idx → BitVec 32) = Cert.Spec.srcCol (arg m c main_arg1) :=
  (v35_eq (Wa16 m ρ c)).trans
    ((congrArg (fun (x : S640000.Idx → BitVec 32) => fun (j : S640000x1.Idx) => x (ix1 (j 0))) (st_v1 m ρ c)).trans rfl)
theorem st_v37 : (Wa19 (F := Ideal) m ρ c main_v37 : S1x640000.Idx → BitVec 32) = Cert.Spec.tgtRow (arg m c main_arg1) :=
  (v37_eq (Wa18 m ρ c)).trans
    ((congrArg (fun (x : S640000.Idx → BitVec 32) => fun (j : S1x640000.Idx) => x (ix1 (j 1))) (st_v3 m ρ c)).trans rfl)
theorem st_v45 : (Wa21 (F := Ideal) m ρ c main_v45 : S1x128.Idx → EReal) = fun j => (arg m c main_arg7) (ix1 (j 1)) :=
  (v45_eq (Wa20 m ρ c)).trans
    (congrArg (fun (x : S128.Idx → EReal) => fun (j : S1x128.Idx) => x (ix1 (j 1))) (kept20 m ρ c main_arg7 (by decide)))
theorem st_v47 : (Wa24 (F := Ideal) m ρ c main_v47 : S20480.Idx → BitVec 32)
    = fun j => if h : (j 0).val < 20000 then ((arg m c main_arg2) : S20000.Idx → BitVec 32) (ix1 (⟨(j 0).val, h⟩ : Fin 20000)) else 0xFFFFFFFF#32 :=
  (v47_eq (Wa22 m ρ c)).trans
    (congrArg (fun (x : S20000.Idx → BitVec 32) => fun (j : S20480.Idx) =>
      if h : (j 0).val < 20000 then x (ix1 (⟨(j 0).val, h⟩ : Fin 20000)) else 0xFFFFFFFF#32) (kept22 m ρ c main_arg2 (by decide)))
theorem st_v49 : (Wa27 (F := Ideal) m ρ c main_v49 : S1x20480.Idx → BitVec 32) = Cert.Spec.kBtRow (arg m c main_arg2) :=
  (v49_eq (Wa26 m ρ c)).trans
    ((congrArg (fun (x : S20480.Idx → BitVec 32) => fun (j : S1x20480.Idx) => x (ix1 (j 1)))
      ((Wa26_keep m ρ c main_v47 (by decide)).trans <| (Wa25_keep m ρ c main_v47 (by decide)).trans <| st_v47 m ρ c)).trans rfl)
theorem st_v51 : (Wa29 (F := Ideal) m ρ c main_v51 : S1x128.Idx → EReal) = fun j => (arg m c main_arg9) (ix1 (j 1)) :=
  (v51_eq (Wa28 m ρ c)).trans
    (congrArg (fun (x : S128.Idx → EReal) => fun (j : S1x128.Idx) => x (ix1 (j 1))) (kept28 m ρ c main_arg9 (by decide)))
theorem st_v53 : (Wa31 (F := Ideal) m ρ c main_v53 : S1x3.Idx → EReal) = fun j => (arg m c main_arg11) (ix1 (j 1)) :=
  (v53_eq (Wa30 m ρ c)).trans
    (congrArg (fun (x : S3.Idx → EReal) => fun (j : S1x3.Idx) => x (ix1 (j 1))) (kept30 m ρ c main_arg11 (by decide)))
include hcnt in
theorem st_v8 :
    (Wa20 (F := Ideal) m ρ c main_v8 : S20480x1.Idx → EReal) = Cert.Spec.kCnt (arg m c main_arg1) :=
  (Wa20_keep m ρ c main_v8 (by decide)).trans <| (Wa19_keep m ρ c main_v8 (by decide)).trans <| (Wa18_keep m ρ c main_v8 (by decide)).trans <| (Wa17_keep m ρ c main_v8 (by decide)).trans <| (Wa16_keep m ρ c main_v8 (by decide)).trans <| (Wa15_keep m ρ c main_v8 (by decide)).trans <| (Wa14_keep m ρ c main_v8 (by decide)).trans <| (Wa13_keep m ρ c main_v8 (by decide)).trans <| (Wa12_keep m ρ c main_v8 (by decide)).trans <| (Wa11_keep m ρ c main_v8 (by decide)).trans <| (Wa10_keep m ρ c main_v8 (by decide)).trans <| (Wa9_keep m ρ c main_v8 (by decide)).trans <| (Wa8_keep m ρ c main_v8 (by decide)).trans <| (Wa7_keep m ρ c main_v8 (by decide)).trans <| (Wa6_keep m ρ c main_v8 (by decide)).trans <| (Wa5_keep m ρ c main_v8 (by decide)).trans <| hcnt
include hgcn
theorem st_v34 :
    (Wa17 (F := Ideal) m ρ c main_v34 : S20480x128.Idx → EReal) = Cert.Spec.padRows (Cert.Spec.kGcn (arg m c main_arg0) (arg m c main_arg1) (arg m c main_arg3) (arg m c main_arg4)) :=
  (Wa17_keep m ρ c main_v34 (by decide)).trans ((v34_eq (Wa14 m ρ c)).trans (congrArg Cert.Spec.padRows hgcn))
theorem st_v33 :
    (Wa21 (F := Ideal) m ρ c main_v33 : S20000x128.Idx → EReal) = (Cert.Spec.kGcn (arg m c main_arg0) (arg m c main_arg1) (arg m c main_arg3) (arg m c main_arg4)) :=
  (Wa21_keep m ρ c main_v33 (by decide)).trans <| (Wa20_keep m ρ c main_v33 (by decide)).trans <| (Wa19_keep m ρ c main_v33 (by decide)).trans <| (Wa18_keep m ρ c main_v33 (by decide)).trans <| (Wa17_keep m ρ c main_v33 (by decide)).trans <| (Wa16_keep m ρ c main_v33 (by decide)).trans <| (Wa15_keep m ρ c main_v33 (by decide)).trans <| hgcn
include hfin
theorem st_v36 :
    (Wa18 (F := Ideal) m ρ c main_v36 : S640000x128.Idx → EReal) = (Cert.Spec.kGcnRow (arg m c main_arg0) (arg m c main_arg1) (arg m c main_arg3) (arg m c main_arg4)) :=
  (Wa18_out m ρ c).trans ((hfin.f4 (En17 m ρ) c).trans
    (congrArg₂ (Cert.Spec.gatherArr (E := 640000) (Np := 20480) (H := 128)) (st_v35 m ρ c) (st_v34 m ρ c hgcn)))
theorem st_v38 :
    (Wa20 (F := Ideal) m ρ c main_v38 : S20480x128.Idx → EReal) = (Cert.Spec.kNsum (arg m c main_arg0) (arg m c main_arg1) (arg m c main_arg3) (arg m c main_arg4)) :=
  (Wa20_out m ρ c).trans ((hfin.f5 (En19 m ρ) c).trans
    (congrArg₂ (Cert.Spec.scatterArr (E := 640000) (Np := 20480) (H := 128)) (st_v37 m ρ c)
      ((Wa19_keep m ρ c main_v36 (by decide)).trans (st_v36 m ρ c hfin hgcn))))
include hcnt
theorem st_v44 :
    (Wa21 (F := Ideal) m ρ c main_v44 : S20000x128.Idx → EReal) = (Cert.Spec.kNeigh (arg m c main_arg0) (arg m c main_arg1) (arg m c main_arg3) (arg m c main_arg4)) :=
  (v44_eq (Wa20 m ρ c)).trans
    (congrArg₂ (fun (a : S20480x128.Idx → EReal) (b : S20480x1.Idx → EReal) => fun (j : S20000x128.Idx) =>
        Ideal.div (a (ix2 (Cert.Spec.pad (j 0)) (j 1))) (max (b (ix2 (Cert.Spec.pad (j 0)) (0 : Fin 1))) 1))
      (st_v38 m ρ c hfin hgcn) (st_v8 m ρ c hcnt))
theorem st_v46 :
    (Wa22 (F := Ideal) m ρ c main_v46 : S20000x128.Idx → EReal) = (Cert.Spec.kSage (arg m c main_arg0) (arg m c main_arg1) (arg m c main_arg3) (arg m c main_arg4) (arg m c main_arg5) (arg m c main_arg6) (arg m c main_arg7)) :=
  (Wa22_out m ρ c).trans ((hfin.f6 (En21 m ρ) c).trans
    (congr (congr (congr (congr (congrArg Cert.Spec.sageArr (st_v44 m ρ c hfin hcnt hgcn)) (st_v33 m ρ c hgcn)) (kept21 m ρ c main_arg5 (by decide))) (kept21 m ρ c main_arg6 (by decide))) (st_v45 m ρ c)))
theorem st_v48 :
    (Wa27 (F := Ideal) m ρ c main_v48 : S20480x128.Idx → EReal) = Cert.Spec.padRows (Cert.Spec.kSage (arg m c main_arg0) (arg m c main_arg1) (arg m c main_arg3) (arg m c main_arg4) (arg m c main_arg5) (arg m c main_arg6) (arg m c main_arg7)) :=
  (Wa27_keep m ρ c main_v48 (by decide)).trans ((v48_eq (Wa24 m ρ c)).trans (congrArg Cert.Spec.padRows
    ((Wa24_keep m ρ c main_v46 (by decide)).trans <| (Wa23_keep m ρ c main_v46 (by decide)).trans <| st_v46 m ρ c hfin hcnt hgcn)))
theorem st_v50 :
    (Wa28 (F := Ideal) m ρ c main_v50 : S32x128.Idx → EReal) = (Cert.Spec.kPooled (arg m c main_arg0) (arg m c main_arg1) (arg m c main_arg2) (arg m c main_arg3) (arg m c main_arg4) (arg m c main_arg5) (arg m c main_arg6) (arg m c main_arg7)) :=
  (Wa28_out m ρ c).trans ((hfin.f7 (En27 m ρ) c).trans
    (congrArg₂ (Cert.Spec.scatterArr (E := 20480) (Np := 32) (H := 128)) (st_v49 m ρ c) (st_v48 m ρ c hfin hcnt hgcn)))
theorem st_v52 :
    (Wa30 (F := Ideal) m ρ c main_v52 : S32x128.Idx → EReal) = (Cert.Spec.kHid (arg m c main_arg0) (arg m c main_arg1) (arg m c main_arg2) (arg m c main_arg3) (arg m c main_arg4) (arg m c main_arg5) (arg m c main_arg6) (arg m c main_arg7) (arg m c main_arg8) (arg m c main_arg9)) :=
  (Wa30_out m ρ c).trans ((hfin.f8 (En29 m ρ) c).trans
    (congr (congr (congrArg Cert.Spec.denseReluArr ((Wa29_keep m ρ c main_v50 (by decide)).trans (st_v50 m ρ c hfin hcnt hgcn))) (kept29 m ρ c main_arg8 (by decide))) (st_v51 m ρ c)))
end Chain
theorem result_of (hfin : Finals) (m : (ℓ : Loc nD τ sig) → Buf (Elt Ideal) ℓ) (ρ : Dev nD → PrngReg) (c : Dev nD)
    (hcnt : (Wa4 (F := Ideal) m ρ c main_v8 : S20480x1.Idx → EReal) = Cert.Spec.kCnt (m ((c : Thread nD τ).loc main_arg1)))
    (hgcn : (Wa14 (F := Ideal) m ρ c main_v33 : S20000x128.Idx → EReal) = (Cert.Spec.kGcn (m ((c : Thread nD τ).loc main_arg0)) (m ((c : Thread nD τ).loc main_arg1)) (m ((c : Thread nD τ).loc main_arg3)) (m ((c : Thread nD τ).loc main_arg4)))) :
    (Wa32 (F := Ideal) m ρ c main_v54 : S32x3.Idx → EReal)
      = Cert.Spec.KSpec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (Wa32_out m ρ c).trans ((hfin.f9 (En31 m ρ) c).trans
    (congr (congr (congrArg Cert.Spec.denseArr ((Wa31_keep m ρ c main_v52 (by decide)).trans (st_v52 m ρ c hfin hcnt hgcn))) (kept31 m ρ c main_arg10 (by decide))) (st_v53 m ρ c)))
end Cert.KernelIdeal.Hand
end
-- ==== Proof.RefRead.lean ====
import proofs.«427224_j39238821216992_2_alg».proof.Proof.RefRun
import Idealize.ShloMosaic.Lib.Pipeline.Value
import Idealize.ShloMosaic.Lib.ValueIdx
import Idealize.ShloMosaic.PureOps.Ideal.Laws
noncomputable section
namespace Cert.ReferenceIdeal.ReadP
open Cert.ReferenceIdeal Cert.ReferenceIdeal.Gen Idealize.ShloMosaic Idealize.ShloMosaic.TcCoe Idealize.SL.Sem Idealize.ShloMosaic.StableHlo
variable {F : FTy → Type} [FloatOps F]
def val_main_v0 (x1 : (⟨S2x640000, .i32⟩ : BufTy).Contents (Elt F)) : (⟨S1x640000, .i32⟩ : BufTy).Contents (Elt F) :=
  extractStridedSlice S1x640000 ![0, 0] (x1) slices_S2x640000_S1x640000_0_0
abbrev idx_main_v0 (i : S1x640000.Idx) : S2x640000.Idx := fun a => match a with
  | ⟨0, _⟩ => ⟨(i 0).val, by have h0 : (i 0).val < 1 := (i 0).isLt; show (i 0).val < 2; omega⟩
  | ⟨1, _⟩ => ⟨(i 1).val, (i 1).isLt⟩
theorem val_main_v0_apply (x1 : (⟨S2x640000, .i32⟩ : BufTy).Contents (Elt F)) (i : S1x640000.Idx) :
    val_main_v0 (F := F) x1 i = x1 (idx_main_v0 i) := by
  unfold val_main_v0
  exact extractStridedSlice_apply ![0, 0] x1 slices_S2x640000_S1x640000_0_0 i (idx_main_v0 i) (fun a => match a with
    | ⟨0, _⟩ => by show (i 0).val = 0 + (i 0).val; omega
    | ⟨1, _⟩ => by show (i 1).val = 0 + (i 1).val; omega)
def val_main_v1 (x1 : (⟨S2x640000, .i32⟩ : BufTy).Contents (Elt F)) : (⟨S640000, .i32⟩ : BufTy).Contents (Elt F) :=
  shapeCast _ (val_main_v0 (F := F) x1) shapeCasts_S1x640000_S640000
abbrev idx_main_v1 (i : S640000.Idx) : S1x640000.Idx := fun a => match a with
  | ⟨0, _⟩ => ⟨0, Nat.one_pos⟩
  | ⟨1, _⟩ => ⟨((i 0).val) % 640000, by have h0 : (i 0).val < 640000 := (i 0).isLt; show ((i 0).val) % 640000 < 640000; omega⟩
theorem val_main_v1_apply (x1 : (⟨S2x640000, .i32⟩ : BufTy).Contents (Elt F)) (i : S640000.Idx) :
    val_main_v1 (F := F) x1 i = val_main_v0 (F := F) x1 (idx_main_v1 i) := by
  unfold val_main_v1
  generalize val_main_v0 (F := F) x1 = y
  exact shapeCast_apply y shapeCasts_S1x640000_S640000 i (idx_main_v1 i)
    (by rewrite [Shape.rowMajor_val_two, Shape.rowMajor_val_one]; have h0 : (i 0).val < 640000 := (i 0).isLt; show 0 * 640000 + ((i 0).val) % 640000 = (i 0).val; omega)
def val_main_v2 (x1 : (⟨S2x640000, .i32⟩ : BufTy).Contents (Elt F)) : (⟨S1x640000, .i32⟩ : BufTy).Contents (Elt F) :=
  extractStridedSlice S1x640000 ![1, 0] (x1) slices_S2x640000_S1x640000_1_0
abbrev idx_main_v2 (i : S1x640000.Idx) : S2x640000.Idx := fun a => match a with
  | ⟨0, _⟩ => ⟨1 + (i 0).val, by have h0 : (i 0).val < 1 := (i 0).isLt; show 1 + (i 0).val < 2; omega⟩
  | ⟨1, _⟩ => ⟨(i 1).val, (i 1).isLt⟩
theorem val_main_v2_apply (x1 : (⟨S2x640000, .i32⟩ : BufTy).Contents (Elt F)) (i : S1x640000.Idx) :
    val_main_v2 (F := F) x1 i = x1 (idx_main_v2 i) := by
  unfold val_main_v2
  exact extractStridedSlice_apply ![1, 0] x1 slices_S2x640000_S1x640000_1_0 i (idx_main_v2 i) (fun a => match a with
    | ⟨0, _⟩ => by show 1 + (i 0).val = 1 + (i 0).val; omega
    | ⟨1, _⟩ => by show (i 1).val = 0 + (i 1).val; omega)
def val_main_v3 (x1 : (⟨S2x640000, .i32⟩ : BufTy).Contents (Elt F)) : (⟨S640000, .i32⟩ : BufTy).Contents (Elt F) :=
  shapeCast _ (val_main_v2 (F := F) x1) shapeCasts_S1x640000_S640000
abbrev idx_main_v3 (i : S640000.Idx) : S1x640000.Idx := fun a => match a with
  | ⟨0, _⟩ => ⟨0, Nat.one_pos⟩
  | ⟨1, _⟩ => ⟨((i 0).val) % 640000, by have h0 : (i 0).val < 640000 := (i 0).isLt; show ((i 0).val) % 640000 < 640000; omega⟩
theorem val_main_v3_apply (x1 : (⟨S2x640000, .i32⟩ : BufTy).Contents (Elt F)) (i : S640000.Idx) :
    val_main_v3 (F := F) x1 i = val_main_v2 (F := F) x1 (idx_main_v3 i) := by
  unfold val_main_v3
  generalize val_main_v2 (F := F) x1 = y
  exact shapeCast_apply y shapeCasts_S1x640000_S640000 i (idx_main_v3 i)
    (by rewrite [Shape.rowMajor_val_two, Shape.rowMajor_val_one]; have h0 : (i 0).val < 640000 := (i 0).isLt; show 0 * 640000 + ((i 0).val) % 640000 = (i 0).val; omega)
def val_main_v4 (x0 : (⟨S20000x128, .f32⟩ : BufTy).Contents (Elt F)) (x3 : (⟨S128x128, .f32⟩ : BufTy).Contents (Elt F)) : (⟨S20000x128, .f32⟩ : BufTy).Contents (Elt F) :=
  Host.dotGeneral dot_S20000x128_S128x128_S20000x128_1_0_0_1_n_n none (x0) (x3)
theorem lhs_main_v4_0 (i : S20000x128.Idx) (q : dot_S20000x128_S128x128_S20000x128_1_0_0_1_n_n.contr.Idx) :
    (dot_S20000x128_S128x128_S20000x128_1_0_0_1_n_n.lhsIdx i q 0).val = (i 0).val := by
  unfold DotDims.lhsIdx
  rw [dif_neg (show ¬(0 : Fin S20000x128.rank) ∈ dot_S20000x128_S128x128_S20000x128_1_0_0_1_n_n.lhsBatch by decide), dif_pos (show (0 : Fin S20000x128.rank) ∈ dot_S20000x128_S128x128_S20000x128_1_0_0_1_n_n.lhsNonContracting by decide)]
  rfl
theorem lhs_main_v4_1 (i : S20000x128.Idx) (q : dot_S20000x128_S128x128_S20000x128_1_0_0_1_n_n.contr.Idx) :
    (dot_S20000x128_S128x128_S20000x128_1_0_0_1_n_n.lhsIdx i q 1).val = (q ⟨0, by decide⟩).val :=
  dot_S20000x128_S128x128_S20000x128_1_0_0_1_n_n.lhsIdx_val_of_single rfl i q
theorem rhs_main_v4_0 (i : S20000x128.Idx) (q : dot_S20000x128_S128x128_S20000x128_1_0_0_1_n_n.contr.Idx) :
    (dot_S20000x128_S128x128_S20000x128_1_0_0_1_n_n.rhsIdx i q 0).val = (q ⟨0, by decide⟩).val :=
  dot_S20000x128_S128x128_S20000x128_1_0_0_1_n_n.rhsIdx_val_of_single rfl i q
theorem rhs_main_v4_1 (i : S20000x128.Idx) (q : dot_S20000x128_S128x128_S20000x128_1_0_0_1_n_n.contr.Idx) :
    (dot_S20000x128_S128x128_S20000x128_1_0_0_1_n_n.rhsIdx i q 1).val = (i 1).val := by
  unfold DotDims.rhsIdx
  rw [dif_neg (show ¬(1 : Fin S128x128.rank) ∈ dot_S20000x128_S128x128_S20000x128_1_0_0_1_n_n.rhsBatch by decide), dif_pos (show (1 : Fin S128x128.rank) ∈ dot_S20000x128_S128x128_S20000x128_1_0_0_1_n_n.rhsNonContracting by decide)]
  rfl
abbrev lidx_main_v4 (i : S20000x128.Idx) (k : Fin 128) : S20000x128.Idx := fun a => match a with
  | ⟨0, _⟩ => ⟨(i 0).val, (i 0).isLt⟩
  | ⟨1, _⟩ => ⟨k.val, k.isLt⟩
abbrev ridx_main_v4 (i : S20000x128.Idx) (k : Fin 128) : S128x128.Idx := fun a => match a with
  | ⟨0, _⟩ => ⟨k.val, k.isLt⟩
  | ⟨1, _⟩ => ⟨(i 1).val, (i 1).isLt⟩
theorem val_main_v4_apply (x0 : (⟨S20000x128, .f32⟩ : BufTy).Contents (Elt Ideal)) (x3 : (⟨S128x128, .f32⟩ : BufTy).Contents (Elt Ideal)) (i : S20000x128.Idx) :
    val_main_v4 (F := Ideal) x0 x3 i = ∑ k : Fin 128, x0 (lidx_main_v4 i k) * x3 (ridx_main_v4 i k) := by
  unfold val_main_v4
  simp only [Host.dotGeneral]
  rw [Ideal.dotGeneral_apply, ← Equiv.sum_comp (ValueIdx.contrEquiv1 dot_S20000x128_S128x128_S20000x128_1_0_0_1_n_n 128 rfl rfl).symm]
  refine Finset.sum_congr rfl fun k _ => ?_
  have hk := ValueIdx.contrEquiv1_symm_val dot_S20000x128_S128x128_S20000x128_1_0_0_1_n_n 128 rfl rfl k
  have el : dot_S20000x128_S128x128_S20000x128_1_0_0_1_n_n.lhsIdx i ((ValueIdx.contrEquiv1 dot_S20000x128_S128x128_S20000x128_1_0_0_1_n_n 128 rfl rfl).symm k) = lidx_main_v4 i k := funext fun a => Fin.ext (by
    match a with
    | ⟨0, _⟩ => exact lhs_main_v4_0 _ _
    | ⟨1, _⟩ => exact (lhs_main_v4_1 _ _).trans hk)
  have er : dot_S20000x128_S128x128_S20000x128_1_0_0_1_n_n.rhsIdx i ((ValueIdx.contrEquiv1 dot_S20000x128_S128x128_S20000x128_1_0_0_1_n_n 128 rfl rfl).symm k) = ridx_main_v4 i k := funext fun a => Fin.ext (by
    match a with
    | ⟨0, _⟩ => exact (rhs_main_v4_0 _ _).trans hk
    | ⟨1, _⟩ => exact rhs_main_v4_1 _ _)
  rw [el, er]
def val_main_v5 : (⟨S20000, .i32⟩ : BufTy).Contents (Elt F) :=
  iotaInDim S20000 32 0
def val_main_v6 (x1 : (⟨S2x640000, .i32⟩ : BufTy).Contents (Elt F)) : (⟨S660000, .i32⟩ : BufTy).Contents (Elt F) :=
  concatenate S660000 0 [⟨S640000, (val_main_v1 (F := F) x1)⟩, ⟨S20000, (val_main_v5 (F := F))⟩] concatenates_S640000_S20000_S660000_d0
def val_main_v7 (x1 : (⟨S2x640000, .i32⟩ : BufTy).Contents (Elt F)) : (⟨S660000, .i32⟩ : BufTy).Contents (Elt F) :=
  concatenate S660000 0 [⟨S640000, (val_main_v3 (F := F) x1)⟩, ⟨S20000, (val_main_v5 (F := F))⟩] concatenates_S640000_S20000_S660000_d0
def val_main_cst : (⟨S_, .f32⟩ : BufTy).Contents (Elt F) :=
  constant S_ .f32 0x3F800000#32
def val_main_v8 : (⟨S660000, .f32⟩ : BufTy).Contents (Elt F) :=
  broadcastInDim S660000 ![] bcast_S_S660000 (val_main_cst (F := F))
def val_main_cst_0 : (⟨S_, .f32⟩ : BufTy).Contents (Elt F) :=
  constant S_ .f32 0x00000000#32
def val_main_v9 : (⟨S20000, .f32⟩ : BufTy).Contents (Elt F) :=
  broadcastInDim S20000 ![] bcast_S_S20000 (val_main_cst_0 (F := F))
def val_main_v10 (x1 : (⟨S2x640000, .i32⟩ : BufTy).Contents (Elt F)) : (⟨S660000x1, .i32⟩ : BufTy).Contents (Elt F) :=
  broadcastInDim S660000x1 ![0] bcast_S660000_S660000x1_0 (val_main_v7 (F := F) x1)
def val_main_v11 (x1 : (⟨S2x640000, .i32⟩ : BufTy).Contents (Elt F)) : (⟨S20000, .f32⟩ : BufTy).Contents (Elt F) :=
  Host.scatterAdd scatter_S20000_S660000x1_S660000_n_0_0_1 (val_main_v9 (F := F)) (val_main_v10 (F := F) x1) (val_main_v8 (F := F))
def val_main_cst_1 : (⟨S_, .f32⟩ : BufTy).Contents (Elt F) :=
  constant S_ .f32 0x00000000#32
def val_main_v12 : (⟨S20000, .f32⟩ : BufTy).Contents (Elt F) :=
  broadcastInDim S20000 ![] bcast_S_S20000 (val_main_cst_1 (F := F))
def val_main_v13 (x1 : (⟨S2x640000, .i32⟩ : BufTy).Contents (Elt F)) : (⟨S20000, .i1⟩ : BufTy).Contents (Elt F) :=
  cmpf .ogt (val_main_v11 (F := F) x1) (val_main_v12 (F := F))
theorem val_main_v13_apply (x1 : (⟨S2x640000, .i32⟩ : BufTy).Contents (Elt F)) (i : S20000.Idx) :
    val_main_v13 (F := F) x1 i = FloatOps.cmpf .ogt (val_main_v11 (F := F) x1 i) (val_main_v12 (F := F) i) := rfl
def val_main_v14 (x1 : (⟨S2x640000, .i32⟩ : BufTy).Contents (Elt F)) : (⟨S20000, .f32⟩ : BufTy).Contents (Elt F) :=
  Host.rsqrt (val_main_v11 (F := F) x1)
theorem val_main_v14_apply (x1 : (⟨S2x640000, .i32⟩ : BufTy).Contents (Elt F)) (i : S20000.Idx) :
    val_main_v14 (F := F) x1 i = FloatOps.hostUnary .rsqrt (val_main_v11 (F := F) x1 i) := rfl
def val_main_cst_2 : (⟨S_, .f32⟩ : BufTy).Contents (Elt F) :=
  constant S_ .f32 0x00000000#32
def val_main_call0_v0 : (⟨S_, .f32⟩ : BufTy).Contents (Elt F) :=
  id (val_main_cst_2 (F := F))
def val_main_call0_v1 : (⟨S20000, .f32⟩ : BufTy).Contents (Elt F) :=
  broadcastInDim S20000 ![] bcast_S_S20000 (val_main_call0_v0 (F := F))
def val_main_v15 (x1 : (⟨S2x640000, .i32⟩ : BufTy).Contents (Elt F)) : (⟨S20000, .f32⟩ : BufTy).Contents (Elt F) :=
  select (val_main_v13 (F := F) x1) (val_main_v14 (F := F) x1) (val_main_call0_v1 (F := F))
theorem val_main_v15_apply (x1 : (⟨S2x640000, .i32⟩ : BufTy).Contents (Elt F)) (i : S20000.Idx) :
    val_main_v15 (F := F) x1 i = Scalar.select (val_main_v13 (F := F) x1 i) (val_main_v14 (F := F) x1 i) (val_main_call0_v1 (F := F) i) := rfl
def val_main_c : (⟨S_, .i32⟩ : BufTy).Contents (Elt F) :=
  constantI S_ 32 0#32
def val_main_v16 : (⟨S660000, .i32⟩ : BufTy).Contents (Elt F) :=
  broadcastInDim S660000 ![] bcast_S_S660000 (val_main_c (F := F))
def val_main_v17 (x1 : (⟨S2x640000, .i32⟩ : BufTy).Contents (Elt F)) : (⟨S660000, .i1⟩ : BufTy).Contents (Elt F) :=
  cmpi .slt (val_main_v6 (F := F) x1) (val_main_v16 (F := F))
def val_main_c_3 : (⟨S_, .i32⟩ : BufTy).Contents (Elt F) :=
  constantI S_ 32 20000#32
def val_main_v18 : (⟨S660000, .i32⟩ : BufTy).Contents (Elt F) :=
  broadcastInDim S660000 ![] bcast_S_S660000 (val_main_c_3 (F := F))
def val_main_v19 (x1 : (⟨S2x640000, .i32⟩ : BufTy).Contents (Elt F)) : (⟨S660000, .i32⟩ : BufTy).Contents (Elt F) :=
  addi (val_main_v6 (F := F) x1) (val_main_v18 (F := F))
def val_main_v20 (x1 : (⟨S2x640000, .i32⟩ : BufTy).Contents (Elt F)) : (⟨S660000, .i32⟩ : BufTy).Contents (Elt F) :=
  select (val_main_v17 (F := F) x1) (val_main_v19 (F := F) x1) (val_main_v6 (F := F) x1)
def val_main_v21 (x1 : (⟨S2x640000, .i32⟩ : BufTy).Contents (Elt F)) : (⟨S660000x1, .i32⟩ : BufTy).Contents (Elt F) :=
  broadcastInDim S660000x1 ![0] bcast_S660000_S660000x1_0 (val_main_v20 (F := F) x1)
def val_main_v22 (x1 : (⟨S2x640000, .i32⟩ : BufTy).Contents (Elt F)) : (⟨S660000, .f32⟩ : BufTy).Contents (Elt F) :=
  Host.gather gather_S20000_S660000x1_S660000_n_0_n_n_0_1_1 (val_main_v15 (F := F) x1) (val_main_v21 (F := F) x1)
def val_main_c_4 : (⟨S_, .i32⟩ : BufTy).Contents (Elt F) :=
  constantI S_ 32 0#32
def val_main_v23 : (⟨S660000, .i32⟩ : BufTy).Contents (Elt F) :=
  broadcastInDim S660000 ![] bcast_S_S660000 (val_main_c_4 (F := F))
def val_main_v24 (x1 : (⟨S2x640000, .i32⟩ : BufTy).Contents (Elt F)) : (⟨S660000, .i1⟩ : BufTy).Contents (Elt F) :=
  cmpi .slt (val_main_v7 (F := F) x1) (val_main_v23 (F := F))
def val_main_c_5 : (⟨S_, .i32⟩ : BufTy).Contents (Elt F) :=
  constantI S_ 32 20000#32
def val_main_v25 : (⟨S660000, .i32⟩ : BufTy).Contents (Elt F) :=
  broadcastInDim S660000 ![] bcast_S_S660000 (val_main_c_5 (F := F))
def val_main_v26 (x1 : (⟨S2x640000, .i32⟩ : BufTy).Contents (Elt F)) : (⟨S660000, .i32⟩ : BufTy).Contents (Elt F) :=
  addi (val_main_v7 (F := F) x1) (val_main_v25 (F := F))
def val_main_v27 (x1 : (⟨S2x640000, .i32⟩ : BufTy).Contents (Elt F)) : (⟨S660000, .i32⟩ : BufTy).Contents (Elt F) :=
  select (val_main_v24 (F := F) x1) (val_main_v26 (F := F) x1) (val_main_v7 (F := F) x1)
def val_main_v28 (x1 : (⟨S2x640000, .i32⟩ : BufTy).Contents (Elt F)) : (⟨S660000x1, .i32⟩ : BufTy).Contents (Elt F) :=
  broadcastInDim S660000x1 ![0] bcast_S660000_S660000x1_0 (val_main_v27 (F := F) x1)
def val_main_v29 (x1 : (⟨S2x640000, .i32⟩ : BufTy).Contents (Elt F)) : (⟨S660000, .f32⟩ : BufTy).Contents (Elt F) :=
  Host.gather gather_S20000_S660000x1_S660000_n_0_n_n_0_1_1 (val_main_v15 (F := F) x1) (val_main_v28 (F := F) x1)
def val_main_v30 (x1 : (⟨S2x640000, .i32⟩ : BufTy).Contents (Elt F)) : (⟨S660000, .f32⟩ : BufTy).Contents (Elt F) :=
  mulf (val_main_v22 (F := F) x1) (val_main_v29 (F := F) x1)
theorem val_main_v30_apply (x1 : (⟨S2x640000, .i32⟩ : BufTy).Contents (Elt F)) (i : S660000.Idx) :
    val_main_v30 (F := F) x1 i = FloatOps.mulf (val_main_v22 (F := F) x1 i) (val_main_v29 (F := F) x1 i) := rfl
def val_main_c_6 : (⟨S_, .i32⟩ : BufTy).Contents (Elt F) :=
  constantI S_ 32 0#32
def val_main_v31 : (⟨S660000, .i32⟩ : BufTy).Contents (Elt F) :=
  broadcastInDim S660000 ![] bcast_S_S660000 (val_main_c_6 (F := F))
def val_main_v32 (x1 : (⟨S2x640000, .i32⟩ : BufTy).Contents (Elt F)) : (⟨S660000, .i1⟩ : BufTy).Contents (Elt F) :=
  cmpi .slt (val_main_v6 (F := F) x1) (val_main_v31 (F := F))
def val_main_c_7 : (⟨S_, .i32⟩ : BufTy).Contents (Elt F) :=
  constantI S_ 32 20000#32
def val_main_v33 : (⟨S660000, .i32⟩ : BufTy).Contents (Elt F) :=
  broadcastInDim S660000 ![] bcast_S_S660000 (val_main_c_7 (F := F))
def val_main_v34 (x1 : (⟨S2x640000, .i32⟩ : BufTy).Contents (Elt F)) : (⟨S660000, .i32⟩ : BufTy).Contents (Elt F) :=
  addi (val_main_v6 (F := F) x1) (val_main_v33 (F := F))
def val_main_v35 (x1 : (⟨S2x640000, .i32⟩ : BufTy).Contents (Elt F)) : (⟨S660000, .i32⟩ : BufTy).Contents (Elt F) :=
  select (val_main_v32 (F := F) x1) (val_main_v34 (F := F) x1) (val_main_v6 (F := F) x1)
def val_main_v36 (x1 : (⟨S2x640000, .i32⟩ : BufTy).Contents (Elt F)) : (⟨S660000x1, .i32⟩ : BufTy).Contents (Elt F) :=
  broadcastInDim S660000x1 ![0] bcast_S660000_S660000x1_0 (val_main_v35 (F := F) x1)
def val_main_v37 (x0 : (⟨S20000x128, .f32⟩ : BufTy).Contents (Elt F)) (x1 : (⟨S2x640000, .i32⟩ : BufTy).Contents (Elt F)) (x3 : (⟨S128x128, .f32⟩ : BufTy).Contents (Elt F)) : (⟨S660000x128, .f32⟩ : BufTy).Contents (Elt F) :=
  Host.gather gather_S20000x128_S660000x1_S660000x128_1_0_n_n_0_1_1128 (val_main_v4 (F := F) x0 x3) (val_main_v36 (F := F) x1)
def val_main_v38 (x1 : (⟨S2x640000, .i32⟩ : BufTy).Contents (Elt F)) : (⟨S660000x1, .f32⟩ : BufTy).Contents (Elt F) :=
  broadcastInDim S660000x1 ![0] bcast_S660000_S660000x1_0 (val_main_v30 (F := F) x1)
abbrev idx_main_v38 (i : S660000x1.Idx) : S660000.Idx := fun a => match a with
  | ⟨0, _⟩ => ⟨(i 0).val, (i 0).isLt⟩
theorem val_main_v38_apply (x1 : (⟨S2x640000, .i32⟩ : BufTy).Contents (Elt F)) (i : S660000x1.Idx) :
    val_main_v38 (F := F) x1 i = val_main_v30 (F := F) x1 (idx_main_v38 i) := by
  unfold val_main_v38
  generalize val_main_v30 (F := F) x1 = y
  exact broadcastInDim_apply _ bcast_S660000_S660000x1_0 y i (idx_main_v38 i) (fun a => match a with
    | ⟨0, _⟩ => by show (i 0).val = if (660000 : Nat) = 1 then 0 else (i 0).val; rw [if_neg (by decide)])
def val_main_v39 (x1 : (⟨S2x640000, .i32⟩ : BufTy).Contents (Elt F)) : (⟨S660000x128, .f32⟩ : BufTy).Contents (Elt F) :=
  broadcastInDim S660000x128 ![0, 1] bcast_S660000x1_S660000x128_0_1 (val_main_v38 (F := F) x1)
abbrev idx_main_v39 (i : S660000x128.Idx) : S660000x1.Idx := fun a => match a with
  | ⟨0, _⟩ => ⟨(i 0).val, (i 0).isLt⟩
  | ⟨1, _⟩ => ⟨0, Nat.one_pos⟩
theorem val_main_v39_apply (x1 : (⟨S2x640000, .i32⟩ : BufTy).Contents (Elt F)) (i : S660000x128.Idx) :
    val_main_v39 (F := F) x1 i = val_main_v38 (F := F) x1 (idx_main_v39 i) := by
  unfold val_main_v39
  generalize val_main_v38 (F := F) x1 = y
  exact broadcastInDim_apply _ bcast_S660000x1_S660000x128_0_1 y i (idx_main_v39 i) (fun a => match a with
    | ⟨0, _⟩ => by show (i 0).val = if (660000 : Nat) = 1 then 0 else (i 0).val; rw [if_neg (by decide)]
    | ⟨1, _⟩ => by show 0 = if (1 : Nat) = 1 then 0 else (i 1).val; rw [if_pos rfl])
def val_main_v40 (x0 : (⟨S20000x128, .f32⟩ : BufTy).Contents (Elt F)) (x1 : (⟨S2x640000, .i32⟩ : BufTy).Contents (Elt F)) (x3 : (⟨S128x128, .f32⟩ : BufTy).Contents (Elt F)) : (⟨S660000x128, .f32⟩ : BufTy).Contents (Elt F) :=
  mulf (val_main_v37 (F := F) x0 x1 x3) (val_main_v39 (F := F) x1)
theorem val_main_v40_apply (x0 : (⟨S20000x128, .f32⟩ : BufTy).Contents (Elt F)) (x1 : (⟨S2x640000, .i32⟩ : BufTy).Contents (Elt F)) (x3 : (⟨S128x128, .f32⟩ : BufTy).Contents (Elt F)) (i : S660000x128.Idx) :
    val_main_v40 (F := F) x0 x1 x3 i = FloatOps.mulf (val_main_v37 (F := F) x0 x1 x3 i) (val_main_v39 (F := F) x1 i) := rfl
def val_main_cst_8 : (⟨S_, .f32⟩ : BufTy).Contents (Elt F) :=
  constant S_ .f32 0x00000000#32
def val_main_v41 : (⟨S20000x128, .f32⟩ : BufTy).Contents (Elt F) :=
  broadcastInDim S20000x128 ![] bcast_S_S20000x128 (val_main_cst_8 (F := F))
def val_main_v42 (x1 : (⟨S2x640000, .i32⟩ : BufTy).Contents (Elt F)) : (⟨S660000x1, .i32⟩ : BufTy).Contents (Elt F) :=
  broadcastInDim S660000x1 ![0] bcast_S660000_S660000x1_0 (val_main_v7 (F := F) x1)
def val_main_v43 (x0 : (⟨S20000x128, .f32⟩ : BufTy).Contents (Elt F)) (x1 : (⟨S2x640000, .i32⟩ : BufTy).Contents (Elt F)) (x3 : (⟨S128x128, .f32⟩ : BufTy).Contents (Elt F)) : (⟨S20000x128, .f32⟩ : BufTy).Contents (Elt F) :=
  Host.scatterAdd scatter_S20000x128_S660000x1_S660000x128_1_0_0_1 (val_main_v41 (F := F)) (val_main_v42 (F := F) x1) (val_main_v40 (F := F) x0 x1 x3)
def val_main_v44 (x4 : (⟨S128, .f32⟩ : BufTy).Contents (Elt F)) : (⟨S1x128, .f32⟩ : BufTy).Contents (Elt F) :=
  broadcastInDim S1x128 ![1] bcast_S128_S1x128_1 (x4)
def val_main_v45 (x4 : (⟨S128, .f32⟩ : BufTy).Contents (Elt F)) : (⟨S20000x128, .f32⟩ : BufTy).Contents (Elt F) :=
  broadcastInDim S20000x128 ![0, 1] bcast_S1x128_S20000x128_0_1 (val_main_v44 (F := F) x4)
def val_main_v46 (x0 : (⟨S20000x128, .f32⟩ : BufTy).Contents (Elt F)) (x1 : (⟨S2x640000, .i32⟩ : BufTy).Contents (Elt F)) (x3 : (⟨S128x128, .f32⟩ : BufTy).Contents (Elt F)) (x4 : (⟨S128, .f32⟩ : BufTy).Contents (Elt F)) : (⟨S20000x128, .f32⟩ : BufTy).Contents (Elt F) :=
  addf (val_main_v43 (F := F) x0 x1 x3) (val_main_v45 (F := F) x4)
theorem val_main_v46_apply (x0 : (⟨S20000x128, .f32⟩ : BufTy).Contents (Elt F)) (x1 : (⟨S2x640000, .i32⟩ : BufTy).Contents (Elt F)) (x3 : (⟨S128x128, .f32⟩ : BufTy).Contents (Elt F)) (x4 : (⟨S128, .f32⟩ : BufTy).Contents (Elt F)) (i : S20000x128.Idx) :
    val_main_v46 (F := F) x0 x1 x3 x4 i = FloatOps.addf (val_main_v43 (F := F) x0 x1 x3 i) (val_main_v45 (F := F) x4 i) := rfl
def val_main_call1_cst : (⟨S_, .f32⟩ : BufTy).Contents (Elt F) :=
  constant S_ .f32 0x00000000#32
def val_main_call1_v0 : (⟨S20000x128, .f32⟩ : BufTy).Contents (Elt F) :=
  broadcastInDim S20000x128 ![] bcast_S_S20000x128 (val_main_call1_cst (F := F))
def val_main_v47 (x0 : (⟨S20000x128, .f32⟩ : BufTy).Contents (Elt F)) (x1 : (⟨S2x640000, .i32⟩ : BufTy).Contents (Elt F)) (x3 : (⟨S128x128, .f32⟩ : BufTy).Contents (Elt F)) (x4 : (⟨S128, .f32⟩ : BufTy).Contents (Elt F)) : (⟨S20000x128, .f32⟩ : BufTy).Contents (Elt F) :=
  maximumf (val_main_v46 (F := F) x0 x1 x3 x4) (val_main_call1_v0 (F := F))
theorem val_main_v47_apply (x0 : (⟨S20000x128, .f32⟩ : BufTy).Contents (Elt F)) (x1 : (⟨S2x640000, .i32⟩ : BufTy).Contents (Elt F)) (x3 : (⟨S128x128, .f32⟩ : BufTy).Contents (Elt F)) (x4 : (⟨S128, .f32⟩ : BufTy).Contents (Elt F)) (i : S20000x128.Idx) :
    val_main_v47 (F := F) x0 x1 x3 x4 i = FloatOps.maximumf (val_main_v46 (F := F) x0 x1 x3 x4 i) (val_main_call1_v0 (F := F) i) := rfl
def val_main_cst_9 : (⟨S_, .f32⟩ : BufTy).Contents (Elt F) :=
  constant S_ .f32 0x3F800000#32
def val_main_v48 : (⟨S640000, .f32⟩ : BufTy).Contents (Elt F) :=
  broadcastInDim S640000 ![] bcast_S_S640000 (val_main_cst_9 (F := F))
def val_main_cst_10 : (⟨S_, .f32⟩ : BufTy).Contents (Elt F) :=
  constant S_ .f32 0x00000000#32
def val_main_v49 : (⟨S20000, .f32⟩ : BufTy).Contents (Elt F) :=
  broadcastInDim S20000 ![] bcast_S_S20000 (val_main_cst_10 (F := F))
def val_main_v50 (x1 : (⟨S2x640000, .i32⟩ : BufTy).Contents (Elt F)) : (⟨S640000x1, .i32⟩ : BufTy).Contents (Elt F) :=
  broadcastInDim S640000x1 ![0] bcast_S640000_S640000x1_0 (val_main_v3 (F := F) x1)
def val_main_v51 (x1 : (⟨S2x640000, .i32⟩ : BufTy).Contents (Elt F)) : (⟨S20000, .f32⟩ : BufTy).Contents (Elt F) :=
  Host.scatterAdd scatter_S20000_S640000x1_S640000_n_0_0_1 (val_main_v49 (F := F)) (val_main_v50 (F := F) x1) (val_main_v48 (F := F))
def val_main_c_11 : (⟨S_, .i32⟩ : BufTy).Contents (Elt F) :=
  constantI S_ 32 0#32
def val_main_v52 : (⟨S640000, .i32⟩ : BufTy).Contents (Elt F) :=
  broadcastInDim S640000 ![] bcast_S_S640000 (val_main_c_11 (F := F))
def val_main_v53 (x1 : (⟨S2x640000, .i32⟩ : BufTy).Contents (Elt F)) : (⟨S640000, .i1⟩ : BufTy).Contents (Elt F) :=
  cmpi .slt (val_main_v1 (F := F) x1) (val_main_v52 (F := F))
def val_main_c_12 : (⟨S_, .i32⟩ : BufTy).Contents (Elt F) :=
  constantI S_ 32 20000#32
def val_main_v54 : (⟨S640000, .i32⟩ : BufTy).Contents (Elt F) :=
  broadcastInDim S640000 ![] bcast_S_S640000 (val_main_c_12 (F := F))
def val_main_v55 (x1 : (⟨S2x640000, .i32⟩ : BufTy).Contents (Elt F)) : (⟨S640000, .i32⟩ : BufTy).Contents (Elt F) :=
  addi (val_main_v1 (F := F) x1) (val_main_v54 (F := F))
def val_main_v56 (x1 : (⟨S2x640000, .i32⟩ : BufTy).Contents (Elt F)) : (⟨S640000, .i32⟩ : BufTy).Contents (Elt F) :=
  select (val_main_v53 (F := F) x1) (val_main_v55 (F := F) x1) (val_main_v1 (F := F) x1)
def val_main_v57 (x1 : (⟨S2x640000, .i32⟩ : BufTy).Contents (Elt F)) : (⟨S640000x1, .i32⟩ : BufTy).Contents (Elt F) :=
  broadcastInDim S640000x1 ![0] bcast_S640000_S640000x1_0 (val_main_v56 (F := F) x1)
def val_main_v58 (x0 : (⟨S20000x128, .f32⟩ : BufTy).Contents (Elt F)) (x1 : (⟨S2x640000, .i32⟩ : BufTy).Contents (Elt F)) (x3 : (⟨S128x128, .f32⟩ : BufTy).Contents (Elt F)) (x4 : (⟨S128, .f32⟩ : BufTy).Contents (Elt F)) : (⟨S640000x128, .f32⟩ : BufTy).Contents (Elt F) :=
  Host.gather gather_S20000x128_S640000x1_S640000x128_1_0_n_n_0_1_1128 (val_main_v47 (F := F) x0 x1 x3 x4) (val_main_v57 (F := F) x1)
def val_main_cst_13 : (⟨S_, .f32⟩ : BufTy).Contents (Elt F) :=
  constant S_ .f32 0x00000000#32
def val_main_v59 : (⟨S20000x128, .f32⟩ : BufTy).Contents (Elt F) :=
  broadcastInDim S20000x128 ![] bcast_S_S20000x128 (val_main_cst_13 (F := F))
def val_main_v60 (x1 : (⟨S2x640000, .i32⟩ : BufTy).Contents (Elt F)) : (⟨S640000x1, .i32⟩ : BufTy).Contents (Elt F) :=
  broadcastInDim S640000x1 ![0] bcast_S640000_S640000x1_0 (val_main_v3 (F := F) x1)
def val_main_v61 (x0 : (⟨S20000x128, .f32⟩ : BufTy).Contents (Elt F)) (x1 : (⟨S2x640000, .i32⟩ : BufTy).Contents (Elt F)) (x3 : (⟨S128x128, .f32⟩ : BufTy).Contents (Elt F)) (x4 : (⟨S128, .f32⟩ : BufTy).Contents (Elt F)) : (⟨S20000x128, .f32⟩ : BufTy).Contents (Elt F) :=
  Host.scatterAdd scatter_S20000x128_S640000x1_S640000x128_1_0_0_1 (val_main_v59 (F := F)) (val_main_v60 (F := F) x1) (val_main_v58 (F := F) x0 x1 x3 x4)
def val_main_cst_14 : (⟨S_, .f32⟩ : BufTy).Contents (Elt F) :=
  constant S_ .f32 0x3F800000#32
def val_main_v62 : (⟨S20000, .f32⟩ : BufTy).Contents (Elt F) :=
  broadcastInDim S20000 ![] bcast_S_S20000 (val_main_cst_14 (F := F))
def val_main_v63 (x1 : (⟨S2x640000, .i32⟩ : BufTy).Contents (Elt F)) : (⟨S20000, .f32⟩ : BufTy).Contents (Elt F) :=
  maximumf (val_main_v51 (F := F) x1) (val_main_v62 (F := F))
theorem val_main_v63_apply (x1 : (⟨S2x640000, .i32⟩ : BufTy).Contents (Elt F)) (i : S20000.Idx) :
    val_main_v63 (F := F) x1 i = FloatOps.maximumf (val_main_v51 (F := F) x1 i) (val_main_v62 (F := F) i) := rfl
def val_main_v64 (x1 : (⟨S2x640000, .i32⟩ : BufTy).Contents (Elt F)) : (⟨S20000x1, .f32⟩ : BufTy).Contents (Elt F) :=
  broadcastInDim S20000x1 ![0] bcast_S20000_S20000x1_0 (val_main_v63 (F := F) x1)
abbrev idx_main_v64 (i : S20000x1.Idx) : S20000.Idx := fun a => match a with
  | ⟨0, _⟩ => ⟨(i 0).val, (i 0).isLt⟩
theorem val_main_v64_apply (x1 : (⟨S2x640000, .i32⟩ : BufTy).Contents (Elt F)) (i : S20000x1.Idx) :
    val_main_v64 (F := F) x1 i = val_main_v63 (F := F) x1 (idx_main_v64 i) := by
  unfold val_main_v64
  generalize val_main_v63 (F := F) x1 = y
  exact broadcastInDim_apply _ bcast_S20000_S20000x1_0 y i (idx_main_v64 i) (fun a => match a with
    | ⟨0, _⟩ => by show (i 0).val = if (20000 : Nat) = 1 then 0 else (i 0).val; rw [if_neg (by decide)])
def val_main_v65 (x1 : (⟨S2x640000, .i32⟩ : BufTy).Contents (Elt F)) : (⟨S20000x128, .f32⟩ : BufTy).Contents (Elt F) :=
  broadcastInDim S20000x128 ![0, 1] bcast_S20000x1_S20000x128_0_1 (val_main_v64 (F := F) x1)
abbrev idx_main_v65 (i : S20000x128.Idx) : S20000x1.Idx := fun a => match a with
  | ⟨0, _⟩ => ⟨(i 0).val, (i 0).isLt⟩
  | ⟨1, _⟩ => ⟨0, Nat.one_pos⟩
theorem val_main_v65_apply (x1 : (⟨S2x640000, .i32⟩ : BufTy).Contents (Elt F)) (i : S20000x128.Idx) :
    val_main_v65 (F := F) x1 i = val_main_v64 (F := F) x1 (idx_main_v65 i) := by
  unfold val_main_v65
  generalize val_main_v64 (F := F) x1 = y
  exact broadcastInDim_apply _ bcast_S20000x1_S20000x128_0_1 y i (idx_main_v65 i) (fun a => match a with
    | ⟨0, _⟩ => by show (i 0).val = if (20000 : Nat) = 1 then 0 else (i 0).val; rw [if_neg (by decide)]
    | ⟨1, _⟩ => by show 0 = if (1 : Nat) = 1 then 0 else (i 1).val; rw [if_pos rfl])
def val_main_v66 (x0 : (⟨S20000x128, .f32⟩ : BufTy).Contents (Elt F)) (x1 : (⟨S2x640000, .i32⟩ : BufTy).Contents (Elt F)) (x3 : (⟨S128x128, .f32⟩ : BufTy).Contents (Elt F)) (x4 : (⟨S128, .f32⟩ : BufTy).Contents (Elt F)) : (⟨S20000x128, .f32⟩ : BufTy).Contents (Elt F) :=
  Host.divf (val_main_v61 (F := F) x0 x1 x3 x4) (val_main_v65 (F := F) x1)
theorem val_main_v66_apply (x0 : (⟨S20000x128, .f32⟩ : BufTy).Contents (Elt F)) (x1 : (⟨S2x640000, .i32⟩ : BufTy).Contents (Elt F)) (x3 : (⟨S128x128, .f32⟩ : BufTy).Contents (Elt F)) (x4 : (⟨S128, .f32⟩ : BufTy).Contents (Elt F)) (i : S20000x128.Idx) :
    val_main_v66 (F := F) x0 x1 x3 x4 i = FloatOps.hostDivf (val_main_v61 (F := F) x0 x1 x3 x4 i) (val_main_v65 (F := F) x1 i) := rfl
def val_main_v67 (x0 : (⟨S20000x128, .f32⟩ : BufTy).Contents (Elt F)) (x1 : (⟨S2x640000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) : (⟨S20000x128, .f32⟩ : BufTy).Contents (Elt F) :=
  Host.dotGeneral dot_S20000x128_S128x128_S20000x128_1_0_0_1_n_n none (val_main_v66 (F := F) x0 x1 x3 x4) (x5)
theorem lhs_main_v67_0 (i : S20000x128.Idx) (q : dot_S20000x128_S128x128_S20000x128_1_0_0_1_n_n.contr.Idx) :
    (dot_S20000x128_S128x128_S20000x128_1_0_0_1_n_n.lhsIdx i q 0).val = (i 0).val := by
  unfold DotDims.lhsIdx
  rw [dif_neg (show ¬(0 : Fin S20000x128.rank) ∈ dot_S20000x128_S128x128_S20000x128_1_0_0_1_n_n.lhsBatch by decide), dif_pos (show (0 : Fin S20000x128.rank) ∈ dot_S20000x128_S128x128_S20000x128_1_0_0_1_n_n.lhsNonContracting by decide)]
  rfl
theorem lhs_main_v67_1 (i : S20000x128.Idx) (q : dot_S20000x128_S128x128_S20000x128_1_0_0_1_n_n.contr.Idx) :
    (dot_S20000x128_S128x128_S20000x128_1_0_0_1_n_n.lhsIdx i q 1).val = (q ⟨0, by decide⟩).val :=
  dot_S20000x128_S128x128_S20000x128_1_0_0_1_n_n.lhsIdx_val_of_single rfl i q
theorem rhs_main_v67_0 (i : S20000x128.Idx) (q : dot_S20000x128_S128x128_S20000x128_1_0_0_1_n_n.contr.Idx) :
    (dot_S20000x128_S128x128_S20000x128_1_0_0_1_n_n.rhsIdx i q 0).val = (q ⟨0, by decide⟩).val :=
  dot_S20000x128_S128x128_S20000x128_1_0_0_1_n_n.rhsIdx_val_of_single rfl i q
theorem rhs_main_v67_1 (i : S20000x128.Idx) (q : dot_S20000x128_S128x128_S20000x128_1_0_0_1_n_n.contr.Idx) :
    (dot_S20000x128_S128x128_S20000x128_1_0_0_1_n_n.rhsIdx i q 1).val = (i 1).val := by
  unfold DotDims.rhsIdx
  rw [dif_neg (show ¬(1 : Fin S128x128.rank) ∈ dot_S20000x128_S128x128_S20000x128_1_0_0_1_n_n.rhsBatch by decide), dif_pos (show (1 : Fin S128x128.rank) ∈ dot_S20000x128_S128x128_S20000x128_1_0_0_1_n_n.rhsNonContracting by decide)]
  rfl
abbrev lidx_main_v67 (i : S20000x128.Idx) (k : Fin 128) : S20000x128.Idx := fun a => match a with
  | ⟨0, _⟩ => ⟨(i 0).val, (i 0).isLt⟩
  | ⟨1, _⟩ => ⟨k.val, k.isLt⟩
abbrev ridx_main_v67 (i : S20000x128.Idx) (k : Fin 128) : S128x128.Idx := fun a => match a with
  | ⟨0, _⟩ => ⟨k.val, k.isLt⟩
  | ⟨1, _⟩ => ⟨(i 1).val, (i 1).isLt⟩
theorem val_main_v67_apply (x0 : (⟨S20000x128, .f32⟩ : BufTy).Contents (Elt Ideal)) (x1 : (⟨S2x640000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (i : S20000x128.Idx) :
    val_main_v67 (F := Ideal) x0 x1 x3 x4 x5 i = ∑ k : Fin 128, (val_main_v66 (F := Ideal) x0 x1 x3 x4) (lidx_main_v67 i k) * x5 (ridx_main_v67 i k) := by
  unfold val_main_v67
  generalize val_main_v66 (F := Ideal) x0 x1 x3 x4 = y0
  simp only [Host.dotGeneral]
  rw [Ideal.dotGeneral_apply, ← Equiv.sum_comp (ValueIdx.contrEquiv1 dot_S20000x128_S128x128_S20000x128_1_0_0_1_n_n 128 rfl rfl).symm]
  refine Finset.sum_congr rfl fun k _ => ?_
  have hk := ValueIdx.contrEquiv1_symm_val dot_S20000x128_S128x128_S20000x128_1_0_0_1_n_n 128 rfl rfl k
  have el : dot_S20000x128_S128x128_S20000x128_1_0_0_1_n_n.lhsIdx i ((ValueIdx.contrEquiv1 dot_S20000x128_S128x128_S20000x128_1_0_0_1_n_n 128 rfl rfl).symm k) = lidx_main_v67 i k := funext fun a => Fin.ext (by
    match a with
    | ⟨0, _⟩ => exact lhs_main_v67_0 _ _
    | ⟨1, _⟩ => exact (lhs_main_v67_1 _ _).trans hk)
  have er : dot_S20000x128_S128x128_S20000x128_1_0_0_1_n_n.rhsIdx i ((ValueIdx.contrEquiv1 dot_S20000x128_S128x128_S20000x128_1_0_0_1_n_n 128 rfl rfl).symm k) = ridx_main_v67 i k := funext fun a => Fin.ext (by
    match a with
    | ⟨0, _⟩ => exact (rhs_main_v67_0 _ _).trans hk
    | ⟨1, _⟩ => exact rhs_main_v67_1 _ _)
  rw [el, er]
def val_main_v68 (x0 : (⟨S20000x128, .f32⟩ : BufTy).Contents (Elt F)) (x1 : (⟨S2x640000, .i32⟩ : BufTy).Contents (Elt F)) (x3 : (⟨S128x128, .f32⟩ : BufTy).Contents (Elt F)) (x4 : (⟨S128, .f32⟩ : BufTy).Contents (Elt F)) (x6 : (⟨S128x128, .f32⟩ : BufTy).Contents (Elt F)) : (⟨S20000x128, .f32⟩ : BufTy).Contents (Elt F) :=
  Host.dotGeneral dot_S20000x128_S128x128_S20000x128_1_0_0_1_n_n none (val_main_v47 (F := F) x0 x1 x3 x4) (x6)
theorem lhs_main_v68_0 (i : S20000x128.Idx) (q : dot_S20000x128_S128x128_S20000x128_1_0_0_1_n_n.contr.Idx) :
    (dot_S20000x128_S128x128_S20000x128_1_0_0_1_n_n.lhsIdx i q 0).val = (i 0).val := by
  unfold DotDims.lhsIdx
  rw [dif_neg (show ¬(0 : Fin S20000x128.rank) ∈ dot_S20000x128_S128x128_S20000x128_1_0_0_1_n_n.lhsBatch by decide), dif_pos (show (0 : Fin S20000x128.rank) ∈ dot_S20000x128_S128x128_S20000x128_1_0_0_1_n_n.lhsNonContracting by decide)]
  rfl
theorem lhs_main_v68_1 (i : S20000x128.Idx) (q : dot_S20000x128_S128x128_S20000x128_1_0_0_1_n_n.contr.Idx) :
    (dot_S20000x128_S128x128_S20000x128_1_0_0_1_n_n.lhsIdx i q 1).val = (q ⟨0, by decide⟩).val :=
  dot_S20000x128_S128x128_S20000x128_1_0_0_1_n_n.lhsIdx_val_of_single rfl i q
theorem rhs_main_v68_0 (i : S20000x128.Idx) (q : dot_S20000x128_S128x128_S20000x128_1_0_0_1_n_n.contr.Idx) :
    (dot_S20000x128_S128x128_S20000x128_1_0_0_1_n_n.rhsIdx i q 0).val = (q ⟨0, by decide⟩).val :=
  dot_S20000x128_S128x128_S20000x128_1_0_0_1_n_n.rhsIdx_val_of_single rfl i q
theorem rhs_main_v68_1 (i : S20000x128.Idx) (q : dot_S20000x128_S128x128_S20000x128_1_0_0_1_n_n.contr.Idx) :
    (dot_S20000x128_S128x128_S20000x128_1_0_0_1_n_n.rhsIdx i q 1).val = (i 1).val := by
  unfold DotDims.rhsIdx
  rw [dif_neg (show ¬(1 : Fin S128x128.rank) ∈ dot_S20000x128_S128x128_S20000x128_1_0_0_1_n_n.rhsBatch by decide), dif_pos (show (1 : Fin S128x128.rank) ∈ dot_S20000x128_S128x128_S20000x128_1_0_0_1_n_n.rhsNonContracting by decide)]
  rfl
abbrev lidx_main_v68 (i : S20000x128.Idx) (k : Fin 128) : S20000x128.Idx := fun a => match a with
  | ⟨0, _⟩ => ⟨(i 0).val, (i 0).isLt⟩
  | ⟨1, _⟩ => ⟨k.val, k.isLt⟩
abbrev ridx_main_v68 (i : S20000x128.Idx) (k : Fin 128) : S128x128.Idx := fun a => match a with
  | ⟨0, _⟩ => ⟨k.val, k.isLt⟩
  | ⟨1, _⟩ => ⟨(i 1).val, (i 1).isLt⟩
theorem val_main_v68_apply (x0 : (⟨S20000x128, .f32⟩ : BufTy).Contents (Elt Ideal)) (x1 : (⟨S2x640000, .i32⟩ : BufTy).Contents (Elt Ideal)) (x3 : (⟨S128x128, .f32⟩ : BufTy).Contents (Elt Ideal)) (x4 : (⟨S128, .f32⟩ : BufTy).Contents (Elt Ideal)) (x6 : (⟨S128x128, .f32⟩ : BufTy).Contents (Elt Ideal)) (i : S20000x128.Idx) :
    val_main_v68 (F := Ideal) x0 x1 x3 x4 x6 i = ∑ k : Fin 128, (val_main_v47 (F := Ideal) x0 x1 x3 x4) (lidx_main_v68 i k) * x6 (ridx_main_v68 i k) := by
  unfold val_main_v68
  generalize val_main_v47 (F := Ideal) x0 x1 x3 x4 = y0
  simp only [Host.dotGeneral]
  rw [Ideal.dotGeneral_apply, ← Equiv.sum_comp (ValueIdx.contrEquiv1 dot_S20000x128_S128x128_S20000x128_1_0_0_1_n_n 128 rfl rfl).symm]
  refine Finset.sum_congr rfl fun k _ => ?_
  have hk := ValueIdx.contrEquiv1_symm_val dot_S20000x128_S128x128_S20000x128_1_0_0_1_n_n 128 rfl rfl k
  have el : dot_S20000x128_S128x128_S20000x128_1_0_0_1_n_n.lhsIdx i ((ValueIdx.contrEquiv1 dot_S20000x128_S128x128_S20000x128_1_0_0_1_n_n 128 rfl rfl).symm k) = lidx_main_v68 i k := funext fun a => Fin.ext (by
    match a with
    | ⟨0, _⟩ => exact lhs_main_v68_0 _ _
    | ⟨1, _⟩ => exact (lhs_main_v68_1 _ _).trans hk)
  have er : dot_S20000x128_S128x128_S20000x128_1_0_0_1_n_n.rhsIdx i ((ValueIdx.contrEquiv1 dot_S20000x128_S128x128_S20000x128_1_0_0_1_n_n 128 rfl rfl).symm k) = ridx_main_v68 i k := funext fun a => Fin.ext (by
    match a with
    | ⟨0, _⟩ => exact (rhs_main_v68_0 _ _).trans hk
    | ⟨1, _⟩ => exact rhs_main_v68_1 _ _)
  rw [el, er]
def val_main_v69 (x0 : (⟨S20000x128, .f32⟩ : BufTy).Contents (Elt F)) (x1 : (⟨S2x640000, .i32⟩ : BufTy).Contents (Elt F)) (x3 : (⟨S128x128, .f32⟩ : BufTy).Contents (Elt F)) (x4 : (⟨S128, .f32⟩ : BufTy).Contents (Elt F)) (x5 x6 : (⟨S128x128, .f32⟩ : BufTy).Contents (Elt F)) : (⟨S20000x128, .f32⟩ : BufTy).Contents (Elt F) :=
  addf (val_main_v67 (F := F) x0 x1 x3 x4 x5) (val_main_v68 (F := F) x0 x1 x3 x4 x6)
theorem val_main_v69_apply (x0 : (⟨S20000x128, .f32⟩ : BufTy).Contents (Elt F)) (x1 : (⟨S2x640000, .i32⟩ : BufTy).Contents (Elt F)) (x3 : (⟨S128x128, .f32⟩ : BufTy).Contents (Elt F)) (x4 : (⟨S128, .f32⟩ : BufTy).Contents (Elt F)) (x5 x6 : (⟨S128x128, .f32⟩ : BufTy).Contents (Elt F)) (i : S20000x128.Idx) :
    val_main_v69 (F := F) x0 x1 x3 x4 x5 x6 i = FloatOps.addf (val_main_v67 (F := F) x0 x1 x3 x4 x5 i) (val_main_v68 (F := F) x0 x1 x3 x4 x6 i) := rfl
def val_main_v70 (x7 : (⟨S128, .f32⟩ : BufTy).Contents (Elt F)) : (⟨S1x128, .f32⟩ : BufTy).Contents (Elt F) :=
  broadcastInDim S1x128 ![1] bcast_S128_S1x128_1 (x7)
def val_main_v71 (x7 : (⟨S128, .f32⟩ : BufTy).Contents (Elt F)) : (⟨S20000x128, .f32⟩ : BufTy).Contents (Elt F) :=
  broadcastInDim S20000x128 ![0, 1] bcast_S1x128_S20000x128_0_1 (val_main_v70 (F := F) x7)
def val_main_v72 (x0 : (⟨S20000x128, .f32⟩ : BufTy).Contents (Elt F)) (x1 : (⟨S2x640000, .i32⟩ : BufTy).Contents (Elt F)) (x3 : (⟨S128x128, .f32⟩ : BufTy).Contents (Elt F)) (x4 : (⟨S128, .f32⟩ : BufTy).Contents (Elt F)) (x5 x6 : (⟨S128x128, .f32⟩ : BufTy).Contents (Elt F)) (x7 : (⟨S128, .f32⟩ : BufTy).Contents (Elt F)) : (⟨S20000x128, .f32⟩ : BufTy).Contents (Elt F) :=
  addf (val_main_v69 (F := F) x0 x1 x3 x4 x5 x6) (val_main_v71 (F := F) x7)
theorem val_main_v72_apply (x0 : (⟨S20000x128, .f32⟩ : BufTy).Contents (Elt F)) (x1 : (⟨S2x640000, .i32⟩ : BufTy).Contents (Elt F)) (x3 : (⟨S128x128, .f32⟩ : BufTy).Contents (Elt F)) (x4 : (⟨S128, .f32⟩ : BufTy).Contents (Elt F)) (x5 x6 : (⟨S128x128, .f32⟩ : BufTy).Contents (Elt F)) (x7 : (⟨S128, .f32⟩ : BufTy).Contents (Elt F)) (i : S20000x128.Idx) :
    val_main_v72 (F := F) x0 x1 x3 x4 x5 x6 x7 i = FloatOps.addf (val_main_v69 (F := F) x0 x1 x3 x4 x5 x6 i) (val_main_v71 (F := F) x7 i) := rfl
def val_main_call2_cst : (⟨S_, .f32⟩ : BufTy).Contents (Elt F) :=
  constant S_ .f32 0x00000000#32
def val_main_call2_v0 : (⟨S20000x128, .f32⟩ : BufTy).Contents (Elt F) :=
  broadcastInDim S20000x128 ![] bcast_S_S20000x128 (val_main_call2_cst (F := F))
def val_main_v73 (x0 : (⟨S20000x128, .f32⟩ : BufTy).Contents (Elt F)) (x1 : (⟨S2x640000, .i32⟩ : BufTy).Contents (Elt F)) (x3 : (⟨S128x128, .f32⟩ : BufTy).Contents (Elt F)) (x4 : (⟨S128, .f32⟩ : BufTy).Contents (Elt F)) (x5 x6 : (⟨S128x128, .f32⟩ : BufTy).Contents (Elt F)) (x7 : (⟨S128, .f32⟩ : BufTy).Contents (Elt F)) : (⟨S20000x128, .f32⟩ : BufTy).Contents (Elt F) :=
  maximumf (val_main_v72 (F := F) x0 x1 x3 x4 x5 x6 x7) (val_main_call2_v0 (F := F))
theorem val_main_v73_apply (x0 : (⟨S20000x128, .f32⟩ : BufTy).Contents (Elt F)) (x1 : (⟨S2x640000, .i32⟩ : BufTy).Contents (Elt F)) (x3 : (⟨S128x128, .f32⟩ : BufTy).Contents (Elt F)) (x4 : (⟨S128, .f32⟩ : BufTy).Contents (Elt F)) (x5 x6 : (⟨S128x128, .f32⟩ : BufTy).Contents (Elt F)) (x7 : (⟨S128, .f32⟩ : BufTy).Contents (Elt F)) (i : S20000x128.Idx) :
    val_main_v73 (F := F) x0 x1 x3 x4 x5 x6 x7 i = FloatOps.maximumf (val_main_v72 (F := F) x0 x1 x3 x4 x5 x6 x7 i) (val_main_call2_v0 (F := F) i) := rfl
def val_main_cst_15 : (⟨S_, .f32⟩ : BufTy).Contents (Elt F) :=
  constant S_ .f32 0x00000000#32
def val_main_v74 : (⟨S32x128, .f32⟩ : BufTy).Contents (Elt F) :=
  broadcastInDim S32x128 ![] bcast_S_S32x128 (val_main_cst_15 (F := F))
def val_main_v75 (x2 : (⟨S20000, .i32⟩ : BufTy).Contents (Elt F)) : (⟨S20000x1, .i32⟩ : BufTy).Contents (Elt F) :=
  broadcastInDim S20000x1 ![0] bcast_S20000_S20000x1_0 (x2)
def val_main_v76 (x0 : (⟨S20000x128, .f32⟩ : BufTy).Contents (Elt F)) (x1 : (⟨S2x640000, .i32⟩ : BufTy).Contents (Elt F)) (x2 : (⟨S20000, .i32⟩ : BufTy).Contents (Elt F)) (x3 : (⟨S128x128, .f32⟩ : BufTy).Contents (Elt F)) (x4 : (⟨S128, .f32⟩ : BufTy).Contents (Elt F)) (x5 x6 : (⟨S128x128, .f32⟩ : BufTy).Contents (Elt F)) (x7 : (⟨S128, .f32⟩ : BufTy).Contents (Elt F)) : (⟨S32x128, .f32⟩ : BufTy).Contents (Elt F) :=
  Host.scatterAdd scatter_S32x128_S20000x1_S20000x128_1_0_0_1 (val_main_v74 (F := F)) (val_main_v75 (F := F) x2) (val_main_v73 (F := F) x0 x1 x3 x4 x5 x6 x7)
def val_main_v77 (x0 : (⟨S20000x128, .f32⟩ : BufTy).Contents (Elt F)) (x1 : (⟨S2x640000, .i32⟩ : BufTy).Contents (Elt F)) (x2 : (⟨S20000, .i32⟩ : BufTy).Contents (Elt F)) (x3 : (⟨S128x128, .f32⟩ : BufTy).Contents (Elt F)) (x4 : (⟨S128, .f32⟩ : BufTy).Contents (Elt F)) (x5 x6 : (⟨S128x128, .f32⟩ : BufTy).Contents (Elt F)) (x7 : (⟨S128, .f32⟩ : BufTy).Contents (Elt F)) (x8 : (⟨S128x128, .f32⟩ : BufTy).Contents (Elt F)) : (⟨S32x128, .f32⟩ : BufTy).Contents (Elt F) :=
  Host.dotGeneral dot_S32x128_S128x128_S32x128_1_0_0_1_n_n none (val_main_v76 (F := F) x0 x1 x2 x3 x4 x5 x6 x7) (x8)
theorem lhs_main_v77_0 (i : S32x128.Idx) (q : dot_S32x128_S128x128_S32x128_1_0_0_1_n_n.contr.Idx) :
    (dot_S32x128_S128x128_S32x128_1_0_0_1_n_n.lhsIdx i q 0).val = (i 0).val := by
  unfold DotDims.lhsIdx
  rw [dif_neg (show ¬(0 : Fin S32x128.rank) ∈ dot_S32x128_S128x128_S32x128_1_0_0_1_n_n.lhsBatch by decide), dif_pos (show (0 : Fin S32x128.rank) ∈ dot_S32x128_S128x128_S32x128_1_0_0_1_n_n.lhsNonContracting by decide)]
  rfl
theorem lhs_main_v77_1 (i : S32x128.Idx) (q : dot_S32x128_S128x128_S32x128_1_0_0_1_n_n.contr.Idx) :
    (dot_S32x128_S128x128_S32x128_1_0_0_1_n_n.lhsIdx i q 1).val = (q ⟨0, by decide⟩).val :=
  dot_S32x128_S128x128_S32x128_1_0_0_1_n_n.lhsIdx_val_of_single rfl i q
theorem rhs_main_v77_0 (i : S32x128.Idx) (q : dot_S32x128_S128x128_S32x128_1_0_0_1_n_n.contr.Idx) :
    (dot_S32x128_S128x128_S32x128_1_0_0_1_n_n.rhsIdx i q 0).val = (q ⟨0, by decide⟩).val :=
  dot_S32x128_S128x128_S32x128_1_0_0_1_n_n.rhsIdx_val_of_single rfl i q
theorem rhs_main_v77_1 (i : S32x128.Idx) (q : dot_S32x128_S128x128_S32x128_1_0_0_1_n_n.contr.Idx) :
    (dot_S32x128_S128x128_S32x128_1_0_0_1_n_n.rhsIdx i q 1).val = (i 1).val := by
  unfold DotDims.rhsIdx
  rw [dif_neg (show ¬(1 : Fin S128x128.rank) ∈ dot_S32x128_S128x128_S32x128_1_0_0_1_n_n.rhsBatch by decide), dif_pos (show (1 : Fin S128x128.rank) ∈ dot_S32x128_S128x128_S32x128_1_0_0_1_n_n.rhsNonContracting by decide)]
  rfl
abbrev lidx_main_v77 (i : S32x128.Idx) (k : Fin 128) : S32x128.Idx := fun a => match a with
  | ⟨0, _⟩ => ⟨(i 0).val, (i 0).isLt⟩
  | ⟨1, _⟩ => ⟨k.val, k.isLt⟩
abbrev ridx_main_v77 (i : S32x128.Idx) (k : Fin 128) : S128x128.Idx := fun a => match a with
  | ⟨0, _⟩ => ⟨k.val, k.isLt⟩
  | ⟨1, _⟩ => ⟨(i 1).val, (i 1).isLt⟩
theorem val_main_v77_apply (x0 : (⟨S20000x128, .f32⟩ : BufTy).Contents (Elt Ideal)) (x1 : (⟨S2x640000, .i32⟩ : BufTy).Contents (Elt Ideal)) (x2 : (⟨S20000, .i32⟩ : BufTy).Contents (Elt Ideal)) (x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 : (⟨S128x128, .f32⟩ : BufTy).Contents (Elt Ideal)) (i : S32x128.Idx) :
    val_main_v77 (F := Ideal) x0 x1 x2 x3 x4 x5 x6 x7 x8 i = ∑ k : Fin 128, (val_main_v76 (F := Ideal) x0 x1 x2 x3 x4 x5 x6 x7) (lidx_main_v77 i k) * x8 (ridx_main_v77 i k) := by
  unfold val_main_v77
  generalize val_main_v76 (F := Ideal) x0 x1 x2 x3 x4 x5 x6 x7 = y0
  simp only [Host.dotGeneral]
  rw [Ideal.dotGeneral_apply, ← Equiv.sum_comp (ValueIdx.contrEquiv1 dot_S32x128_S128x128_S32x128_1_0_0_1_n_n 128 rfl rfl).symm]
  refine Finset.sum_congr rfl fun k _ => ?_
  have hk := ValueIdx.contrEquiv1_symm_val dot_S32x128_S128x128_S32x128_1_0_0_1_n_n 128 rfl rfl k
  have el : dot_S32x128_S128x128_S32x128_1_0_0_1_n_n.lhsIdx i ((ValueIdx.contrEquiv1 dot_S32x128_S128x128_S32x128_1_0_0_1_n_n 128 rfl rfl).symm k) = lidx_main_v77 i k := funext fun a => Fin.ext (by
    match a with
    | ⟨0, _⟩ => exact lhs_main_v77_0 _ _
    | ⟨1, _⟩ => exact (lhs_main_v77_1 _ _).trans hk)
  have er : dot_S32x128_S128x128_S32x128_1_0_0_1_n_n.rhsIdx i ((ValueIdx.contrEquiv1 dot_S32x128_S128x128_S32x128_1_0_0_1_n_n 128 rfl rfl).symm k) = ridx_main_v77 i k := funext fun a => Fin.ext (by
    match a with
    | ⟨0, _⟩ => exact (rhs_main_v77_0 _ _).trans hk
    | ⟨1, _⟩ => exact rhs_main_v77_1 _ _)
  rw [el, er]
def val_main_v78 (x9 : (⟨S128, .f32⟩ : BufTy).Contents (Elt F)) : (⟨S1x128, .f32⟩ : BufTy).Contents (Elt F) :=
  broadcastInDim S1x128 ![1] bcast_S128_S1x128_1 (x9)
def val_main_v79 (x9 : (⟨S128, .f32⟩ : BufTy).Contents (Elt F)) : (⟨S32x128, .f32⟩ : BufTy).Contents (Elt F) :=
  broadcastInDim S32x128 ![0, 1] bcast_S1x128_S32x128_0_1 (val_main_v78 (F := F) x9)
def val_main_v80 (x0 : (⟨S20000x128, .f32⟩ : BufTy).Contents (Elt F)) (x1 : (⟨S2x640000, .i32⟩ : BufTy).Contents (Elt F)) (x2 : (⟨S20000, .i32⟩ : BufTy).Contents (Elt F)) (x3 : (⟨S128x128, .f32⟩ : BufTy).Contents (Elt F)) (x4 : (⟨S128, .f32⟩ : BufTy).Contents (Elt F)) (x5 x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) : (⟨S32x128, .f32⟩ : BufTy).Contents (Elt F) :=
  addf (val_main_v77 (F := F) x0 x1 x2 x3 x4 x5 x6 x7 x8) (val_main_v79 (F := F) x9)
theorem val_main_v80_apply (x0 : (⟨S20000x128, .f32⟩ : BufTy).Contents (Elt F)) (x1 : (⟨S2x640000, .i32⟩ : BufTy).Contents (Elt F)) (x2 : (⟨S20000, .i32⟩ : BufTy).Contents (Elt F)) (x3 : (⟨S128x128, .f32⟩ : BufTy).Contents (Elt F)) (x4 : (⟨S128, .f32⟩ : BufTy).Contents (Elt F)) (x5 x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (i : S32x128.Idx) :
    val_main_v80 (F := F) x0 x1 x2 x3 x4 x5 x6 x7 x8 x9 i = FloatOps.addf (val_main_v77 (F := F) x0 x1 x2 x3 x4 x5 x6 x7 x8 i) (val_main_v79 (F := F) x9 i) := rfl
def val_main_call3_cst : (⟨S_, .f32⟩ : BufTy).Contents (Elt F) :=
  constant S_ .f32 0x00000000#32
def val_main_call3_v0 : (⟨S32x128, .f32⟩ : BufTy).Contents (Elt F) :=
  broadcastInDim S32x128 ![] bcast_S_S32x128 (val_main_call3_cst (F := F))
def val_main_v81 (x0 : (⟨S20000x128, .f32⟩ : BufTy).Contents (Elt F)) (x1 : (⟨S2x640000, .i32⟩ : BufTy).Contents (Elt F)) (x2 : (⟨S20000, .i32⟩ : BufTy).Contents (Elt F)) (x3 : (⟨S128x128, .f32⟩ : BufTy).Contents (Elt F)) (x4 : (⟨S128, .f32⟩ : BufTy).Contents (Elt F)) (x5 x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) : (⟨S32x128, .f32⟩ : BufTy).Contents (Elt F) :=
  maximumf (val_main_v80 (F := F) x0 x1 x2 x3 x4 x5 x6 x7 x8 x9) (val_main_call3_v0 (F := F))
theorem val_main_v81_apply (x0 : (⟨S20000x128, .f32⟩ : BufTy).Contents (Elt F)) (x1 : (⟨S2x640000, .i32⟩ : BufTy).Contents (Elt F)) (x2 : (⟨S20000, .i32⟩ : BufTy).Contents (Elt F)) (x3 : (⟨S128x128, .f32⟩ : BufTy).Contents (Elt F)) (x4 : (⟨S128, .f32⟩ : BufTy).Contents (Elt F)) (x5 x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (i : S32x128.Idx) :
    val_main_v81 (F := F) x0 x1 x2 x3 x4 x5 x6 x7 x8 x9 i = FloatOps.maximumf (val_main_v80 (F := F) x0 x1 x2 x3 x4 x5 x6 x7 x8 x9 i) (val_main_call3_v0 (F := F) i) := rfl
def val_main_v82 (x0 : (⟨S20000x128, .f32⟩ : BufTy).Contents (Elt F)) (x1 : (⟨S2x640000, .i32⟩ : BufTy).Contents (Elt F)) (x2 : (⟨S20000, .i32⟩ : BufTy).Contents (Elt F)) (x3 : (⟨S128x128, .f32⟩ : BufTy).Contents (Elt F)) (x4 : (⟨S128, .f32⟩ : BufTy).Contents (Elt F)) (x5 x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x3, .f32⟩ : BufTy).Contents (Elt F)) : (⟨S32x3, .f32⟩ : BufTy).Contents (Elt F) :=
  Host.dotGeneral dot_S32x128_S128x3_S32x3_1_0_0_1_n_n none (val_main_v81 (F := F) x0 x1 x2 x3 x4 x5 x6 x7 x8 x9) (x10)
theorem lhs_main_v82_0 (i : S32x3.Idx) (q : dot_S32x128_S128x3_S32x3_1_0_0_1_n_n.contr.Idx) :
    (dot_S32x128_S128x3_S32x3_1_0_0_1_n_n.lhsIdx i q 0).val = (i 0).val := by
  unfold DotDims.lhsIdx
  rw [dif_neg (show ¬(0 : Fin S32x128.rank) ∈ dot_S32x128_S128x3_S32x3_1_0_0_1_n_n.lhsBatch by decide), dif_pos (show (0 : Fin S32x128.rank) ∈ dot_S32x128_S128x3_S32x3_1_0_0_1_n_n.lhsNonContracting by decide)]
  rfl
theorem lhs_main_v82_1 (i : S32x3.Idx) (q : dot_S32x128_S128x3_S32x3_1_0_0_1_n_n.contr.Idx) :
    (dot_S32x128_S128x3_S32x3_1_0_0_1_n_n.lhsIdx i q 1).val = (q ⟨0, by decide⟩).val :=
  dot_S32x128_S128x3_S32x3_1_0_0_1_n_n.lhsIdx_val_of_single rfl i q
theorem rhs_main_v82_0 (i : S32x3.Idx) (q : dot_S32x128_S128x3_S32x3_1_0_0_1_n_n.contr.Idx) :
    (dot_S32x128_S128x3_S32x3_1_0_0_1_n_n.rhsIdx i q 0).val = (q ⟨0, by decide⟩).val :=
  dot_S32x128_S128x3_S32x3_1_0_0_1_n_n.rhsIdx_val_of_single rfl i q
theorem rhs_main_v82_1 (i : S32x3.Idx) (q : dot_S32x128_S128x3_S32x3_1_0_0_1_n_n.contr.Idx) :
    (dot_S32x128_S128x3_S32x3_1_0_0_1_n_n.rhsIdx i q 1).val = (i 1).val := by
  unfold DotDims.rhsIdx
  rw [dif_neg (show ¬(1 : Fin S128x3.rank) ∈ dot_S32x128_S128x3_S32x3_1_0_0_1_n_n.rhsBatch by decide), dif_pos (show (1 : Fin S128x3.rank) ∈ dot_S32x128_S128x3_S32x3_1_0_0_1_n_n.rhsNonContracting by decide)]
  rfl
abbrev lidx_main_v82 (i : S32x3.Idx) (k : Fin 128) : S32x128.Idx := fun a => match a with
  | ⟨0, _⟩ => ⟨(i 0).val, (i 0).isLt⟩
  | ⟨1, _⟩ => ⟨k.val, k.isLt⟩
abbrev ridx_main_v82 (i : S32x3.Idx) (k : Fin 128) : S128x3.Idx := fun a => match a with
  | ⟨0, _⟩ => ⟨k.val, k.isLt⟩
  | ⟨1, _⟩ => ⟨(i 1).val, (i 1).isLt⟩
theorem val_main_v82_apply (x0 : (⟨S20000x128, .f32⟩ : BufTy).Contents (Elt Ideal)) (x1 : (⟨S2x640000, .i32⟩ : BufTy).Contents (Elt Ideal)) (x2 : (⟨S20000, .i32⟩ : BufTy).Contents (Elt Ideal)) (x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x3, .f32⟩ : BufTy).Contents (Elt Ideal)) (i : S32x3.Idx) :
    val_main_v82 (F := Ideal) x0 x1 x2 x3 x4 x5 x6 x7 x8 x9 x10 i = ∑ k : Fin 128, (val_main_v81 (F := Ideal) x0 x1 x2 x3 x4 x5 x6 x7 x8 x9) (lidx_main_v82 i k) * x10 (ridx_main_v82 i k) := by
  unfold val_main_v82
  generalize val_main_v81 (F := Ideal) x0 x1 x2 x3 x4 x5 x6 x7 x8 x9 = y0
  simp only [Host.dotGeneral]
  rw [Ideal.dotGeneral_apply, ← Equiv.sum_comp (ValueIdx.contrEquiv1 dot_S32x128_S128x3_S32x3_1_0_0_1_n_n 128 rfl rfl).symm]
  refine Finset.sum_congr rfl fun k _ => ?_
  have hk := ValueIdx.contrEquiv1_symm_val dot_S32x128_S128x3_S32x3_1_0_0_1_n_n 128 rfl rfl k
  have el : dot_S32x128_S128x3_S32x3_1_0_0_1_n_n.lhsIdx i ((ValueIdx.contrEquiv1 dot_S32x128_S128x3_S32x3_1_0_0_1_n_n 128 rfl rfl).symm k) = lidx_main_v82 i k := funext fun a => Fin.ext (by
    match a with
    | ⟨0, _⟩ => exact lhs_main_v82_0 _ _
    | ⟨1, _⟩ => exact (lhs_main_v82_1 _ _).trans hk)
  have er : dot_S32x128_S128x3_S32x3_1_0_0_1_n_n.rhsIdx i ((ValueIdx.contrEquiv1 dot_S32x128_S128x3_S32x3_1_0_0_1_n_n 128 rfl rfl).symm k) = ridx_main_v82 i k := funext fun a => Fin.ext (by
    match a with
    | ⟨0, _⟩ => exact (rhs_main_v82_0 _ _).trans hk
    | ⟨1, _⟩ => exact rhs_main_v82_1 _ _)
  rw [el, er]
def val_main_v83 (x11 : (⟨S3, .f32⟩ : BufTy).Contents (Elt F)) : (⟨S1x3, .f32⟩ : BufTy).Contents (Elt F) :=
  broadcastInDim S1x3 ![1] bcast_S3_S1x3_1 (x11)
def val_main_v84 (x11 : (⟨S3, .f32⟩ : BufTy).Contents (Elt F)) : (⟨S32x3, .f32⟩ : BufTy).Contents (Elt F) :=
  broadcastInDim S32x3 ![0, 1] bcast_S1x3_S32x3_0_1 (val_main_v83 (F := F) x11)
def val_main_v85 (x0 : (⟨S20000x128, .f32⟩ : BufTy).Contents (Elt F)) (x1 : (⟨S2x640000, .i32⟩ : BufTy).Contents (Elt F)) (x2 : (⟨S20000, .i32⟩ : BufTy).Contents (Elt F)) (x3 : (⟨S128x128, .f32⟩ : BufTy).Contents (Elt F)) (x4 : (⟨S128, .f32⟩ : BufTy).Contents (Elt F)) (x5 x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x3, .f32⟩ : BufTy).Contents (Elt F)) (x11 : (⟨S3, .f32⟩ : BufTy).Contents (Elt F)) : (⟨S32x3, .f32⟩ : BufTy).Contents (Elt F) :=
  addf (val_main_v82 (F := F) x0 x1 x2 x3 x4 x5 x6 x7 x8 x9 x10) (val_main_v84 (F := F) x11)
theorem val_main_v85_apply (x0 : (⟨S20000x128, .f32⟩ : BufTy).Contents (Elt F)) (x1 : (⟨S2x640000, .i32⟩ : BufTy).Contents (Elt F)) (x2 : (⟨S20000, .i32⟩ : BufTy).Contents (Elt F)) (x3 : (⟨S128x128, .f32⟩ : BufTy).Contents (Elt F)) (x4 : (⟨S128, .f32⟩ : BufTy).Contents (Elt F)) (x5 x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x3, .f32⟩ : BufTy).Contents (Elt F)) (x11 : (⟨S3, .f32⟩ : BufTy).Contents (Elt F)) (i : S32x3.Idx) :
    val_main_v85 (F := F) x0 x1 x2 x3 x4 x5 x6 x7 x8 x9 x10 x11 i = FloatOps.addf (val_main_v82 (F := F) x0 x1 x2 x3 x4 x5 x6 x7 x8 x9 x10 i) (val_main_v84 (F := F) x11 i) := rfl
theorem val_main_v85_eq (m : (ℓ : Loc nD τ sig) → Buf (Elt F) ℓ) (c : Dev nD) :
    Cert.ReferenceIdeal.ValueP.res_main_v85 m c = val_main_v85 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Cert.ReferenceIdeal.ValueP.res_main_v85; rfl
end Cert.ReferenceIdeal.ReadP
end
-- ==== Proof.RefOps.lean ====
import proofs.«427224_j39238821216992_2_alg».proof.ReferenceIdeal
import Idealize.ShloMosaic.Lib.ValueIdx
import Idealize.ShloMosaic.Lib.Pipeline.Value
noncomputable section
open scoped BigOperators
namespace Cert.ReferenceIdeal.RefOps
open Idealize.ShloMosaic Idealize.ShloMosaic.ValueIdx
open Cert.ReferenceIdeal
theorem toInt_eq_natCast_iff (w : BitVec 32) (n : Nat) (hn : n < 2 ^ 31) :
    w.toInt = (n : Int) ↔ w = BitVec.ofNat 32 n := by
  have hw := w.isLt
  constructor
  · intro h
    apply BitVec.eq_of_toNat_eq
    rw [BitVec.toNat_ofNat]
    rw [BitVec.toInt_eq_toNat_cond] at h
    split at h <;> omega
  · rintro rfl
    rw [BitVec.toInt_eq_toNat_cond, BitVec.toNat_ofNat]
    split <;> omega
def idxEquiv1 {n : Nat} : (⟨1, ![n]⟩ : Shape).Idx ≃ Fin n where
  toFun i := i 0
  invFun a := ix1 a
  left_inv i := (eq_ix1 i).symm
  right_inv _ := rfl
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl
section Scat1
variable {N E : Nat} (wf : ScatterDims.WF ⟨1, ![N]⟩ ⟨2, ![E, 1]⟩ ⟨1, ![E]⟩ [] [0] [0] 1)
abbrev scat1 : ScatterDims ⟨1, ![N]⟩ ⟨2, ![E, 1]⟩ ⟨1, ![E]⟩ where
  updateWindowDims := []
  insertedWindowDims := [0]
  scatterDimsToOperandDims := [0]
  indexVectorDim := 1
  wf := wf
theorem scat1_start {w : Nat} (j : (⟨1, ![E]⟩ : Shape).Idx) (idx : IVec ⟨2, ![E, 1]⟩ w) :
    (scat1 wf).start j idx 0 = (idx (ix2 (j 0) (0 : Fin 1))).toInt := by
  unfold ScatterDims.start
  rw [dif_pos (show (0 : Fin 1) ∈ (scat1 wf).scatterDimsToOperandDims from List.mem_singleton.mpr rfl)]
  have hsi : (scat1 wf).siIdx j ⟨List.idxOf (0 : Fin 1) (scat1 wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]; rfl
theorem scat1_window (j : (⟨1, ![E]⟩ : Shape).Idx) : (scat1 wf).window j 0 = 0 := by
  unfold ScatterDims.window
  rw [dif_neg (by simp [Shape.kept])]
theorem scat1_resultIdx_iff (j : (⟨1, ![E]⟩ : Shape).Idx) (idx : IVec ⟨2, ![E, 1]⟩ 32) (i : (⟨1, ![N]⟩ : Shape).Idx) :
    (scat1 wf).resultIdx? j idx = some i ↔ (idx (ix2 (j 0) (0 : Fin 1))).toInt = ((i 0).val : Int) := by
  have hi : (i 0).val < N := (i 0).isLt
  unfold ScatterDims.resultIdx?
  split
  · next h =>
    have h0 := h 0
    rw [scat1_start, scat1_window] at h0
    rw [Option.some.injEq]
    constructor
    · intro hf
      have := congrArg (fun f => (f 0).val) hf
      simp only [scat1_start, scat1_window] at this
      omega
    · intro hv
      funext a
      obtain rfl : a = 0 := Subsingleton.elim _ _
      refine Fin.ext ?_
      simp only [scat1_start, scat1_window]
      omega
  · next h =>
    constructor
    · intro hf; exact absurd hf (by simp)
    · intro hv
      exfalso; apply h
      intro a
      obtain rfl : a = 0 := Subsingleton.elim _ _
      rw [scat1_start, scat1_window, hv]
      constructor
      · omega
      · show ((i 0).val : Int) + ((0 : Nat) : Int) < (N : Int)
        omega
theorem scatterAdd1_apply (hN : N ≤ 2 ^ 31) (x : (⟨1, ![N]⟩ : Shape).Idx → EReal) (idx : IVec ⟨2, ![E, 1]⟩ 32)
    (upd : (⟨1, ![E]⟩ : Shape).Idx → EReal) (v : Fin N) :
    Ideal.hostScatterAdd (scat1 wf) x idx upd (ix1 v)
      = x (ix1 v) + ∑ e : Fin E, if idx (ix2 e (0 : Fin 1)) = BitVec.ofNat 32 v.val then upd (ix1 e) else 0 := by
  unfold Ideal.hostScatterAdd
  congr 1
  rw [Finset.sum_filter, sum_idx1]
  refine Finset.sum_congr rfl fun e _ => ?_
  refine if_congr ?_ rfl rfl
  rw [scat1_resultIdx_iff]
  exact toInt_eq_natCast_iff _ v.val (by have := v.isLt; omega)
end Scat1
section Scat2
variable {N H E : Nat} (wf : ScatterDims.WF ⟨2, ![N, H]⟩ ⟨2, ![E, 1]⟩ ⟨2, ![E, H]⟩ [1] [0] [0] 1)
abbrev scat2 : ScatterDims ⟨2, ![N, H]⟩ ⟨2, ![E, 1]⟩ ⟨2, ![E, H]⟩ where
  updateWindowDims := [1]
  insertedWindowDims := [0]
  scatterDimsToOperandDims := [0]
  indexVectorDim := 1
  wf := wf
theorem scat2_start0 {w : Nat} (j : (⟨2, ![E, H]⟩ : Shape).Idx) (idx : IVec ⟨2, ![E, 1]⟩ w) :
    (scat2 wf).start j idx 0 = (idx (ix2 (j 0) (0 : Fin 1))).toInt := by
  unfold ScatterDims.start
  rw [dif_pos (show (0 : Fin 2) ∈ (scat2 wf).scatterDimsToOperandDims from List.mem_singleton.mpr rfl)]
  have hsi : (scat2 wf).siIdx j ⟨List.idxOf (0 : Fin 2) (scat2 wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]; rfl
theorem scat2_start1 {w : Nat} (j : (⟨2, ![E, H]⟩ : Shape).Idx) (idx : IVec ⟨2, ![E, 1]⟩ w) :
    (scat2 wf).start j idx 1 = 0 := by
  unfold ScatterDims.start
  rw [dif_neg (by simp)]
theorem scat2_window0 (j : (⟨2, ![E, H]⟩ : Shape).Idx) : (scat2 wf).window j 0 = 0 := by
  unfold ScatterDims.window
  rw [dif_neg (by simp [Shape.kept])]
theorem scat2_window1 (j : (⟨2, ![E, H]⟩ : Shape).Idx) : (scat2 wf).window j 1 = (j 1).val := by
  unfold ScatterDims.window
  rw [dif_pos (by simp [Shape.kept, List.finRange])]
  rfl
theorem scat2_resultIdx_iff (j : (⟨2, ![E, H]⟩ : Shape).Idx) (idx : IVec ⟨2, ![E, 1]⟩ 32) (i : (⟨2, ![N, H]⟩ : Shape).Idx) :
    (scat2 wf).resultIdx? j idx = some i
      ↔ (idx (ix2 (j 0) (0 : Fin 1))).toInt = ((i 0).val : Int) ∧ j 1 = i 1 := by
  have hi0 : (i 0).val < N := idx2_lt0 i
  have hi1 : (i 1).val < H := idx2_lt1 i
  have hj1 : (j 1).val < H := idx2_lt1 j
  unfold ScatterDims.resultIdx?
  split
  · next h =>
    have h0 := h 0
    have h1 := h 1
    rw [scat2_start0, scat2_window0] at h0
    rw [scat2_start1, scat2_window1] at h1
    rw [Option.some.injEq]
    constructor
    · intro hf
      have e0 := congrArg (fun f => (f 0).val) hf
      have e1 := congrArg (fun f => (f 1).val) hf
      simp only [scat2_start0, scat2_window0, scat2_start1, scat2_window1] at e0 e1
      refine ⟨by omega, Fin.ext (by omega)⟩
    · rintro ⟨hv, hq⟩
      have hq' : (j 1).val = (i 1).val := congrArg Fin.val hq
      funext a
      refine Fin.ext ?_
      match a with
      | ⟨0, _⟩ =>
        show ((scat2 wf).start j idx 0 + ((scat2 wf).window j 0 : Nat)).toNat = (i 0).val
        rw [scat2_start0, scat2_window0]; omega
      | ⟨1, _⟩ =>
        show ((scat2 wf).start j idx 1 + ((scat2 wf).window j 1 : Nat)).toNat = (i 1).val
        rw [scat2_start1, scat2_window1]; omega
  · next h =>
    constructor
    · intro hf; exact absurd hf (by simp)
    · rintro ⟨hv, hq⟩
      have hq' : (j 1).val = (i 1).val := congrArg Fin.val hq
      exfalso; apply h
      intro a
      match a with
      | ⟨0, _⟩ =>
        show 0 ≤ (scat2 wf).start j idx 0 + ((scat2 wf).window j 0 : Nat)
          ∧ (scat2 wf).start j idx 0 + ((scat2 wf).window j 0 : Nat) < (N : Int)
        rw [scat2_start0, scat2_window0, hv]; omega
      | ⟨1, _⟩ =>
        show 0 ≤ (scat2 wf).start j idx 1 + ((scat2 wf).window j 1 : Nat)
          ∧ (scat2 wf).start j idx 1 + ((scat2 wf).window j 1 : Nat) < (H : Int)
        rw [scat2_start1, scat2_window1]; omega
theorem scatterAdd2_apply (hN : N ≤ 2 ^ 31) (x : (⟨2, ![N, H]⟩ : Shape).Idx → EReal) (idx : IVec ⟨2, ![E, 1]⟩ 32)
    (upd : (⟨2, ![E, H]⟩ : Shape).Idx → EReal) (v : Fin N) (q : Fin H) :
    Ideal.hostScatterAdd (scat2 wf) x idx upd (ix2 v q)
      = x (ix2 v q) + ∑ e : Fin E, if idx (ix2 e (0 : Fin 1)) = BitVec.ofNat 32 v.val then upd (ix2 e q) else 0 := by
  unfold Ideal.hostScatterAdd
  congr 1
  rw [Finset.sum_filter, sum_idx2]
  refine Finset.sum_congr rfl fun e _ => ?_
  have hiff : ∀ c : Fin H, ((scat2 wf).resultIdx? (ix2 e c) idx = some (ix2 v q))
      ↔ (idx (ix2 e (0 : Fin 1)) = BitVec.ofNat 32 v.val ∧ c = q) := fun c => by
    rw [scat2_resultIdx_iff]
    exact and_congr (toInt_eq_natCast_iff _ v.val (by have := v.isLt; omega)) Iff.rfl
  by_cases hw : idx (ix2 e (0 : Fin 1)) = BitVec.ofNat 32 v.val
  · rw [if_pos hw]
    rw [Finset.sum_eq_single q]
    · rw [if_pos ((hiff q).2 ⟨hw, rfl⟩)]
    · intro c _ hc
      rw [if_neg (fun h => hc ((hiff c).1 h).2)]
    · intro h; exact absurd (Finset.mem_univ q) h
  · rw [if_neg hw]
    refine Finset.sum_eq_zero fun c _ => ?_
    rw [if_neg (fun h => hw ((hiff c).1 h).1)]
end Scat2
def clampRow (N : Nat) (hN : 0 < N) (w : BitVec 32) : Fin N := ⟨min w.toInt.toNat (N - 1), by omega⟩
theorem clampRow_val (N : Nat) (hN : 0 < N) (w : BitVec 32) : (clampRow N hN w).val = min w.toInt.toNat (N - 1) := rfl
theorem clampRow_ofNat (N : Nat) (hN : 0 < N) (hN' : N ≤ 2 ^ 31) (r : Fin N) : clampRow N hN (BitVec.ofNat 32 r.val) = r := by
  have hr := r.isLt
  have h := (toInt_eq_natCast_iff (BitVec.ofNat 32 r.val) r.val (by omega)).2 rfl
  refine Fin.ext ?_
  rw [clampRow_val, h]
  simp only [Int.toNat_natCast]
  omega
section Gath1
variable {α : Type} {N E : Nat} (wf : GatherDims.WF ⟨1, ![N]⟩ ⟨2, ![E, 1]⟩ ⟨1, ![E]⟩ [] [0] [] [0] [] 1 ![1])
abbrev gath1 : GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf
theorem gather1_apply (hN : 0 < N) (x : (⟨1, ![N]⟩ : Shape).Idx → α) (idx : IVec ⟨2, ![E, 1]⟩ 32) (e : Fin E) :
    Host.gather (gath1 wf) x idx (ix1 e) = x (ix1 (clampRow N hN (idx (ix2 e (0 : Fin 1))))) := by
  unfold Host.gather
  congr 1
  funext a
  obtain rfl : a = 0 := Subsingleton.elim _ _
  refine Fin.ext ?_
  show (gath1 wf).start (ix1 e) idx 0 + (gath1 wf).batchCoord (ix1 e) 0 + (gath1 wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gath1 wf).startIndexMap from List.mem_singleton.mpr rfl)]
  have hsi : (gath1 wf).siIdx (ix1 e) ⟨List.idxOf (0 : Fin 1) (gath1 wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl
end Gath1
section Gath2
variable {α : Type} {N H E : Nat}
  (wf : GatherDims.WF ⟨2, ![N, H]⟩ ⟨2, ![E, 1]⟩ ⟨2, ![E, H]⟩ [1] [0] [] [0] [] 1 ![1, H])
abbrev gath2 : GatherDims ⟨2, ![N, H]⟩ ⟨2, ![E, 1]⟩ ⟨2, ![E, H]⟩ where
  offsetDims := [1]
  collapsedSliceDims := [0]
  operandBatchingDims := []
  startIndicesBatchingDims := []
  startIndexMap := [0]
  indexVectorDim := 1
  sliceSizes := ![1, H]
  wf := wf
theorem gather2_apply (hN : 0 < N) (x : (⟨2, ![N, H]⟩ : Shape).Idx → α) (idx : IVec ⟨2, ![E, 1]⟩ 32) (e : Fin E) (q : Fin H) :
    Host.gather (gath2 wf) x idx (ix2 e q) = x (ix2 (clampRow N hN (idx (ix2 e (0 : Fin 1)))) q) := by
  unfold Host.gather
  congr 1
  funext a
  refine Fin.ext ?_
  match a with
  | ⟨0, _⟩ =>
    show (gath2 wf).start (ix2 e q) idx 0 + (gath2 wf).batchCoord (ix2 e q) 0 + (gath2 wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gath2 wf).startIndexMap from List.mem_singleton.mpr rfl)]
    have hsi : (gath2 wf).siIdx (ix2 e q) ⟨List.idxOf (0 : Fin 2) (gath2 wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gath2 wf).start (ix2 e q) idx 1 + (gath2 wf).batchCoord (ix2 e q) 1 + (gath2 wf).offCoord (ix2 e q) 1 = q.val
    rw [GatherDims.batchCoord_eq_zero _ _ _ List.not_mem_nil]
    have hs : (gath2 wf).start (ix2 e q) idx 1 = 0 := by
      unfold GatherDims.start
      rw [dif_neg (by simp)]
    have ho : (gath2 wf).offCoord (ix2 e q) 1 = q.val := by
      unfold GatherDims.offCoord
      rw [dif_pos (by simp [Shape.kept, List.finRange])]
      rfl
    simp only [hs, ho, Nat.zero_add]
end Gath2
section Concat
variable {α : Type} [Facts₀]
theorem concat_lo (a : S640000.Idx → α) (b : S20000.Idx → α) (e : Fin 640000) :
    concatenate S660000 0 [⟨S640000, a⟩, ⟨S20000, b⟩] Facts₀.concatenates_S640000_S20000_S660000_d0
      (ix1 (⟨e.val, by have := e.isLt; omega⟩ : Fin 660000)) = a (ix1 e) :=
  concatenate_pair_apply_left (t := S660000) (s₁ := S640000) (s₂ := S20000) 0 a b
    Facts₀.concatenates_S640000_S20000_S660000_d0 (ix1 (⟨e.val, by have := e.isLt; omega⟩ : Fin 660000)) rfl (ix1 e)
    (fun c => by
      obtain rfl : c = 0 := Subsingleton.elim _ _
      rfl)
theorem concat_hi (a : S640000.Idx → α) (b : S20000.Idx → α) (v : Fin 20000) :
    concatenate S660000 0 [⟨S640000, a⟩, ⟨S20000, b⟩] Facts₀.concatenates_S640000_S20000_S660000_d0
      (ix1 (⟨640000 + v.val, by have := v.isLt; omega⟩ : Fin 660000)) = b (ix1 v) :=
  concatenate_pair_apply_right (t := S660000) (s₁ := S640000) (s₂ := S20000) 0 a b
    Facts₀.concatenates_S640000_S20000_S660000_d0 (ix1 (⟨640000 + v.val, by have := v.isLt; omega⟩ : Fin 660000)) rfl rfl (ix1 v)
    (fun c hc => absurd (Subsingleton.elim _ _) hc)
    (by show v.val + 640000 = 640000 + v.val; omega)
theorem sum_split {M : Type*} [AddCommMonoid M] (f : Fin 660000 → M) :
    ∑ e, f e = (∑ e : Fin 640000, f ⟨e.val, by have := e.isLt; omega⟩)
      + ∑ v : Fin 20000, f ⟨640000 + v.val, by have := v.isLt; omega⟩ := by
  have h : 640000 + 20000 = 660000 := by norm_num
  rw [← Fin.sum_congr' f h, Fin.sum_univ_add]
  congr 1
theorem sum_concat {M : Type*} [AddCommMonoid M] (a : S640000.Idx → α) (b : S20000.Idx → α) (f : α → Fin 660000 → M) :
    ∑ e : Fin 660000, f (concatenate S660000 0 [⟨S640000, a⟩, ⟨S20000, b⟩] Facts₀.concatenates_S640000_S20000_S660000_d0 (ix1 e)) e
      = (∑ e : Fin 640000, f (a (ix1 e)) ⟨e.val, by have := e.isLt; omega⟩)
        + ∑ v : Fin 20000, f (b (ix1 v)) ⟨640000 + v.val, by have := v.isLt; omega⟩ := by
  rw [sum_split]
  refine congrArg₂ (· + ·) ?_ ?_
  · exact Finset.sum_congr rfl fun e _ => congrArg (fun t => f t _) (concat_lo a b e)
  · exact Finset.sum_congr rfl fun v _ => congrArg (fun t => f t _) (concat_hi a b v)
end Concat
section Records
variable [Facts₀]
theorem scatterAdd_S20000_S660000_apply (x : S20000.Idx → EReal) (idx : IVec S660000x1 32) (upd : S660000.Idx → EReal) (v : Fin 20000) :
    Host.scatterAdd (F := Ideal) (φ := .f32) scatter_S20000_S660000x1_S660000_n_0_0_1 x idx upd (ix1 v)
      = x (ix1 v) + ∑ e : Fin 660000, if idx (ix2 e (0 : Fin 1)) = BitVec.ofNat 32 v.val then upd (ix1 e) else 0 :=
  scatterAdd1_apply Facts₀.scatter_S20000_S660000x1_S660000_n_0_0_1_wf (by decide) x idx upd v
theorem scatterAdd_S20000_S640000_apply (x : S20000.Idx → EReal) (idx : IVec S640000x1 32) (upd : S640000.Idx → EReal) (v : Fin 20000) :
    Host.scatterAdd (F := Ideal) (φ := .f32) scatter_S20000_S640000x1_S640000_n_0_0_1 x idx upd (ix1 v)
      = x (ix1 v) + ∑ e : Fin 640000, if idx (ix2 e (0 : Fin 1)) = BitVec.ofNat 32 v.val then upd (ix1 e) else 0 :=
  scatterAdd1_apply Facts₀.scatter_S20000_S640000x1_S640000_n_0_0_1_wf (by decide) x idx upd v
theorem scatterAdd_S20000x128_S660000_apply (x : S20000x128.Idx → EReal) (idx : IVec S660000x1 32) (upd : S660000x128.Idx → EReal)
    (v : Fin 20000) (q : Fin 128) :
    Host.scatterAdd (F := Ideal) (φ := .f32) scatter_S20000x128_S660000x1_S660000x128_1_0_0_1 x idx upd (ix2 v q)
      = x (ix2 v q) + ∑ e : Fin 660000, if idx (ix2 e (0 : Fin 1)) = BitVec.ofNat 32 v.val then upd (ix2 e q) else 0 :=
  scatterAdd2_apply Facts₀.scatter_S20000x128_S660000x1_S660000x128_1_0_0_1_wf (by decide) x idx upd v q
theorem scatterAdd_S20000x128_S640000_apply (x : S20000x128.Idx → EReal) (idx : IVec S640000x1 32) (upd : S640000x128.Idx → EReal)
    (v : Fin 20000) (q : Fin 128) :
    Host.scatterAdd (F := Ideal) (φ := .f32) scatter_S20000x128_S640000x1_S640000x128_1_0_0_1 x idx upd (ix2 v q)
      = x (ix2 v q) + ∑ e : Fin 640000, if idx (ix2 e (0 : Fin 1)) = BitVec.ofNat 32 v.val then upd (ix2 e q) else 0 :=
  scatterAdd2_apply Facts₀.scatter_S20000x128_S640000x1_S640000x128_1_0_0_1_wf (by decide) x idx upd v q
theorem scatterAdd_S32x128_S20000_apply (x : S32x128.Idx → EReal) (idx : IVec S20000x1 32) (upd : S20000x128.Idx → EReal)
    (g : Fin 32) (q : Fin 128) :
    Host.scatterAdd (F := Ideal) (φ := .f32) scatter_S32x128_S20000x1_S20000x128_1_0_0_1 x idx upd (ix2 g q)
      = x (ix2 g q) + ∑ v : Fin 20000, if idx (ix2 v (0 : Fin 1)) = BitVec.ofNat 32 g.val then upd (ix2 v q) else 0 :=
  scatterAdd2_apply Facts₀.scatter_S32x128_S20000x1_S20000x128_1_0_0_1_wf (by decide) x idx upd g q
variable {α : Type}
theorem gather_S20000_S660000_apply (x : S20000.Idx → α) (idx : IVec S660000x1 32) (e : Fin 660000) :
    Host.gather gather_S20000_S660000x1_S660000_n_0_n_n_0_1_1 x idx (ix1 e)
      = x (ix1 (clampRow 20000 (by decide) (idx (ix2 e (0 : Fin 1))))) :=
  gather1_apply Facts₀.gather_S20000_S660000x1_S660000_n_0_n_n_0_1_1_wf (by decide) x idx e
theorem gather_S20000x128_S660000_apply (x : S20000x128.Idx → α) (idx : IVec S660000x1 32) (e : Fin 660000) (q : Fin 128) :
    Host.gather gather_S20000x128_S660000x1_S660000x128_1_0_n_n_0_1_1128 x idx (ix2 e q)
      = x (ix2 (clampRow 20000 (by decide) (idx (ix2 e (0 : Fin 1)))) q) :=
  gather2_apply Facts₀.gather_S20000x128_S660000x1_S660000x128_1_0_n_n_0_1_1128_wf (by decide) x idx e q
theorem gather_S20000x128_S640000_apply (x : S20000x128.Idx → α) (idx : IVec S640000x1 32) (e : Fin 640000) (q : Fin 128) :
    Host.gather gather_S20000x128_S640000x1_S640000x128_1_0_n_n_0_1_1128 x idx (ix2 e q)
      = x (ix2 (clampRow 20000 (by decide) (idx (ix2 e (0 : Fin 1)))) q) :=
  gather2_apply Facts₀.gather_S20000x128_S640000x1_S640000x128_1_0_n_n_0_1_1128_wf (by decide) x idx e q
end Records
end Cert.ReferenceIdeal.RefOps
end
-- ==== Proof.RefValue.lean ====
import proofs.«427224_j39238821216992_2_alg».proof.Proof.RefRead
import proofs.«427224_j39238821216992_2_alg».proof.Proof.RefOps
import proofs.«427224_j39238821216992_2_alg».proof.Proof.SpecMain
import Idealize.ShloMosaic.Lib.StableHlo.Predicate
import Idealize.ShloMosaic.Lib.Pipeline.Value
import Idealize.ShloMosaic.PureOps.Ideal.Laws
noncomputable section
open scoped BigOperators
namespace Cert.ReferenceIdeal.RefValue
open Cert.ReferenceIdeal Cert.ReferenceIdeal.Gen Idealize.ShloMosaic Idealize.ShloMosaic.TcCoe Idealize.SL.Sem Idealize.ShloMosaic.StableHlo
open Idealize.ShloMosaic.ValueIdx Idealize.ShloMosaic.StableHlo.Predicate Cert.ReferenceIdeal.ReadP Cert.ReferenceIdeal.RefOps Cert.Spec
def normWord (w : BitVec 32) : BitVec 32 :=
  Scalar.select (IntOp.cmpi .slt w 0#32) (IntOp.addi w 20000#32) w
def rdWord (w : BitVec 32) : Fin 20000 :=
  clampRow 20000 (by decide) (normWord w)
theorem normWord_ofNat (r : Fin 20000) : normWord (BitVec.ofNat 32 r.val) = BitVec.ofNat 32 r.val := by
  unfold normWord
  have h : IntOp.cmpi .slt (BitVec.ofNat 32 r.val) 0#32 = 0#1 := by
    have hr := r.isLt
    have h1 : ¬ (IntOp.cmpi .slt (BitVec.ofNat 32 r.val) 0#32 = 1#1) := by
      rw [slt_iff_toNat (by simp [BitVec.toNat_ofNat]; omega) (by decide)]
      simp
    generalize IntOp.cmpi .slt (BitVec.ofNat 32 r.val) 0#32 = b at h1 ⊢
    revert h1; revert b; decide
  rw [h, select_zero]
theorem rdWord_ofNat (r : Fin 20000) : rdWord (BitVec.ofNat 32 r.val) = r := by
  unfold rdWord
  rw [normWord_ofNat]
  exact clampRow_ofNat 20000 (by decide) (by decide) r
theorem ofNat_inj20000 (u v : Fin 20000) : BitVec.ofNat 32 u.val = BitVec.ofNat 32 v.val ↔ u = v := by
  constructor
  · intro h
    have := congrArg BitVec.toNat h
    simp only [BitVec.toNat_ofNat] at this
    have hu := u.isLt; have hv := v.isLt
    exact Fin.ext (by omega)
  · rintro rfl; rfl
theorem one_word : Ideal.ofBits .f32 0x3F800000#32 = 1 := by
  simp [Ideal.ofBits, Ideal.ieee, -EReal.coe_mul]; norm_num
abbrev lo (e : Fin 640000) : Fin 660000 := ⟨e.val, by have := e.isLt; omega⟩
abbrev hi (u : Fin 20000) : Fin 660000 := ⟨640000 + u.val, by have := u.isLt; omega⟩
theorem self_sum (v : Fin 20000) (f : Fin 20000 → EReal) :
    (∑ u : Fin 20000, if BitVec.ofNat 32 u.val = BitVec.ofNat 32 v.val then f u else 0) = f v := by
  rw [Finset.sum_eq_single v]
  · rw [if_pos rfl]
  · intro u _ hu; rw [if_neg (fun h => hu ((ofNat_inj20000 u v).1 h))]
  · intro h; exact absurd (Finset.mem_univ v) h
section Stages
variable (x0 : (⟨S20000x128, .f32⟩ : BufTy).Contents (Elt Ideal)) (x1 : (⟨S2x640000, .i32⟩ : BufTy).Contents (Elt Ideal))
  (x2 : (⟨S20000, .i32⟩ : BufTy).Contents (Elt Ideal)) (x3 : (⟨S128x128, .f32⟩ : BufTy).Contents (Elt Ideal))
  (x4 : (⟨S128, .f32⟩ : BufTy).Contents (Elt Ideal)) (x5 x6 : (⟨S128x128, .f32⟩ : BufTy).Contents (Elt Ideal))
  (x7 : (⟨S128, .f32⟩ : BufTy).Contents (Elt Ideal)) (x8 : (⟨S128x128, .f32⟩ : BufTy).Contents (Elt Ideal))
  (x9 : (⟨S128, .f32⟩ : BufTy).Contents (Elt Ideal)) (x10 : (⟨S128x3, .f32⟩ : BufTy).Contents (Elt Ideal))
  (x11 : (⟨S3, .f32⟩ : BufTy).Contents (Elt Ideal))
theorem src_at (e : Fin 640000) : val_main_v1 (F := Ideal) x1 (ix1 e) = x1 (ix2 (0 : Fin 2) e) := by
  rw [val_main_v1_apply, val_main_v0_apply]
  refine congrArg x1 (funext fun a => Fin.ext ?_)
  match a with
  | ⟨0, _⟩ => rfl
  | ⟨1, _⟩ => exact Nat.mod_eq_of_lt e.isLt
theorem tgt_at (e : Fin 640000) : val_main_v3 (F := Ideal) x1 (ix1 e) = x1 (ix2 (1 : Fin 2) e) := by
  rw [val_main_v3_apply, val_main_v2_apply]
  refine congrArg x1 (funext fun a => Fin.ext ?_)
  match a with
  | ⟨0, _⟩ => rfl
  | ⟨1, _⟩ => exact Nat.mod_eq_of_lt e.isLt
theorem v6_lo (e : Fin 640000) : val_main_v6 (F := Ideal) x1 (ix1 (lo e)) = x1 (ix2 (0 : Fin 2) e) :=
  (concat_lo _ _ e).trans (src_at x1 e)
theorem v6_hi (u : Fin 20000) : val_main_v6 (F := Ideal) x1 (ix1 (hi u)) = BitVec.ofNat 32 u.val :=
  concat_hi _ _ u
theorem v7_lo (e : Fin 640000) : val_main_v7 (F := Ideal) x1 (ix1 (lo e)) = x1 (ix2 (1 : Fin 2) e) :=
  (concat_lo _ _ e).trans (tgt_at x1 e)
theorem v7_hi (u : Fin 20000) : val_main_v7 (F := Ideal) x1 (ix1 (hi u)) = BitVec.ofNat 32 u.val :=
  concat_hi _ _ u
theorem col660 (y : (⟨S660000, .i32⟩ : BufTy).Contents (Elt Ideal)) (e : Fin 660000) :
    broadcastInDim S660000x1 ![0] bcast_S660000_S660000x1_0 y (ix2 e (0 : Fin 1)) = y (ix1 e) :=
  broadcastInDim_apply _ bcast_S660000_S660000x1_0 y (ix2 e (0 : Fin 1)) (ix1 e) (fun a => match a with
    | ⟨0, _⟩ => by show e.val = if (660000 : Nat) = 1 then 0 else e.val; rw [if_neg (by decide)])
theorem col640 (y : (⟨S640000, .i32⟩ : BufTy).Contents (Elt Ideal)) (e : Fin 640000) :
    broadcastInDim S640000x1 ![0] bcast_S640000_S640000x1_0 y (ix2 e (0 : Fin 1)) = y (ix1 e) :=
  broadcastInDim_apply _ bcast_S640000_S640000x1_0 y (ix2 e (0 : Fin 1)) (ix1 e) (fun a => match a with
    | ⟨0, _⟩ => by show e.val = if (640000 : Nat) = 1 then 0 else e.val; rw [if_neg (by decide)])
theorem col20000 (y : (⟨S20000, .i32⟩ : BufTy).Contents (Elt Ideal)) (v : Fin 20000) :
    broadcastInDim S20000x1 ![0] bcast_S20000_S20000x1_0 y (ix2 v (0 : Fin 1)) = y (ix1 v) :=
  broadcastInDim_apply _ bcast_S20000_S20000x1_0 y (ix2 v (0 : Fin 1)) (ix1 v) (fun a => match a with
    | ⟨0, _⟩ => by show v.val = if (20000 : Nat) = 1 then 0 else v.val; rw [if_neg (by decide)])
theorem norm660 (y : (⟨S660000, .i32⟩ : BufTy).Contents (Elt Ideal)) (e : Fin 660000) :
    select (cmpi .slt y (broadcastInDim S660000 ![] bcast_S_S660000 (constantI S_ 32 0#32)))
      (addi y (broadcastInDim S660000 ![] bcast_S_S660000 (constantI S_ 32 20000#32))) y (ix1 e) = normWord (y (ix1 e)) := by
  show Scalar.select (IntOp.cmpi .slt (y (ix1 e)) (broadcastInDim S660000 ![] bcast_S_S660000 (constantI S_ 32 0#32) (ix1 e)))
      (IntOp.addi (y (ix1 e)) (broadcastInDim S660000 ![] bcast_S_S660000 (constantI S_ 32 20000#32) (ix1 e))) (y (ix1 e)) = _
  rw [broadcastInDim_apply _ bcast_S_S660000 (constantI S_ 32 0#32) (ix1 e) ix0 (fun a => a.elim0),
    broadcastInDim_apply _ bcast_S_S660000 (constantI S_ 32 20000#32) (ix1 e) ix0 (fun a => a.elim0)]
  rfl
theorem norm640 (y : (⟨S640000, .i32⟩ : BufTy).Contents (Elt Ideal)) (e : Fin 640000) :
    select (cmpi .slt y (broadcastInDim S640000 ![] bcast_S_S640000 (constantI S_ 32 0#32)))
      (addi y (broadcastInDim S640000 ![] bcast_S_S640000 (constantI S_ 32 20000#32))) y (ix1 e) = normWord (y (ix1 e)) := by
  show Scalar.select (IntOp.cmpi .slt (y (ix1 e)) (broadcastInDim S640000 ![] bcast_S_S640000 (constantI S_ 32 0#32) (ix1 e)))
      (IntOp.addi (y (ix1 e)) (broadcastInDim S640000 ![] bcast_S_S640000 (constantI S_ 32 20000#32) (ix1 e))) (y (ix1 e)) = _
  rw [broadcastInDim_apply _ bcast_S_S640000 (constantI S_ 32 0#32) (ix1 e) ix0 (fun a => a.elim0),
    broadcastInDim_apply _ bcast_S_S640000 (constantI S_ 32 20000#32) (ix1 e) ix0 (fun a => a.elim0)]
  rfl
theorem zeros_at {s : Shape} (hb : S_.BroadcastsInDim s (![] : Fin 0 → Fin s.rank)) (i : s.Idx) :
    broadcastInDim s ![] hb (constant (F := Ideal) S_ .f32 0x00000000#32) i = 0 := by
  rw [broadcastInDim_apply _ hb _ i ix0 (fun a => a.elim0)]
  exact Ideal.ofBits_zero_f32
theorem ones_at {s : Shape} (hb : S_.BroadcastsInDim s (![] : Fin 0 → Fin s.rank)) (i : s.Idx) :
    broadcastInDim s ![] hb (constant (F := Ideal) S_ .f32 0x3F800000#32) i = 1 := by
  rw [broadcastInDim_apply _ hb _ i ix0 (fun a => a.elim0)]
  exact one_word
theorem dinv_form (d : EReal) :
    Scalar.select (FloatOps.cmpf (F := Ideal) (φ := .f32) .ogt d (0 : EReal)) (FloatOps.hostUnary (F := Ideal) .rsqrt (φ := .f32) d) (0 : EReal)
      = dinvOf d := rfl
theorem deg_at (v : Fin 20000) : val_main_v11 (F := Ideal) x1 (ix1 v) = rCnt x1 v + 1 := by
  unfold val_main_v11
  rw [scatterAdd_S20000_S660000_apply _ _ _ v]
  have h9 : val_main_v9 (F := Ideal) (ix1 v) = 0 := zeros_at bcast_S_S20000 _
  have h10 : ∀ e : Fin 660000, val_main_v10 (F := Ideal) x1 (ix2 e (0 : Fin 1)) = val_main_v7 (F := Ideal) x1 (ix1 e) :=
    fun e => col660 _ e
  have h8 : ∀ e : Fin 660000, val_main_v8 (F := Ideal) (ix1 e) = 1 := fun e => ones_at bcast_S_S660000 _
  rw [h9, zero_add]
  simp only [h10, h8]
  rw [sum_split]
  simp only [v7_lo, v7_hi]
  exact congrArg₂ (· + ·) rfl (self_sum v fun _ => 1)
theorem dinv_at (v : Fin 20000) : val_main_v15 (F := Ideal) x1 (ix1 v) = rDinv x1 v := by
  rw [val_main_v15_apply, val_main_v13_apply, val_main_v14_apply, deg_at]
  have h12 : val_main_v12 (F := Ideal) (ix1 v) = 0 := zeros_at bcast_S_S20000 _
  have hc : val_main_call0_v1 (F := Ideal) (ix1 v) = 0 := zeros_at bcast_S_S20000 _
  rw [h12, hc]
  unfold rDinv
  first
    | exact dinv_form _
    | (generalize rCnt x1 v + 1 = d; exact dinv_form d)
abbrev slotSrc (e : Fin 660000) : Fin 20000 := rdWord (val_main_v6 (F := Ideal) x1 (ix1 e))
abbrev slotTgt (e : Fin 660000) : Fin 20000 := rdWord (val_main_v7 (F := Ideal) x1 (ix1 e))
theorem v22_at (e : Fin 660000) : val_main_v22 (F := Ideal) x1 (ix1 e) = rDinv x1 (slotSrc x1 e) := by
  unfold val_main_v22
  have hw : val_main_v21 (F := Ideal) x1 (ix2 e (0 : Fin 1)) = normWord (val_main_v6 (F := Ideal) x1 (ix1 e)) :=
    (col660 _ e).trans (norm660 _ e)
  rw [gather_S20000_S660000_apply _ _ e, hw]
  exact dinv_at x1 (rdWord _)
theorem v29_at (e : Fin 660000) : val_main_v29 (F := Ideal) x1 (ix1 e) = rDinv x1 (slotTgt x1 e) := by
  unfold val_main_v29
  have hw : val_main_v28 (F := Ideal) x1 (ix2 e (0 : Fin 1)) = normWord (val_main_v7 (F := Ideal) x1 (ix1 e)) :=
    (col660 _ e).trans (norm660 _ e)
  rw [gather_S20000_S660000_apply _ _ e, hw]
  exact dinv_at x1 (rdWord _)
theorem h_at (v : Fin 20000) (q : Fin 128) : val_main_v4 (F := Ideal) x0 x3 (ix2 v q) = rH x0 x3 v q := by
  rw [val_main_v4_apply]
  unfold rH dotAt
  refine Finset.sum_congr rfl fun k _ => ?_
  refine congrArg₂ (· * ·) (congrArg x0 (funext fun a => ?_)) (congrArg x3 (funext fun a => ?_))
  · match a with | ⟨0, _⟩ => rfl | ⟨1, _⟩ => rfl
  · match a with | ⟨0, _⟩ => rfl | ⟨1, _⟩ => rfl
theorem v37_at (e : Fin 660000) (q : Fin 128) :
    val_main_v37 (F := Ideal) x0 x1 x3 (ix2 e q) = rH x0 x3 (slotSrc x1 e) q := by
  unfold val_main_v37
  have hw : val_main_v36 (F := Ideal) x1 (ix2 e (0 : Fin 1)) = normWord (val_main_v6 (F := Ideal) x1 (ix1 e)) :=
    (col660 _ e).trans (norm660 _ e)
  rw [gather_S20000x128_S660000_apply _ _ e q, hw]
  exact h_at x0 x3 (rdWord _) q
theorem v40_at (e : Fin 660000) (q : Fin 128) :
    val_main_v40 (F := Ideal) x0 x1 x3 (ix2 e q)
      = rH x0 x3 (slotSrc x1 e) q * (rDinv x1 (slotSrc x1 e) * rDinv x1 (slotTgt x1 e)) := by
  rw [val_main_v40_apply, v37_at, val_main_v39_apply]
  have h38 : val_main_v38 (F := Ideal) x1 (idx_main_v39 (ix2 e q)) = val_main_v30 (F := Ideal) x1 (ix1 e) := by
    rw [val_main_v38_apply]
    refine congrArg _ (funext fun a => ?_); match a with | ⟨0, _⟩ => rfl
  rw [h38, val_main_v30_apply, v22_at, v29_at]
  rfl
theorem slotSrc_lo (e : Fin 640000) : slotSrc x1 (lo e) = rdWord (src x1 e) := by
  show rdWord _ = rdWord _; rw [v6_lo]; rfl
theorem slotTgt_lo (e : Fin 640000) : slotTgt x1 (lo e) = rdWord (tgt x1 e) := by
  show rdWord _ = rdWord _; rw [v7_lo]; rfl
theorem slotSrc_hi (u : Fin 20000) : slotSrc x1 (hi u) = u := by
  show rdWord _ = _; rw [v6_hi]; exact rdWord_ofNat u
theorem slotTgt_hi (u : Fin 20000) : slotTgt x1 (hi u) = u := by
  show rdWord _ = _; rw [v7_hi]; exact rdWord_ofNat u
theorem v43_at (v : Fin 20000) (q : Fin 128) :
    val_main_v43 (F := Ideal) x0 x1 x3 (ix2 v q)
      = (∑ e : Fin 640000, if tgt x1 e = BitVec.ofNat 32 v.val
            then rH x0 x3 (rdWord (src x1 e)) q * (rDinv x1 (rdWord (src x1 e)) * rDinv x1 (rdWord (tgt x1 e))) else 0)
        + rH x0 x3 v q * (rDinv x1 v * rDinv x1 v) := by
  unfold val_main_v43
  rw [scatterAdd_S20000x128_S660000_apply _ _ _ v q]
  have h41 : val_main_v41 (F := Ideal) (ix2 v q) = 0 := zeros_at bcast_S_S20000x128 _
  have h42 : ∀ e : Fin 660000, val_main_v42 (F := Ideal) x1 (ix2 e (0 : Fin 1)) = val_main_v7 (F := Ideal) x1 (ix1 e) :=
    fun e => col660 _ e
  rw [h41, zero_add]
  simp only [h42, v40_at]
  rw [sum_split]
  simp only [v7_lo, v7_hi, slotSrc_lo, slotTgt_lo, slotSrc_hi, slotTgt_hi]
  exact congrArg₂ (· + ·) rfl (self_sum v fun u => rH x0 x3 u q * (rDinv x1 u * rDinv x1 u))
theorem bias128_at (b : (⟨S128, .f32⟩ : BufTy).Contents (Elt Ideal)) (v : Fin 20000) (q : Fin 128) :
    broadcastInDim S20000x128 ![0, 1] bcast_S1x128_S20000x128_0_1 (broadcastInDim S1x128 ![1] bcast_S128_S1x128_1 b) (ix2 v q) = b (ix1 q) := by
  rw [broadcastInDim_apply _ bcast_S1x128_S20000x128_0_1 _ (ix2 v q) (ix2 (0 : Fin 1) q) (fun a => match a with
    | ⟨0, _⟩ => by show 0 = if (1 : Nat) = 1 then 0 else v.val; rw [if_pos rfl]
    | ⟨1, _⟩ => by show q.val = if (128 : Nat) = 1 then 0 else q.val; rw [if_neg (by decide)]),
    broadcastInDim_apply _ bcast_S128_S1x128_1 b (ix2 (0 : Fin 1) q) (ix1 q) (fun a => match a with
    | ⟨0, _⟩ => by show q.val = if (128 : Nat) = 1 then 0 else q.val; rw [if_neg (by decide)])]
theorem gcn_at (v : Fin 20000) (q : Fin 128) :
    val_main_v47 (F := Ideal) x0 x1 x3 x4 (ix2 v q) = rGcn rdWord x0 x1 x3 x4 v q := by
  rw [val_main_v47_apply, val_main_v46_apply, v43_at]
  have h45 : val_main_v45 (F := Ideal) x4 (ix2 v q) = x4 (ix1 q) := bias128_at x4 v q
  have hz : val_main_call1_v0 (F := Ideal) (ix2 v q) = 0 := zeros_at bcast_S_S20000x128 _
  rw [h45, hz]
  rfl
theorem cnt_at (v : Fin 20000) : val_main_v51 (F := Ideal) x1 (ix1 v) = rCnt x1 v := by
  unfold val_main_v51
  rw [scatterAdd_S20000_S640000_apply _ _ _ v]
  have h49 : val_main_v49 (F := Ideal) (ix1 v) = 0 := zeros_at bcast_S_S20000 _
  have h50 : ∀ e : Fin 640000, val_main_v50 (F := Ideal) x1 (ix2 e (0 : Fin 1)) = x1 (ix2 (1 : Fin 2) e) :=
    fun e => (col640 _ e).trans (tgt_at x1 e)
  have h48 : ∀ e : Fin 640000, val_main_v48 (F := Ideal) (ix1 e) = 1 := fun e => ones_at bcast_S_S640000 _
  rw [h49, zero_add]
  simp only [h50, h48]
  rfl
theorem v58_at (e : Fin 640000) (q : Fin 128) :
    val_main_v58 (F := Ideal) x0 x1 x3 x4 (ix2 e q) = rGcn rdWord x0 x1 x3 x4 (rdWord (src x1 e)) q := by
  unfold val_main_v58
  have hw : val_main_v57 (F := Ideal) x1 (ix2 e (0 : Fin 1)) = normWord (src x1 e) :=
    ((col640 _ e).trans (norm640 _ e)).trans (congrArg normWord (src_at x1 e))
  rw [gather_S20000x128_S640000_apply _ _ e q, hw]
  exact gcn_at x0 x1 x3 x4 (rdWord _) q
theorem v61_at (v : Fin 20000) (q : Fin 128) :
    val_main_v61 (F := Ideal) x0 x1 x3 x4 (ix2 v q)
      = ∑ e : Fin 640000, if tgt x1 e = BitVec.ofNat 32 v.val then rGcn rdWord x0 x1 x3 x4 (rdWord (src x1 e)) q else 0 := by
  unfold val_main_v61
  rw [scatterAdd_S20000x128_S640000_apply _ _ _ v q]
  have h59 : val_main_v59 (F := Ideal) (ix2 v q) = 0 := zeros_at bcast_S_S20000x128 _
  have h60 : ∀ e : Fin 640000, val_main_v60 (F := Ideal) x1 (ix2 e (0 : Fin 1)) = x1 (ix2 (1 : Fin 2) e) :=
    fun e => (col640 _ e).trans (tgt_at x1 e)
  rw [h59, zero_add]
  simp only [h60, v58_at]
  rfl
theorem neigh_at (v : Fin 20000) (q : Fin 128) :
    val_main_v66 (F := Ideal) x0 x1 x3 x4 (ix2 v q) = rNeigh rdWord x0 x1 x3 x4 v q := by
  rw [val_main_v66_apply, v61_at, val_main_v65_apply]
  have h64 : val_main_v64 (F := Ideal) x1 (idx_main_v65 (ix2 v q)) = val_main_v63 (F := Ideal) x1 (ix1 v) := by
    rw [val_main_v64_apply]
    refine congrArg _ (funext fun a => ?_); match a with | ⟨0, _⟩ => rfl
  have h62 : val_main_v62 (F := Ideal) (ix1 v) = 1 := ones_at bcast_S_S20000 _
  rw [h64, val_main_v63_apply, cnt_at, h62]
  rfl
theorem sage_at (v : Fin 20000) (q : Fin 128) :
    val_main_v73 (F := Ideal) x0 x1 x3 x4 x5 x6 x7 (ix2 v q) = rSage rdWord x0 x1 x3 x4 x5 x6 x7 v q := by
  rw [val_main_v73_apply, val_main_v72_apply, val_main_v69_apply, val_main_v67_apply, val_main_v68_apply]
  have h71 : val_main_v71 (F := Ideal) x7 (ix2 v q) = x7 (ix1 q) := bias128_at x7 v q
  have hz : val_main_call2_v0 (F := Ideal) (ix2 v q) = 0 := zeros_at bcast_S_S20000x128 _
  have hl : ∀ k : Fin 128, val_main_v66 (F := Ideal) x0 x1 x3 x4 (lidx_main_v67 (ix2 v q) k) = rNeigh rdWord x0 x1 x3 x4 v k := fun k => by
    rw [← neigh_at]; refine congrArg _ (funext fun a => ?_); match a with | ⟨0, _⟩ => rfl | ⟨1, _⟩ => rfl
  have hr : ∀ k : Fin 128, val_main_v47 (F := Ideal) x0 x1 x3 x4 (lidx_main_v68 (ix2 v q) k) = rGcn rdWord x0 x1 x3 x4 v k := fun k => by
    rw [← gcn_at]; refine congrArg _ (funext fun a => ?_); match a with | ⟨0, _⟩ => rfl | ⟨1, _⟩ => rfl
  have hwl : ∀ k : Fin 128, x5 (ridx_main_v67 (ix2 v q) k) = x5 (ix2 k q) := fun k => by
    refine congrArg x5 (funext fun a => ?_); match a with | ⟨0, _⟩ => rfl | ⟨1, _⟩ => rfl
  have hwr : ∀ k : Fin 128, x6 (ridx_main_v68 (ix2 v q) k) = x6 (ix2 k q) := fun k => by
    refine congrArg x6 (funext fun a => ?_); match a with | ⟨0, _⟩ => rfl | ⟨1, _⟩ => rfl
  simp only [hl, hr, hwl, hwr]
  rw [h71, hz]
  rfl
theorem pooled_at (g : Fin 32) (q : Fin 128) :
    val_main_v76 (F := Ideal) x0 x1 x2 x3 x4 x5 x6 x7 (ix2 g q) = rPooled rdWord x0 x1 x2 x3 x4 x5 x6 x7 g q := by
  unfold val_main_v76
  rw [scatterAdd_S32x128_S20000_apply _ _ _ g q]
  have h74 : val_main_v74 (F := Ideal) (ix2 g q) = 0 := zeros_at bcast_S_S32x128 _
  have h75 : ∀ v : Fin 20000, val_main_v75 (F := Ideal) x2 (ix2 v (0 : Fin 1)) = x2 (ix1 v) := fun v => col20000 _ v
  rw [h74, zero_add]
  simp only [h75, sage_at]
  rfl
theorem bias128_32_at (b : (⟨S128, .f32⟩ : BufTy).Contents (Elt Ideal)) (g : Fin 32) (q : Fin 128) :
    broadcastInDim S32x128 ![0, 1] bcast_S1x128_S32x128_0_1 (broadcastInDim S1x128 ![1] bcast_S128_S1x128_1 b) (ix2 g q) = b (ix1 q) := by
  rw [broadcastInDim_apply _ bcast_S1x128_S32x128_0_1 _ (ix2 g q) (ix2 (0 : Fin 1) q) (fun a => match a with
    | ⟨0, _⟩ => by show 0 = if (1 : Nat) = 1 then 0 else g.val; rw [if_pos rfl]
    | ⟨1, _⟩ => by show q.val = if (128 : Nat) = 1 then 0 else q.val; rw [if_neg (by decide)]),
    broadcastInDim_apply _ bcast_S128_S1x128_1 b (ix2 (0 : Fin 1) q) (ix1 q) (fun a => match a with
    | ⟨0, _⟩ => by show q.val = if (128 : Nat) = 1 then 0 else q.val; rw [if_neg (by decide)])]
theorem hid_at (g : Fin 32) (q : Fin 128) :
    val_main_v81 (F := Ideal) x0 x1 x2 x3 x4 x5 x6 x7 x8 x9 (ix2 g q) = rHid rdWord x0 x1 x2 x3 x4 x5 x6 x7 x8 x9 g q := by
  rw [val_main_v81_apply, val_main_v80_apply, val_main_v77_apply]
  have h79 : val_main_v79 (F := Ideal) x9 (ix2 g q) = x9 (ix1 q) := bias128_32_at x9 g q
  have hz : val_main_call3_v0 (F := Ideal) (ix2 g q) = 0 := zeros_at bcast_S_S32x128 _
  have hl : ∀ k : Fin 128, val_main_v76 (F := Ideal) x0 x1 x2 x3 x4 x5 x6 x7 (lidx_main_v77 (ix2 g q) k) = rPooled rdWord x0 x1 x2 x3 x4 x5 x6 x7 g k := fun k => by
    rw [← pooled_at]; refine congrArg _ (funext fun a => ?_); match a with | ⟨0, _⟩ => rfl | ⟨1, _⟩ => rfl
  have hw : ∀ k : Fin 128, x8 (ridx_main_v77 (ix2 g q) k) = x8 (ix2 k q) := fun k => by
    refine congrArg x8 (funext fun a => ?_); match a with | ⟨0, _⟩ => rfl | ⟨1, _⟩ => rfl
  simp only [hl, hw]
  rw [h79, hz]
  rfl
theorem bias3_at (b : (⟨S3, .f32⟩ : BufTy).Contents (Elt Ideal)) (g : Fin 32) (q : Fin 3) :
    broadcastInDim S32x3 ![0, 1] bcast_S1x3_S32x3_0_1 (broadcastInDim S1x3 ![1] bcast_S3_S1x3_1 b) (ix2 g q) = b (ix1 q) := by
  rw [broadcastInDim_apply _ bcast_S1x3_S32x3_0_1 _ (ix2 g q) (ix2 (0 : Fin 1) q) (fun a => match a with
    | ⟨0, _⟩ => by show 0 = if (1 : Nat) = 1 then 0 else g.val; rw [if_pos rfl]
    | ⟨1, _⟩ => by show q.val = if (3 : Nat) = 1 then 0 else q.val; rw [if_neg (by decide)]),
    broadcastInDim_apply _ bcast_S3_S1x3_1 b (ix2 (0 : Fin 1) q) (ix1 q) (fun a => match a with
    | ⟨0, _⟩ => by show q.val = if (3 : Nat) = 1 then 0 else q.val; rw [if_neg (by decide)])]
theorem out_at (g : Fin 32) (q : Fin 3) :
    val_main_v85 (F := Ideal) x0 x1 x2 x3 x4 x5 x6 x7 x8 x9 x10 x11 (ix2 g q)
      = RefSpec rdWord x0 x1 x2 x3 x4 x5 x6 x7 x8 x9 x10 x11 (ix2 g q) := by
  rw [val_main_v85_apply, val_main_v82_apply]
  have h84 : val_main_v84 (F := Ideal) x11 (ix2 g q) = x11 (ix1 q) := bias3_at x11 g q
  have hl : ∀ k : Fin 128, val_main_v81 (F := Ideal) x0 x1 x2 x3 x4 x5 x6 x7 x8 x9 (lidx_main_v82 (ix2 g q) k) = rHid rdWord x0 x1 x2 x3 x4 x5 x6 x7 x8 x9 g k := fun k => by
    rw [← hid_at]; refine congrArg _ (funext fun a => ?_); match a with | ⟨0, _⟩ => rfl | ⟨1, _⟩ => rfl
  have hw : ∀ k : Fin 128, x10 (ridx_main_v82 (ix2 g q) k) = x10 (ix2 k q) := fun k => by
    refine congrArg x10 (funext fun a => ?_); match a with | ⟨0, _⟩ => rfl | ⟨1, _⟩ => rfl
  simp only [hl, hw]
  rw [h84]
  rfl
end Stages
theorem result_eq (m : (ℓ : Loc nD τ sig) → Buf (Elt Ideal) ℓ) (c : Dev nD) :
    (Cert.ReferenceIdeal.ValueP.res_main_v85 (F := Ideal) m c : S32x3.Idx → EReal)
      = Cert.Spec.RefSpec rdWord (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) := by
  rw [val_main_v85_eq]
  funext j
  obtain ⟨g, q, rfl⟩ : ∃ (g : Fin 32) (q : Fin 3), j = ix2 g q := ⟨j 0, j 1, eq_ix2 j⟩
  exact out_at _ _ _ _ _ _ _ _ _ _ _ _ g q
end Cert.ReferenceIdeal.RefValue
end
-- ==== Proof.PreFacts.lean ====
import proofs.«427224_j39238821216992_2_alg».proof.Pre_finite_inputs
import Idealize.ShloMosaic.Lib.ReduceAll
import Idealize.ShloMosaic.Lib.StableHlo.Predicate
import proofs.«427224_j39238821216992_2_alg».proof.Proof.SpecMain
noncomputable section
namespace Cert.Pre_finite_inputs.Decode
open Idealize.ShloMosaic Idealize.ShloMosaic.ValueIdx
instance : Subsingleton S_.Idx := ⟨fun a b => funext fun d => d.elim0⟩
theorem inf_eq : Ideal.ofBits .f32 0x7F800000#32 = (⊤ : EReal) := by
  simp [Ideal.ofBits, Ideal.ieee]
theorem real_of_abs_lt (x : EReal) (h : Ideal.cmp .olt (max x (-x)) (Ideal.ofBits .f32 0x7F800000#32) = 1#1) :
    ∃ r : ℝ, x = (r : EReal) := by
  rw [inf_eq] at h
  unfold Ideal.cmp at h
  have hlt : max x (-x) < ⊤ := of_decide_eq_true ((StableHlo.Predicate.ofBool_eq_one_iff _).1 h)
  induction x using EReal.rec with
  | bot => simp at hlt
  | coe r => exact ⟨r, rfl⟩
  | top => simp at hlt
theorem all_real {s : Shape} {axes : List (Fin s.rank)} (x : FVec Ideal s .f32)
    (hb : S_.BroadcastsInDim s (![] : Fin 0 → Fin s.rank)) (hr : s.ReducesTo axes S_) (hS : 0 < S_.numel) (init : IVec S_ 1)
    (e : Host.reduce IntOp.andi
        (cmpf .olt (Host.absf x) (broadcastInDim s ![] hb (constant (F := Ideal) S_ .f32 0x7F800000#32))) init hr hS ix0 = 1#1)
    (i : s.Idx) : ∃ r : ℝ, x i = (r : EReal) :=
  real_of_abs_lt (x i) (Host.reduce_andi_all _ init hr hS ix0 e i)
theorem word_in_range (w : BitVec 32) (h0 : IntOp.cmpi .sge w 0#32 = 1#1) (h1 : IntOp.cmpi .slt w 20000#32 = 1#1) :
    ∃ r : Fin 20000, w = BitVec.ofNat 32 r.val := by
  rw [IntOp.cmpi_sge] at h0
  rw [IntOp.cmpi_slt] at h1
  have e0 : (0#32 : BitVec 32).toInt = 0 := by decide
  have e1 : (20000#32 : BitVec 32).toInt = 20000 := by decide
  rw [e0] at h0
  rw [e1] at h1
  have hlt := w.isLt
  have hn : w.toNat < 20000 := by
    rw [BitVec.toInt_eq_toNat_cond] at h0 h1
    split_ifs at h0 h1 <;> omega
  exact ⟨⟨w.toNat, hn⟩, BitVec.eq_of_toNat_eq (by rw [BitVec.toNat_ofNat]; exact (Nat.mod_eq_of_lt w.isLt).symm)⟩
theorem row_read [Facts] (a1 : IVec S2x640000 32) (e : Fin 640000) :
    ∃ i : S640000.Idx,
      shapeCast S640000 (extractStridedSlice S1x640000 ![0, 0] a1 Facts.slices_S2x640000_S1x640000_0_0)
        Facts.shapeCasts_S1x640000_S640000 i = a1 (ix2 (0 : Fin 2) e) := by
  refine ⟨(Shape.reshapeEquiv Facts.shapeCasts_S1x640000_S640000).symm (ix2 (0 : Fin 1) e), ?_⟩
  unfold shapeCast extractStridedSlice
  rw [Equiv.apply_symm_apply]
  refine congrArg a1 (funext fun a => ?_)
  match a with
  | ⟨0, _⟩ => exact Fin.ext (by simp)
  | ⟨1, _⟩ => exact Fin.ext (by simp)
theorem of_pre [Cert.Pre_finite_inputs.Facts] (a0 : FVec Ideal S20000x128 .f32) (a1 : IVec S2x640000 32) (a2 : IVec S20000 32)
    (a3 : FVec Ideal S128x128 .f32) (a4 : FVec Ideal S128 .f32) (a5 : FVec Ideal S128x128 .f32) (a6 : FVec Ideal S128x128 .f32)
    (a7 : FVec Ideal S128 .f32) (a8 : FVec Ideal S128x128 .f32) (a9 : FVec Ideal S128 .f32) (a10 : FVec Ideal S128x3 .f32)
    (a11 : FVec Ideal S3 .f32)
    (h : Cert.Pre_finite_inputs.fn (F := Ideal) a0 a1 a2 a3 a4 a5 a6 a7 a8 a9 a10 a11 = fun _ => 1#1) :
    Cert.Spec.Fin2 a0 ∧ Cert.Spec.Fin2 a3 ∧ Cert.Spec.Fin1 a4 ∧ Cert.Spec.Fin2 a5 ∧ Cert.Spec.Fin2 a6 ∧ Cert.Spec.Fin1 a7
      ∧ Cert.Spec.Fin2 a8 ∧ Cert.Spec.Fin1 a9 ∧ Cert.Spec.Fin2 a10 ∧ Cert.Spec.Fin1 a11 ∧ Cert.Spec.SrcInRange a1 := by
  have e : Cert.Pre_finite_inputs.fn (F := Ideal) a0 a1 a2 a3 a4 a5 a6 a7 a8 a9 a10 a11 ix0 = 1#1 := congrFun h ix0
  dsimp only [fn, fn_part1, fn_part2, fn_part3] at e
  obtain ⟨e, hlt⟩ := IntOp.andi_eq_one.1 e
  obtain ⟨e, hge⟩ := IntOp.andi_eq_one.1 e
  obtain ⟨e, h11⟩ := IntOp.andi_eq_one.1 e
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨h0, h3⟩ := IntOp.andi_eq_one.1 e
  refine ⟨all_real a0 _ _ _ _ h0, all_real a3 _ _ _ _ h3, all_real a4 _ _ _ _ h4, all_real a5 _ _ _ _ h5,
    all_real a6 _ _ _ _ h6, all_real a7 _ _ _ _ h7, all_real a8 _ _ _ _ h8, all_real a9 _ _ _ _ h9,
    all_real a10 _ _ _ _ h10, all_real a11 _ _ _ _ h11, ?_⟩
  intro ed
  obtain ⟨i, hi⟩ := row_read a1 ed
  have g0 := Host.reduce_andi_all _ _ _ _ ix0 hge i
  have g1 := Host.reduce_andi_all _ _ _ _ ix0 hlt i
  rw [← hi]
  exact word_in_range _ g0 g1
end Cert.Pre_finite_inputs.Decode
end
-- ==== Proof.BridgeA.lean ====
import proofs.«427224_j39238821216992_2_alg».proof.Proof.SpecMain
import Mathlib.Data.EReal.Basic
import Mathlib.Algebra.BigOperators.Group.Finset.Basic
noncomputable section
open scoped BigOperators
namespace Cert.Spec
open Idealize.ShloMosaic Idealize.ShloMosaic.ValueIdx
namespace BridgeA
theorem ofNat_inj {a b : Nat} (ha : a < 2 ^ 32) (hb : b < 2 ^ 32) (h : BitVec.ofNat 32 a = BitVec.ofNat 32 b) : a = b := by
  have h' := congrArg BitVec.toNat h
  simp only [BitVec.toNat_ofNat] at h'
  rwa [Nat.mod_eq_of_lt ha, Nat.mod_eq_of_lt hb] at h'
abbrev IsR (a : EReal) : Prop := ∃ r : ℝ, a = (r : EReal)
theorem isR_zero : IsR 0 := ⟨0, rfl⟩
theorem isR_add {a b : EReal} (ha : IsR a) (hb : IsR b) : IsR (a + b) := by
  obtain ⟨r, rfl⟩ := ha; obtain ⟨s, rfl⟩ := hb; exact ⟨r + s, (EReal.coe_add r s).symm⟩
theorem isR_mul {a b : EReal} (ha : IsR a) (hb : IsR b) : IsR (a * b) := by
  obtain ⟨r, rfl⟩ := ha; obtain ⟨s, rfl⟩ := hb; exact ⟨r * s, (EReal.coe_mul r s).symm⟩
theorem isR_ite {c : Prop} [Decidable c] {a : EReal} (ha : IsR a) : IsR (if c then a else 0) := by
  by_cases h : c
  · rw [if_pos h]; exact ha
  · rw [if_neg h]; exact isR_zero
theorem isR_sum {ι : Type*} (s : Finset ι) (f : ι → EReal) (h : ∀ i ∈ s, IsR (f i)) : IsR (∑ i ∈ s, f i) := by
  classical
  induction s using Finset.induction_on with
  | empty => rw [Finset.sum_empty]; exact isR_zero
  | insert a s ha ih =>
    rw [Finset.sum_insert ha]
    exact isR_add (h a (Finset.mem_insert_self a s)) (ih fun i hi => h i (Finset.mem_insert_of_mem hi))
theorem add_mul_real {a b d : EReal} (ha : IsR a) (hb : IsR b) (hd : IsR d) : (a + b) * d = a * d + b * d := by
  obtain ⟨r, rfl⟩ := ha; obtain ⟨s, rfl⟩ := hb; obtain ⟨t, rfl⟩ := hd
  rw [← EReal.coe_add, ← EReal.coe_mul, ← EReal.coe_mul, ← EReal.coe_mul, ← EReal.coe_add, add_mul]
theorem sum_mul_real {ι : Type*} (s : Finset ι) (f : ι → EReal) (d : EReal) (h : ∀ i ∈ s, IsR (f i)) (hd : IsR d) :
    (∑ i ∈ s, f i) * d = ∑ i ∈ s, f i * d := by
  classical
  induction s using Finset.induction_on with
  | empty => rw [Finset.sum_empty, Finset.sum_empty, zero_mul]
  | insert a s ha ih =>
    rw [Finset.sum_insert ha, Finset.sum_insert ha,
      add_mul_real (h a (Finset.mem_insert_self a s)) (isR_sum s f fun i hi => h i (Finset.mem_insert_of_mem hi)) hd,
      ih fun i hi => h i (Finset.mem_insert_of_mem hi)]
theorem sum_ite_one_nat {ι : Type*} (s : Finset ι) (c : ι → Prop) [DecidablePred c] :
    ∃ k : ℕ, (∑ i ∈ s, if c i then (1 : EReal) else 0) = (((k : ℕ) : ℝ) : EReal) := by
  classical
  induction s using Finset.induction_on with
  | empty => exact ⟨0, by rw [Finset.sum_empty, Nat.cast_zero, EReal.coe_zero]⟩
  | insert a s ha ih =>
    obtain ⟨k, hk⟩ := ih
    rw [Finset.sum_insert ha, hk]
    by_cases h : c a
    · exact ⟨k + 1, by rw [if_pos h, Nat.cast_succ, EReal.coe_add, EReal.coe_one, add_comm]⟩
    · exact ⟨k, by rw [if_neg h, zero_add]⟩
theorem dinvOf_pos (r : ℝ) (hr : 0 < r) : dinvOf (r : EReal) = (((Real.sqrt r)⁻¹ : ℝ) : EReal) := by
  have h1 : Ideal.cmp .ogt (r : EReal) 0 = 1#1 := by
    show BitVec.ofBool (decide ((0 : EReal) < (r : EReal))) = 1#1
    rw [decide_eq_true (EReal.coe_pos.mpr hr)]; rfl
  unfold dinvOf
  rw [h1, select_one]
  show (if r < 0 then (⊥ : EReal) else if r = 0 then ⊤ else (((Real.sqrt r)⁻¹ : ℝ) : EReal)) = _
  rw [if_neg (not_lt.mpr hr.le), if_neg hr.ne']
theorem padRows_pad (t : A2 20000 128) (r : Fin 20000) (q : Fin 128) : padRows t (ix2 (pad r) q) = t (ix2 r q) := by
  show (if h : (pad r).val < 20000 then t (ix2 (⟨(pad r).val, h⟩ : Fin 20000) q) else 0) = _
  rw [dif_pos (show (pad r).val < 20000 from r.isLt)]
  rfl
end BridgeA
open BridgeA
theorem gatherAt_ofNat {Np : Nat} (r : Fin Np) (hNp : Np ≤ 2 ^ 32) (col : Fin Np → EReal) :
    gatherAt (BitVec.ofNat 32 r.val) col = col r := by
  unfold gatherAt
  rw [Finset.sum_eq_single r]
  · rw [if_pos rfl]
  · intro n _ hn
    rw [if_neg]
    intro h
    exact hn (Fin.ext (ofNat_inj (lt_of_lt_of_le n.isLt hNp) (lt_of_lt_of_le r.isLt hNp) h.symm))
  · intro h; exact absurd (Finset.mem_univ r) h
theorem kH_eq (x : A2 20000 128) (Wg : A2 128 128) (v : Fin 20000) (q : Fin 128) : kH x Wg (ix2 v q) = rH x Wg v q := by
  show rH x Wg v q + 0 = rH x Wg v q
  rw [add_zero]
theorem kCnt_eq (ei : W2 2 640000) (v : Fin 20000) : kCnt ei (ix2 (pad v) (0 : Fin 1)) = rCnt ei v := rfl
theorem kDinv_eq (ei : W2 2 640000) (v : Fin 20000) : kDinv ei (ix2 (pad v) (0 : Fin 1)) = rDinv ei v := by
  show dinvOf (kCnt ei (ix2 (pad v) (0 : Fin 1)) + 1) = dinvOf (rCnt ei v + 1)
  rw [kCnt_eq]
theorem rDinv_real (ei : W2 2 640000) (v : Fin 20000) : ∃ r : ℝ, rDinv ei v = (r : EReal) := by
  obtain ⟨k, hk⟩ := sum_ite_one_nat (Finset.univ : Finset (Fin 640000)) (fun e => tgt ei e = BitVec.ofNat 32 v.val)
  have hc : rCnt ei v = (((k : ℕ) : ℝ) : EReal) := hk
  have hd : rCnt ei v + 1 = ((((k : ℕ) : ℝ) + 1 : ℝ) : EReal) := by rw [hc, EReal.coe_add, EReal.coe_one]
  refine ⟨(Real.sqrt ((k : ℝ) + 1))⁻¹, ?_⟩
  show dinvOf (rCnt ei v + 1) = _
  rw [hd]
  exact dinvOf_pos _ (by positivity)
theorem rH_real (x : A2 20000 128) (Wg : A2 128 128) (hx : Fin2 x) (hWg : Fin2 Wg) (v : Fin 20000) (q : Fin 128) :
    ∃ r : ℝ, rH x Wg v q = (r : EReal) := by
  show IsR (∑ k : Fin 128, x (ix2 v k) * Wg (ix2 k q))
  exact isR_sum _ _ fun k _ => isR_mul (hx _) (hWg _)
theorem kGcn_eq (rd : BitVec 32 → Fin 20000) (hrd : ∀ r : Fin 20000, rd (BitVec.ofNat 32 r.val) = r)
    (x : A2 20000 128) (ei : W2 2 640000) (Wg : A2 128 128) (bg : A1 128)
    (hx : Fin2 x) (hWg : Fin2 Wg) (hsrc : SrcInRange ei) (v : Fin 20000) (q : Fin 128) :
    kGcn x ei Wg bg (ix2 v q) = rGcn rd x ei Wg bg v q := by
  have hrow : ∀ e : Fin 640000,
      kGRow x ei Wg (ix2 e q) = rH x Wg (rd (src ei e)) q * rDinv ei (rd (src ei e)) := by
    intro e
    obtain ⟨r, hr⟩ := hsrc e
    have hs : src ei e = BitVec.ofNat 32 r.val := hr
    have hrd' : rd (src ei e) = r := by rw [hs]; exact hrd r
    rw [hrd']
    show gatherAt (src ei e) (fun n : Fin 20480 => kG x ei Wg (ix2 n q)) = _
    rw [hs]
    refine (gatherAt_ofNat (pad r) (by norm_num) _).trans ?_
    show padRows (kH x Wg) (ix2 (pad r) q) * kDinv ei (ix2 (pad r) (0 : Fin 1)) = _
    rw [padRows_pad, kH_eq, kDinv_eq]
  have hraw : kRaw x ei Wg (ix2 (pad v) q)
      = ∑ e : Fin 640000, if tgt ei e = BitVec.ofNat 32 v.val
          then rH x Wg (rd (src ei e)) q * rDinv ei (rd (src ei e)) else 0 := by
    show (∑ e : Fin 640000, if tgt ei e = BitVec.ofNat 32 v.val then kGRow x ei Wg (ix2 e q) else 0) = _
    exact Finset.sum_congr rfl fun e _ => by rw [hrow e]
  have hkey : kRaw x ei Wg (ix2 (pad v) q) * kDinv ei (ix2 (pad v) (0 : Fin 1))
      = ∑ e : Fin 640000, if tgt ei e = BitVec.ofNat 32 v.val
          then rH x Wg (rd (src ei e)) q * (rDinv ei (rd (src ei e)) * rDinv ei (rd (tgt ei e))) else 0 := by
    rw [hraw, kDinv_eq,
      sum_mul_real _ _ _ (fun e _ => isR_ite (isR_mul (rH_real x Wg hx hWg _ q) (rDinv_real ei _))) (rDinv_real ei v)]
    refine Finset.sum_congr rfl fun e _ => ?_
    by_cases hc : tgt ei e = BitVec.ofNat 32 v.val
    · rw [if_pos hc, if_pos hc, hc, hrd v, mul_assoc]
    · rw [if_neg hc, if_neg hc, zero_mul]
  show max (((kRaw x ei Wg (ix2 (pad v) q) * kDinv ei (ix2 (pad v) (0 : Fin 1)))
        + kH x Wg (ix2 v q) * (kDinv ei (ix2 (pad v) (0 : Fin 1)) * kDinv ei (ix2 (pad v) (0 : Fin 1))))
       + bg (ix1 q)) 0 = _
  rw [hkey, kH_eq, kDinv_eq]
  rfl
end Cert.Spec
end
-- ==== Proof.BridgeB.lean ====
import proofs.«427224_j39238821216992_2_alg».proof.Proof.SpecMain
import Mathlib.Algebra.BigOperators.Fin
noncomputable section
open scoped BigOperators
namespace Cert.Spec
open Idealize.ShloMosaic Idealize.ShloMosaic.ValueIdx
theorem gatherAt_row {Np : Nat} (r : Fin Np) (hNp : Np ≤ 2 ^ 32) (col : Fin Np → EReal) :
    gatherAt (BitVec.ofNat 32 r.val) col = col r := by
  unfold gatherAt
  rw [Finset.sum_eq_single r]
  · rw [if_pos rfl]
  · intro n _ hn
    rw [if_neg]
    intro h
    apply hn
    have h' := congrArg BitVec.toNat h
    simp only [BitVec.toNat_ofNat] at h'
    have h1 := r.isLt
    have h2 := n.isLt
    rw [Nat.mod_eq_of_lt (by omega), Nat.mod_eq_of_lt (by omega)] at h'
    exact Fin.ext h'.symm
  · intro h
    exact absurd (Finset.mem_univ r) h
theorem sum_lead_rows {m n : Nat} (h : m ≤ n) (f : Fin n → EReal) (hf : ∀ i : Fin n, m ≤ i.val → f i = 0) :
    ∑ i : Fin n, f i = ∑ j : Fin m, f (Fin.castLE h j) := by
  obtain ⟨k, rfl⟩ := Nat.exists_eq_add_of_le h
  rw [Fin.sum_univ_add]
  have h0 : ∑ i : Fin k, f (Fin.natAdd m i) = 0 :=
    Finset.sum_eq_zero (fun i _ => hf _ (by simp))
  rw [h0, add_zero]
  rfl
section Bridge
variable (rd : BitVec 32 → Fin 20000) (hrd : ∀ r : Fin 20000, rd (BitVec.ofNat 32 r.val) = r)
variable (x : A2 20000 128) (ei : W2 2 640000) (bt : W1 20000) (Wg : A2 128 128) (bg : A1 128) (Wl Wr : A2 128 128) (bs : A1 128)
  (Wa : A2 128 128) (ba : A1 128) (Wb : A2 128 3) (bb : A1 3)
theorem padRows_pad (t : A2 20000 128) (v : Fin 20000) (q : Fin 128) : padRows t (ix2 (pad v) q) = t (ix2 v q) := by
  unfold padRows
  rw [dif_pos (show ((ix2 (pad v) q) 0).val < 20000 from v.isLt)]
  rfl
theorem padRows_tail (t : A2 20000 128) (i : Fin 20480) (q : Fin 128) (hi : 20000 ≤ i.val) : padRows t (ix2 i q) = 0 := by
  unfold padRows
  rw [dif_neg (show ¬ ((ix2 i q) 0).val < 20000 from Nat.not_lt.mpr hi)]
include hrd in
theorem kGcnRow_eq (hsrc : SrcInRange ei)
    (hgcn : ∀ v q, kGcn x ei Wg bg (ix2 v q) = rGcn rd x ei Wg bg v q)
    (e : Fin 640000) (q : Fin 128) :
    kGcnRow x ei Wg bg (ix2 e q) = rGcn rd x ei Wg bg (rd (src ei e)) q := by
  obtain ⟨r, hr⟩ := hsrc e
  have hs : src ei e = BitVec.ofNat 32 r.val := hr
  rw [hs, hrd]
  show gatherAt (ei (ix2 (0 : Fin 2) e)) (fun n : Fin 20480 => padRows (kGcn x ei Wg bg) (ix2 n q)) = _
  rw [hr]
  have hg := gatherAt_row (pad r) (by norm_num) (fun n : Fin 20480 => padRows (kGcn x ei Wg bg) (ix2 n q))
  have hv : (pad r).val = r.val := rfl
  rw [hv] at hg
  rw [hg, padRows_pad]
  exact hgcn r q
include hrd in
theorem kNeigh_eq (hsrc : SrcInRange ei)
    (hgcn : ∀ v q, kGcn x ei Wg bg (ix2 v q) = rGcn rd x ei Wg bg v q)
    (hcnt : ∀ v, kCnt ei (ix2 (pad v) (0 : Fin 1)) = rCnt ei v)
    (v : Fin 20000) (q : Fin 128) :
    kNeigh x ei Wg bg (ix2 v q) = rNeigh rd x ei Wg bg v q := by
  show Ideal.div (scatterAt (fun e : Fin 640000 => tgtRow ei (ix2 (0 : Fin 1) e))
        (fun e : Fin 640000 => kGcnRow x ei Wg bg (ix2 e q)) (pad v).val)
      (max (kCnt ei (ix2 (pad v) (0 : Fin 1))) 1) = _
  rw [hcnt]
  unfold rNeigh scatterAt
  refine congrArg (fun s : EReal => Ideal.div s (max (rCnt ei v) 1)) ?_
  apply Finset.sum_congr rfl
  intro e _
  show (if tgt ei e = BitVec.ofNat 32 v.val then kGcnRow x ei Wg bg (ix2 e q) else 0) = _
  rw [kGcnRow_eq rd hrd x ei Wg bg hsrc hgcn e q]
include hrd in
theorem kSage_eq (hsrc : SrcInRange ei)
    (hgcn : ∀ v q, kGcn x ei Wg bg (ix2 v q) = rGcn rd x ei Wg bg v q)
    (hcnt : ∀ v, kCnt ei (ix2 (pad v) (0 : Fin 1)) = rCnt ei v)
    (v : Fin 20000) (q : Fin 128) :
    kSage x ei Wg bg Wl Wr bs (ix2 v q) = rSage rd x ei Wg bg Wl Wr bs v q := by
  show max ((dotAt (fun k : Fin 128 => kNeigh x ei Wg bg (ix2 v k)) (fun k : Fin 128 => Wl (ix2 k q))
      + dotAt (fun k : Fin 128 => kGcn x ei Wg bg (ix2 v k)) (fun k : Fin 128 => Wr (ix2 k q))) + bs (ix1 q)) 0 = _
  rw [show (fun k : Fin 128 => kNeigh x ei Wg bg (ix2 v k)) = fun k : Fin 128 => rNeigh rd x ei Wg bg v k from
        funext fun k => kNeigh_eq rd hrd x ei Wg bg hsrc hgcn hcnt v k,
      show (fun k : Fin 128 => kGcn x ei Wg bg (ix2 v k)) = fun k : Fin 128 => rGcn rd x ei Wg bg v k from
        funext fun k => hgcn v k]
  rfl
include hrd in
theorem kPooled_eq (hsrc : SrcInRange ei)
    (hgcn : ∀ v q, kGcn x ei Wg bg (ix2 v q) = rGcn rd x ei Wg bg v q)
    (hcnt : ∀ v, kCnt ei (ix2 (pad v) (0 : Fin 1)) = rCnt ei v)
    (g : Fin 32) (q : Fin 128) :
    kPooled x ei bt Wg bg Wl Wr bs (ix2 g q) = rPooled rd x ei bt Wg bg Wl Wr bs g q := by
  show scatterAt (fun e : Fin 20480 => kBtRow bt (ix2 (0 : Fin 1) e))
      (fun e : Fin 20480 => padRows (kSage x ei Wg bg Wl Wr bs) (ix2 e q)) g.val = _
  unfold scatterAt rPooled
  rw [sum_lead_rows (m := 20000) (n := 20480) (by norm_num)]
  · apply Finset.sum_congr rfl
    intro v _
    have h1 : kBtRow bt (ix2 (0 : Fin 1) (pad v)) = bt (ix1 v) := by
      unfold kBtRow
      rw [dif_pos (show ((ix2 (0 : Fin 1) (pad v)) 1).val < 20000 from v.isLt)]
      rfl
    show (if kBtRow bt (ix2 (0 : Fin 1) (pad v)) = BitVec.ofNat 32 g.val
        then padRows (kSage x ei Wg bg Wl Wr bs) (ix2 (pad v) q) else 0) = _
    rw [h1, padRows_pad, kSage_eq rd hrd x ei Wg bg Wl Wr bs hsrc hgcn hcnt v q]
  · intro i hi
    show (if kBtRow bt (ix2 (0 : Fin 1) i) = BitVec.ofNat 32 g.val
        then padRows (kSage x ei Wg bg Wl Wr bs) (ix2 i q) else 0) = 0
    rw [padRows_tail _ i q hi, ite_self]
include hrd in
theorem kspec_eq_of (hsrc : SrcInRange ei)
    (hgcn : ∀ v q, kGcn x ei Wg bg (ix2 v q) = rGcn rd x ei Wg bg v q)
    (hcnt : ∀ v, kCnt ei (ix2 (pad v) (0 : Fin 1)) = rCnt ei v) :
    KSpec x ei bt Wg bg Wl Wr bs Wa ba Wb bb = RefSpec rd x ei bt Wg bg Wl Wr bs Wa ba Wb bb := by
  have hh : ∀ (g : Fin 32) (k : Fin 128),
      kHid x ei bt Wg bg Wl Wr bs Wa ba (ix2 g k) = rHid rd x ei bt Wg bg Wl Wr bs Wa ba g k := by
    intro g k
    show max (dotAt (fun k' : Fin 128 => kPooled x ei bt Wg bg Wl Wr bs (ix2 g k')) (fun k' : Fin 128 => Wa (ix2 k' k))
        + ba (ix1 k)) 0 = _
    rw [show (fun k' : Fin 128 => kPooled x ei bt Wg bg Wl Wr bs (ix2 g k'))
          = fun k' : Fin 128 => rPooled rd x ei bt Wg bg Wl Wr bs g k' from
        funext fun k' => kPooled_eq rd hrd x ei bt Wg bg Wl Wr bs hsrc hgcn hcnt g k']
    rfl
  funext j
  show dotAt (fun k : Fin 128 => kHid x ei bt Wg bg Wl Wr bs Wa ba (ix2 (j 0) k)) (fun k : Fin 128 => Wb (ix2 k (j 1)))
      + bb (ix1 (j 1)) = _
  rw [show (fun k : Fin 128 => kHid x ei bt Wg bg Wl Wr bs Wa ba (ix2 (j 0) k))
        = fun k : Fin 128 => rHid rd x ei bt Wg bg Wl Wr bs Wa ba (j 0) k from funext fun k => hh (j 0) k]
  rfl
end Bridge
end Cert.Spec
end
-- ==== Proof.lean ====
import proofs.«427224_j39238821216992_2_alg».proof.Defs
import proofs.«427224_j39238821216992_2_alg».proof.Proof.Gen.Kernel
import proofs.«427224_j39238821216992_2_alg».proof.Proof.Gen.KernelIdeal
import proofs.«427224_j39238821216992_2_alg».proof.Proof.Gen.ReferenceIdeal
import proofs.«427224_j39238821216992_2_alg».proof.Proof.Gen.Pre_finite_inputs
import proofs.«427224_j39238821216992_2_alg».proof.Proof.KB.Run
import proofs.«427224_j39238821216992_2_alg».proof.Proof.KI.Run
import proofs.«427224_j39238821216992_2_alg».proof.Proof.KI.FinalsAll
import proofs.«427224_j39238821216992_2_alg».proof.Proof.KI.ValueA
import proofs.«427224_j39238821216992_2_alg».proof.Proof.KI.ValueB
import proofs.«427224_j39238821216992_2_alg».proof.Proof.RefRun
import proofs.«427224_j39238821216992_2_alg».proof.Proof.RefValue
import proofs.«427224_j39238821216992_2_alg».proof.Proof.PreFacts
import proofs.«427224_j39238821216992_2_alg».proof.Proof.BridgeA
import proofs.«427224_j39238821216992_2_alg».proof.Proof.BridgeB
import Idealize.ShloMosaic.Adequacy
import Idealize.ShloMosaic.Init
noncomputable section
namespace Cert.Proof
open Idealize.ShloMosaic Idealize.ShloMosaic.TcCoe Idealize.SL.Sem
theorem frame_kernel : Cert.frame_Kernel := fun m ρ _ =>
  (θ_run Cert.Kernel.defs _ _).mono (fun r h c => Cert.Kernel.Hand.args_kept m ρ c (h c))
    (Cert.Kernel.Hand.run_all m ρ)
theorem frame_kernelIdeal : Cert.frame_KernelIdeal := fun m ρ _ =>
  (θ_run Cert.KernelIdeal.defs _ _).mono (fun r h c => Cert.KernelIdeal.Hand.args_kept m ρ c (h c))
    (Cert.KernelIdeal.Hand.run_all m ρ)
theorem frame_referenceIdeal : Cert.frame_ReferenceIdeal := fun m ρ _ =>
  (θ_run Cert.ReferenceIdeal.defs _ _).mono (fun _ h c => (h c).2) (Cert.ReferenceIdeal.ValueP.run (F := Ideal) m ρ)
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Hand.Wa32 (F := Ideal) m ρ c Cert.KernelIdeal.main_v54 : Cert.KernelIdeal.S32x3.Idx → EReal)
      = Cert.Spec.KSpec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) :=
  Cert.KernelIdeal.Hand.result_of Cert.KernelIdeal.Hand.finalsAll m ρ c
    (Cert.KernelIdeal.Hand.cnt_eq Cert.KernelIdeal.Hand.finalsAll m ρ c)
    (Cert.KernelIdeal.Hand.gcn_eq Cert.KernelIdeal.Hand.finalsAll m ρ c)
theorem algebraic : Cert.algebraic_KernelIdeal_ReferenceIdeal := by
  intro m ρ m' ρ' hpre hagree
  refine ⟨fun c => Cert.Spec.KSpec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ⟨?_, Cert.KernelIdeal.Hand.args_kept m ρ c (h c)⟩)
      (Cert.KernelIdeal.Hand.run_all m ρ)
    exact (h c _ (Cert.KernelIdeal.Hand.mem_uc Cert.KernelIdeal.main_v54 (by decide))).trans (kernel_result m ρ c)
  · refine (θ_run Cert.ReferenceIdeal.defs _ _).mono (fun r h c => ⟨(h c).1.trans ?_, (h c).2⟩)
      (Cert.ReferenceIdeal.ValueP.run (F := Ideal) m' ρ')
    obtain ⟨hx, hWg, hbg, hWl, hWr, hbs, hWa, hba, hWb, hbb, hsrc⟩ :=
      Cert.Pre_finite_inputs.Decode.of_pre _ _ _ _ _ _ _ _ _ _ _ _ (hpre c)
    obtain ⟨e0, e1, e2, e3, e4, e5, e6, e7, e8, e9, e10, e11⟩ := hagree c
    rw [Cert.ReferenceIdeal.RefValue.result_eq m' c, e0, e1, e2, e3, e4, e5, e6, e7, e8, e9, e10, e11]
    exact (Cert.Spec.kspec_eq_of Cert.ReferenceIdeal.RefValue.rdWord Cert.ReferenceIdeal.RefValue.rdWord_ofNat _ _ _ _ _ _ _ _ _ _ _ _ hsrc
      (Cert.Spec.kGcn_eq Cert.ReferenceIdeal.RefValue.rdWord Cert.ReferenceIdeal.RefValue.rdWord_ofNat _ _ _ _ hx hWg hsrc)
      (Cert.Spec.kCnt_eq _)).symm
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩
end Cert.Proof
end
